-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v147)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v306) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200x8192 : Shape := ⟨2, ![200, 8192]⟩
abbrev S2x3200 : Shape := ⟨2, ![2, 3200]⟩
abbrev S3200 : Shape := ⟨1, ![3200]⟩
abbrev S3x8192x4096 : Shape := ⟨3, ![3, 8192, 4096]⟩
abbrev S4096 : Shape := ⟨1, ![4096]⟩
abbrev S3x4096x4096 : Shape := ⟨3, ![3, 4096, 4096]⟩
abbrev S200x100 : Shape := ⟨2, ![200, 100]⟩
abbrev S100 : Shape := ⟨1, ![100]⟩
abbrev S100x1 : Shape := ⟨2, ![100, 1]⟩
abbrev S1 : Shape := ⟨1, ![1]⟩
abbrev S_ : Shape := ⟨0, ![]⟩

class Facts : Prop where
  bcast_S_S200x8192 : S_.BroadcastsInDim S200x8192 (![] : Fin 0 → Fin S200x8192.rank)
  reducesTo_S200x8192_S_d0_1 : S200x8192.ReducesTo [0, 1] S_
  h_S_ : 0 < S_.numel
  bcast_S_S3200 : S_.BroadcastsInDim S3200 (![] : Fin 0 → Fin S3200.rank)
  reducesTo_S3200_S_d0 : S3200.ReducesTo [0] S_
  bcast_S_S3x8192x4096 : S_.BroadcastsInDim S3x8192x4096 (![] : Fin 0 → Fin S3x8192x4096.rank)
  reducesTo_S3x8192x4096_S_d0_1_2 : S3x8192x4096.ReducesTo [0, 1, 2] S_
  bcast_S_S4096 : S_.BroadcastsInDim S4096 (![] : Fin 0 → Fin S4096.rank)
  reducesTo_S4096_S_d0 : S4096.ReducesTo [0] S_
  bcast_S_S3x4096x4096 : S_.BroadcastsInDim S3x4096x4096 (![] : Fin 0 → Fin S3x4096x4096.rank)
  reducesTo_S3x4096x4096_S_d0_1_2 : S3x4096x4096.ReducesTo [0, 1, 2] S_
  bcast_S_S200x100 : S_.BroadcastsInDim S200x100 (![] : Fin 0 → Fin S200x100.rank)
  reducesTo_S200x100_S_d0_1 : S200x100.ReducesTo [0, 1] S_
  bcast_S_S100 : S_.BroadcastsInDim S100 (![] : Fin 0 → Fin S100.rank)
  reducesTo_S100_S_d0 : S100.ReducesTo [0] S_
  bcast_S_S100x1 : S_.BroadcastsInDim S100x1 (![] : Fin 0 → Fin S100x1.rank)
  reducesTo_S100x1_S_d0_1 : S100x1.ReducesTo [0, 1] S_
  bcast_S_S1 : S_.BroadcastsInDim S1 (![] : Fin 0 → Fin S1.rank)
  reducesTo_S1_S_d0 : S1.ReducesTo [0] S_
  bcast_S_S2x3200 : S_.BroadcastsInDim S2x3200 (![] : Fin 0 → Fin S2x3200.rank)
  reducesTo_S2x3200_S_d0_1 : S2x3200.ReducesTo [0, 1] S_

variable [Facts]

def fn_part4 {F : FTy → Type} [FloatOps F] (main_arg3 : IVec S2x3200 32) (main_v66 : IVec S_ 1) (main_c_26 : IVec S_ 32) : IVec S_ 1 :=
  let main_v67 : IVec S2x3200 32 := broadcastInDim S2x3200 ![] bcast_S_S2x3200 main_c_26
  let main_v68 : IVec S2x3200 1 := cmpi .sge main_arg3 main_v67
  let main_c_27 : IVec S_ 1 := constantI S_ 1 1#1
  let main_v69 : IVec S_ 1 := (fun x v => Host.reduce IntOp.andi x v reducesTo_S2x3200_S_d0_1 h_S_) main_v68 main_c_27
  let main_v70 : IVec S_ 1 := andi main_v66 main_v69
  let main_c_28 : IVec S_ 32 := constantI S_ 32 200#32
  let main_v71 : IVec S2x3200 32 := broadcastInDim S2x3200 ![] bcast_S_S2x3200 main_c_28
  let main_v72 : IVec S2x3200 1 := cmpi .slt main_arg3 main_v71
  let main_c_29 : IVec S_ 1 := constantI S_ 1 1#1
  let main_v73 : IVec S_ 1 := (fun x v => Host.reduce IntOp.andi x v reducesTo_S2x3200_S_d0_1 h_S_) main_v72 main_c_29
  let main_v74 : IVec S_ 1 := andi main_v70 main_v73
  main_v74

def fn_part3 {F : FTy → Type} [FloatOps F] (main_arg2 : IVec S2x3200 32) (main_arg3 : IVec S2x3200 32) (main_arg13 : FVec F S1 .f32) (main_v48 : IVec S_ 1) (main_v49 : FVec F S100x1 .f32) (main_v50 : FVec F S100x1 .f32) : IVec S_ 1 :=
  let main_v51 : IVec S100x1 1 := cmpf .olt main_v49 main_v50
  let main_c_19 : IVec S_ 1 := constantI S_ 1 1#1
  let main_v52 : IVec S_ 1 := (fun x v => Host.reduce IntOp.andi x v reducesTo_S100x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_c_22 : IVec S_ 32 := constantI S_ 32 0#32
  let main_v59 : IVec S2x3200 32 := broadcastInDim S2x3200 ![] bcast_S_S2x3200 main_c_22
  let main_v60 : IVec S2x3200 1 := cmpi .sge main_arg2 main_v59
  let main_c_23 : IVec S_ 1 := constantI S_ 1 1#1
  let main_v61 : IVec S_ 1 := (fun x v => Host.reduce IntOp.andi x v reducesTo_S2x3200_S_d0_1 h_S_) main_v60 main_c_23
  let main_v62 : IVec S_ 1 := andi main_v58 main_v61
  let main_c_24 : IVec S_ 32 := constantI S_ 32 200#32
  let main_v63 : IVec S2x3200 32 := broadcastInDim S2x3200 ![] bcast_S_S2x3200 main_c_24
  let main_v64 : IVec S2x3200 1 := cmpi .slt main_arg2 main_v63
  let main_c_25 : IVec S_ 1 := constantI S_ 1 1#1
  let main_v65 : IVec S_ 1 := (fun x v => Host.reduce IntOp.andi x v reducesTo_S2x3200_S_d0_1 h_S_) main_v64 main_c_25
  let main_v66 : IVec S_ 1 := andi main_v62 main_v65
  let main_c_26 : IVec S_ 32 := constantI S_ 32 0#32
  fn_part4 (F := F) main_arg3 main_v66 main_c_26

def fn_part2 {F : FTy → Type} [FloatOps F] (main_arg2 : IVec S2x3200 32) (main_arg3 : IVec S2x3200 32) (main_arg9 : FVec F S4096 .f32) (main_arg10 : FVec F S200x100 .f32) (main_arg11 : FVec F S100 .f32) (main_arg12 : FVec F S100x1 .f32) (main_arg13 : FVec F S1 .f32) (main_v33 : IVec S_ 1) : IVec S_ 1 :=
  let main_v34 : FVec F S4096 .f32 := Host.absf main_arg9
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S200x100 .f32 := Host.absf main_arg10
  let main_cst_14 : FVec F S_ .f32 := constant S_ .f32 0x7F800000#32
  let main_v40 : FVec F S200x100 .f32 := broadcastInDim S200x100 ![] bcast_S_S200x100 main_cst_14
  let main_v41 : IVec S200x100 1 := cmpf .olt main_v39 main_v40
  let main_c_15 : IVec S_ 1 := constantI S_ 1 1#1
  let main_v42 : IVec S_ 1 := (fun x v => Host.reduce IntOp.andi x v reducesTo_S200x100_S_d0_1 h_S_) main_v41 main_c_15
  let main_v43 : IVec S_ 1 := andi main_v38 main_v42
  let main_v44 : FVec F S100 .f32 := Host.absf main_arg11
  let main_cst_16 : FVec F S_ .f32 := constant S_ .f32 0x7F800000#32
  let main_v45 : FVec F S100 .f32 := broadcastInDim S100 ![] bcast_S_S100 main_cst_16
  let main_v46 : IVec S100 1 := cmpf .olt main_v44 main_v45
  let main_c_17 : IVec S_ 1 := constantI S_ 1 1#1
  let main_v47 : IVec S_ 1 := (fun x v => Host.reduce IntOp.andi x v reducesTo_S100_S_d0 h_S_) main_v46 main_c_17
  let main_v48 : IVec S_ 1 := andi main_v43 main_v47
  let main_v49 : FVec F S100x1 .f32 := Host.absf main_arg12
  let main_cst_18 : FVec F S_ .f32 := constant S_ .f32 0x7F800000#32
  let main_v50 : FVec F S100x1 .f32 := broadcastInDim S100x1 ![] bcast_S_S100x1 main_cst_18
  fn_part3 (F := F) main_arg2 main_arg3 main_arg13 main_v48 main_v49 main_v50

def fn_part1 {F : FTy → Type} [FloatOps F] (main_arg2 : IVec S2x3200 32) (main_arg3 : IVec S2x3200 32) (main_arg6 : FVec F S3x8192x4096 .f32) (main_arg7 : FVec F S4096 .f32) (main_arg8 : FVec F S3x4096x4096 .f32) (main_arg9 : FVec F S4096 .f32) (main_arg10 : FVec F S200x100 .f32) (main_arg11 : FVec F S100 .f32) (main_arg12 : FVec F S100x1 .f32) (main_arg13 : FVec F S1 .f32) (main_v13 : IVec S_ 1) (main_v16 : IVec S3200 1) : IVec S_ 1 :=
  let main_c_5 : IVec S_ 1 := constantI S_ 1 1#1
  let main_v17 : IVec S_ 1 := (fun x v => Host.reduce IntOp.andi x v reducesTo_S3200_S_d0 h_S_) main_v16 main_c_5
  let main_v18 : IVec S_ 1 := andi main_v13 main_v17
  let main_v19 : FVec F S3x8192x4096 .f32 := Host.absf main_arg6
  let main_cst_6 : FVec F S_ .f32 := constant S_ .f32 0x7F800000#32
  let main_v20 : FVec F S3x8192x4096 .f32 := broadcastInDim S3x8192x4096 ![] bcast_S_S3x8192x4096 main_cst_6
  let main_v21 : IVec S3x8192x4096 1 := cmpf .olt main_v19 main_v20
  let main_c_7 : IVec S_ 1 := constantI S_ 1 1#1
  let main_v22 : IVec S_ 1 := (fun x v => Host.reduce IntOp.andi x v reducesTo_S3x8192x4096_S_d0_1_2 h_S_) main_v21 main_c_7
  let main_v23 : IVec S_ 1 := andi main_v18 main_v22
  let main_v24 : FVec F S4096 .f32 := Host.absf main_arg7
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S3x4096x4096 .f32 := Host.absf main_arg8
  let main_cst_10 : FVec F S_ .f32 := constant S_ .f32 0x7F800000#32
  let main_v30 : FVec F S3x4096x4096 .f32 := broadcastInDim S3x4096x4096 ![] bcast_S_S3x4096x4096 main_cst_10
  let main_v31 : IVec S3x4096x4096 1 := cmpf .olt main_v29 main_v30
  let main_c_11 : IVec S_ 1 := constantI S_ 1 1#1
  let main_v32 : IVec S_ 1 := (fun x v => Host.reduce IntOp.andi x v reducesTo_S3x4096x4096_S_d0_1_2 h_S_) main_v31 main_c_11
  let main_v33 : IVec S_ 1 := andi main_v28 main_v32
  fn_part2 (F := F) main_arg2 main_arg3 main_arg9 main_arg10 main_arg11 main_arg12 main_arg13 main_v33

def fn {F : FTy → Type} [FloatOps F] (main_arg0 : FVec F S200x8192 .f32) (main_arg1 : FVec F S200x8192 .f32) (main_arg2 : IVec S2x3200 32) (main_arg3 : IVec S2x3200 32) (main_arg4 : FVec F S3200 .f32) (main_arg5 : FVec F S3200 .f32) (main_arg6 : FVec F S3x8192x4096 .f32) (main_arg7 : FVec F S4096 .f32) (main_arg8 : FVec F S3x4096x4096 .f32) (main_arg9 : FVec F S4096 .f32) (main_arg10 : FVec F S200x100 .f32) (main_arg11 : FVec F S100 .f32) (main_arg12 : FVec F S100x1 .f32) (main_arg13 : FVec F S1 .f32) : IVec S_ 1 :=
  let main_v0 : FVec F S200x8192 .f32 := Host.absf main_arg0
  let main_cst : FVec F S_ .f32 := constant S_ .f32 0x7F800000#32
  let main_v1 : FVec F S200x8192 .f32 := broadcastInDim S200x8192 ![] bcast_S_S200x8192 main_cst
  let main_v2 : IVec S200x8192 1 := cmpf .olt main_v0 main_v1
  let main_c : IVec S_ 1 := constantI S_ 1 1#1
  let main_v3 : IVec S_ 1 := (fun x v => Host.reduce IntOp.andi x v reducesTo_S200x8192_S_d0_1 h_S_) main_v2 main_c
  let main_v4 : FVec F S200x8192 .f32 := Host.absf main_arg1
  let main_cst_0 : FVec F S_ .f32 := constant S_ .f32 0x7F800000#32
  let main_v5 : FVec F S200x8192 .f32 := broadcastInDim S200x8192 ![] bcast_S_S200x8192 main_cst_0
  let main_v6 : IVec S200x8192 1 := cmpf .olt main_v4 main_v5
  let main_c_1 : IVec S_ 1 := constantI S_ 1 1#1
  let main_v7 : IVec S_ 1 := (fun x v => Host.reduce IntOp.andi x v reducesTo_S200x8192_S_d0_1 h_S_) main_v6 main_c_1
  let main_v8 : IVec S_ 1 := andi main_v3 main_v7
  let main_v9 : FVec F S3200 .f32 := Host.absf main_arg4
  let main_cst_2 : FVec F S_ .f32 := constant S_ .f32 0x7F800000#32
  let main_v10 : FVec F S3200 .f32 := broadcastInDim S3200 ![] bcast_S_S3200 main_cst_2
  let main_v11 : IVec S3200 1 := cmpf .olt main_v9 main_v10
  let main_c_3 : IVec S_ 1 := constantI S_ 1 1#1
  let main_v12 : IVec S_ 1 := (fun x v => Host.reduce IntOp.andi x v reducesTo_S3200_S_d0 h_S_) main_v11 main_c_3
  let main_v13 : IVec S_ 1 := andi main_v8 main_v12
  let main_v14 : FVec F S3200 .f32 := Host.absf main_arg5
  let main_cst_4 : FVec F S_ .f32 := constant S_ .f32 0x7F800000#32
  let main_v15 : FVec F S3200 .f32 := broadcastInDim S3200 ![] bcast_S_S3200 main_cst_4
  let main_v16 : IVec S3200 1 := cmpf .olt main_v14 main_v15
  fn_part1 (F := F) main_arg2 main_arg3 main_arg6 main_arg7 main_arg8 main_arg9 main_arg10 main_arg11 main_arg12 main_arg13 main_v13 main_v16
-- ==== Kernel.lean ====
abbrev S200x8192 : Shape := ⟨2, ![200, 8192]⟩
abbrev S2x3200 : Shape := ⟨2, ![2, 3200]⟩
abbrev S3200 : Shape := ⟨1, ![3200]⟩
abbrev S3x8192x4096 : Shape := ⟨3, ![3, 8192, 4096]⟩
abbrev S4096 : Shape := ⟨1, ![4096]⟩
abbrev S3x4096x4096 : Shape := ⟨3, ![3, 4096, 4096]⟩
abbrev S200x100 : Shape := ⟨2, ![200, 100]⟩
abbrev S100 : Shape := ⟨1, ![100]⟩
abbrev S100x1 : Shape := ⟨2, ![100, 1]⟩
abbrev S1 : Shape := ⟨1, ![1]⟩
abbrev S1x3200 : Shape := ⟨2, ![1, 3200]⟩
abbrev S_ : Shape := ⟨0, ![]⟩
abbrev S200 : Shape := ⟨1, ![200]⟩
abbrev S3200x1 : Shape := ⟨2, ![3200, 1]⟩
abbrev S200x200 : Shape := ⟨2, ![200, 200]⟩
abbrev S3200x2 : Shape := ⟨2, ![3200, 2]⟩
abbrev S200x24576 : Shape := ⟨2, ![200, 24576]⟩
abbrev S400x24576 : Shape := ⟨2, ![400, 24576]⟩
abbrev S24576x4096 : Shape := ⟨2, ![24576, 4096]⟩
abbrev S1x4096 : Shape := ⟨2, ![1, 4096]⟩
abbrev S400x4096 : Shape := ⟨2, ![400, 4096]⟩
abbrev S400x1024 : Shape := ⟨2, ![400, 1024]⟩
abbrev S1024x2048 : Shape := ⟨2, ![1024, 2048]⟩
abbrev S1x2048 : Shape := ⟨2, ![1, 2048]⟩
abbrev S400x2048 : Shape := ⟨2, ![400, 2048]⟩
abbrev S200x4096 : Shape := ⟨2, ![200, 4096]⟩
abbrev S200x12288 : Shape := ⟨2, ![200, 12288]⟩
abbrev S400x12288 : Shape := ⟨2, ![400, 12288]⟩
abbrev S12288x4096 : Shape := ⟨2, ![12288, 4096]⟩
abbrev S200x2048 : Shape := ⟨2, ![200, 2048]⟩
abbrev S4096x200 : Shape := ⟨2, ![4096, 200]⟩
abbrev S4096x100 : Shape := ⟨2, ![4096, 100]⟩
abbrev S1x100 : Shape := ⟨2, ![1, 100]⟩
abbrev S4096x1 : Shape := ⟨2, ![4096, 1]⟩
abbrev S1x1 : Shape := ⟨2, ![1, 1]⟩

abbrev nBuf : Space → Nat
  | .hbm => 204
  | .vmem => 18
  | .smem => 0
  | _ => 0

abbrev hbmTy0_0 (i : Nat) : BufTy := match i % 128 with
  | 0 => ⟨S200x8192, .f32⟩
  | 1 => ⟨S200x8192, .f32⟩
  | 2 => ⟨S2x3200, .i32⟩
  | 3 => ⟨S2x3200, .i32⟩
  | 4 => ⟨S3200, .f32⟩
  | 5 => ⟨S3200, .f32⟩
  | 6 => ⟨S3x8192x4096, .f32⟩
  | 7 => ⟨S4096, .f32⟩
  | 8 => ⟨S3x4096x4096, .f32⟩
  | 9 => ⟨S4096, .f32⟩
  | 10 => ⟨S200x100, .f32⟩
  | 11 => ⟨S100, .f32⟩
  | 12 => ⟨S100x1, .f32⟩
  | 13 => ⟨S1, .f32⟩
  | 14 => ⟨S1x3200, .i32⟩
  | 15 => ⟨S3200, .i32⟩
  | 16 => ⟨S1x3200, .i32⟩
  | 17 => ⟨S3200, .i32⟩
  | 18 => ⟨S_, .f32⟩
  | 19 => ⟨S200, .f32⟩
  | 20 => ⟨S3200x1, .i32⟩
  | 21 => ⟨S200, .f32⟩
  | 22 => ⟨S_, .f32⟩
  | 23 => ⟨S200, .f32⟩
  | 24 => ⟨S200, .i1⟩
  | 25 => ⟨S_, .f32⟩
  | 26 => ⟨S_, .f32⟩
  | 27 => ⟨S200, .f32⟩
  | 28 => ⟨S200, .f32⟩
  | 29 => ⟨S_, .f32⟩
  | 30 => ⟨S200, .f32⟩
  | 31 => ⟨S200, .i1⟩
  | 32 => ⟨S200, .f32⟩
  | 33 => ⟨S_, .f32⟩
  | 34 => ⟨S_, .f32⟩
  | 35 => ⟨S200, .f32⟩
  | 36 => ⟨S200, .f32⟩
  | 37 => ⟨S_, .i32⟩
  | 38 => ⟨S3200, .i32⟩
  | 39 => ⟨S3200, .i1⟩
  | 40 => ⟨S_, .i32⟩
  | 41 => ⟨S3200, .i32⟩
  | 42 => ⟨S3200, .i32⟩
  | 43 => ⟨S3200, .i32⟩
  | 44 => ⟨S3200x1, .i32⟩
  | 45 => ⟨S3200, .f32⟩
  | 46 => ⟨S3200, .f32⟩
  | 47 => ⟨S_, .i32⟩
  | 48 => ⟨S3200, .i32⟩
  | 49 => ⟨S3200, .i1⟩
  | 50 => ⟨S_, .i32⟩
  | 51 => ⟨S3200, .i32⟩
  | 52 => ⟨S3200, .i32⟩
  | 53 => ⟨S3200, .i32⟩
  | 54 => ⟨S3200x1, .i32⟩
  | 55 => ⟨S3200, .f32⟩
  | 56 => ⟨S3200, .f32⟩
  | 57 => ⟨S_, .f32⟩
  | 58 => ⟨S200x200, .f32⟩
  | 59 => ⟨S3200, .f32⟩
  | 60 => ⟨S_, .i32⟩
  | 61 => ⟨S3200, .i32⟩
  | 62 => ⟨S3200, .i1⟩
  | 63 => ⟨S_, .i32⟩
  | 64 => ⟨S3200, .i32⟩
  | 65 => ⟨S3200, .i32⟩
  | 66 => ⟨S3200, .i32⟩
  | 67 => ⟨S_, .i32⟩
  | 68 => ⟨S3200, .i32⟩
  | 69 => ⟨S3200, .i1⟩
  | 70 => ⟨S_, .i32⟩
  | 71 => ⟨S3200, .i32⟩
  | 72 => ⟨S3200, .i32⟩
  | 73 => ⟨S3200, .i32⟩
  | 74 => ⟨S3200x1, .i32⟩
  | 75 => ⟨S3200x1, .i32⟩
  | 76 => ⟨S3200x2, .i32⟩
  | 77 => ⟨S200x200, .f32⟩
  | 78 => ⟨S1x3200, .i32⟩
  | 79 => ⟨S3200, .i32⟩
  | 80 => ⟨S1x3200, .i32⟩
  | 81 => ⟨S3200, .i32⟩
  | 82 => ⟨S_, .f32⟩
  | 83 => ⟨S200, .f32⟩
  | 84 => ⟨S3200x1, .i32⟩
  | 85 => ⟨S200, .f32⟩
  | 86 => ⟨S_, .f32⟩
  | 87 => ⟨S200, .f32⟩
  | 88 => ⟨S200, .i1⟩
  | 89 => ⟨S_, .f32⟩
  | 90 => ⟨S_, .f32⟩
  | 91 => ⟨S200, .f32⟩
  | 92 => ⟨S200, .f32⟩
  | 93 => ⟨S_, .f32⟩
  | 94 => ⟨S200, .f32⟩
  | 95 => ⟨S200, .i1⟩
  | 96 => ⟨S200, .f32⟩
  | 97 => ⟨S_, .f32⟩
  | 98 => ⟨S_, .f32⟩
  | 99 => ⟨S200, .f32⟩
  | 100 => ⟨S200, .f32⟩
  | 101 => ⟨S_, .i32⟩
  | 102 => ⟨S3200, .i32⟩
  | 103 => ⟨S3200, .i1⟩
  | 104 => ⟨S_, .i32⟩
  | 105 => ⟨S3200, .i32⟩
  | 106 => ⟨S3200, .i32⟩
  | 107 => ⟨S3200, .i32⟩
  | 108 => ⟨S3200x1, .i32⟩
  | 109 => ⟨S3200, .f32⟩
  | 110 => ⟨S3200, .f32⟩
  | 111 => ⟨S_, .i32⟩
  | 112 => ⟨S3200, .i32⟩
  | 113 => ⟨S3200, .i1⟩
  | 114 => ⟨S_, .i32⟩
  | 115 => ⟨S3200, .i32⟩
  | 116 => ⟨S3200, .i32⟩
  | 117 => ⟨S3200, .i32⟩
  | 118 => ⟨S3200x1, .i32⟩
  | 119 => ⟨S3200, .f32⟩
  | 120 => ⟨S3200, .f32⟩
  | 121 => ⟨S_, .f32⟩
  | 122 => ⟨S200x200, .f32⟩
  | 123 => ⟨S3200, .f32⟩
  | 124 => ⟨S_, .i32⟩
  | 125 => ⟨S3200, .i32⟩
  | 126 => ⟨S3200, .i1⟩
  | 127 => ⟨S_, .i32⟩
  | _ => ⟨S200x8192, .f32⟩

abbrev hbmTy0_1 (i : Nat) : BufTy := match i % 128 with
  | 0 => ⟨S3200, .i32⟩
  | 1 => ⟨S3200, .i32⟩
  | 2 => ⟨S3200, .i32⟩
  | 3 => ⟨S_, .i32⟩
  | 4 => ⟨S3200, .i32⟩
  | 5 => ⟨S3200, .i1⟩
  | 6 => ⟨S_, .i32⟩
  | 7 => ⟨S3200, .i32⟩
  | 8 => ⟨S3200, .i32⟩
  | 9 => ⟨S3200, .i32⟩
  | 10 => ⟨S3200x1, .i32⟩
  | 11 => ⟨S3200x1, .i32⟩
  | 12 => ⟨S3200x2, .i32⟩
  | 13 => ⟨S200x200, .f32⟩
  | 14 => ⟨S200x8192, .f32⟩
  | 15 => ⟨S200x8192, .f32⟩
  | 16 => ⟨S_, .f32⟩
  | 17 => ⟨S200x8192, .f32⟩
  | 18 => ⟨S200x8192, .f32⟩
  | 19 => ⟨S200x8192, .f32⟩
  | 20 => ⟨S200x8192, .bf16⟩
  | 21 => ⟨S200x8192, .bf16⟩
  | 22 => ⟨S200x8192, .bf16⟩
  | 23 => ⟨S200x24576, .bf16⟩
  | 24 => ⟨S200x8192, .f32⟩
  | 25 => ⟨S200x8192, .f32⟩
  | 26 => ⟨S_, .f32⟩
  | 27 => ⟨S200x8192, .f32⟩
  | 28 => ⟨S200x8192, .f32⟩
  | 29 => ⟨S200x8192, .f32⟩
  | 30 => ⟨S200x8192, .bf16⟩
  | 31 => ⟨S200x8192, .bf16⟩
  | 32 => ⟨S200x8192, .bf16⟩
  | 33 => ⟨S200x24576, .bf16⟩
  | 34 => ⟨S400x24576, .bf16⟩
  | 35 => ⟨S24576x4096, .f32⟩
  | 36 => ⟨S1x4096, .f32⟩
  | 37 => ⟨S400x4096, .f32⟩
  | 38 => ⟨S200x4096, .f32⟩
  | 39 => ⟨S200x4096, .f32⟩
  | 40 => ⟨S200x4096, .f32⟩
  | 41 => ⟨S200x4096, .f32⟩
  | 42 => ⟨S_, .f32⟩
  | 43 => ⟨S200x4096, .f32⟩
  | 44 => ⟨S200x4096, .f32⟩
  | 45 => ⟨S200x4096, .f32⟩
  | 46 => ⟨S200x4096, .bf16⟩
  | 47 => ⟨S200x4096, .bf16⟩
  | 48 => ⟨S200x4096, .bf16⟩
  | 49 => ⟨S200x12288, .bf16⟩
  | 50 => ⟨S200x4096, .f32⟩
  | 51 => ⟨S200x4096, .f32⟩
  | 52 => ⟨S_, .f32⟩
  | 53 => ⟨S200x4096, .f32⟩
  | 54 => ⟨S200x4096, .f32⟩
  | 55 => ⟨S200x4096, .f32⟩
  | 56 => ⟨S200x4096, .bf16⟩
  | 57 => ⟨S200x4096, .bf16⟩
  | 58 => ⟨S200x4096, .bf16⟩
  | 59 => ⟨S200x12288, .bf16⟩
  | 60 => ⟨S400x12288, .bf16⟩
  | 61 => ⟨S12288x4096, .f32⟩
  | 62 => ⟨S1x4096, .f32⟩
  | 63 => ⟨S200x4096, .f32⟩
  | 64 => ⟨S4096x200, .f32⟩
  | 65 => ⟨S4096x100, .f32⟩
  | 66 => ⟨S1x100, .f32⟩
  | 67 => ⟨S4096x100, .f32⟩
  | 68 => ⟨S4096x100, .f32⟩
  | 69 => ⟨S_, .f32⟩
  | 70 => ⟨S4096x100, .f32⟩
  | 71 => ⟨S4096x100, .f32⟩
  | 72 => ⟨S4096x1, .f32⟩
  | 73 => ⟨S1x1, .f32⟩
  | 74 => ⟨S4096x1, .f32⟩
  | 75 => ⟨S4096x1, .f32⟩
  | _ => ⟨S200x8192, .f32⟩

abbrev hbmTy (i : Nat) : BufTy := match i / 128 with
  | 0 => hbmTy0_0 i
  | 1 => hbmTy0_1 i
  | _ => ⟨S200x8192, .f32⟩

abbrev bufTy : (tb : Table) → Fin (tcTables nBuf tb) → BufTy
  | .hbm, ⟨i, _⟩ => hbmTy i
  | .local _ .vmem, ⟨0, _⟩ => ⟨S400x1024, .bf16⟩
  | .local _ .vmem, ⟨1, _⟩ => ⟨S400x1024, .bf16⟩
  | .local _ .vmem, ⟨2, _⟩ => ⟨S1024x2048, .f32⟩
  | .local _ .vmem, ⟨3, _⟩ => ⟨S1024x2048, .f32⟩
  | .local _ .vmem, ⟨4, _⟩ => ⟨S1x2048, .f32⟩
  | .local _ .vmem, ⟨5, _⟩ => ⟨S1x2048, .f32⟩
  | .local _ .vmem, ⟨6, _⟩ => ⟨S400x2048, .f32⟩
  | .local _ .vmem, ⟨7, _⟩ => ⟨S400x2048, .f32⟩
  | .local _ .vmem, ⟨8, _⟩ => ⟨S400x2048, .f32⟩
  | .local _ .vmem, ⟨9, _⟩ => ⟨S400x1024, .bf16⟩
  | .local _ .vmem, ⟨10, _⟩ => ⟨S400x1024, .bf16⟩
  | .local _ .vmem, ⟨11, _⟩ => ⟨S1024x2048, .f32⟩
  | .local _ .vmem, ⟨12, _⟩ => ⟨S1024x2048, .f32⟩
  | .local _ .vmem, ⟨13, _⟩ => ⟨S1x2048, .f32⟩
  | .local _ .vmem, ⟨14, _⟩ => ⟨S1x2048, .f32⟩
  | .local _ .vmem, ⟨15, _⟩ => ⟨S200x2048, .f32⟩
  | .local _ .vmem, ⟨16, _⟩ => ⟨S200x2048, .f32⟩
  | .local _ .vmem, ⟨17, _⟩ => ⟨S400x2048, .f32⟩
  | _, _ => ⟨S200x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_call1_v0 : Ref sig .tc := ⟨.hbm, 34, rfl⟩
abbrev main_call1_v1 : Ref sig .tc := ⟨.hbm, 35, rfl⟩
abbrev main_v13 : Ref sig .tc := ⟨.hbm, 36, rfl⟩
abbrev main_c : Ref sig .tc := ⟨.hbm, 37, rfl⟩
abbrev main_v14 : Ref sig .tc := ⟨.hbm, 38, rfl⟩
abbrev main_v15 : Ref sig .tc := ⟨.hbm, 39, rfl⟩
abbrev main_c_4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_5 : Ref sig .tc := ⟨.hbm, 47, rfl⟩
abbrev main_v22 : Ref sig .tc := ⟨.hbm, 48, rfl⟩
abbrev main_v23 : Ref sig .tc := ⟨.hbm, 49, rfl⟩
abbrev main_c_6 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_7 : Ref sig .tc := ⟨.hbm, 57, rfl⟩
abbrev main_v30 : Ref sig .tc := ⟨.hbm, 58, rfl⟩
abbrev main_v31 : Ref sig .tc := ⟨.hbm, 59, rfl⟩
abbrev main_c_8 : Ref sig .tc := ⟨.hbm, 60, rfl⟩
abbrev main_v32 : Ref sig .tc := ⟨.hbm, 61, rfl⟩
abbrev main_v33 : Ref sig .tc := ⟨.hbm, 62, rfl⟩
abbrev main_c_9 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_10 : Ref sig .tc := ⟨.hbm, 67, rfl⟩
abbrev main_v37 : Ref sig .tc := ⟨.hbm, 68, rfl⟩
abbrev main_v38 : Ref sig .tc := ⟨.hbm, 69, rfl⟩
abbrev main_c_11 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_12 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_13 : Ref sig .tc := ⟨.hbm, 86, rfl⟩
abbrev main_v53 : Ref sig .tc := ⟨.hbm, 87, rfl⟩
abbrev main_v54 : Ref sig .tc := ⟨.hbm, 88, rfl⟩
abbrev main_cst_14 : Ref sig .tc := ⟨.hbm, 89, rfl⟩
abbrev main_call2_v0 : Ref sig .tc := ⟨.hbm, 90, rfl⟩
abbrev main_call2_v1 : Ref sig .tc := ⟨.hbm, 91, rfl⟩
abbrev main_v55 : Ref sig .tc := ⟨.hbm, 92, rfl⟩
abbrev main_cst_15 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_16 : Ref sig .tc := ⟨.hbm, 97, rfl⟩
abbrev main_call3_v0 : Ref sig .tc := ⟨.hbm, 98, rfl⟩
abbrev main_call3_v1 : Ref sig .tc := ⟨.hbm, 99, rfl⟩
abbrev main_v59 : Ref sig .tc := ⟨.hbm, 100, rfl⟩
abbrev main_c_17 : Ref sig .tc := ⟨.hbm, 101, rfl⟩
abbrev main_v60 : Ref sig .tc := ⟨.hbm, 102, rfl⟩
abbrev main_v61 : Ref sig .tc := ⟨.hbm, 103, rfl⟩
abbrev main_c_18 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_c_19 : Ref sig .tc := ⟨.hbm, 111, rfl⟩
abbrev main_v68 : Ref sig .tc := ⟨.hbm, 112, rfl⟩
abbrev main_v69 : Ref sig .tc := ⟨.hbm, 113, rfl⟩
abbrev main_c_20 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_21 : Ref sig .tc := ⟨.hbm, 121, rfl⟩
abbrev main_v76 : Ref sig .tc := ⟨.hbm, 122, rfl⟩
abbrev main_v77 : Ref sig .tc := ⟨.hbm, 123, rfl⟩
abbrev main_c_22 : Ref sig .tc := ⟨.hbm, 124, rfl⟩
abbrev main_v78 : Ref sig .tc := ⟨.hbm, 125, rfl⟩
abbrev main_v79 : Ref sig .tc := ⟨.hbm, 126, rfl⟩
abbrev main_c_23 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_c_24 : Ref sig .tc := ⟨.hbm, 131, rfl⟩
abbrev main_v83 : Ref sig .tc := ⟨.hbm, 132, rfl⟩
abbrev main_v84 : Ref sig .tc := ⟨.hbm, 133, rfl⟩
abbrev main_c_25 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_26 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_cst_27 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_cst_28 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_cst_29 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_call4_cst : Ref sig .tc := ⟨.hbm, 197, rfl⟩
abbrev main_call4_v0 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![2, 24], ![false, false]⟩

def k0_cond2 (i : grid0.Coords) : BitVec 1 :=
  let arg1 : BitVec 32 := BitVec.ofNat 32 (i 1).val
  let c23_i32 : BitVec 32 := 23#32
  let v14 : BitVec 1 := Scalar.cmpi .eq arg1 c23_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S400x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S400x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 12], ![false, false]⟩

def k1_cond2 (i : grid1.Coords) : BitVec 1 :=
  let arg1 : BitVec 32 := BitVec.ofNat 32 (i 1).val
  let c11_i32 : BitVec 32 := 11#32
  let v14 : BitVec 1 := Scalar.cmpi .eq arg1 c11_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S400x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S200x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  slices_S2x3200_S1x3200_0_0 : S2x3200.Slices ![0, 0] S1x3200
  shapeCasts_S1x3200_S3200 : S1x3200.ShapeCasts S3200
  slices_S2x3200_S1x3200_1_0 : S2x3200.Slices ![1, 0] S1x3200
  bcast_S_S200 : S_.BroadcastsInDim S200 (![] : Fin 0 → Fin S200.rank)
  bcast_S3200_S3200x1_0 : S3200.BroadcastsInDim S3200x1 (![0] : Fin 1 → Fin S3200x1.rank)
  bcast_S_S3200 : S_.BroadcastsInDim S3200 (![] : Fin 0 → Fin S3200.rank)
  bcast_S_S200x200 : S_.BroadcastsInDim S200x200 (![] : Fin 0 → Fin S200x200.rank)
  concatenates_S3200x1_S3200x1_S3200x2_d1 : Shape.Concatenates [S3200x1, S3200x1] S3200x2 1
  bcast_S_S200x8192 : S_.BroadcastsInDim S200x8192 (![] : Fin 0 → Fin S200x8192.rank)
  bitsLt_bf16_f32 : FTy.bits .bf16 < FTy.bits .f32
  concatenates_S200x8192_S200x8192_S200x8192_S200x24576_d1 : Shape.Concatenates [S200x8192, S200x8192, S200x8192] S200x24576 1
  concatenates_S200x24576_S200x24576_S400x24576_d0 : Shape.Concatenates [S200x24576, S200x24576] S400x24576 0
  shapeCasts_S3x8192x4096_S24576x4096 : S3x8192x4096.ShapeCasts S24576x4096
  shapeCasts_S4096_S1x4096 : S4096.ShapeCasts S1x4096
  inb_S400x2048_S400x2048_0_0 : ∀ a, (![0, 0] : Fin 2 → Nat) a + S400x2048.size a ≤ S400x2048.size a
  h_S400x2048 : 0 < S400x2048.numel
  shapeCasts_S400x2048_S400x2048 : S400x2048.ShapeCasts S400x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S400x1024_S400x1024_0_0 : ∀ a, (![0, 0] : Fin 2 → Nat) a + S400x1024.size a ≤ S400x1024.size a
  h_S400x1024 : 0 < S400x1024.numel
  shapeCasts_S400x1024_S400x1024 : S400x1024.ShapeCasts S400x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S400x2048 : S1x2048.Broadcasts S400x2048
  slices_S400x4096_S200x4096_0_0 : S400x4096.Slices ![0, 0] S200x4096
  slices_S400x4096_S200x4096_200_0 : S400x4096.Slices ![200, 0] S200x4096
  bcast_S_S200x4096 : S_.BroadcastsInDim S200x4096 (![] : Fin 0 → Fin S200x4096.rank)
  concatenates_S200x4096_S200x4096_S200x4096_S200x12288_d1 : Shape.Concatenates [S200x4096, S200x4096, S200x4096] S200x12288 1
  concatenates_S200x12288_S200x12288_S400x12288_d0 : Shape.Concatenates [S200x12288, S200x12288] S400x12288 0
  shapeCasts_S3x4096x4096_S12288x4096 : S3x4096x4096.ShapeCasts S12288x4096
  slices_S400x2048_o0_0_S200x2048 : S400x2048.Slices ![0, 0] S200x2048
  slices_S400x2048_o200_0_S200x2048 : S400x2048.Slices ![200, 0] S200x2048
  inb_S200x2048_S200x2048_0_0 : ∀ a, (![0, 0] : Fin 2 → Nat) a + S200x2048.size a ≤ S200x2048.size a
  h_S200x2048 : 0 < S200x2048.numel
  transposes_S200x4096_S4096x200_1_0 : S200x4096.Transposes [1, 0] S4096x200
  bcast_S100_S1x100_1 : S100.BroadcastsInDim S1x100 (![1] : Fin 1 → Fin S1x100.rank)
  bcast_S1x100_S4096x100_0_1 : S1x100.BroadcastsInDim S4096x100 (![0, 1] : Fin 2 → Fin S4096x100.rank)
  bcast_S_S4096x100 : S_.BroadcastsInDim S4096x100 (![] : Fin 0 → Fin S4096x100.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  scatter_S200_S3200x1_S3200_n_0_0_1_wf : ScatterDims.WF S200 S3200x1 S3200 [] [0] [0] 1
  gather_S200_S3200x1_S3200_n_0_n_n_0_1_1_wf : GatherDims.WF S200 S3200x1 S3200 [] [0] [] [0] [] 1 ![1]
  scatter_S200x200_S3200x2_S3200_n_01_01_1_wf : ScatterDims.WF S200x200 S3200x2 S3200 [] [0, 1] [0, 1] 1
  dot_S200x200_S200x8192_S200x8192_1_0_0_1_n_n_wf : DotDims.WF S200x200 S200x8192 S200x8192 [1] [0] [0] [1] [] []
  dot_S400x1024_S1024x2048_S400x2048_1_0_0_1_n_n_wf : DotDims.WF S400x1024 S1024x2048 S400x2048 [1] [0] [0] [1] [] []
  dot_S200x200_S200x4096_S200x4096_1_0_0_1_n_n_wf : DotDims.WF S200x200 S200x4096 S200x4096 [1] [0] [0] [1] [] []
  dot_S4096x200_S200x100_S4096x100_1_0_0_1_n_n_wf : DotDims.WF S4096x200 S200x100 S4096x100 [1] [0] [0] [1] [] []
  dot_S4096x100_S100x1_S4096x1_1_0_0_1_n_n_wf : DotDims.WF S4096x100 S100x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x1024.size a ≤ S400x24576.size a
  hwx0_0 : ∀ i : grid0.Coords, EltTy.bits .bf16 = 32 ∨ (Rect.block (s := S400x24576) S400x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S24576x4096.size a
  hwx0_1 : ∀ i : grid0.Coords, EltTy.bits .f32 = 32 ∨ (Rect.block (s := S24576x4096) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x2048.size a ≤ S400x4096.size a
  hwx0_3 : ∀ i : grid0.Coords, EltTy.bits .f32 = 32 ∨ (Rect.block (s := S400x4096) S400x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x1024.size a ≤ S400x12288.size a
  hwx1_0 : ∀ i : grid1.Coords, EltTy.bits .bf16 = 32 ∨ (Rect.block (s := S400x12288) S400x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S12288x4096.size a
  hwx1_1 : ∀ i : grid1.Coords, EltTy.bits .f32 = 32 ∨ (Rect.block (s := S12288x4096) S1024x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x2048.size a ≤ S200x4096.size a
  hwx1_3 : ∀ i : grid1.Coords, EltTy.bits .f32 = 32 ∨ (Rect.block (s := S200x4096) S200x2048.size (cc1_transform_3 i) (hinb1_3 i)).WholeWords (EltTy.packing .f32)

variable [Facts₀]

def scatter_S200_S3200x1_S3200_n_0_0_1 : ScatterDims S200 S3200x1 S3200 where
  updateWindowDims := []
  insertedWindowDims := [0]
  scatterDimsToOperandDims := [0]
  indexVectorDim := 1
  wf := scatter_S200_S3200x1_S3200_n_0_0_1_wf
def gather_S200_S3200x1_S3200_n_0_n_n_0_1_1 : GatherDims S200 S3200x1 S3200 where
  offsetDims := []
  collapsedSliceDims := [0]
  operandBatchingDims := []
  startIndicesBatchingDims := []
  startIndexMap := [0]
  indexVectorDim := 1
  sliceSizes := ![1]
  wf := gather_S200_S3200x1_S3200_n_0_n_n_0_1_1_wf
def scatter_S200x200_S3200x2_S3200_n_01_01_1 : ScatterDims S200x200 S3200x2 S3200 where
  updateWindowDims := []
  insertedWindowDims := [0, 1]
  scatterDimsToOperandDims := [0, 1]
  indexVectorDim := 1
  wf := scatter_S200x200_S3200x2_S3200_n_01_01_1_wf
def dot_S200x200_S200x8192_S200x8192_1_0_0_1_n_n : DotDims S200x200 S200x8192 S200x8192 where
  lhsContracting := [1]
  rhsContracting := [0]
  lhsNonContracting := [0]
  rhsNonContracting := [1]
  lhsBatch := []
  rhsBatch := []
  wf := dot_S200x200_S200x8192_S200x8192_1_0_0_1_n_n_wf
def dot_S400x1024_S1024x2048_S400x2048_1_0_0_1_n_n : DotDims S400x1024 S1024x2048 S400x2048 where
  lhsContracting := [1]
  rhsContracting := [0]
  lhsNonContracting := [0]
  rhsNonContracting := [1]
  lhsBatch := []
  rhsBatch := []
  wf := dot_S400x1024_S1024x2048_S400x2048_1_0_0_1_n_n_wf
def dot_S200x200_S200x4096_S200x4096_1_0_0_1_n_n : DotDims S200x200 S200x4096 S200x4096 where
  lhsContracting := [1]
  rhsContracting := [0]
  lhsNonContracting := [0]
  rhsNonContracting := [1]
  lhsBatch := []
  rhsBatch := []
  wf := dot_S200x200_S200x4096_S200x4096_1_0_0_1_n_n_wf
def dot_S4096x200_S200x100_S4096x100_1_0_0_1_n_n : DotDims S4096x200 S200x100 S4096x100 where
  lhsContracting := [1]
  rhsContracting := [0]
  lhsNonContracting := [0]
  rhsNonContracting := [1]
  lhsBatch := []
  rhsBatch := []
  wf := dot_S4096x200_S200x100_S4096x100_1_0_0_1_n_n_wf
def dot_S4096x100_S100x1_S4096x1_1_0_0_1_n_n : DotDims S4096x100 S100x1 S4096x1 where
  lhsContracting := [1]
  rhsContracting := [0]
  lhsNonContracting := [0]
  rhsNonContracting := [1]
  lhsBatch := []
  rhsBatch := []
  wf := dot_S4096x100_S100x1_S4096x1_1_0_0_1_n_n_wf

abbrev win0_0 : Pipeline.Window sig grid0 :=
  Pipeline.Window.ofSpec (Memref.whole main_v110) S400x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v111) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v112) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v113) S400x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v134) S400x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v135) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v136) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v137) S200x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S200x8192 : Shape := ⟨2, ![200, 8192]⟩
abbrev S2x3200 : Shape := ⟨2, ![2, 3200]⟩
abbrev S3200 : Shape := ⟨1, ![3200]⟩
abbrev S3x8192x4096 : Shape := ⟨3, ![3, 8192, 4096]⟩
abbrev S4096 : Shape := ⟨1, ![4096]⟩
abbrev S3x4096x4096 : Shape := ⟨3, ![3, 4096, 4096]⟩
abbrev S200x100 : Shape := ⟨2, ![200, 100]⟩
abbrev S100 : Shape := ⟨1, ![100]⟩
abbrev S100x1 : Shape := ⟨2, ![100, 1]⟩
abbrev S1 : Shape := ⟨1, ![1]⟩
abbrev S1x3200 : Shape := ⟨2, ![1, 3200]⟩
abbrev S_ : Shape := ⟨0, ![]⟩
abbrev S200 : Shape := ⟨1, ![200]⟩
abbrev S3200x1 : Shape := ⟨2, ![3200, 1]⟩
abbrev S3200x8192 : Shape := ⟨2, ![3200, 8192]⟩
abbrev S1x8192x4096 : Shape := ⟨3, ![1, 8192, 4096]⟩
abbrev S8192x4096 : Shape := ⟨2, ![8192, 4096]⟩
abbrev S200x4096 : Shape := ⟨2, ![200, 4096]⟩
abbrev S1x4096 : Shape := ⟨2, ![1, 4096]⟩
abbrev S3200x4096 : Shape := ⟨2, ![3200, 4096]⟩
abbrev S1x4096x4096 : Shape := ⟨3, ![1, 4096, 4096]⟩
abbrev S4096x4096 : Shape := ⟨2, ![4096, 4096]⟩
abbrev S4096x200 : Shape := ⟨2, ![4096, 200]⟩
abbrev S4096x100 : Shape := ⟨2, ![4096, 100]⟩
abbrev S1x100 : Shape := ⟨2, ![1, 100]⟩
abbrev S4096x1 : Shape := ⟨2, ![4096, 1]⟩
abbrev S1x1 : Shape := ⟨2, ![1, 1]⟩

abbrev nBuf : Space → Nat
  | .hbm => 411
  | .vmem => 0
  | .smem => 0
  | _ => 0

abbrev hbmTy0_0 (i : Nat) : BufTy := match i % 128 with
  | 0 => ⟨S200x8192, .f32⟩
  | 1 => ⟨S200x8192, .f32⟩
  | 2 => ⟨S2x3200, .i32⟩
  | 3 => ⟨S2x3200, .i32⟩
  | 4 => ⟨S3200, .f32⟩
  | 5 => ⟨S3200, .f32⟩
  | 6 => ⟨S3x8192x4096, .f32⟩
  | 7 => ⟨S4096, .f32⟩
  | 8 => ⟨S3x4096x4096, .f32⟩
  | 9 => ⟨S4096, .f32⟩
  | 10 => ⟨S200x100, .f32⟩
  | 11 => ⟨S100, .f32⟩
  | 12 => ⟨S100x1, .f32⟩
  | 13 => ⟨S1, .f32⟩
  | 14 => ⟨S1x3200, .i32⟩
  | 15 => ⟨S3200, .i32⟩
  | 16 => ⟨S1x3200, .i32⟩
  | 17 => ⟨S3200, .i32⟩
  | 18 => ⟨S_, .f32⟩
  | 19 => ⟨S200, .f32⟩
  | 20 => ⟨S3200x1, .i32⟩
  | 21 => ⟨S200, .f32⟩
  | 22 => ⟨S_, .f32⟩
  | 23 => ⟨S200, .f32⟩
  | 24 => ⟨S200, .i1⟩
  | 25 => ⟨S_, .f32⟩
  | 26 => ⟨S_, .f32⟩
  | 27 => ⟨S200, .f32⟩
  | 28 => ⟨S200, .f32⟩
  | 29 => ⟨S_, .f32⟩
  | 30 => ⟨S200, .f32⟩
  | 31 => ⟨S200, .i1⟩
  | 32 => ⟨S200, .f32⟩
  | 33 => ⟨S_, .f32⟩
  | 34 => ⟨S_, .f32⟩
  | 35 => ⟨S200, .f32⟩
  | 36 => ⟨S200, .f32⟩
  | 37 => ⟨S_, .i32⟩
  | 38 => ⟨S3200, .i32⟩
  | 39 => ⟨S3200, .i1⟩
  | 40 => ⟨S_, .i32⟩
  | 41 => ⟨S3200, .i32⟩
  | 42 => ⟨S3200, .i32⟩
  | 43 => ⟨S3200, .i32⟩
  | 44 => ⟨S3200x1, .i32⟩
  | 45 => ⟨S3200, .f32⟩
  | 46 => ⟨S3200, .f32⟩
  | 47 => ⟨S_, .i32⟩
  | 48 => ⟨S3200, .i32⟩
  | 49 => ⟨S3200, .i1⟩
  | 50 => ⟨S_, .i32⟩
  | 51 => ⟨S3200, .i32⟩
  | 52 => ⟨S3200, .i32⟩
  | 53 => ⟨S3200, .i32⟩
  | 54 => ⟨S3200x1, .i32⟩
  | 55 => ⟨S3200, .f32⟩
  | 56 => ⟨S3200, .f32⟩
  | 57 => ⟨S3200x1, .f32⟩
  | 58 => ⟨S3200x1, .f32⟩
  | 59 => ⟨S_, .i32⟩
  | 60 => ⟨S3200, .i32⟩
  | 61 => ⟨S3200, .i1⟩
  | 62 => ⟨S_, .i32⟩
  | 63 => ⟨S3200, .i32⟩
  | 64 => ⟨S3200, .i32⟩
  | 65 => ⟨S3200, .i32⟩
  | 66 => ⟨S3200x1, .i32⟩
  | 67 => ⟨S3200x8192, .f32⟩
  | 68 => ⟨S3200x8192, .f32⟩
  | 69 => ⟨S3200x8192, .f32⟩
  | 70 => ⟨S_, .f32⟩
  | 71 => ⟨S200x8192, .f32⟩
  | 72 => ⟨S3200x1, .i32⟩
  | 73 => ⟨S200x8192, .f32⟩
  | 74 => ⟨S3200x1, .f32⟩
  | 75 => ⟨S3200x1, .f32⟩
  | 76 => ⟨S_, .i32⟩
  | 77 => ⟨S3200, .i32⟩
  | 78 => ⟨S3200, .i1⟩
  | 79 => ⟨S_, .i32⟩
  | 80 => ⟨S3200, .i32⟩
  | 81 => ⟨S3200, .i32⟩
  | 82 => ⟨S3200, .i32⟩
  | 83 => ⟨S3200x1, .i32⟩
  | 84 => ⟨S3200x8192, .f32⟩
  | 85 => ⟨S3200x8192, .f32⟩
  | 86 => ⟨S3200x8192, .f32⟩
  | 87 => ⟨S_, .f32⟩
  | 88 => ⟨S200x8192, .f32⟩
  | 89 => ⟨S3200x1, .i32⟩
  | 90 => ⟨S200x8192, .f32⟩
  | 91 => ⟨S_, .f32⟩
  | 92 => ⟨S200x8192, .f32⟩
  | 93 => ⟨S200x8192, .f32⟩
  | 94 => ⟨S200x8192, .f32⟩
  | 95 => ⟨S1x8192x4096, .f32⟩
  | 96 => ⟨S8192x4096, .f32⟩
  | 97 => ⟨S200x4096, .f32⟩
  | 98 => ⟨S1x8192x4096, .f32⟩
  | 99 => ⟨S8192x4096, .f32⟩
  | 100 => ⟨S200x4096, .f32⟩
  | 101 => ⟨S200x4096, .f32⟩
  | 102 => ⟨S1x8192x4096, .f32⟩
  | 103 => ⟨S8192x4096, .f32⟩
  | 104 => ⟨S200x4096, .f32⟩
  | 105 => ⟨S200x4096, .f32⟩
  | 106 => ⟨S1x4096, .f32⟩
  | 107 => ⟨S200x4096, .f32⟩
  | 108 => ⟨S200x4096, .f32⟩
  | 109 => ⟨S_, .f32⟩
  | 110 => ⟨S200x4096, .f32⟩
  | 111 => ⟨S200x4096, .f32⟩
  | 112 => ⟨S_, .f32⟩
  | 113 => ⟨S200, .f32⟩
  | 114 => ⟨S3200x1, .i32⟩
  | 115 => ⟨S200, .f32⟩
  | 116 => ⟨S_, .f32⟩
  | 117 => ⟨S200, .f32⟩
  | 118 => ⟨S200, .i1⟩
  | 119 => ⟨S_, .f32⟩
  | 120 => ⟨S_, .f32⟩
  | 121 => ⟨S200, .f32⟩
  | 122 => ⟨S200, .f32⟩
  | 123 => ⟨S_, .f32⟩
  | 124 => ⟨S200, .f32⟩
  | 125 => ⟨S200, .i1⟩
  | 126 => ⟨S200, .f32⟩
  | 127 => ⟨S_, .f32⟩
  | _ => ⟨S200x8192, .f32⟩

abbrev hbmTy0_1 (i : Nat) : BufTy := match i % 128 with
  | 0 => ⟨S_, .f32⟩
  | 1 => ⟨S200, .f32⟩
  | 2 => ⟨S200, .f32⟩
  | 3 => ⟨S_, .i32⟩
  | 4 => ⟨S3200, .i32⟩
  | 5 => ⟨S3200, .i1⟩
  | 6 => ⟨S_, .i32⟩
  | 7 => ⟨S3200, .i32⟩
  | 8 => ⟨S3200, .i32⟩
  | 9 => ⟨S3200, .i32⟩
  | 10 => ⟨S3200x1, .i32⟩
  | 11 => ⟨S3200, .f32⟩
  | 12 => ⟨S3200, .f32⟩
  | 13 => ⟨S_, .i32⟩
  | 14 => ⟨S3200, .i32⟩
  | 15 => ⟨S3200, .i1⟩
  | 16 => ⟨S_, .i32⟩
  | 17 => ⟨S3200, .i32⟩
  | 18 => ⟨S3200, .i32⟩
  | 19 => ⟨S3200, .i32⟩
  | 20 => ⟨S3200x1, .i32⟩
  | 21 => ⟨S3200, .f32⟩
  | 22 => ⟨S3200, .f32⟩
  | 23 => ⟨S3200x1, .f32⟩
  | 24 => ⟨S3200x1, .f32⟩
  | 25 => ⟨S_, .i32⟩
  | 26 => ⟨S3200, .i32⟩
  | 27 => ⟨S3200, .i1⟩
  | 28 => ⟨S_, .i32⟩
  | 29 => ⟨S3200, .i32⟩
  | 30 => ⟨S3200, .i32⟩
  | 31 => ⟨S3200, .i32⟩
  | 32 => ⟨S3200x1, .i32⟩
  | 33 => ⟨S3200x4096, .f32⟩
  | 34 => ⟨S3200x4096, .f32⟩
  | 35 => ⟨S3200x4096, .f32⟩
  | 36 => ⟨S_, .f32⟩
  | 37 => ⟨S200x4096, .f32⟩
  | 38 => ⟨S3200x1, .i32⟩
  | 39 => ⟨S200x4096, .f32⟩
  | 40 => ⟨S3200x1, .f32⟩
  | 41 => ⟨S3200x1, .f32⟩
  | 42 => ⟨S_, .i32⟩
  | 43 => ⟨S3200, .i32⟩
  | 44 => ⟨S3200, .i1⟩
  | 45 => ⟨S_, .i32⟩
  | 46 => ⟨S3200, .i32⟩
  | 47 => ⟨S3200, .i32⟩
  | 48 => ⟨S3200, .i32⟩
  | 49 => ⟨S3200x1, .i32⟩
  | 50 => ⟨S3200x4096, .f32⟩
  | 51 => ⟨S3200x4096, .f32⟩
  | 52 => ⟨S3200x4096, .f32⟩
  | 53 => ⟨S_, .f32⟩
  | 54 => ⟨S200x4096, .f32⟩
  | 55 => ⟨S3200x1, .i32⟩
  | 56 => ⟨S200x4096, .f32⟩
  | 57 => ⟨S_, .f32⟩
  | 58 => ⟨S200x4096, .f32⟩
  | 59 => ⟨S200x4096, .f32⟩
  | 60 => ⟨S200x4096, .f32⟩
  | 61 => ⟨S1x4096x4096, .f32⟩
  | 62 => ⟨S4096x4096, .f32⟩
  | 63 => ⟨S200x4096, .f32⟩
  | 64 => ⟨S1x4096x4096, .f32⟩
  | 65 => ⟨S4096x4096, .f32⟩
  | 66 => ⟨S200x4096, .f32⟩
  | 67 => ⟨S200x4096, .f32⟩
  | 68 => ⟨S1x4096x4096, .f32⟩
  | 69 => ⟨S4096x4096, .f32⟩
  | 70 => ⟨S200x4096, .f32⟩
  | 71 => ⟨S200x4096, .f32⟩
  | 72 => ⟨S1x4096, .f32⟩
  | 73 => ⟨S200x4096, .f32⟩
  | 74 => ⟨S200x4096, .f32⟩
  | 75 => ⟨S_, .f32⟩
  | 76 => ⟨S200x4096, .f32⟩
  | 77 => ⟨S200x4096, .f32⟩
  | 78 => ⟨S1x3200, .i32⟩
  | 79 => ⟨S3200, .i32⟩
  | 80 => ⟨S1x3200, .i32⟩
  | 81 => ⟨S3200, .i32⟩
  | 82 => ⟨S_, .f32⟩
  | 83 => ⟨S200, .f32⟩
  | 84 => ⟨S3200x1, .i32⟩
  | 85 => ⟨S200, .f32⟩
  | 86 => ⟨S_, .f32⟩
  | 87 => ⟨S200, .f32⟩
  | 88 => ⟨S200, .i1⟩
  | 89 => ⟨S_, .f32⟩
  | 90 => ⟨S_, .f32⟩
  | 91 => ⟨S200, .f32⟩
  | 92 => ⟨S200, .f32⟩
  | 93 => ⟨S_, .f32⟩
  | 94 => ⟨S200, .f32⟩
  | 95 => ⟨S200, .i1⟩
  | 96 => ⟨S200, .f32⟩
  | 97 => ⟨S_, .f32⟩
  | 98 => ⟨S_, .f32⟩
  | 99 => ⟨S200, .f32⟩
  | 100 => ⟨S200, .f32⟩
  | 101 => ⟨S_, .i32⟩
  | 102 => ⟨S3200, .i32⟩
  | 103 => ⟨S3200, .i1⟩
  | 104 => ⟨S_, .i32⟩
  | 105 => ⟨S3200, .i32⟩
  | 106 => ⟨S3200, .i32⟩
  | 107 => ⟨S3200, .i32⟩
  | 108 => ⟨S3200x1, .i32⟩
  | 109 => ⟨S3200, .f32⟩
  | 110 => ⟨S3200, .f32⟩
  | 111 => ⟨S_, .i32⟩
  | 112 => ⟨S3200, .i32⟩
  | 113 => ⟨S3200, .i1⟩
  | 114 => ⟨S_, .i32⟩
  | 115 => ⟨S3200, .i32⟩
  | 116 => ⟨S3200, .i32⟩
  | 117 => ⟨S3200, .i32⟩
  | 118 => ⟨S3200x1, .i32⟩
  | 119 => ⟨S3200, .f32⟩
  | 120 => ⟨S3200, .f32⟩
  | 121 => ⟨S3200x1, .f32⟩
  | 122 => ⟨S3200x1, .f32⟩
  | 123 => ⟨S_, .i32⟩
  | 124 => ⟨S3200, .i32⟩
  | 125 => ⟨S3200, .i1⟩
  | 126 => ⟨S_, .i32⟩
  | 127 => ⟨S3200, .i32⟩
  | _ => ⟨S200x8192, .f32⟩

abbrev hbmTy0_2 (i : Nat) : BufTy := match i % 128 with
  | 0 => ⟨S3200, .i32⟩
  | 1 => ⟨S3200, .i32⟩
  | 2 => ⟨S3200x1, .i32⟩
  | 3 => ⟨S3200x8192, .f32⟩
  | 4 => ⟨S3200x8192, .f32⟩
  | 5 => ⟨S3200x8192, .f32⟩
  | 6 => ⟨S_, .f32⟩
  | 7 => ⟨S200x8192, .f32⟩
  | 8 => ⟨S3200x1, .i32⟩
  | 9 => ⟨S200x8192, .f32⟩
  | 10 => ⟨S3200x1, .f32⟩
  | 11 => ⟨S3200x1, .f32⟩
  | 12 => ⟨S_, .i32⟩
  | 13 => ⟨S3200, .i32⟩
  | 14 => ⟨S3200, .i1⟩
  | 15 => ⟨S_, .i32⟩
  | 16 => ⟨S3200, .i32⟩
  | 17 => ⟨S3200, .i32⟩
  | 18 => ⟨S3200, .i32⟩
  | 19 => ⟨S3200x1, .i32⟩
  | 20 => ⟨S3200x8192, .f32⟩
  | 21 => ⟨S3200x8192, .f32⟩
  | 22 => ⟨S3200x8192, .f32⟩
  | 23 => ⟨S_, .f32⟩
  | 24 => ⟨S200x8192, .f32⟩
  | 25 => ⟨S3200x1, .i32⟩
  | 26 => ⟨S200x8192, .f32⟩
  | 27 => ⟨S_, .f32⟩
  | 28 => ⟨S200x8192, .f32⟩
  | 29 => ⟨S200x8192, .f32⟩
  | 30 => ⟨S200x8192, .f32⟩
  | 31 => ⟨S1x8192x4096, .f32⟩
  | 32 => ⟨S8192x4096, .f32⟩
  | 33 => ⟨S200x4096, .f32⟩
  | 34 => ⟨S1x8192x4096, .f32⟩
  | 35 => ⟨S8192x4096, .f32⟩
  | 36 => ⟨S200x4096, .f32⟩
  | 37 => ⟨S200x4096, .f32⟩
  | 38 => ⟨S1x8192x4096, .f32⟩
  | 39 => ⟨S8192x4096, .f32⟩
  | 40 => ⟨S200x4096, .f32⟩
  | 41 => ⟨S200x4096, .f32⟩
  | 42 => ⟨S1x4096, .f32⟩
  | 43 => ⟨S200x4096, .f32⟩
  | 44 => ⟨S200x4096, .f32⟩
  | 45 => ⟨S_, .f32⟩
  | 46 => ⟨S200x4096, .f32⟩
  | 47 => ⟨S200x4096, .f32⟩
  | 48 => ⟨S_, .f32⟩
  | 49 => ⟨S200, .f32⟩
  | 50 => ⟨S3200x1, .i32⟩
  | 51 => ⟨S200, .f32⟩
  | 52 => ⟨S_, .f32⟩
  | 53 => ⟨S200, .f32⟩
  | 54 => ⟨S200, .i1⟩
  | 55 => ⟨S_, .f32⟩
  | 56 => ⟨S_, .f32⟩
  | 57 => ⟨S200, .f32⟩
  | 58 => ⟨S200, .f32⟩
  | 59 => ⟨S_, .f32⟩
  | 60 => ⟨S200, .f32⟩
  | 61 => ⟨S200, .i1⟩
  | 62 => ⟨S200, .f32⟩
  | 63 => ⟨S_, .f32⟩
  | 64 => ⟨S_, .f32⟩
  | 65 => ⟨S200, .f32⟩
  | 66 => ⟨S200, .f32⟩
  | 67 => ⟨S_, .i32⟩
  | 68 => ⟨S3200, .i32⟩
  | 69 => ⟨S3200, .i1⟩
  | 70 => ⟨S_, .i32⟩
  | 71 => ⟨S3200, .i32⟩
  | 72 => ⟨S3200, .i32⟩
  | 73 => ⟨S3200, .i32⟩
  | 74 => ⟨S3200x1, .i32⟩
  | 75 => ⟨S3200, .f32⟩
  | 76 => ⟨S3200, .f32⟩
  | 77 => ⟨S_, .i32⟩
  | 78 => ⟨S3200, .i32⟩
  | 79 => ⟨S3200, .i1⟩
  | 80 => ⟨S_, .i32⟩
  | 81 => ⟨S3200, .i32⟩
  | 82 => ⟨S3200, .i32⟩
  | 83 => ⟨S3200, .i32⟩
  | 84 => ⟨S3200x1, .i32⟩
  | 85 => ⟨S3200, .f32⟩
  | 86 => ⟨S3200, .f32⟩
  | 87 => ⟨S3200x1, .f32⟩
  | 88 => ⟨S3200x1, .f32⟩
  | 89 => ⟨S_, .i32⟩
  | 90 => ⟨S3200, .i32⟩
  | 91 => ⟨S3200, .i1⟩
  | 92 => ⟨S_, .i32⟩
  | 93 => ⟨S3200, .i32⟩
  | 94 => ⟨S3200, .i32⟩
  | 95 => ⟨S3200, .i32⟩
  | 96 => ⟨S3200x1, .i32⟩
  | 97 => ⟨S3200x4096, .f32⟩
  | 98 => ⟨S3200x4096, .f32⟩
  | 99 => ⟨S3200x4096, .f32⟩
  | 100 => ⟨S_, .f32⟩
  | 101 => ⟨S200x4096, .f32⟩
  | 102 => ⟨S3200x1, .i32⟩
  | 103 => ⟨S200x4096, .f32⟩
  | 104 => ⟨S3200x1, .f32⟩
  | 105 => ⟨S3200x1, .f32⟩
  | 106 => ⟨S_, .i32⟩
  | 107 => ⟨S3200, .i32⟩
  | 108 => ⟨S3200, .i1⟩
  | 109 => ⟨S_, .i32⟩
  | 110 => ⟨S3200, .i32⟩
  | 111 => ⟨S3200, .i32⟩
  | 112 => ⟨S3200, .i32⟩
  | 113 => ⟨S3200x1, .i32⟩
  | 114 => ⟨S3200x4096, .f32⟩
  | 115 => ⟨S3200x4096, .f32⟩
  | 116 => ⟨S3200x4096, .f32⟩
  | 117 => ⟨S_, .f32⟩
  | 118 => ⟨S200x4096, .f32⟩
  | 119 => ⟨S3200x1, .i32⟩
  | 120 => ⟨S200x4096, .f32⟩
  | 121 => ⟨S_, .f32⟩
  | 122 => ⟨S200x4096, .f32⟩
  | 123 => ⟨S200x4096, .f32⟩
  | 124 => ⟨S200x4096, .f32⟩
  | 125 => ⟨S1x4096x4096, .f32⟩
  | 126 => ⟨S4096x4096, .f32⟩
  | 127 => ⟨S200x4096, .f32⟩
  | _ => ⟨S200x8192, .f32⟩

abbrev hbmTy0_3 (i : Nat) : BufTy := match i % 128 with
  | 0 => ⟨S1x4096x4096, .f32⟩
  | 1 => ⟨S4096x4096, .f32⟩
  | 2 => ⟨S200x4096, .f32⟩
  | 3 => ⟨S200x4096, .f32⟩
  | 4 => ⟨S1x4096x4096, .f32⟩
  | 5 => ⟨S4096x4096, .f32⟩
  | 6 => ⟨S200x4096, .f32⟩
  | 7 => ⟨S200x4096, .f32⟩
  | 8 => ⟨S1x4096, .f32⟩
  | 9 => ⟨S200x4096, .f32⟩
  | 10 => ⟨S200x4096, .f32⟩
  | 11 => ⟨S_, .f32⟩
  | 12 => ⟨S200x4096, .f32⟩
  | 13 => ⟨S200x4096, .f32⟩
  | 14 => ⟨S200x4096, .f32⟩
  | 15 => ⟨S4096x200, .f32⟩
  | 16 => ⟨S4096x100, .f32⟩
  | 17 => ⟨S1x100, .f32⟩
  | 18 => ⟨S4096x100, .f32⟩
  | 19 => ⟨S4096x100, .f32⟩
  | 20 => ⟨S_, .f32⟩
  | 21 => ⟨S4096x100, .f32⟩
  | 22 => ⟨S4096x100, .f32⟩
  | 23 => ⟨S4096x1, .f32⟩
  | 24 => ⟨S1x1, .f32⟩
  | 25 => ⟨S4096x1, .f32⟩
  | 26 => ⟨S4096x1, .f32⟩
  | _ => ⟨S200x8192, .f32⟩

abbrev hbmTy (i : Nat) : BufTy := match i / 128 with
  | 0 => hbmTy0_0 i
  | 1 => hbmTy0_1 i
  | 2 => hbmTy0_2 i
  | 3 => hbmTy0_3 i
  | _ => ⟨S200x8192, .f32⟩

abbrev bufTy : (tb : Table) → Fin (tcTables nBuf tb) → BufTy
  | .hbm, ⟨i, _⟩ => hbmTy i
  | _, _ => ⟨S200x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_call1_v0 : Ref sig .tc := ⟨.hbm, 34, rfl⟩
abbrev main_call1_v1 : Ref sig .tc := ⟨.hbm, 35, rfl⟩
abbrev main_v13 : Ref sig .tc := ⟨.hbm, 36, rfl⟩
abbrev main_c : Ref sig .tc := ⟨.hbm, 37, rfl⟩
abbrev main_v14 : Ref sig .tc := ⟨.hbm, 38, rfl⟩
abbrev main_v15 : Ref sig .tc := ⟨.hbm, 39, rfl⟩
abbrev main_c_4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_5 : Ref sig .tc := ⟨.hbm, 47, rfl⟩
abbrev main_v22 : Ref sig .tc := ⟨.hbm, 48, rfl⟩
abbrev main_v23 : Ref sig .tc := ⟨.hbm, 49, rfl⟩
abbrev main_c_6 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_7 : Ref sig .tc := ⟨.hbm, 59, rfl⟩
abbrev main_v32 : Ref sig .tc := ⟨.hbm, 60, rfl⟩
abbrev main_v33 : Ref sig .tc := ⟨.hbm, 61, rfl⟩
abbrev main_c_8 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_10 : Ref sig .tc := ⟨.hbm, 76, rfl⟩
abbrev main_v46 : Ref sig .tc := ⟨.hbm, 77, rfl⟩
abbrev main_v47 : Ref sig .tc := ⟨.hbm, 78, rfl⟩
abbrev main_c_11 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_12 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_13 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_call2_cst : Ref sig .tc := ⟨.hbm, 109, rfl⟩
abbrev main_call2_v0 : Ref sig .tc := ⟨.hbm, 110, rfl⟩
abbrev main_v75 : Ref sig .tc := ⟨.hbm, 111, rfl⟩
abbrev main_cst_14 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_15 : Ref sig .tc := ⟨.hbm, 116, rfl⟩
abbrev main_v79 : Ref sig .tc := ⟨.hbm, 117, rfl⟩
abbrev main_v80 : Ref sig .tc := ⟨.hbm, 118, rfl⟩
abbrev main_cst_16 : Ref sig .tc := ⟨.hbm, 119, rfl⟩
abbrev main_call3_v0 : Ref sig .tc := ⟨.hbm, 120, rfl⟩
abbrev main_call3_v1 : Ref sig .tc := ⟨.hbm, 121, rfl⟩
abbrev main_v81 : Ref sig .tc := ⟨.hbm, 122, rfl⟩
abbrev main_cst_17 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_18 : Ref sig .tc := ⟨.hbm, 127, rfl⟩
abbrev main_call4_v0 : Ref sig .tc := ⟨.hbm, 128, rfl⟩
abbrev main_call4_v1 : Ref sig .tc := ⟨.hbm, 129, rfl⟩
abbrev main_v85 : Ref sig .tc := ⟨.hbm, 130, rfl⟩
abbrev main_c_19 : Ref sig .tc := ⟨.hbm, 131, rfl⟩
abbrev main_v86 : Ref sig .tc := ⟨.hbm, 132, rfl⟩
abbrev main_v87 : Ref sig .tc := ⟨.hbm, 133, rfl⟩
abbrev main_c_20 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_c_21 : Ref sig .tc := ⟨.hbm, 141, rfl⟩
abbrev main_v94 : Ref sig .tc := ⟨.hbm, 142, rfl⟩
abbrev main_v95 : Ref sig .tc := ⟨.hbm, 143, rfl⟩
abbrev main_c_22 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_c_23 : Ref sig .tc := ⟨.hbm, 153, rfl⟩
abbrev main_v104 : Ref sig .tc := ⟨.hbm, 154, rfl⟩
abbrev main_v105 : Ref sig .tc := ⟨.hbm, 155, rfl⟩
abbrev main_c_24 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_cst_25 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_c_26 : Ref sig .tc := ⟨.hbm, 170, rfl⟩
abbrev main_v118 : Ref sig .tc := ⟨.hbm, 171, rfl⟩
abbrev main_v119 : Ref sig .tc := ⟨.hbm, 172, rfl⟩
abbrev main_c_27 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_28 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_cst_29 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_call5_cst : Ref sig .tc := ⟨.hbm, 203, rfl⟩
abbrev main_call5_v0 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_cst_30 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_cst_31 : Ref sig .tc := ⟨.hbm, 214, rfl⟩
abbrev main_v155 : Ref sig .tc := ⟨.hbm, 215, rfl⟩
abbrev main_v156 : Ref sig .tc := ⟨.hbm, 216, rfl⟩
abbrev main_cst_32 : Ref sig .tc := ⟨.hbm, 217, rfl⟩
abbrev main_call6_v0 : Ref sig .tc := ⟨.hbm, 218, rfl⟩
abbrev main_call6_v1 : Ref sig .tc := ⟨.hbm, 219, rfl⟩
abbrev main_v157 : Ref sig .tc := ⟨.hbm, 220, rfl⟩
abbrev main_cst_33 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_cst_34 : Ref sig .tc := ⟨.hbm, 225, rfl⟩
abbrev main_call7_v0 : Ref sig .tc := ⟨.hbm, 226, rfl⟩
abbrev main_call7_v1 : Ref sig .tc := ⟨.hbm, 227, rfl⟩
abbrev main_v161 : Ref sig .tc := ⟨.hbm, 228, rfl⟩
abbrev main_c_35 : Ref sig .tc := ⟨.hbm, 229, rfl⟩
abbrev main_v162 : Ref sig .tc := ⟨.hbm, 230, rfl⟩
abbrev main_v163 : Ref sig .tc := ⟨.hbm, 231, rfl⟩
abbrev main_c_36 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_c_37 : Ref sig .tc := ⟨.hbm, 239, rfl⟩
abbrev main_v170 : Ref sig .tc := ⟨.hbm, 240, rfl⟩
abbrev main_v171 : Ref sig .tc := ⟨.hbm, 241, rfl⟩
abbrev main_c_38 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_c_39 : Ref sig .tc := ⟨.hbm, 251, rfl⟩
abbrev main_v180 : Ref sig .tc := ⟨.hbm, 252, rfl⟩
abbrev main_v181 : Ref sig .tc := ⟨.hbm, 253, rfl⟩
abbrev main_c_40 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_cst_41 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_c_42 : Ref sig .tc := ⟨.hbm, 268, rfl⟩
abbrev main_v194 : Ref sig .tc := ⟨.hbm, 269, rfl⟩
abbrev main_v195 : Ref sig .tc := ⟨.hbm, 270, rfl⟩
abbrev main_c_43 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_cst_44 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_cst_45 : Ref sig .tc := ⟨.hbm, 283, rfl⟩
abbrev main_v206 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev main_v218 : Ref sig .tc := ⟨.hbm, 296, rfl⟩
abbrev main_v219 : Ref sig .tc := ⟨.hbm, 297, rfl⟩
abbrev main_v220 : Ref sig .tc := ⟨.hbm, 298, rfl⟩
abbrev main_v221 : Ref sig .tc := ⟨.hbm, 299, rfl⟩
abbrev main_v222 : Ref sig .tc := ⟨.hbm, 300, rfl⟩
abbrev main_call8_cst : Ref sig .tc := ⟨.hbm, 301, rfl⟩
abbrev main_call8_v0 : Ref sig .tc := ⟨.hbm, 302, rfl⟩
abbrev main_v223 : Ref sig .tc := ⟨.hbm, 303, rfl⟩
abbrev main_cst_46 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_cst_47 : Ref sig .tc := ⟨.hbm, 308, rfl⟩
abbrev main_v227 : Ref sig .tc := ⟨.hbm, 309, rfl⟩
abbrev main_v228 : Ref sig .tc := ⟨.hbm, 310, rfl⟩
abbrev main_cst_48 : Ref sig .tc := ⟨.hbm, 311, rfl⟩
abbrev main_call9_v0 : Ref sig .tc := ⟨.hbm, 312, rfl⟩
abbrev main_call9_v1 : Ref sig .tc := ⟨.hbm, 313, rfl⟩
abbrev main_v229 : Ref sig .tc := ⟨.hbm, 314, rfl⟩
abbrev main_cst_49 : Ref sig .tc := ⟨.hbm, 315, rfl⟩
abbrev main_v230 : Ref sig .tc := ⟨.hbm, 316, rfl⟩
abbrev main_v231 : Ref sig .tc := ⟨.hbm, 317, rfl⟩
abbrev main_v232 : Ref sig .tc := ⟨.hbm, 318, rfl⟩
abbrev main_cst_50 : Ref sig .tc := ⟨.hbm, 319, rfl⟩
abbrev main_call10_v0 : Ref sig .tc := ⟨.hbm, 320, rfl⟩
abbrev main_call10_v1 : Ref sig .tc := ⟨.hbm, 321, rfl⟩
abbrev main_v233 : Ref sig .tc := ⟨.hbm, 322, rfl⟩
abbrev main_c_51 : Ref sig .tc := ⟨.hbm, 323, rfl⟩
abbrev main_v234 : Ref sig .tc := ⟨.hbm, 324, rfl⟩
abbrev main_v235 : Ref sig .tc := ⟨.hbm, 325, rfl⟩
abbrev main_c_52 : Ref sig .tc := ⟨.hbm, 326, rfl⟩
abbrev main_v236 : Ref sig .tc := ⟨.hbm, 327, rfl⟩
abbrev main_v237 : Ref sig .tc := ⟨.hbm, 328, rfl⟩
abbrev main_v238 : Ref sig .tc := ⟨.hbm, 329, rfl⟩
abbrev main_v239 : Ref sig .tc := ⟨.hbm, 330, rfl⟩
abbrev main_v240 : Ref sig .tc := ⟨.hbm, 331, rfl⟩
abbrev main_v241 : Ref sig .tc := ⟨.hbm, 332, rfl⟩
abbrev main_c_53 : Ref sig .tc := ⟨.hbm, 333, rfl⟩
abbrev main_v242 : Ref sig .tc := ⟨.hbm, 334, rfl⟩
abbrev main_v243 : Ref sig .tc := ⟨.hbm, 335, rfl⟩
abbrev main_c_54 : Ref sig .tc := ⟨.hbm, 336, rfl⟩
abbrev main_v244 : Ref sig .tc := ⟨.hbm, 337, rfl⟩
abbrev main_v245 : Ref sig .tc := ⟨.hbm, 338, rfl⟩
abbrev main_v246 : Ref sig .tc := ⟨.hbm, 339, rfl⟩
abbrev main_v247 : Ref sig .tc := ⟨.hbm, 340, rfl⟩
abbrev main_v248 : Ref sig .tc := ⟨.hbm, 341, rfl⟩
abbrev main_v249 : Ref sig .tc := ⟨.hbm, 342, rfl⟩
abbrev main_v250 : Ref sig .tc := ⟨.hbm, 343, rfl⟩
abbrev main_v251 : Ref sig .tc := ⟨.hbm, 344, rfl⟩
abbrev main_c_55 : Ref sig .tc := ⟨.hbm, 345, rfl⟩
abbrev main_v252 : Ref sig .tc := ⟨.hbm, 346, rfl⟩
abbrev main_v253 : Ref sig .tc := ⟨.hbm, 347, rfl⟩
abbrev main_c_56 : Ref sig .tc := ⟨.hbm, 348, rfl⟩
abbrev main_v254 : Ref sig .tc := ⟨.hbm, 349, rfl⟩
abbrev main_v255 : Ref sig .tc := ⟨.hbm, 350, rfl⟩
abbrev main_v256 : Ref sig .tc := ⟨.hbm, 351, rfl⟩
abbrev main_v257 : Ref sig .tc := ⟨.hbm, 352, rfl⟩
abbrev main_v258 : Ref sig .tc := ⟨.hbm, 353, rfl⟩
abbrev main_v259 : Ref sig .tc := ⟨.hbm, 354, rfl⟩
abbrev main_v260 : Ref sig .tc := ⟨.hbm, 355, rfl⟩
abbrev main_cst_57 : Ref sig .tc := ⟨.hbm, 356, rfl⟩
abbrev main_v261 : Ref sig .tc := ⟨.hbm, 357, rfl⟩
abbrev main_v262 : Ref sig .tc := ⟨.hbm, 358, rfl⟩
abbrev main_v263 : Ref sig .tc := ⟨.hbm, 359, rfl⟩
abbrev main_v264 : Ref sig .tc := ⟨.hbm, 360, rfl⟩
abbrev main_v265 : Ref sig .tc := ⟨.hbm, 361, rfl⟩
abbrev main_c_58 : Ref sig .tc := ⟨.hbm, 362, rfl⟩
abbrev main_v266 : Ref sig .tc := ⟨.hbm, 363, rfl⟩
abbrev main_v267 : Ref sig .tc := ⟨.hbm, 364, rfl⟩
abbrev main_c_59 : Ref sig .tc := ⟨.hbm, 365, rfl⟩
abbrev main_v268 : Ref sig .tc := ⟨.hbm, 366, rfl⟩
abbrev main_v269 : Ref sig .tc := ⟨.hbm, 367, rfl⟩
abbrev main_v270 : Ref sig .tc := ⟨.hbm, 368, rfl⟩
abbrev main_v271 : Ref sig .tc := ⟨.hbm, 369, rfl⟩
abbrev main_v272 : Ref sig .tc := ⟨.hbm, 370, rfl⟩
abbrev main_v273 : Ref sig .tc := ⟨.hbm, 371, rfl⟩
abbrev main_v274 : Ref sig .tc := ⟨.hbm, 372, rfl⟩
abbrev main_cst_60 : Ref sig .tc := ⟨.hbm, 373, rfl⟩
abbrev main_v275 : Ref sig .tc := ⟨.hbm, 374, rfl⟩
abbrev main_v276 : Ref sig .tc := ⟨.hbm, 375, rfl⟩
abbrev main_v277 : Ref sig .tc := ⟨.hbm, 376, rfl⟩
abbrev main_cst_61 : Ref sig .tc := ⟨.hbm, 377, rfl⟩
abbrev main_v278 : Ref sig .tc := ⟨.hbm, 378, rfl⟩
abbrev main_v279 : Ref sig .tc := ⟨.hbm, 379, rfl⟩
abbrev main_v280 : Ref sig .tc := ⟨.hbm, 380, rfl⟩
abbrev main_v281 : Ref sig .tc := ⟨.hbm, 381, rfl⟩
abbrev main_v282 : Ref sig .tc := ⟨.hbm, 382, rfl⟩
abbrev main_v283 : Ref sig .tc := ⟨.hbm, 383, rfl⟩
abbrev main_v284 : Ref sig .tc := ⟨.hbm, 384, rfl⟩
abbrev main_v285 : Ref sig .tc := ⟨.hbm, 385, rfl⟩
abbrev main_v286 : Ref sig .tc := ⟨.hbm, 386, rfl⟩
abbrev main_v287 : Ref sig .tc := ⟨.hbm, 387, rfl⟩
abbrev main_v288 : Ref sig .tc := ⟨.hbm, 388, rfl⟩
abbrev main_v289 : Ref sig .tc := ⟨.hbm, 389, rfl⟩
abbrev main_v290 : Ref sig .tc := ⟨.hbm, 390, rfl⟩
abbrev main_v291 : Ref sig .tc := ⟨.hbm, 391, rfl⟩
abbrev main_v292 : Ref sig .tc := ⟨.hbm, 392, rfl⟩
abbrev main_v293 : Ref sig .tc := ⟨.hbm, 393, rfl⟩
abbrev main_v294 : Ref sig .tc := ⟨.hbm, 394, rfl⟩
abbrev main_call11_cst : Ref sig .tc := ⟨.hbm, 395, rfl⟩
abbrev main_call11_v0 : Ref sig .tc := ⟨.hbm, 396, rfl⟩
abbrev main_v295 : Ref sig .tc := ⟨.hbm, 397, rfl⟩
abbrev main_v296 : Ref sig .tc := ⟨.hbm, 398, rfl⟩
abbrev main_v297 : Ref sig .tc := ⟨.hbm, 399, rfl⟩
abbrev main_v298 : Ref sig .tc := ⟨.hbm, 400, rfl⟩
abbrev main_v299 : Ref sig .tc := ⟨.hbm, 401, rfl⟩
abbrev main_v300 : Ref sig .tc := ⟨.hbm, 402, rfl⟩
abbrev main_v301 : Ref sig .tc := ⟨.hbm, 403, rfl⟩
abbrev main_call12_cst : Ref sig .tc := ⟨.hbm, 404, rfl⟩
abbrev main_call12_v0 : Ref sig .tc := ⟨.hbm, 405, rfl⟩
abbrev main_v302 : Ref sig .tc := ⟨.hbm, 406, rfl⟩
abbrev main_v303 : Ref sig .tc := ⟨.hbm, 407, rfl⟩
abbrev main_v304 : Ref sig .tc := ⟨.hbm, 408, rfl⟩
abbrev main_v305 : Ref sig .tc := ⟨.hbm, 409, rfl⟩
abbrev main_v306 : Ref sig .tc := ⟨.hbm, 410, rfl⟩

abbrev nD : Nat := 1
abbrev τ : Topo := Topo.v7x

variable {F : FTy → Type} [FloatOps F]

class Facts₀ : Prop where
  slices_S2x3200_S1x3200_0_0 : S2x3200.Slices ![0, 0] S1x3200
  shapeCasts_S1x3200_S3200 : S1x3200.ShapeCasts S3200
  slices_S2x3200_S1x3200_1_0 : S2x3200.Slices ![1, 0] S1x3200
  bcast_S_S200 : S_.BroadcastsInDim S200 (![] : Fin 0 → Fin S200.rank)
  bcast_S3200_S3200x1_0 : S3200.BroadcastsInDim S3200x1 (![0] : Fin 1 → Fin S3200x1.rank)
  bcast_S_S3200 : S_.BroadcastsInDim S3200 (![] : Fin 0 → Fin S3200.rank)
  bcast_S3200x1_S3200x8192_0_1 : S3200x1.BroadcastsInDim S3200x8192 (![0, 1] : Fin 2 → Fin S3200x8192.rank)
  bcast_S_S200x8192 : S_.BroadcastsInDim S200x8192 (![] : Fin 0 → Fin S200x8192.rank)
  slices_S3x8192x4096_S1x8192x4096_0_0_0 : S3x8192x4096.Slices ![0, 0, 0] S1x8192x4096
  shapeCasts_S1x8192x4096_S8192x4096 : S1x8192x4096.ShapeCasts S8192x4096
  slices_S3x8192x4096_S1x8192x4096_1_0_0 : S3x8192x4096.Slices ![1, 0, 0] S1x8192x4096
  slices_S3x8192x4096_S1x8192x4096_2_0_0 : S3x8192x4096.Slices ![2, 0, 0] S1x8192x4096
  bcast_S4096_S1x4096_1 : S4096.BroadcastsInDim S1x4096 (![1] : Fin 1 → Fin S1x4096.rank)
  bcast_S1x4096_S200x4096_0_1 : S1x4096.BroadcastsInDim S200x4096 (![0, 1] : Fin 2 → Fin S200x4096.rank)
  bcast_S_S200x4096 : S_.BroadcastsInDim S200x4096 (![] : Fin 0 → Fin S200x4096.rank)
  bcast_S3200x1_S3200x4096_0_1 : S3200x1.BroadcastsInDim S3200x4096 (![0, 1] : Fin 2 → Fin S3200x4096.rank)
  slices_S3x4096x4096_S1x4096x4096_0_0_0 : S3x4096x4096.Slices ![0, 0, 0] S1x4096x4096
  shapeCasts_S1x4096x4096_S4096x4096 : S1x4096x4096.ShapeCasts S4096x4096
  slices_S3x4096x4096_S1x4096x4096_1_0_0 : S3x4096x4096.Slices ![1, 0, 0] S1x4096x4096
  slices_S3x4096x4096_S1x4096x4096_2_0_0 : S3x4096x4096.Slices ![2, 0, 0] S1x4096x4096
  transposes_S200x4096_S4096x200_1_0 : S200x4096.Transposes [1, 0] S4096x200
  bcast_S100_S1x100_1 : S100.BroadcastsInDim S1x100 (![1] : Fin 1 → Fin S1x100.rank)
  bcast_S1x100_S4096x100_0_1 : S1x100.BroadcastsInDim S4096x100 (![0, 1] : Fin 2 → Fin S4096x100.rank)
  bcast_S_S4096x100 : S_.BroadcastsInDim S4096x100 (![] : Fin 0 → Fin S4096x100.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  scatter_S200_S3200x1_S3200_n_0_0_1_wf : ScatterDims.WF S200 S3200x1 S3200 [] [0] [0] 1
  gather_S200_S3200x1_S3200_n_0_n_n_0_1_1_wf : GatherDims.WF S200 S3200x1 S3200 [] [0] [] [0] [] 1 ![1]
  gather_S200x8192_S3200x1_S3200x8192_1_0_n_n_0_1_18192_wf : GatherDims.WF S200x8192 S3200x1 S3200x8192 [1] [0] [] [0] [] 1 ![1, 8192]
  scatter_S200x8192_S3200x1_S3200x8192_1_0_0_1_wf : ScatterDims.WF S200x8192 S3200x1 S3200x8192 [1] [0] [0] 1
  dot_S200x8192_S8192x4096_S200x4096_1_0_0_1_n_n_wf : DotDims.WF S200x8192 S8192x4096 S200x4096 [1] [0] [0] [1] [] []
  gather_S200x4096_S3200x1_S3200x4096_1_0_n_n_0_1_14096_wf : GatherDims.WF S200x4096 S3200x1 S3200x4096 [1] [0] [] [0] [] 1 ![1, 4096]
  scatter_S200x4096_S3200x1_S3200x4096_1_0_0_1_wf : ScatterDims.WF S200x4096 S3200x1 S3200x4096 [1] [0] [0] 1
  dot_S200x4096_S4096x4096_S200x4096_1_0_0_1_n_n_wf : DotDims.WF S200x4096 S4096x4096 S200x4096 [1] [0] [0] [1] [] []
  dot_S4096x200_S200x100_S4096x100_1_0_0_1_n_n_wf : DotDims.WF S4096x200 S200x100 S4096x100 [1] [0] [0] [1] [] []
  dot_S4096x100_S100x1_S4096x1_1_0_0_1_n_n_wf : DotDims.WF S4096x100 S100x1 S4096x1 [1] [0] [0] [1] [] []

variable [Facts₀]

def scatter_S200_S3200x1_S3200_n_0_0_1 : ScatterDims S200 S3200x1 S3200 where
  updateWindowDims := []
  insertedWindowDims := [0]
  scatterDimsToOperandDims := [0]
  indexVectorDim := 1
  wf := scatter_S200_S3200x1_S3200_n_0_0_1_wf
def gather_S200_S3200x1_S3200_n_0_n_n_0_1_1 : GatherDims S200 S3200x1 S3200 where
  offsetDims := []
  collapsedSliceDims := [0]
  operandBatchingDims := []
  startIndicesBatchingDims := []
  startIndexMap := [0]
  indexVectorDim := 1
  sliceSizes := ![1]
  wf := gather_S200_S3200x1_S3200_n_0_n_n_0_1_1_wf
def gather_S200x8192_S3200x1_S3200x8192_1_0_n_n_0_1_18192 : GatherDims S200x8192 S3200x1 S3200x8192 where
  offsetDims := [1]
  collapsedSliceDims := [0]
  operandBatchingDims := []
  startIndicesBatchingDims := []
  startIndexMap := [0]
  indexVectorDim := 1
  sliceSizes := ![1, 8192]
  wf := gather_S200x8192_S3200x1_S3200x8192_1_0_n_n_0_1_18192_wf
def scatter_S200x8192_S3200x1_S3200x8192_1_0_0_1 : ScatterDims S200x8192 S3200x1 S3200x8192 where
  updateWindowDims := [1]
  insertedWindowDims := [0]
  scatterDimsToOperandDims := [0]
  indexVectorDim := 1
  wf := scatter_S200x8192_S3200x1_S3200x8192_1_0_0_1_wf
def dot_S200x8192_S8192x4096_S200x4096_1_0_0_1_n_n : DotDims S200x8192 S8192x4096 S200x4096 where
  lhsContracting := [1]
  rhsContracting := [0]
  lhsNonContracting := [0]
  rhsNonContracting := [1]
  lhsBatch := []
  rhsBatch := []
  wf := dot_S200x8192_S8192x4096_S200x4096_1_0_0_1_n_n_wf
def gather_S200x4096_S3200x1_S3200x4096_1_0_n_n_0_1_14096 : GatherDims S200x4096 S3200x1 S3200x4096 where
  offsetDims := [1]
  collapsedSliceDims := [0]
  operandBatchingDims := []
  startIndicesBatchingDims := []
  startIndexMap := [0]
  indexVectorDim := 1
  sliceSizes := ![1, 4096]
  wf := gather_S200x4096_S3200x1_S3200x4096_1_0_n_n_0_1_14096_wf
def scatter_S200x4096_S3200x1_S3200x4096_1_0_0_1 : ScatterDims S200x4096 S3200x1 S3200x4096 where
  updateWindowDims := [1]
  insertedWindowDims := [0]
  scatterDimsToOperandDims := [0]
  indexVectorDim := 1
  wf := scatter_S200x4096_S3200x1_S3200x4096_1_0_0_1_wf
def dot_S200x4096_S4096x4096_S200x4096_1_0_0_1_n_n : DotDims S200x4096 S4096x4096 S200x4096 where
  lhsContracting := [1]
  rhsContracting := [0]
  lhsNonContracting := [0]
  rhsNonContracting := [1]
  lhsBatch := []
  rhsBatch := []
  wf := dot_S200x4096_S4096x4096_S200x4096_1_0_0_1_n_n_wf
def dot_S4096x200_S200x100_S4096x100_1_0_0_1_n_n : DotDims S4096x200 S200x100 S4096x100 where
  lhsContracting := [1]
  rhsContracting := [0]
  lhsNonContracting := [0]
  rhsNonContracting := [1]
  lhsBatch := []
  rhsBatch := []
  wf := dot_S4096x200_S200x100_S4096x100_1_0_0_1_n_n_wf
def dot_S4096x100_S100x1_S4096x1_1_0_0_1_n_n : DotDims S4096x100 S100x1 S4096x1 where
  lhsContracting := [1]
  rhsContracting := [0]
  lhsNonContracting := [0]
  rhsNonContracting := [1]
  lhsBatch := []
  rhsBatch := []
  wf := dot_S4096x100_S100x1_S4096x1_1_0_0_1_n_n_wf

class Facts : Prop extends Facts₀ where

variable [Facts]
-- ==== Proof.K.R0Runs.lean ====
import proofs.«406476_j70849780514835_3_alg».proof.Proof.Gen.Kernel.Launch
import proofs.«406476_j70849780514835_3_alg».proof.Proof.Gen.Kernel.Skeleton
import proofs.«406476_j70849780514835_3_alg».proof.Proof.Gen.Kernel.Points
import Idealize.ShloMosaic.Lib.Pipeline.FrameBody
import Idealize.ShloMosaic.Lib.Ring
import Idealize.ShloMosaic.Lib.Tactic

/-! Layer 1's grid point t = 24·j + k: the accumulator is zeroed at k = 0, gains one block product at every k, and
    at k = 23 the biased sum clipped at zero is output block j. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev firstK0 (i : grid0.Coords) : Prop := (Scalar.cmpi .ne (Scalar.extui (Scalar.cmpi .eq (BitVec.ofNat 32 (i 1).val) 0#32)) 0#32) = 1#1

theorem firstK0_iff : ∀ t : Fin cfg0.N, firstK0 (grid0.coords t) ↔ t.val % 24 = 0 :=
  (by decide +kernel : ∀ t : Fin grid0.N, firstK0 (grid0.coords t) ↔ t.val % 24 = 0)

abbrev lastK0 (i : grid0.Coords) : Prop := k0_cond2 i = 1#1

theorem lastK0_iff : ∀ t : Fin cfg0.N, lastK0 (grid0.coords t) ↔ t.val % 24 = 23 :=
  (by decide +kernel : ∀ t : Fin grid0.N, lastK0 (grid0.coords t) ↔ t.val % 24 = 23)

theorem live0_0 : ∀ t : Fin cfg0.N, cfg0.idle 0 (grid0.coords t) = false := by decide +kernel

theorem live0_1 : ∀ t : Fin cfg0.N, cfg0.idle 1 (grid0.coords t) = false := by decide +kernel

theorem live0_2 : ∀ t : Fin cfg0.N, cfg0.idle 2 (grid0.coords t) = false := by decide +kernel

theorem idle0_3 : ∀ t : Fin cfg0.N, ¬lastK0 (grid0.coords t) → cfg0.idle 3 (grid0.coords t) = true := by decide +kernel

theorem noFlush0_3 : ∀ t : Fin cfg0.N, ¬lastK0 (grid0.coords t) → (cfg0.win 3).flush t = false := by decide +kernel

theorem live0_3 : ∀ t : Fin cfg0.N, lastK0 (grid0.coords t) → cfg0.idle 3 (grid0.coords t) = false := by decide +kernel

abbrev VO0_3 : View sig .tc .vmem S400x2048 .f32 := (Memref.whole cc0_stg3_0 : Memref sig .tc .vmem S400x2048 .f32).view

abbrev ms0_0 (t : Fin cfg0.N) : Memref sig .tc .vmem S400x1024 .bf16 := win0_0.stage (cfg0.slots t 0)

abbrev hs0_0 (t : Fin cfg0.N) : (ms0_0 t).IsWhole := hstage0_0 ((cfg0.slots t 0).cast nbuf0_0)

abbrev ms0_1 (t : Fin cfg0.N) : Memref sig .tc .vmem S1024x2048 .f32 := win0_1.stage (cfg0.slots t 1)

abbrev hs0_1 (t : Fin cfg0.N) : (ms0_1 t).IsWhole := hstage0_1 ((cfg0.slots t 1).cast nbuf0_1)

abbrev ms0_2 (t : Fin cfg0.N) : Memref sig .tc .vmem S1x2048 .f32 := win0_2.stage (cfg0.slots t 2)

abbrev hs0_2 (t : Fin cfg0.N) : (ms0_2 t).IsWhole := hstage0_2 ((cfg0.slots t 2).cast nbuf0_2)

abbrev ms0_3 (t : Fin cfg0.N) : Memref sig .tc .vmem S400x2048 .f32 := win0_3.stage (cfg0.slots t 3)

abbrev hs0_3 (t : Fin cfg0.N) : (ms0_3 t).IsWhole := hstage0_3 ((cfg0.slots t 3).cast nbuf0_3)

abbrev scM0 : Memref sig .tc .vmem S400x2048 .f32 := Memref.whole cc0_scratch0

abbrev VS0 : View sig .tc .vmem S400x2048 .f32 := scM0.view

theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

abbrev others0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA; rw [scopedRest0_split]; simp only [scM0, owns_whole]; try rfl

end Cert.Kernel.Hand

end
-- ==== Proof.K.R0RunFirst.lean ====
import proofs.«406476_j70849780514835_3_alg».proof.Proof.K.R0Runs

/-! Layer 1's body at a first k. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
noncomputable def run0_first (c : Dev nD) (i : grid0.Coords) (arg2 : Memref sig .tc .vmem S400x1024 .bf16) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S400x2048 .f32) (harg5 : arg5.IsWhole) (arg6 : Memref sig .tc .vmem S400x2048 .f32) (harg6 : arg6.IsWhole) (hA : firstK0 i) (hZ : ¬lastK0 i)
    (x0 : Vec F S400x1024 .bf16) (x1 : Vec F S1024x2048 .f32) (x2 : Vec F S1x2048 .f32) :
    Σ' (L3 : List (View.Piece (Elt F) S400x2048 .f32)), { LS : List (View.Piece (Elt F) S400x2048 .f32) //
      ∀ (xi3 : Vec F S400x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__matmul_kernel i arg2 harg2 arg3 harg3 arg4 harg4 arg5 harg5 arg6 harg6) K } := by
  refine ⟨[], ?_, fun xi3 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hA | exact hZ)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.K.R0RunMid.lean ====
import proofs.«406476_j70849780514835_3_alg».proof.Proof.K.R0RunFirst

/-! Layer 1's body at a middle k. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
noncomputable def run0_mid (c : Dev nD) (i : grid0.Coords) (arg2 : Memref sig .tc .vmem S400x1024 .bf16) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S400x2048 .f32) (harg5 : arg5.IsWhole) (arg6 : Memref sig .tc .vmem S400x2048 .f32) (harg6 : arg6.IsWhole) (hA : ¬firstK0 i) (hZ : ¬lastK0 i)
    (x0 : Vec F S400x1024 .bf16) (x1 : Vec F S1024x2048 .f32) (x2 : Vec F S1x2048 .f32) (xs : Vec F S400x2048 .f32) :
    Σ' (L3 : List (View.Piece (Elt F) S400x2048 .f32)), { LS : List (View.Piece (Elt F) S400x2048 .f32) //
      ∀ (xi3 : Vec F S400x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__matmul_kernel i arg2 harg2 arg3 harg3 arg4 harg4 arg5 harg5 arg6 harg6) K } := by
  refine ⟨[], ?_, fun xi3 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hA | exact hZ)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.K.R0RunLast.lean ====
import proofs.«406476_j70849780514835_3_alg».proof.Proof.K.R0RunMid

/-! Layer 1's body at a last k. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
noncomputable def run0_last (c : Dev nD) (i : grid0.Coords) (arg2 : Memref sig .tc .vmem S400x1024 .bf16) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S400x2048 .f32) (harg5 : arg5.IsWhole) (arg6 : Memref sig .tc .vmem S400x2048 .f32) (harg6 : arg6.IsWhole) (hA : ¬firstK0 i) (hZ : lastK0 i)
    (x0 : Vec F S400x1024 .bf16) (x1 : Vec F S1024x2048 .f32) (x2 : Vec F S1x2048 .f32) (xs : Vec F S400x2048 .f32) :
    Σ' (L3 : List (View.Piece (Elt F) S400x2048 .f32)), { LS : List (View.Piece (Elt F) S400x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__matmul_kernel i arg2 harg2 arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hA | exact hZ)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Hand

end
-- ==== Proof.K.R0Frame.lean ====
import proofs.«406476_j70849780514835_3_alg».proof.Proof.K.R0RunLast
import Idealize.ShloMosaic.Lib.Pipeline.Value

/-! What the points of layer 1's grid leave, by recursion on t, and the obligation every point's body meets. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section

variable (c : Dev nD) (i : grid0.Coords) (arg2 : Memref sig .tc .vmem S400x1024 .bf16) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S400x2048 .f32) (harg5 : arg5.IsWhole) (arg6 : Memref sig .tc .vmem S400x2048 .f32) (harg6 : arg6.IsWhole)

def out0_first (hA : firstK0 i) (hZ : ¬lastK0 i) (x0 : Vec F S400x1024 .bf16) (x1 : Vec F S1024x2048 .f32) (x2 : Vec F S1x2048 .f32) : Vec F S400x2048 .f32 :=
  VO0_3.read (Elt F) (VO0_3.writes (Elt F) VO0_3.junk (run0_first c i arg2 harg2 arg3 harg3 arg4 harg4 arg5 harg5 arg6 harg6 hA hZ x0 x1 x2).1)

theorem acover0_first (hA : firstK0 i) (hZ : ¬lastK0 i) (x0 : Vec F S400x1024 .bf16) (x1 : Vec F S1024x2048 .f32) (x2 : Vec F S1x2048 .f32) (y : S400x2048.Idx) :
    ∃ pc ∈ (run0_first c i arg2 harg2 arg3 harg3 arg4 harg4 arg5 harg5 arg6 harg6 hA hZ x0 x1 x2).2.1, y ∈ pc.1.set :=
  View.cover_of_tiledL (run0_first c i arg2 harg2 arg3 harg3 arg4 harg4 arg5 harg5 arg6 harg6 hA hZ x0 x1 x2).2.1 S400x2048.size (by sl_kernel_rfl) y

def acc0_first (hA : firstK0 i) (hZ : ¬lastK0 i) (x0 : Vec F S400x1024 .bf16) (x1 : Vec F S1024x2048 .f32) (x2 : Vec F S1x2048 .f32) : Vec F S400x2048 .f32 :=
  VS0.read (Elt F) (VS0.writes (Elt F) VS0.junk (run0_first c i arg2 harg2 arg3 harg3 arg4 harg4 arg5 harg5 arg6 harg6 hA hZ x0 x1 x2).2.1)

def out0_mid (hA : ¬firstK0 i) (hZ : ¬lastK0 i) (x0 : Vec F S400x1024 .bf16) (x1 : Vec F S1024x2048 .f32) (x2 : Vec F S1x2048 .f32) (xs : Vec F S400x2048 .f32) : Vec F S400x2048 .f32 :=
  VO0_3.read (Elt F) (VO0_3.writes (Elt F) VO0_3.junk (run0_mid c i arg2 harg2 arg3 harg3 arg4 harg4 arg5 harg5 arg6 harg6 hA hZ x0 x1 x2 xs).1)

theorem acover0_mid (hA : ¬firstK0 i) (hZ : ¬lastK0 i) (x0 : Vec F S400x1024 .bf16) (x1 : Vec F S1024x2048 .f32) (x2 : Vec F S1x2048 .f32) (xs : Vec F S400x2048 .f32) (y : S400x2048.Idx) :
    ∃ pc ∈ (run0_mid c i arg2 harg2 arg3 harg3 arg4 harg4 arg5 harg5 arg6 harg6 hA hZ x0 x1 x2 xs).2.1, y ∈ pc.1.set :=
  View.cover_of_tiledL (run0_mid c i arg2 harg2 arg3 harg3 arg4 harg4 arg5 harg5 arg6 harg6 hA hZ x0 x1 x2 xs).2.1 S400x2048.size (by sl_kernel_rfl) y

def acc0_mid (hA : ¬firstK0 i) (hZ : ¬lastK0 i) (x0 : Vec F S400x1024 .bf16) (x1 : Vec F S1024x2048 .f32) (x2 : Vec F S1x2048 .f32) (xs : Vec F S400x2048 .f32) : Vec F S400x2048 .f32 :=
  VS0.read (Elt F) (VS0.writes (Elt F) VS0.junk (run0_mid c i arg2 harg2 arg3 harg3 arg4 harg4 arg5 harg5 arg6 harg6 hA hZ x0 x1 x2 xs).2.1)

theorem ocover0_last (hA : ¬firstK0 i) (hZ : lastK0 i) (x0 : Vec F S400x1024 .bf16) (x1 : Vec F S1024x2048 .f32) (x2 : Vec F S1x2048 .f32) (xs : Vec F S400x2048 .f32) (y : S400x2048.Idx) :
    ∃ pc ∈ (run0_last c i arg2 harg2 arg3 harg3 arg4 harg4 arg5 harg5 arg6 harg6 hA hZ x0 x1 x2 xs).1, y ∈ pc.1.set :=
  View.cover_of_tiledL (run0_last c i arg2 harg2 arg3 harg3 arg4 harg4 arg5 harg5 arg6 harg6 hA hZ x0 x1 x2 xs).1 S400x2048.size (by sl_kernel_rfl) y

def out0_last (hA : ¬firstK0 i) (hZ : lastK0 i) (x0 : Vec F S400x1024 .bf16) (x1 : Vec F S1024x2048 .f32) (x2 : Vec F S1x2048 .f32) (xs : Vec F S400x2048 .f32) : Vec F S400x2048 .f32 :=
  VO0_3.read (Elt F) (VO0_3.writes (Elt F) VO0_3.junk (run0_last c i arg2 harg2 arg3 harg3 arg4 harg4 arg5 harg5 arg6 harg6 hA hZ x0 x1 x2 xs).1)

theorem acover0_last (hA : ¬firstK0 i) (hZ : lastK0 i) (x0 : Vec F S400x1024 .bf16) (x1 : Vec F S1024x2048 .f32) (x2 : Vec F S1x2048 .f32) (xs : Vec F S400x2048 .f32) (y : S400x2048.Idx) :
    ∃ pc ∈ (run0_last c i arg2 harg2 arg3 harg3 arg4 harg4 arg5 harg5 arg6 harg6 hA hZ x0 x1 x2 xs).2.1, y ∈ pc.1.set :=
  View.cover_of_tiledL (run0_last c i arg2 harg2 arg3 harg3 arg4 harg4 arg5 harg5 arg6 harg6 hA hZ x0 x1 x2 xs).2.1 S400x2048.size (by sl_kernel_rfl) y

def acc0_last (hA : ¬firstK0 i) (hZ : lastK0 i) (x0 : Vec F S400x1024 .bf16) (x1 : Vec F S1024x2048 .f32) (x2 : Vec F S1x2048 .f32) (xs : Vec F S400x2048 .f32) : Vec F S400x2048 .f32 :=
  VS0.read (Elt F) (VS0.writes (Elt F) VS0.junk (run0_last c i arg2 harg2 arg3 harg3 arg4 harg4 arg5 harg5 arg6 harg6 hA hZ x0 x1 x2 xs).2.1)

theorem zeroOff2 : (![0, 0] : Fin 2 → Nat) = fun _ => 0 := funext fun a => by fin_cases a <;> rfl

theorem acc0_first_eq (hA : firstK0 i) (hZ : ¬lastK0 i) (x0 : Vec F S400x1024 .bf16) (x1 : Vec F S1024x2048 .f32) (x2 : Vec F S1x2048 .f32) :
    acc0_first c i arg2 harg2 arg3 harg3 arg4 harg4 arg5 harg5 arg6 harg6 hA hZ x0 x1 x2 = k0_pay2 x1 (k0_pay1 (F := F)) x0 := by
  unfold acc0_first
  rw [View.read_writes_eq_canon _ _ _ (acover0_first c i arg2 harg2 arg3 harg3 arg4 harg4 arg5 harg5 arg6 harg6 hA hZ x0 x1 x2)]
  unfold run0_first; dsimp only; sl_unfold_words
  rw [View.canon_cons_unit_zero (S := S400x2048) zeroOff2]
  simp only [View.readAt_eq_ld, harg2.read_unread, harg3.read_unread, harg4.read_unread, harg6.read_unread, View.ld_unit_zero (S := S1024x2048) zeroOff2, View.ld_unit_zero (S := S400x1024) zeroOff2, View.ld_unit_zero (S := S1x2048) zeroOff2, View.ld_unit_zero (S := S400x2048) zeroOff2, View.readCov_unit_zero (S := S400x2048) _ zeroOff2]

theorem acc0_mid_eq (hA : ¬firstK0 i) (hZ : ¬lastK0 i) (x0 : Vec F S400x1024 .bf16) (x1 : Vec F S1024x2048 .f32) (x2 : Vec F S1x2048 .f32) (xs : Vec F S400x2048 .f32) :
    acc0_mid c i arg2 harg2 arg3 harg3 arg4 harg4 arg5 harg5 arg6 harg6 hA hZ x0 x1 x2 xs = k0_pay2 x1 xs x0 := by
  unfold acc0_mid
  rw [View.read_writes_eq_canon _ _ _ (acover0_mid c i arg2 harg2 arg3 harg3 arg4 harg4 arg5 harg5 arg6 harg6 hA hZ x0 x1 x2 xs)]
  unfold run0_mid; dsimp only; sl_unfold_words
  rw [View.canon_unit_zero (S := S400x2048) zeroOff2]
  simp only [View.readAt_eq_ld, harg2.read_unread, harg3.read_unread, harg4.read_unread, harg6.read_unread, View.ld_unit_zero (S := S1024x2048) zeroOff2, View.ld_unit_zero (S := S400x1024) zeroOff2, View.ld_unit_zero (S := S1x2048) zeroOff2, View.ld_unit_zero (S := S400x2048) zeroOff2, View.readCov_unit_zero (S := S400x2048) _ zeroOff2]

theorem acc0_last_eq (hA : ¬firstK0 i) (hZ : lastK0 i) (x0 : Vec F S400x1024 .bf16) (x1 : Vec F S1024x2048 .f32) (x2 : Vec F S1x2048 .f32) (xs : Vec F S400x2048 .f32) :
    acc0_last c i arg2 harg2 arg3 harg3 arg4 harg4 arg5 harg5 arg6 harg6 hA hZ x0 x1 x2 xs = k0_pay2 x1 xs x0 := by
  unfold acc0_last
  rw [View.read_writes_eq_canon _ _ _ (acover0_last c i arg2 harg2 arg3 harg3 arg4 harg4 arg5 harg5 arg6 harg6 hA hZ x0 x1 x2 xs)]
  unfold run0_last; dsimp only; sl_unfold_words
  rw [View.canon_unit_zero (S := S400x2048) zeroOff2]
  simp only [View.readAt_eq_ld, harg2.read_unread, harg3.read_unread, harg4.read_unread, harg6.read_unread, View.ld_unit_zero (S := S1024x2048) zeroOff2, View.ld_unit_zero (S := S400x1024) zeroOff2, View.ld_unit_zero (S := S1x2048) zeroOff2, View.ld_unit_zero (S := S400x2048) zeroOff2, View.readCov_unit_zero (S := S400x2048) _ zeroOff2]

theorem out0_last_eq (hA : ¬firstK0 i) (hZ : lastK0 i) (x0 : Vec F S400x1024 .bf16) (x1 : Vec F S1024x2048 .f32) (x2 : Vec F S1x2048 .f32) (xs : Vec F S400x2048 .f32) :
    out0_last c i arg2 harg2 arg3 harg3 arg4 harg4 arg5 harg5 arg6 harg6 hA hZ x0 x1 x2 xs = k0_pay3 (k0_pay2 x1 xs x0) x2 := by
  unfold out0_last
  rw [View.read_writes_eq_canon _ _ _ (ocover0_last c i arg2 harg2 arg3 harg3 arg4 harg4 arg5 harg5 arg6 harg6 hA hZ x0 x1 x2 xs)]
  unfold run0_last; dsimp only; sl_unfold_words
  rw [View.canon_unit_zero (S := S400x2048) zeroOff2]
  simp only [View.readAt_eq_ld, harg2.read_unread, harg3.read_unread, harg4.read_unread, harg6.read_unread, View.ld_unit_zero (S := S1024x2048) zeroOff2, View.ld_unit_zero (S := S400x1024) zeroOff2, View.ld_unit_zero (S := S1x2048) zeroOff2, View.ld_unit_zero (S := S400x2048) zeroOff2, View.readCov_unit_zero (S := S400x2048) _ zeroOff2]

end

def outsAt0 (c : Dev nD) : (n : ℕ) → n < cfg0.N → Vec F S400x2048 .f32 × Vec F S400x2048 .f32
  | 0, hn => (out0_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((firstK0_iff ⟨0, hn⟩).mpr (Nat.zero_mod _)) (fun h => (fun h => by (try dsimp only at h); omega) ((lastK0_iff ⟨0, hn⟩).mp h)) (iblk0 V c 0 ⟨0, hn⟩) (iblk0 V c 1 ⟨0, hn⟩) (iblk0 V c 2 ⟨0, hn⟩), acc0_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((firstK0_iff ⟨0, hn⟩).mpr (Nat.zero_mod _)) (fun h => (fun h => by (try dsimp only at h); omega) ((lastK0_iff ⟨0, hn⟩).mp h)) (iblk0 V c 0 ⟨0, hn⟩) (iblk0 V c 1 ⟨0, hn⟩) (iblk0 V c 2 ⟨0, hn⟩))
  | n + 1, hn =>
    if h0 : (n + 1) % 24 = 0 then
      if h1 : (n + 1) % 24 = 23 then
        False.elim (by omega)
      else
        (out0_first c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((firstK0_iff ⟨n + 1, hn⟩).mpr h0) (fun h => h1 ((lastK0_iff ⟨n + 1, hn⟩).mp h)) (iblk0 V c 0 ⟨n + 1, hn⟩) (iblk0 V c 1 ⟨n + 1, hn⟩) (iblk0 V c 2 ⟨n + 1, hn⟩), acc0_first c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((firstK0_iff ⟨n + 1, hn⟩).mpr h0) (fun h => h1 ((lastK0_iff ⟨n + 1, hn⟩).mp h)) (iblk0 V c 0 ⟨n + 1, hn⟩) (iblk0 V c 1 ⟨n + 1, hn⟩) (iblk0 V c 2 ⟨n + 1, hn⟩))
    else
      if h1 : (n + 1) % 24 = 23 then
        (out0_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((firstK0_iff ⟨n + 1, hn⟩).mp h)) ((lastK0_iff ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, acc0_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((firstK0_iff ⟨n + 1, hn⟩).mp h)) ((lastK0_iff ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_mid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((firstK0_iff ⟨n + 1, hn⟩).mp h)) (fun h => h1 ((lastK0_iff ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, acc0_mid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((firstK0_iff ⟨n + 1, hn⟩).mp h)) (fun h => h1 ((lastK0_iff ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_first (c : Dev nD) (t : Fin cfg0.N) (h0 : t.val % 24 = 0) (h1 : ¬t.val % 24 = 23) :
    outsAt0 V c t.val t.isLt = (out0_first c (grid0.coords t) (ms0_0 t) (hs0_0 t) (ms0_1 t) (hs0_1 t) (ms0_2 t) (hs0_2 t) (ms0_3 t) (hs0_3 t) scM0 (Memref.isWhole_whole _) ((firstK0_iff t).mpr h0) (fun h => h1 ((lastK0_iff t).mp h)) (iblk0 V c 0 t) (iblk0 V c 1 t) (iblk0 V c 2 t), acc0_first c (grid0.coords t) (ms0_0 t) (hs0_0 t) (ms0_1 t) (hs0_1 t) (ms0_2 t) (hs0_2 t) (ms0_3 t) (hs0_3 t) scM0 (Memref.isWhole_whole _) ((firstK0_iff t).mpr h0) (fun h => h1 ((lastK0_iff t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_mid (c : Dev nD) (t : Fin cfg0.N) (h0 : ¬t.val % 24 = 0) (h1 : ¬t.val % 24 = 23) :
    outsAt0 V c t.val t.isLt = (out0_mid c (grid0.coords t) (ms0_0 t) (hs0_0 t) (ms0_1 t) (hs0_1 t) (ms0_2 t) (hs0_2 t) (ms0_3 t) (hs0_3 t) scM0 (Memref.isWhole_whole _) (fun h => h0 ((firstK0_iff t).mp h)) (fun h => h1 ((lastK0_iff t).mp h)) (iblk0 V c 0 t) (iblk0 V c 1 t) (iblk0 V c 2 t) (outsAt0 V c (t.val - 1) (Nat.lt_of_le_of_lt (Nat.sub_le _ _) t.isLt)).2, acc0_mid c (grid0.coords t) (ms0_0 t) (hs0_0 t) (ms0_1 t) (hs0_1 t) (ms0_2 t) (hs0_2 t) (ms0_3 t) (hs0_3 t) scM0 (Memref.isWhole_whole _) (fun h => h0 ((firstK0_iff t).mp h)) (fun h => h1 ((lastK0_iff t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_last (c : Dev nD) (t : Fin cfg0.N) (h0 : ¬t.val % 24 = 0) (h1 : t.val % 24 = 23) :
    outsAt0 V c t.val t.isLt = (out0_last c (grid0.coords t) (ms0_0 t) (hs0_0 t) (ms0_1 t) (hs0_1 t) (ms0_2 t) (hs0_2 t) (ms0_3 t) (hs0_3 t) scM0 (Memref.isWhole_whole _) (fun h => h0 ((firstK0_iff t).mp h)) ((lastK0_iff t).mpr h1) (iblk0 V c 0 t) (iblk0 V c 1 t) (iblk0 V c 2 t) (outsAt0 V c (t.val - 1) (Nat.lt_of_le_of_lt (Nat.sub_le _ _) t.isLt)).2, acc0_last c (grid0.coords t) (ms0_0 t) (hs0_0 t) (ms0_1 t) (hs0_1 t) (ms0_2 t) (hs0_2 t) (ms0_3 t) (hs0_3 t) scM0 (Memref.isWhole_whole _) (fun h => h0 ((firstK0_iff t).mp h)) ((lastK0_iff t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

alias outsAt0_A := outsAt0_first

alias outsAt0_B := outsAt0_mid

alias outsAt0_C := outsAt0_last

def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ others0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]

theorem after0_1 (c : Dev nD) (t : Fin cfg0.N) : (dat0 V c).after 1 t = iblk0 V c 1 t := by dsimp only [dat0]

theorem after0_2 (c : Dev nD) (t : Fin cfg0.N) : (dat0 V c).after 2 t = iblk0 V c 2 t := by dsimp only [dat0]

theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [live0_0 t], after0_0]
  rw [show (dat0 V c).leavesExact 1 t = owns (c : Thread nD τ) (ms0_1 t) fullShare ((dat0 V c).after 1 t) from by
      unfold Dat.leavesExact; rw [live0_1 t], after0_1]
  rw [show (dat0 V c).leavesExact 2 t = owns (c : Thread nD τ) (ms0_2 t) fullShare ((dat0 V c).after 2 t) from by
      unfold Dat.leavesExact; rw [live0_2 t], after0_2]
  have hN : t.val < 48 := lt_of_lt_of_eq t.isLt (show cfg0.N = 48 from N_0)
  by_cases h0 : t.val % 24 = 0
  · by_cases h1 : t.val % 24 = 23
    · exfalso; omega
    · rw [Dat.leavesExact_idle (dat0 V c) 3 t (idle0_3 t (fun h => h1 ((lastK0_iff t).mp h))) (noFlush0_3 t (fun h => h1 ((lastK0_iff t).mp h)))]
      rw [outsAt0_first V c t h0 h1]
      unfold acc0_first; (try dsimp only)
      by_cases hz : t.val = 0
      case' pos => rw [PhiS0_castSucc V c t, PhiS0_zero V c _ _ hz, PhiA0_eq]
      case' neg => rw [PhiS0_castSucc V c t, PhiS0_pos V c _ _ hz]
      all_goals
        iintro ⟨⟨⟨HS, Hr⟩, Hg⟩, Ho, ⟨%d0, H0⟩, ⟨%d1, H1⟩, ⟨%d2, H2⟩, ⟨%d3, H3⟩⟩
        iapply ((run0_first c (grid0.coords t) _ _ _ _ _ _ _ _ _ _ ((firstK0_iff t).mpr h0) (fun h => h1 ((lastK0_iff t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS]; · first | iexact HS | (iexists _; iexact HS)
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (acover0_first c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 24 = 23
    · rw [show (dat0 V c).leavesExact 3 t = owns (c : Thread nD τ) (ms0_3 t) fullShare ((dat0 V c).after 3 t) from by
      unfold Dat.leavesExact; rw [live0_3 t ((lastK0_iff t).mpr h1)], after0_3]
      rw [outsAt0_last V c t h0 h1]
      unfold out0_last acc0_last; (try dsimp only)
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply ((run0_last c (grid0.coords t) _ _ _ _ _ _ _ _ _ _ (fun h => h0 ((firstK0_iff t).mp h)) ((lastK0_iff t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (acover0_last c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocover0_last c _ _ _ _ _ _ _ _ _ _ _ _ _ _ _ _ _)
    · rw [Dat.leavesExact_idle (dat0 V c) 3 t (idle0_3 t (fun h => h1 ((lastK0_iff t).mp h))) (noFlush0_3 t (fun h => h1 ((lastK0_iff t).mp h)))]
      rw [outsAt0_mid V c t h0 h1]
      unfold acc0_mid; (try dsimp only)
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply ((run0_mid c (grid0.coords t) _ _ _ _ _ _ _ _ _ _ (fun h => h0 ((firstK0_iff t).mp h)) (fun h => h1 ((lastK0_iff t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (acover0_mid c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hr⟩, Hg⟩
  isplitl [HS Hr]
  · isplitl [HS]
    · iexists _; iexact HS
    iexact Hr
  iexact Hg

theorem hout0 (c : Dev nD) : (dat0 V c).Φ (Fin.last cfg0.N) ⊢ Pipeline.ΦA spec0 c :=
  Phi_out0 V c _ (by rw [Fin.val_last]; have : cfg0.N = 48 := N_0; omega)

abbrev ablk0 (c : Dev nD) (t : Fin cfg0.N) : Vec F S400x1024 .bf16 := iblk0 V c 0 t

abbrev bblk0 (c : Dev nD) (t : Fin cfg0.N) : Vec F S1024x2048 .f32 := iblk0 V c 1 t

abbrev cblk0 (c : Dev nD) (t : Fin cfg0.N) : Vec F S1x2048 .f32 := iblk0 V c 2 t

theorem acc0_at_first (c : Dev nD) (t : Fin cfg0.N) (h0 : t.val % 24 = 0) :
    (outsAt0 V c t.val t.isLt).2 = k0_pay2 (bblk0 V c t) (k0_pay1 (F := F)) (ablk0 V c t) := by
  have h1 : ¬t.val % 24 = 23 := by omega
  rw [outsAt0_first V c t h0 h1]; dsimp only
  exact acc0_first_eq c (grid0.coords t) (ms0_0 t) (hs0_0 t) (ms0_1 t) (hs0_1 t) (ms0_2 t) (hs0_2 t) (ms0_3 t) (hs0_3 t) scM0 (Memref.isWhole_whole _) ((firstK0_iff t).mpr h0) (fun h => h1 ((lastK0_iff t).mp h)) (iblk0 V c 0 t) (iblk0 V c 1 t) (iblk0 V c 2 t)

theorem acc0_at_next (c : Dev nD) (t : Fin cfg0.N) (h0 : ¬t.val % 24 = 0) :
    (outsAt0 V c t.val t.isLt).2 = k0_pay2 (bblk0 V c t) (outsAt0 V c (t.val - 1) (Nat.lt_of_le_of_lt (Nat.sub_le _ _) t.isLt)).2 (ablk0 V c t) := by
  by_cases h1 : t.val % 24 = 23
  · rw [outsAt0_last V c t h0 h1]; dsimp only
    exact acc0_last_eq c (grid0.coords t) (ms0_0 t) (hs0_0 t) (ms0_1 t) (hs0_1 t) (ms0_2 t) (hs0_2 t) (ms0_3 t) (hs0_3 t) scM0 (Memref.isWhole_whole _) (fun h => h0 ((firstK0_iff t).mp h)) ((lastK0_iff t).mpr h1) (iblk0 V c 0 t) (iblk0 V c 1 t) (iblk0 V c 2 t) (outsAt0 V c (t.val - 1) (Nat.lt_of_le_of_lt (Nat.sub_le _ _) t.isLt)).2
  · rw [outsAt0_mid V c t h0 h1]; dsimp only
    exact acc0_mid_eq c (grid0.coords t) (ms0_0 t) (hs0_0 t) (ms0_1 t) (hs0_1 t) (ms0_2 t) (hs0_2 t) (ms0_3 t) (hs0_3 t) scM0 (Memref.isWhole_whole _) (fun h => h0 ((firstK0_iff t).mp h)) (fun h => h1 ((lastK0_iff t).mp h)) (iblk0 V c 0 t) (iblk0 V c 1 t) (iblk0 V c 2 t) (outsAt0 V c (t.val - 1) (Nat.lt_of_le_of_lt (Nat.sub_le _ _) t.isLt)).2

theorem out0_at_last (c : Dev nD) (t : Fin cfg0.N) (h1 : t.val % 24 = 23) :
    (outsAt0 V c t.val t.isLt).1 = k0_pay3 (outsAt0 V c t.val t.isLt).2 (cblk0 V c t) := by
  have h0 : ¬t.val % 24 = 0 := by omega
  rw [outsAt0_last V c t h0 h1]; dsimp only
  exact (out0_last_eq c (grid0.coords t) (ms0_0 t) (hs0_0 t) (ms0_1 t) (hs0_1 t) (ms0_2 t) (hs0_2 t) (ms0_3 t) (hs0_3 t) scM0 (Memref.isWhole_whole _) (fun h => h0 ((firstK0_iff t).mp h)) ((lastK0_iff t).mpr h1) (iblk0 V c 0 t) (iblk0 V c 1 t) (iblk0 V c 2 t) (outsAt0 V c (t.val - 1) (Nat.lt_of_le_of_lt (Nat.sub_le _ _) t.isLt)).2).trans
    (congrArg (fun a => k0_pay3 a (cblk0 V c t)) (acc0_last_eq c (grid0.coords t) (ms0_0 t) (hs0_0 t) (ms0_1 t) (hs0_1 t) (ms0_2 t) (hs0_2 t) (ms0_3 t) (hs0_3 t) scM0 (Memref.isWhole_whole _) (fun h => h0 ((firstK0_iff t).mp h)) ((lastK0_iff t).mpr h1) (iblk0 V c 0 t) (iblk0 V c 1 t) (iblk0 V c 2 t) (outsAt0 V c (t.val - 1) (Nat.lt_of_le_of_lt (Nat.sub_le _ _) t.isLt)).2).symm)

end Cert.Kernel.Hand

end
-- ==== Proof.K.R1Runs.lean ====
import proofs.«406476_j70849780514835_3_alg».proof.Proof.Gen.Kernel.Launch
import proofs.«406476_j70849780514835_3_alg».proof.Proof.Gen.Kernel.Skeleton
import proofs.«406476_j70849780514835_3_alg».proof.Proof.Gen.Kernel.Points
import Idealize.ShloMosaic.Lib.Pipeline.FrameBody
import Idealize.ShloMosaic.Lib.Ring
import Idealize.ShloMosaic.Lib.Tactic

/-! Layer 2's grid point t = 12·j + k: the body at a first, a middle and a last k. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

abbrev isFirstK (i : grid1.Coords) : Prop :=
  (Scalar.cmpi .ne (Scalar.extui (Scalar.cmpi .eq (BitVec.ofNat 32 (i 1).val) 0#32)) 0#32) = 1#1

theorem isFirstK_iff : ∀ t : Fin cfg1.N, isFirstK (grid1.coords t) ↔ t.val % 12 = 0 :=
  (by decide +kernel : ∀ t : Fin grid1.N, isFirstK (grid1.coords t) ↔ t.val % 12 = 0)

abbrev isLastK (i : grid1.Coords) : Prop := k1_cond2 i = 1#1

theorem isLastK_iff : ∀ t : Fin cfg1.N, isLastK (grid1.coords t) ↔ t.val % 12 = 11 :=
  (by decide +kernel : ∀ t : Fin grid1.N, isLastK (grid1.coords t) ↔ t.val % 12 = 11)

theorem live1_0 : ∀ t : Fin cfg1.N, cfg1.idle 0 (grid1.coords t) = false := by decide +kernel

theorem live1_1 : ∀ t : Fin cfg1.N, cfg1.idle 1 (grid1.coords t) = false := by decide +kernel

theorem live1_2 : ∀ t : Fin cfg1.N, cfg1.idle 2 (grid1.coords t) = false := by decide +kernel

theorem idle1_3 : ∀ t : Fin cfg1.N, ¬isLastK (grid1.coords t) → cfg1.idle 3 (grid1.coords t) = true := by decide +kernel

theorem noFlush1_3 : ∀ t : Fin cfg1.N, ¬isLastK (grid1.coords t) → (cfg1.win 3).flush t = false := by decide +kernel

theorem live1_3 : ∀ t : Fin cfg1.N, isLastK (grid1.coords t) → cfg1.idle 3 (grid1.coords t) = false := by decide +kernel

abbrev ms1_0 (t : Fin cfg1.N) : Memref sig .tc .vmem S400x1024 .bf16 := win1_0.stage (cfg1.slots t 0)

abbrev hs1_0 (t : Fin cfg1.N) : (ms1_0 t).IsWhole := hstage1_0 ((cfg1.slots t 0).cast nbuf1_0)

abbrev ms1_1 (t : Fin cfg1.N) : Memref sig .tc .vmem S1024x2048 .f32 := win1_1.stage (cfg1.slots t 1)

abbrev hs1_1 (t : Fin cfg1.N) : (ms1_1 t).IsWhole := hstage1_1 ((cfg1.slots t 1).cast nbuf1_1)

abbrev ms1_2 (t : Fin cfg1.N) : Memref sig .tc .vmem S1x2048 .f32 := win1_2.stage (cfg1.slots t 2)

abbrev hs1_2 (t : Fin cfg1.N) : (ms1_2 t).IsWhole := hstage1_2 ((cfg1.slots t 2).cast nbuf1_2)

abbrev ms1_3 (t : Fin cfg1.N) : Memref sig .tc .vmem S200x2048 .f32 := win1_3.stage (cfg1.slots t 3)

abbrev hs1_3 (t : Fin cfg1.N) : (ms1_3 t).IsWhole := hstage1_3 ((cfg1.slots t 3).cast nbuf1_3)

abbrev accM1 : Memref sig .tc .vmem S400x2048 .f32 := Memref.whole cc1_scratch0

abbrev accV1 : View sig .tc .vmem S400x2048 .f32 := accM1.view

abbrev outV1 : View sig .tc .vmem S200x2048 .f32 := (Memref.whole cc1_stg3_0 : Memref sig .tc .vmem S200x2048 .f32).view

section

variable (c : Dev nD) (i : grid1.Coords) (arg2 : Memref sig .tc .vmem S400x1024 .bf16) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S200x2048 .f32) (harg5 : arg5.IsWhole) (arg6 : Memref sig .tc .vmem S400x2048 .f32) (harg6 : arg6.IsWhole)

set_option maxHeartbeats 1000000 in
noncomputable def runFirst (hc0 : isFirstK i) (hc1 : ¬isLastK i)
    (x0 : Vec F S400x1024 .bf16) (x1 : Vec F S1024x2048 .f32) (x2 : Vec F S1x2048 .f32) :
    Σ' (L3 : List (View.Piece (Elt F) S200x2048 .f32)), { LS : List (View.Piece (Elt F) S400x2048 .f32) //
      ∀ (xi3 : Vec F S200x2048 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg2 harg2 arg3 harg3 arg4 harg4 arg5 harg5 arg6 harg6) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
noncomputable def runMiddle (hc0 : ¬isFirstK i) (hc1 : ¬isLastK i)
    (x0 : Vec F S400x1024 .bf16) (x1 : Vec F S1024x2048 .f32) (x2 : Vec F S1x2048 .f32) (xs : Vec F S400x2048 .f32) :
    Σ' (L3 : List (View.Piece (Elt F) S200x2048 .f32)), { LS : List (View.Piece (Elt F) S400x2048 .f32) //
      ∀ (xi3 : Vec F S200x2048 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg2 harg2 arg3 harg3 arg4 harg4 arg5 harg5 arg6 harg6) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
noncomputable def runLast (hc0 : ¬isFirstK i) (hc1 : isLastK i)
    (x0 : Vec F S400x1024 .bf16) (x1 : Vec F S1024x2048 .f32) (x2 : Vec F S1x2048 .f32) (xs : Vec F S400x2048 .f32) :
    Σ' (L3 : List (View.Piece (Elt F) S200x2048 .f32)), { LS : List (View.Piece (Elt F) S400x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg2 harg2 arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end

end Cert.Kernel.Hand

end
-- ==== Proof.K.R1Frame.lean ====
import proofs.«406476_j70849780514835_3_alg».proof.Proof.K.R1Runs

/-! What the points of layer 2's grid leave, by recursion on t, and the obligation every point's body meets. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section

variable (c : Dev nD) (i : grid1.Coords) (arg2 : Memref sig .tc .vmem S400x1024 .bf16) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S200x2048 .f32) (harg5 : arg5.IsWhole) (arg6 : Memref sig .tc .vmem S400x2048 .f32) (harg6 : arg6.IsWhole)

def outFirst (hc0 : isFirstK i) (hc1 : ¬isLastK i) (x0 : Vec F S400x1024 .bf16) (x1 : Vec F S1024x2048 .f32) (x2 : Vec F S1x2048 .f32) : Vec F S200x2048 .f32 :=
  outV1.read (Elt F) (outV1.writes (Elt F) outV1.junk (runFirst c i arg2 harg2 arg3 harg3 arg4 harg4 arg5 harg5 arg6 harg6 hc0 hc1 x0 x1 x2).1)

theorem accCoverFirst (hc0 : isFirstK i) (hc1 : ¬isLastK i) (x0 : Vec F S400x1024 .bf16) (x1 : Vec F S1024x2048 .f32) (x2 : Vec F S1x2048 .f32) (y : S400x2048.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S400x2048.size (by sl_kernel_rfl) y

def accFirst (hc0 : isFirstK i) (hc1 : ¬isLastK i) (x0 : Vec F S400x1024 .bf16) (x1 : Vec F S1024x2048 .f32) (x2 : Vec F S1x2048 .f32) : Vec F S400x2048 .f32 :=
  accV1.read (Elt F) (accV1.writes (Elt F) accV1.junk (runFirst c i arg2 harg2 arg3 harg3 arg4 harg4 arg5 harg5 arg6 harg6 hc0 hc1 x0 x1 x2).2.1)

def outMiddle (hc0 : ¬isFirstK i) (hc1 : ¬isLastK i) (x0 : Vec F S400x1024 .bf16) (x1 : Vec F S1024x2048 .f32) (x2 : Vec F S1x2048 .f32) (xs : Vec F S400x2048 .f32) : Vec F S200x2048 .f32 :=
  outV1.read (Elt F) (outV1.writes (Elt F) outV1.junk (runMiddle c i arg2 harg2 arg3 harg3 arg4 harg4 arg5 harg5 arg6 harg6 hc0 hc1 x0 x1 x2 xs).1)

theorem accCoverMiddle (hc0 : ¬isFirstK i) (hc1 : ¬isLastK i) (x0 : Vec F S400x1024 .bf16) (x1 : Vec F S1024x2048 .f32) (x2 : Vec F S1x2048 .f32) (xs : Vec F S400x2048 .f32) (y : S400x2048.Idx) :
    ∃ pc ∈ (runMiddle c i arg2 harg2 arg3 harg3 arg4 harg4 arg5 harg5 arg6 harg6 hc0 hc1 x0 x1 x2 xs).2.1, y ∈ pc.1.set :=
  View.cover_of_tiledL (runMiddle c i arg2 harg2 arg3 harg3 arg4 harg4 arg5 harg5 arg6 harg6 hc0 hc1 x0 x1 x2 xs).2.1 S400x2048.size (by sl_kernel_rfl) y

def accMiddle (hc0 : ¬isFirstK i) (hc1 : ¬isLastK i) (x0 : Vec F S400x1024 .bf16) (x1 : Vec F S1024x2048 .f32) (x2 : Vec F S1x2048 .f32) (xs : Vec F S400x2048 .f32) : Vec F S400x2048 .f32 :=
  accV1.read (Elt F) (accV1.writes (Elt F) accV1.junk (runMiddle c i arg2 harg2 arg3 harg3 arg4 harg4 arg5 harg5 arg6 harg6 hc0 hc1 x0 x1 x2 xs).2.1)

theorem outCoverLast (hc0 : ¬isFirstK i) (hc1 : isLastK i) (x0 : Vec F S400x1024 .bf16) (x1 : Vec F S1024x2048 .f32) (x2 : Vec F S1x2048 .f32) (xs : Vec F S400x2048 .f32) (y : S200x2048.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S200x2048.size (by sl_kernel_rfl) y

def outLast (hc0 : ¬isFirstK i) (hc1 : isLastK i) (x0 : Vec F S400x1024 .bf16) (x1 : Vec F S1024x2048 .f32) (x2 : Vec F S1x2048 .f32) (xs : Vec F S400x2048 .f32) : Vec F S200x2048 .f32 :=
  outV1.read (Elt F) (outV1.writes (Elt F) outV1.junk (runLast c i arg2 harg2 arg3 harg3 arg4 harg4 arg5 harg5 arg6 harg6 hc0 hc1 x0 x1 x2 xs).1)

theorem accCoverLast (hc0 : ¬isFirstK i) (hc1 : isLastK i) (x0 : Vec F S400x1024 .bf16) (x1 : Vec F S1024x2048 .f32) (x2 : Vec F S1x2048 .f32) (xs : Vec F S400x2048 .f32) (y : S400x2048.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S400x2048.size (by sl_kernel_rfl) y

def accLast (hc0 : ¬isFirstK i) (hc1 : isLastK i) (x0 : Vec F S400x1024 .bf16) (x1 : Vec F S1024x2048 .f32) (x2 : Vec F S1x2048 .f32) (xs : Vec F S400x2048 .f32) : Vec F S400x2048 .f32 :=
  accV1.read (Elt F) (accV1.writes (Elt F) accV1.junk (runLast c i arg2 harg2 arg3 harg3 arg4 harg4 arg5 harg5 arg6 harg6 hc0 hc1 x0 x1 x2 xs).2.1)

end

section Region

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

def outsAt1 (c : Dev nD) : (n : ℕ) → n < cfg1.N → Vec F S200x2048 .f32 × Vec F S400x2048 .f32
  | 0, hn => (outFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) accM1 (Memref.isWhole_whole _) ((isFirstK_iff ⟨0, hn⟩).mpr (Nat.zero_mod _)) (fun h => (fun h => by (try dsimp only at h); omega) ((isLastK_iff ⟨0, hn⟩).mp h)) (iblk1 V c 0 ⟨0, hn⟩) (iblk1 V c 1 ⟨0, hn⟩) (iblk1 V c 2 ⟨0, hn⟩), accFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) accM1 (Memref.isWhole_whole _) ((isFirstK_iff ⟨0, hn⟩).mpr (Nat.zero_mod _)) (fun h => (fun h => by (try dsimp only at h); omega) ((isLastK_iff ⟨0, hn⟩).mp h)) (iblk1 V c 0 ⟨0, hn⟩) (iblk1 V c 1 ⟨0, hn⟩) (iblk1 V c 2 ⟨0, hn⟩))
  | n + 1, hn =>
    if h0 : (n + 1) % 12 = 0 then
      if h1 : (n + 1) % 12 = 11 then
        False.elim (by omega)
      else
        (outFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM1 (Memref.isWhole_whole _) ((isFirstK_iff ⟨n + 1, hn⟩).mpr h0) (fun h => h1 ((isLastK_iff ⟨n + 1, hn⟩).mp h)) (iblk1 V c 0 ⟨n + 1, hn⟩) (iblk1 V c 1 ⟨n + 1, hn⟩) (iblk1 V c 2 ⟨n + 1, hn⟩), accFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM1 (Memref.isWhole_whole _) ((isFirstK_iff ⟨n + 1, hn⟩).mpr h0) (fun h => h1 ((isLastK_iff ⟨n + 1, hn⟩).mp h)) (iblk1 V c 0 ⟨n + 1, hn⟩) (iblk1 V c 1 ⟨n + 1, hn⟩) (iblk1 V c 2 ⟨n + 1, hn⟩))
    else
      if h1 : (n + 1) % 12 = 11 then
        (outLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM1 (Memref.isWhole_whole _) (fun h => h0 ((isFirstK_iff ⟨n + 1, hn⟩).mp h)) ((isLastK_iff ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, accLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM1 (Memref.isWhole_whole _) (fun h => h0 ((isFirstK_iff ⟨n + 1, hn⟩).mp h)) ((isLastK_iff ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (outMiddle c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM1 (Memref.isWhole_whole _) (fun h => h0 ((isFirstK_iff ⟨n + 1, hn⟩).mp h)) (fun h => h1 ((isLastK_iff ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, accMiddle c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM1 (Memref.isWhole_whole _) (fun h => h0 ((isFirstK_iff ⟨n + 1, hn⟩).mp h)) (fun h => h1 ((isLastK_iff ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 12 = 0) (h1 : ¬t.val % 12 = 11) :
    outsAt1 V c t.val t.isLt = (outFirst c (grid1.coords t) (ms1_0 t) (hs1_0 t) (ms1_1 t) (hs1_1 t) (ms1_2 t) (hs1_2 t) (ms1_3 t) (hs1_3 t) accM1 (Memref.isWhole_whole _) ((isFirstK_iff t).mpr h0) (fun h => h1 ((isLastK_iff t).mp h)) (iblk1 V c 0 t) (iblk1 V c 1 t) (iblk1 V c 2 t), accFirst c (grid1.coords t) (ms1_0 t) (hs1_0 t) (ms1_1 t) (hs1_1 t) (ms1_2 t) (hs1_2 t) (ms1_3 t) (hs1_3 t) accM1 (Memref.isWhole_whole _) ((isFirstK_iff t).mpr h0) (fun h => h1 ((isLastK_iff t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 12 = 0) (h1 : ¬t.val % 12 = 11) :
    outsAt1 V c t.val t.isLt = (outMiddle c (grid1.coords t) (ms1_0 t) (hs1_0 t) (ms1_1 t) (hs1_1 t) (ms1_2 t) (hs1_2 t) (ms1_3 t) (hs1_3 t) accM1 (Memref.isWhole_whole _) (fun h => h0 ((isFirstK_iff t).mp h)) (fun h => h1 ((isLastK_iff t).mp h)) (iblk1 V c 0 t) (iblk1 V c 1 t) (iblk1 V c 2 t) (outsAt1 V c (t.val - 1) (Nat.lt_of_le_of_lt (Nat.sub_le _ _) t.isLt)).2, accMiddle c (grid1.coords t) (ms1_0 t) (hs1_0 t) (ms1_1 t) (hs1_1 t) (ms1_2 t) (hs1_2 t) (ms1_3 t) (hs1_3 t) accM1 (Memref.isWhole_whole _) (fun h => h0 ((isFirstK_iff t).mp h)) (fun h => h1 ((isLastK_iff t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 12 = 0) (h1 : t.val % 12 = 11) :
    outsAt1 V c t.val t.isLt = (outLast c (grid1.coords t) (ms1_0 t) (hs1_0 t) (ms1_1 t) (hs1_1 t) (ms1_2 t) (hs1_2 t) (ms1_3 t) (hs1_3 t) accM1 (Memref.isWhole_whole _) (fun h => h0 ((isFirstK_iff t).mp h)) ((isLastK_iff t).mpr h1) (iblk1 V c 0 t) (iblk1 V c 1 t) (iblk1 V c 2 t) (outsAt1 V c (t.val - 1) (Nat.lt_of_le_of_lt (Nat.sub_le _ _) t.isLt)).2, accLast c (grid1.coords t) (ms1_0 t) (hs1_0 t) (ms1_1 t) (hs1_1 t) (ms1_2 t) (hs1_2 t) (ms1_3 t) (hs1_3 t) accM1 (Memref.isWhole_whole _) (fun h => h0 ((isFirstK_iff t).mp h)) ((isLastK_iff t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

theorem PhiA1_split (c : Dev nD) :
    (Pipeline.ΦA spec1 c : sProp 𝕄) ⊢ iprop(iprop(others1 (F := F) c ∗ (∃ d, owns (c : Thread nD τ) accM1 fullShare d)) ∗ (∃ r, prngReg c r)) := by
  unfold Pipeline.ΦA; rw [scopedRest1_eq]; simp only [accM1, owns_whole]
  unfold others1
  iintro ⟨⟨R0, R1, R2, R3, R4, R5, R6, R7, R8, HS⟩, Hg⟩
  isplitr [Hg]
  · isplitr [HS]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      iexact R8
    iexact HS
  iexact Hg

theorem PhiA1_join (c : Dev nD) :
    iprop(iprop(others1 (F := F) c ∗ (∃ d, owns (c : Thread nD τ) accM1 fullShare d)) ∗ (∃ r, prngReg c r)) ⊢ (Pipeline.ΦA spec1 c : sProp 𝕄) := by
  unfold Pipeline.ΦA; rw [scopedRest1_eq]; simp only [accM1, owns_whole]
  unfold others1
  iintro ⟨⟨⟨R0, R1, R2, R3, R4, R5, R6, R7, R8⟩, HS⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact HS
  iexact Hg

theorem PhiA1_eq (c : Dev nD) :
    (Pipeline.ΦA spec1 c : sProp 𝕄) = iprop(iprop(others1 (F := F) c ∗ (∃ d, owns (c : Thread nD τ) accM1 fullShare d)) ∗ (∃ r, prngReg c r)) :=
  BI.equiv_iff.mp ⟨PhiA1_split c, PhiA1_join c⟩

def PhiS1 (c : Dev nD) : (n : ℕ) → n ≤ cfg1.N → sProp 𝕄
  | 0, _ => Pipeline.ΦA spec1 c
  | n + 1, hn => iprop(iprop(others1 (F := F) c ∗ owns (c : Thread nD τ) accM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(others1 (F := F) c ∗ owns (c : Thread nD τ) accM1 fullShare ((outsAt1 V c n hn).2)) ∗ (∃ r, prngReg c r)) := rfl

theorem PhiS1_pos (c : Dev nD) (n : ℕ) (h : n ≤ cfg1.N) (hz : n ≠ 0) :
    PhiS1 V c n h = iprop(iprop(others1 (F := F) c ∗ owns (c : Thread nD τ) accM1 fullShare ((outsAt1 V c (n - 1) (by omega)).2)) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]

theorem after1_1 (c : Dev nD) (t : Fin cfg1.N) : (dat1 V c).after 1 t = iblk1 V c 1 t := by dsimp only [dat1]

theorem after1_2 (c : Dev nD) (t : Fin cfg1.N) : (dat1 V c).after 2 t = iblk1 V c 2 t := by dsimp only [dat1]

theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V, before1_2 V]
  rw [show (dat1 V c).owesAt () t.succ = (dat1 V c).owesAt () t.castSucc from rfl]
  rw [show (dat1 V c).Φ t.succ = PhiS1 V c (t.val + 1) t.isLt from rfl, PhiS1_succ]
  have hN : t.val < 24 := lt_of_lt_of_eq t.isLt (show cfg1.N = 24 from N_1)
  rw [show (dat1 V c).leavesExact 0 t = owns (c : Thread nD τ) (ms1_0 t) fullShare ((dat1 V c).after 0 t) from by
    unfold Dat.leavesExact; rw [live1_0 t], after1_0 V]
  rw [show (dat1 V c).leavesExact 1 t = owns (c : Thread nD τ) (ms1_1 t) fullShare ((dat1 V c).after 1 t) from by
    unfold Dat.leavesExact; rw [live1_1 t], after1_1 V]
  rw [show (dat1 V c).leavesExact 2 t = owns (c : Thread nD τ) (ms1_2 t) fullShare ((dat1 V c).after 2 t) from by
    unfold Dat.leavesExact; rw [live1_2 t], after1_2 V]
  by_cases h0 : t.val % 12 = 0
  · have h1 : ¬t.val % 12 = 11 := by omega
    rw [Dat.leavesExact_idle (dat1 V c) 3 t (idle1_3 t (fun h => h1 ((isLastK_iff t).mp h))) (noFlush1_3 t (fun h => h1 ((isLastK_iff t).mp h)))]
    rw [outsAt1_A V c t h0 h1]
    unfold accFirst; (try dsimp only)
    by_cases hz : t.val = 0
    case' pos => rw [PhiS1_castSucc V c t, PhiS1_zero V c _ _ hz, PhiA1_eq]
    case' neg => rw [PhiS1_castSucc V c t, PhiS1_pos V c _ _ hz]
    all_goals
      iintro ⟨⟨⟨HR, HS⟩, Hg⟩, Ho, ⟨%d0, H0⟩, ⟨%d1, H1⟩, ⟨%d2, H2⟩, ⟨%d3, H3⟩⟩
      iapply ((runFirst c (grid1.coords t) (ms1_0 t) (hs1_0 t) (ms1_1 t) (hs1_1 t) (ms1_2 t) (hs1_2 t) (ms1_3 t) (hs1_3 t) accM1 (Memref.isWhole_whole _) ((isFirstK_iff t).mpr h0) (fun h => h1 ((isLastK_iff t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS]; · first | iexact HS | (iexists _; iexact HS)
      iintro ⟨H0, H1, H2, H3, ⟨%es, HS⟩⟩
      isplitl [HR HS Hg]
      · isplitl [HR HS]
        · isplitl [HR]; · iexact HR
          unfold owns; iexists _; isplitr
          swap; · iexact HS
          ipureintro; exact View.read_writes_of_cover _ _ _ _ _ (accCoverFirst c (grid1.coords t) (ms1_0 t) (hs1_0 t) (ms1_1 t) (hs1_1 t) (ms1_2 t) (hs1_2 t) (ms1_3 t) (hs1_3 t) accM1 (Memref.isWhole_whole _) ((isFirstK_iff t).mpr h0) (fun h => h1 ((isLastK_iff t).mp h)) (iblk1 V c 0 t) (iblk1 V c 1 t) (iblk1 V c 2 t))
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 12 = 11
    · rw [show (dat1 V c).leavesExact 3 t = owns (c : Thread nD τ) (ms1_3 t) fullShare ((dat1 V c).after 3 t) from by
        unfold Dat.leavesExact; rw [live1_3 t ((isLastK_iff t).mpr h1)], after1_3 V]
      rw [outsAt1_C V c t h0 h1]
      unfold outLast accLast; (try dsimp only)
      rw [PhiS1_castSucc V c t, PhiS1_pos V c _ _ hz]
      iintro ⟨⟨⟨HR, HS⟩, Hg⟩, Ho, ⟨%d0, H0⟩, ⟨%d1, H1⟩, ⟨%d2, H2⟩, ⟨%d3, H3⟩⟩
      iapply ((runLast c (grid1.coords t) (ms1_0 t) (hs1_0 t) (ms1_1 t) (hs1_1 t) (ms1_2 t) (hs1_2 t) (ms1_3 t) (hs1_3 t) accM1 (Memref.isWhole_whole _) (fun h => h0 ((isFirstK_iff t).mp h)) ((isLastK_iff t).mpr h1) (iblk1 V c 0 t) (iblk1 V c 1 t) (iblk1 V c 2 t) (outsAt1 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HR HS Hg]
      · isplitl [HR HS]
        · isplitl [HR]; · iexact HR
          unfold owns; iexists _; isplitr
          swap; · iexact HS
          ipureintro; exact View.read_writes_of_cover _ _ _ _ _ (accCoverLast c (grid1.coords t) (ms1_0 t) (hs1_0 t) (ms1_1 t) (hs1_1 t) (ms1_2 t) (hs1_2 t) (ms1_3 t) (hs1_3 t) accM1 (Memref.isWhole_whole _) (fun h => h0 ((isFirstK_iff t).mp h)) ((isLastK_iff t).mpr h1) (iblk1 V c 0 t) (iblk1 V c 1 t) (iblk1 V c 2 t) (outsAt1 V c (t.val - 1) (Nat.lt_of_le_of_lt (Nat.sub_le _ _) t.isLt)).2)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast c (grid1.coords t) (ms1_0 t) (hs1_0 t) (ms1_1 t) (hs1_1 t) (ms1_2 t) (hs1_2 t) (ms1_3 t) (hs1_3 t) accM1 (Memref.isWhole_whole _) (fun h => h0 ((isFirstK_iff t).mp h)) ((isLastK_iff t).mpr h1) (iblk1 V c 0 t) (iblk1 V c 1 t) (iblk1 V c 2 t) (outsAt1 V c (t.val - 1) (Nat.lt_of_le_of_lt (Nat.sub_le _ _) t.isLt)).2)
    · rw [Dat.leavesExact_idle (dat1 V c) 3 t (idle1_3 t (fun h => h1 ((isLastK_iff t).mp h))) (noFlush1_3 t (fun h => h1 ((isLastK_iff t).mp h)))]
      rw [outsAt1_B V c t h0 h1]
      unfold accMiddle; (try dsimp only)
      rw [PhiS1_castSucc V c t, PhiS1_pos V c _ _ hz]
      iintro ⟨⟨⟨HR, HS⟩, Hg⟩, Ho, ⟨%d0, H0⟩, ⟨%d1, H1⟩, ⟨%d2, H2⟩, ⟨%d3, H3⟩⟩
      iapply ((runMiddle c (grid1.coords t) (ms1_0 t) (hs1_0 t) (ms1_1 t) (hs1_1 t) (ms1_2 t) (hs1_2 t) (ms1_3 t) (hs1_3 t) accM1 (Memref.isWhole_whole _) (fun h => h0 ((isFirstK_iff t).mp h)) (fun h => h1 ((isLastK_iff t).mp h)) (iblk1 V c 0 t) (iblk1 V c 1 t) (iblk1 V c 2 t) (outsAt1 V c (t.val - 1) (Nat.lt_of_le_of_lt (Nat.sub_le _ _) t.isLt)).2).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HR HS Hg]
      · isplitl [HR HS]
        · isplitl [HR]; · iexact HR
          unfold owns; iexists _; isplitr
          swap; · iexact HS
          ipureintro; exact View.read_writes_of_cover _ _ _ _ _ (accCoverMiddle c (grid1.coords t) (ms1_0 t) (hs1_0 t) (ms1_1 t) (hs1_1 t) (ms1_2 t) (hs1_2 t) (ms1_3 t) (hs1_3 t) accM1 (Memref.isWhole_whole _) (fun h => h0 ((isFirstK_iff t).mp h)) (fun h => h1 ((isLastK_iff t).mp h)) (iblk1 V c 0 t) (iblk1 V c 1 t) (iblk1 V c 2 t) (outsAt1 V c (t.val - 1) (Nat.lt_of_le_of_lt (Nat.sub_le _ _) t.isLt)).2)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS⟩, Hg⟩
  isplitl [HR HS]
  · isplitl [HR]; · iexact HR
    iexists _; iexact HS
  iexact Hg

theorem hout1 (c : Dev nD) : (dat1 V c).Φ (Fin.last cfg1.N) ⊢ Pipeline.ΦA spec1 c :=
  Phi_out1 V c _ (by rw [Fin.val_last]; have : cfg1.N = 24 := N_1; omega)

end Region

end Cert.Kernel.Hand

end
-- ==== Proof.K.Run.lean ====
import proofs.«406476_j70849780514835_3_alg».proof.Proof.Gen.Kernel.Regions
import proofs.«406476_j70849780514835_3_alg».proof.Proof.K.R0Frame
import proofs.«406476_j70849780514835_3_alg».proof.Proof.K.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The whole program in order: stretches of array operations around the two blocked products; between two items
    every array is a known function of the launch contents. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

def outsFirst : Gen.Outs (F := F) := fun _ r c =>
  if h : r = main_v113 then h ▸ (dat0 (fun c b => Gen.V9 m c b) c).arrAt 3 cfg0.N else Gen.V9 m c r

def outsK : Gen.Outs (F := F) := fun j r c =>
  if j = 10 then outsFirst m j r c
  else if h : r = main_v137 then h ▸ (dat1 (fun c b => Gen.V11 m (outsFirst m) c b) c).arrAt 3 cfg1.N
  else Gen.V11 m (outsFirst m) c r

theorem outsK_10 (c : Dev nD) :
    outsK m 10 main_v113 c = (dat0 (fun c b => Gen.V9 m c b) c).arrAt 3 cfg0.N := by
  unfold outsK outsFirst
  rw [if_pos rfl, dif_pos rfl]

theorem V11_outsK (c : Dev nD) : Gen.V11 m (outsK m) c = Gen.V11 m (outsFirst m) c := by
  have h : outsK m 10 main_v113 c = outsFirst m 10 main_v113 c := by unfold outsK; rw [if_pos rfl]
  unfold Gen.V11 Gen.V10
  rw [h]

theorem outsK_12 (c : Dev nD) :
    outsK m 12 main_v137 c = (dat1 (fun c b => Gen.V11 m (outsK m) c b) c).arrAt 3 cfg1.N := by
  have hV : (fun (c : Dev nD) (b : Ref sig .tc) => Gen.V11 m (outsK m) c b)
      = fun (c : Dev nD) (b : Ref sig .tc) => Gen.V11 m (outsFirst m) c b := by
    funext c b; rw [V11_outsK]
  rw [hV]
  unfold outsK
  rw [if_neg (by decide), dif_pos rfl]

def pdats : (p : Fin 2) → (c : Dev nD) → Dat τ (Elt F) Unit ℕ (UR sig nD τ) ℕ (cfgs p) c
  | ⟨0, _⟩ => fun c => dat0 (fun c b => Gen.V9 m c b) c
  | ⟨1, _⟩ => fun c => dat1 (fun c b => Gen.V11 m (outsK m) c b) c

abbrev mainVariants : Variants := Variants.none

abbrev mainPairs : GSem nD τ sig → Finset Unit := fun _ => ∅

abbrev mainLevels : GSem nD τ sig → Unit → ℕ := fun _ _ => 0

abbrev coreRest (c : Dev nD) : sProp 𝕄 :=
  iprop((∃ r, prngReg c r) ∗ ∃ W, owes (c : Thread nD τ) (0 : CellTallies nD τ sig Unit) W)

abbrev coreRestAt : Fin 3 → Dev nD → sProp 𝕄 := fun _ c => coreRest c

theorem exit0_arrays (c : Dev nD) (w : Fin cfg0.W) :
    (pdats m 0 c).arrAt w cfg0.N = (fun b : Ref sig .tc => Gen.V10 m (outsK m) c b) (Pipeline.arrRef spec0 w) := by
  match w with
  | ⟨0, _⟩ =>
    exact ((dat0 (fun c b => Gen.V9 m c b) c).arrAt_in 0 rfl _).trans
      ((A_eq0 _ c 0).trans (Gen.V10_of m (outsK m) c main_v110 (by decide)).symm)
  | ⟨1, _⟩ =>
    exact ((dat0 (fun c b => Gen.V9 m c b) c).arrAt_in 1 rfl _).trans
      ((A_eq0 _ c 1).trans (Gen.V10_of m (outsK m) c main_v111 (by decide)).symm)
  | ⟨2, _⟩ =>
    exact ((dat0 (fun c b => Gen.V9 m c b) c).arrAt_in 2 rfl _).trans
      ((A_eq0 _ c 2).trans (Gen.V10_of m (outsK m) c main_v112 (by decide)).symm)
  | ⟨3, _⟩ =>
    refine (outsK_10 m c).symm.trans ?_
    show outsK m 10 main_v113 c = Function.update (Gen.V9 m c) (Proc.devRef .tc main_v113) (outsK m 10 main_v113 c) (Proc.devRef .tc main_v113)
    rw [Function.update_self]

theorem exit0_others (c : Dev nD) : ∀ b : Ref sig .tc, b ∉ Finset.univ.image (Pipeline.arrRef spec0) →
    (fun b : Ref sig .tc => Gen.V10 m (outsK m) c b) b = (fun b : Ref sig .tc => Gen.V9 m c b) b :=
  fun b hb => Gen.V10_of m (outsK m) c b fun hmem => hb (by
    rw [List.mem_singleton] at hmem
    subst hmem
    exact Finset.mem_image.mpr ⟨3, Finset.mem_univ _, rfl⟩)

theorem exit1_arrays (c : Dev nD) (w : Fin cfg1.W) :
    (pdats m 1 c).arrAt w cfg1.N = (fun b : Ref sig .tc => Gen.V12 m (outsK m) c b) (Pipeline.arrRef spec1 w) := by
  match w with
  | ⟨0, _⟩ =>
    exact ((dat1 (fun c b => Gen.V11 m (outsK m) c b) c).arrAt_in 0 rfl _).trans
      ((A_eq1 _ c 0).trans (Gen.V12_of m (outsK m) c main_v134 (by decide)).symm)
  | ⟨1, _⟩ =>
    exact ((dat1 (fun c b => Gen.V11 m (outsK m) c b) c).arrAt_in 1 rfl _).trans
      ((A_eq1 _ c 1).trans (Gen.V12_of m (outsK m) c main_v135 (by decide)).symm)
  | ⟨2, _⟩ =>
    exact ((dat1 (fun c b => Gen.V11 m (outsK m) c b) c).arrAt_in 2 rfl _).trans
      ((A_eq1 _ c 2).trans (Gen.V12_of m (outsK m) c main_v136 (by decide)).symm)
  | ⟨3, _⟩ =>
    refine (outsK_12 m c).symm.trans ?_
    show outsK m 12 main_v137 c = Function.update (Gen.V11 m (outsK m) c) (Proc.devRef .tc main_v137) (outsK m 12 main_v137 c) (Proc.devRef .tc main_v137)
    rw [Function.update_self]

theorem exit1_others (c : Dev nD) : ∀ b : Ref sig .tc, b ∉ Finset.univ.image (Pipeline.arrRef spec1) →
    (fun b : Ref sig .tc => Gen.V12 m (outsK m) c b) b = (fun b : Ref sig .tc => Gen.V11 m (outsK m) c b) b :=
  fun b hb => Gen.V12_of m (outsK m) c b fun hmem => hb (by
    rw [List.mem_singleton] at hmem
    subst hmem
    exact Finset.mem_image.mpr ⟨3, Finset.mem_univ _, rfl⟩)

set_option backward.isDefEq.respectTransparency.types false in
def region0 : RegionSeg (pcfgs (F := F)) Gen.adm (pdats m) () defs₀ mainVariants mainPairs mainLevels 0 where
  win := Gen.launch0.win.to₀
  block_pos := Gen.launch0.block_pos
  stage_whole := Gen.launch0.stage_whole
  K := PEmpty
  osem k := k.elim
  ho := Pipeline.OwnSemFacts.none _
  hbody c := (body_obligation0 (fun c b => Gen.V9 m c b) c).loose
  hwaits := Pipeline.hwaits_of_owed_zero _ _ _ _ mainPairs mainLevels 0 fun _ _ => rfl
  pre c := iprop(StableHlo.held (c : Thread nD τ) (Pipeline.ucRefs τ sig) (Gen.V9 m c) ∗ coreRest c)
  post c := iprop(StableHlo.held (c : Thread nD τ) (Pipeline.ucRefs τ sig) (Gen.V10 m (outsK m) c) ∗ coreRest c)
  X c := iprop(∃ r, prngReg c r)
  Y c := iprop(∃ r, prngReg c r)
  Z c := Pipeline.unscopedRest (Ix := Unit) (Name := ℕ) (U := UR sig nD τ) (Lvl := ℕ) spec0 c (fun b : Ref sig .tc => Gen.V9 m c b)
  hentry c := by
    rw [Pipeline.ownSems0_none]
    have hsplit := Pipeline.arrays_of_unscopedBufs (p := 0) (pcfgs (F := F)) Gen.adm (pdats m) Gen.launch0.win Gen.launch0.arr_whole c
      ((pdats m 0 c).share_full fun _ => rfl) (fun b : Ref sig .tc => Gen.V9 m c b) fun w => A_eq0 (fun c b => Gen.V9 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (fun c b => Gen.V9 m c b) c)
    unfold Pipeline.ΦA
    iintro ⟨Hp, -, Hr⟩
    isplitl [Hr]; · iexact Hr
    iexact Hp
  hout c := by
    rw [Pipeline.ownSems0_none]
    refine BIBase.Entails.trans (hout0 (fun c b => Gen.V9 m c b) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      Gen.launch0.win Gen.launch0.arr_whole c (pdats m) ((pdats m 0 c).share_full fun _ => rfl)
      (fun b : Ref sig .tc => Gen.V9 m c b) (fun b : Ref sig .tc => Gen.V10 m (outsK m) c b) ((pdats m 0 c).arrAt · cfg0.N) (exit0_arrays m c) (exit0_others m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def region1 : RegionSeg (pcfgs (F := F)) Gen.adm (pdats m) () defs₀ mainVariants mainPairs mainLevels 1 where
  win := Gen.launch1.win.to₀
  block_pos := Gen.launch1.block_pos
  stage_whole := Gen.launch1.stage_whole
  K := PEmpty
  osem k := k.elim
  ho := Pipeline.OwnSemFacts.none _
  hbody c := (body_obligation1 (fun c b => Gen.V11 m (outsK m) c b) c).loose
  hwaits := Pipeline.hwaits_of_owed_zero _ _ _ _ mainPairs mainLevels 1 fun _ _ => rfl
  pre c := iprop(StableHlo.held (c : Thread nD τ) (Pipeline.ucRefs τ sig) (Gen.V11 m (outsK m) c) ∗ coreRest c)
  post c := iprop(StableHlo.held (c : Thread nD τ) (Pipeline.ucRefs τ sig) (Gen.V12 m (outsK m) c) ∗ coreRest c)
  X c := iprop(∃ r, prngReg c r)
  Y c := iprop(∃ r, prngReg c r)
  Z c := Pipeline.unscopedRest (Ix := Unit) (Name := ℕ) (U := UR sig nD τ) (Lvl := ℕ) spec1 c (fun b : Ref sig .tc => Gen.V11 m (outsK m) c b)
  hentry c := by
    rw [Pipeline.ownSems0_none]
    have hsplit := Pipeline.arrays_of_unscopedBufs (p := 1) (pcfgs (F := F)) Gen.adm (pdats m) Gen.launch1.win Gen.launch1.arr_whole c
      ((pdats m 1 c).share_full fun _ => rfl) (fun b : Ref sig .tc => Gen.V11 m (outsK m) c b) fun w => A_eq1 (fun c b => Gen.V11 m (outsK m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (fun c b => Gen.V11 m (outsK m) c b) c)
    unfold Pipeline.ΦA
    iintro ⟨Hp, -, Hr⟩
    isplitl [Hr]; · iexact Hr
    iexact Hp
  hout c := by
    rw [Pipeline.ownSems0_none]
    refine BIBase.Entails.trans (hout1 (fun c b => Gen.V11 m (outsK m) c b) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      Gen.launch1.win Gen.launch1.arr_whole c (pdats m) ((pdats m 1 c).share_full fun _ => rfl)
      (fun b : Ref sig .tc => Gen.V11 m (outsK m) c b) (fun b : Ref sig .tc => Gen.V12 m (outsK m) c b) ((pdats m 1 c).arrAt · cfg1.N) (exit1_arrays m c) (exit1_others m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem launch_element : (ownU (initOf (Pipeline.cells cfgs Gen.cellOf_inj) (Pipeline.launchToks cfgs Gen.cellOf_inj)) : sProp 𝕄)
    ⊢ |={Set.univ}=> iprop(BI.own ((emb₁ : Emb _ 𝕄) (initOf (Pipeline.cells cfgs Gen.cellOf_inj) (Pipeline.launchToks cfgs Gen.cellOf_inj)))
        ∗ bigSep Finset.univ fun _ : Dev nD => (BI.emp : sProp 𝕄)) := by
  iintro Hu; imodintro
  isplitl [Hu]
  · iapply (show (ownU (initOf (Pipeline.cells cfgs Gen.cellOf_inj) (Pipeline.launchToks cfgs Gen.cellOf_inj)) : sProp 𝕄)
        ⊢ BI.own ((emb₁ : Emb _ 𝕄) (initOf (Pipeline.cells cfgs Gen.cellOf_inj) (Pipeline.launchToks cfgs Gen.cellOf_inj))) from .rfl)
    iexact Hu
  iapply (show (BI.emp : sProp 𝕄) ⊢ bigSep Finset.univ (fun _ : Dev nD => (BI.emp : sProp 𝕄)) from by rw [BI.bigSep_emp_const])
  iempintro

theorem coreRest_launch (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts mainPairs mainLevels)
      ⊢ (|={Set.univ}=> bigSep Finset.univ (coreRestAt (F := F) 0) : sProp 𝕄) := by
  refine Pipeline.initEach mainPairs mainLevels fun c => ?_
  iintro ⟨⟨-, HO, -, Hp, -⟩, -⟩
  imodintro
  isplitl [Hp]; · iexists _; iexact Hp
  iexists ∅; iexact HO

theorem coreRest_end (c : Dev nD) : coreRestAt (F := F) 2 c ⊢ (iprop(∃ W, owes (c : Thread nD τ) (0 : CellTallies nD τ sig Unit) W) : sProp 𝕄) := by
  iintro ⟨-, HO⟩
  iexact HO

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Gen.frame_cond m emb₁ () mainVariants mainPairs mainLevels (fun _ _ => rfl) ρ (outsK m) (pdats m) 0 (fun _ => (BI.emp : sProp 𝕄))
    (initOf (Pipeline.cells cfgs Gen.cellOf_inj) (Pipeline.launchToks cfgs Gen.cellOf_inj)) launch_element coreRestAt (coreRest_launch ρ) coreRest_end
    (region0 m) (fun c => .rfl) (fun c => .rfl) (region1 m) (fun c => .rfl) (fun c => .rfl)

set_option backward.isDefEq.respectTransparency.types false in
theorem run_result (ρ : Dev nD → PrngReg) :
    θ_run defs (onTc (τ := τ) (main (F := F))) ⟨m, fun _ => 0, ρ⟩ (fun r => ∀ c : Dev nD,
      r.2.mem ((c.tc : Thread nD τ).loc main_v147) = Gen.V15 m (outsK m) c main_v147
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine Pipeline.θ_run_regions_kit_dev (pcfgs (F := F)) Gen.adm (pdats m) () Gen.cellOf_inj emb₁ defs₀ mainVariants mainPairs mainLevels m ρ main
    (Gen.segs m (outsK m) mainVariants mainPairs mainLevels coreRestAt () (pdats m) (region0 m) (region1 m))
    (fun c Q => by
      rewrite [Gen.main_chain c, Seg.run_eq_chain,
        show (Gen.segs m (outsK m) mainVariants mainPairs mainLevels coreRestAt () (pdats m) (region0 m) (region1 m) c).map Seg.prog = [
          StableHlo.seq Gen.hostOps0,
          StableHlo.seq Gen.hostOps0_1,
          StableHlo.seq Gen.hostOps0_2,
          StableHlo.seq Gen.hostOps0_3,
          StableHlo.seq Gen.hostOps0_4,
          StableHlo.seq Gen.hostOps0_5,
          StableHlo.seq Gen.hostOps0_6,
          StableHlo.seq Gen.hostOps0_7,
          StableHlo.seq Gen.hostOps0_8,
          Prog.lift (.customCall (Pipeline.entry 0) ()),
          StableHlo.seq Gen.hostOps1,
          Prog.lift (.customCall (Pipeline.entry 1) ()),
          StableHlo.seq Gen.hostOps2,
          StableHlo.seq Gen.hostOps2_1,
          StableHlo.seq Gen.hostOps2_2 ] from rfl]
      exact .rfl)
    (fun c => by simp only [Gen.segs, Seg.pipes_host, Seg.pipes_region, Seg.pipes_nil]; decide)
    (0 : Dev nD → CellTallies nD τ sig Unit) (fun _ _ => rfl) (fun _ => (BI.emp : sProp 𝕄))
    (initOf (Pipeline.cells cfgs Gen.cellOf_inj) (Pipeline.launchToks cfgs Gen.cellOf_inj)) launch_element
    (T₀ := fun c => iprop(StableHlo.held (c : Thread nD τ) (Pipeline.ucRefs τ sig) (Gen.V0 m c) ∗ coreRestAt 0 c))
    (Tₙ := fun c => StableHlo.held (c : Thread nD τ) (Pipeline.ucRefs τ sig) (Gen.V15 m (outsK m) c))
    (hch := fun c => ⟨.rfl, .rfl, .rfl, .rfl, .rfl, .rfl, .rfl, .rfl, .rfl, .rfl, .rfl, .rfl, .rfl, .rfl, .rfl, sep_mono .rfl (coreRest_end c)⟩)
    (hinit := ?_) (QY := fun c s => s.mem ((c.tc : Thread nD τ).loc main_v147) = Gen.V15 m (outsK m) c main_v147 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (coreRest_launch (F := F) ρ) $$ [Hr Hla] with HE
    · isplitl [Hr]; · iexact Hr
      iexact Hla
    imodintro
    rw [bigSep_sep' Finset.univ (fun c : Dev nD => StableHlo.held (c : Thread nD τ) (Pipeline.ucRefs τ sig) (Gen.V0 m c)) (coreRestAt (F := F) 0)]
    isplitl [Hh]; · iexact Hh
    iexact HE
  ·
    unfold StableHlo.held
    iintro ⟨Hh, HSI⟩
    ihave Hr := (pointsTo_read_all (Pipeline.ucRefs τ sig) (fun b => ((c : Thread nD τ).1, b)) (Gen.V15 m (outsK m) c) s') $$ [Hh HSI]
    · isplitl [Hh] <;> iassumption
    icases Hr with ⟨%h, HSI⟩
    imodintro
    isplitr
    · ipureintro
      exact ⟨h (Proc.devRef .tc main_v147) (Finset.mem_filter.mpr ⟨StableHlo.devRef_mem_tcRefs main_v147, by decide⟩),
        (h (Proc.devRef .tc main_arg0) (Finset.mem_filter.mpr ⟨StableHlo.devRef_mem_tcRefs main_arg0, by decide⟩)).trans (Gen.V15_main_arg0 m (outsK m) c),
        (h (Proc.devRef .tc main_arg1) (Finset.mem_filter.mpr ⟨StableHlo.devRef_mem_tcRefs main_arg1, by decide⟩)).trans (Gen.V15_main_arg1 m (outsK m) c),
        (h (Proc.devRef .tc main_arg2) (Finset.mem_filter.mpr ⟨StableHlo.devRef_mem_tcRefs main_arg2, by decide⟩)).trans (Gen.V15_main_arg2 m (outsK m) c),
        (h (Proc.devRef .tc main_arg3) (Finset.mem_filter.mpr ⟨StableHlo.devRef_mem_tcRefs main_arg3, by decide⟩)).trans (Gen.V15_main_arg3 m (outsK m) c),
        (h (Proc.devRef .tc main_arg4) (Finset.mem_filter.mpr ⟨StableHlo.devRef_mem_tcRefs main_arg4, by decide⟩)).trans (Gen.V15_main_arg4 m (outsK m) c),
        (h (Proc.devRef .tc main_arg5) (Finset.mem_filter.mpr ⟨StableHlo.devRef_mem_tcRefs main_arg5, by decide⟩)).trans (Gen.V15_main_arg5 m (outsK m) c),
        (h (Proc.devRef .tc main_arg6) (Finset.mem_filter.mpr ⟨StableHlo.devRef_mem_tcRefs main_arg6, by decide⟩)).trans (Gen.V15_main_arg6 m (outsK m) c),
        (h (Proc.devRef .tc main_arg7) (Finset.mem_filter.mpr ⟨StableHlo.devRef_mem_tcRefs main_arg7, by decide⟩)).trans (Gen.V15_main_arg7 m (outsK m) c),
        (h (Proc.devRef .tc main_arg8) (Finset.mem_filter.mpr ⟨StableHlo.devRef_mem_tcRefs main_arg8, by decide⟩)).trans (Gen.V15_main_arg8 m (outsK m) c),
        (h (Proc.devRef .tc main_arg9) (Finset.mem_filter.mpr ⟨StableHlo.devRef_mem_tcRefs main_arg9, by decide⟩)).trans (Gen.V15_main_arg9 m (outsK m) c),
        (h (Proc.devRef .tc main_arg10) (Finset.mem_filter.mpr ⟨StableHlo.devRef_mem_tcRefs main_arg10, by decide⟩)).trans (Gen.V15_main_arg10 m (outsK m) c),
        (h (Proc.devRef .tc main_arg11) (Finset.mem_filter.mpr ⟨StableHlo.devRef_mem_tcRefs main_arg11, by decide⟩)).trans (Gen.V15_main_arg11 m (outsK m) c),
        (h (Proc.devRef .tc main_arg12) (Finset.mem_filter.mpr ⟨StableHlo.devRef_mem_tcRefs main_arg12, by decide⟩)).trans (Gen.V15_main_arg12 m (outsK m) c),
        (h (Proc.devRef .tc main_arg13) (Finset.mem_filter.mpr ⟨StableHlo.devRef_mem_tcRefs main_arg13, by decide⟩)).trans (Gen.V15_main_arg13 m (outsK m) c)⟩
    · iexact HSI

end Cert.Kernel.Hand

end
-- ==== Proof.KI.R0Runs.lean ====
import proofs.«406476_j70849780514835_3_alg».proof.Proof.Gen.KernelIdeal.Launch
import proofs.«406476_j70849780514835_3_alg».proof.Proof.Gen.KernelIdeal.Skeleton
import proofs.«406476_j70849780514835_3_alg».proof.Proof.Gen.KernelIdeal.Points
import Idealize.ShloMosaic.Lib.Pipeline.FrameBody
import Idealize.ShloMosaic.Lib.Ring
import Idealize.ShloMosaic.Lib.Tactic

/-! Layer 1's grid point t = 24·j + k: the accumulator is zeroed at k = 0, gains one block product at every k, and
    at k = 23 the biased sum clipped at zero is output block j. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev firstK0 (i : grid0.Coords) : Prop := (Scalar.cmpi .ne (Scalar.extui (Scalar.cmpi .eq (BitVec.ofNat 32 (i 1).val) 0#32)) 0#32) = 1#1

theorem firstK0_iff : ∀ t : Fin cfg0.N, firstK0 (grid0.coords t) ↔ t.val % 24 = 0 :=
  (by decide +kernel : ∀ t : Fin grid0.N, firstK0 (grid0.coords t) ↔ t.val % 24 = 0)

abbrev lastK0 (i : grid0.Coords) : Prop := k0_cond2 i = 1#1

theorem lastK0_iff : ∀ t : Fin cfg0.N, lastK0 (grid0.coords t) ↔ t.val % 24 = 23 :=
  (by decide +kernel : ∀ t : Fin grid0.N, lastK0 (grid0.coords t) ↔ t.val % 24 = 23)

theorem live0_0 : ∀ t : Fin cfg0.N, cfg0.idle 0 (grid0.coords t) = false := by decide +kernel

theorem live0_1 : ∀ t : Fin cfg0.N, cfg0.idle 1 (grid0.coords t) = false := by decide +kernel

theorem live0_2 : ∀ t : Fin cfg0.N, cfg0.idle 2 (grid0.coords t) = false := by decide +kernel

theorem idle0_3 : ∀ t : Fin cfg0.N, ¬lastK0 (grid0.coords t) → cfg0.idle 3 (grid0.coords t) = true := by decide +kernel

theorem noFlush0_3 : ∀ t : Fin cfg0.N, ¬lastK0 (grid0.coords t) → (cfg0.win 3).flush t = false := by decide +kernel

theorem live0_3 : ∀ t : Fin cfg0.N, lastK0 (grid0.coords t) → cfg0.idle 3 (grid0.coords t) = false := by decide +kernel

abbrev VO0_3 : View sig .tc .vmem S400x2048 .f32 := (Memref.whole cc0_stg3_0 : Memref sig .tc .vmem S400x2048 .f32).view

abbrev ms0_0 (t : Fin cfg0.N) : Memref sig .tc .vmem S400x1024 .bf16 := win0_0.stage (cfg0.slots t 0)

abbrev hs0_0 (t : Fin cfg0.N) : (ms0_0 t).IsWhole := hstage0_0 ((cfg0.slots t 0).cast nbuf0_0)

abbrev ms0_1 (t : Fin cfg0.N) : Memref sig .tc .vmem S1024x2048 .f32 := win0_1.stage (cfg0.slots t 1)

abbrev hs0_1 (t : Fin cfg0.N) : (ms0_1 t).IsWhole := hstage0_1 ((cfg0.slots t 1).cast nbuf0_1)

abbrev ms0_2 (t : Fin cfg0.N) : Memref sig .tc .vmem S1x2048 .f32 := win0_2.stage (cfg0.slots t 2)

abbrev hs0_2 (t : Fin cfg0.N) : (ms0_2 t).IsWhole := hstage0_2 ((cfg0.slots t 2).cast nbuf0_2)

abbrev ms0_3 (t : Fin cfg0.N) : Memref sig .tc .vmem S400x2048 .f32 := win0_3.stage (cfg0.slots t 3)

abbrev hs0_3 (t : Fin cfg0.N) : (ms0_3 t).IsWhole := hstage0_3 ((cfg0.slots t 3).cast nbuf0_3)

abbrev scM0 : Memref sig .tc .vmem S400x2048 .f32 := Memref.whole cc0_scratch0

abbrev VS0 : View sig .tc .vmem S400x2048 .f32 := scM0.view

theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

abbrev others0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA; rw [scopedRest0_split]; simp only [scM0, owns_whole]; try rfl

end Cert.KernelIdeal.Hand

end
-- ==== Proof.KI.R0RunFirst.lean ====
import proofs.«406476_j70849780514835_3_alg».proof.Proof.KI.R0Runs

/-! Layer 1's body at a first k. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
noncomputable def run0_first (c : Dev nD) (i : grid0.Coords) (arg2 : Memref sig .tc .vmem S400x1024 .bf16) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S400x2048 .f32) (harg5 : arg5.IsWhole) (arg6 : Memref sig .tc .vmem S400x2048 .f32) (harg6 : arg6.IsWhole) (hA : firstK0 i) (hZ : ¬lastK0 i)
    (x0 : Vec F S400x1024 .bf16) (x1 : Vec F S1024x2048 .f32) (x2 : Vec F S1x2048 .f32) :
    Σ' (L3 : List (View.Piece (Elt F) S400x2048 .f32)), { LS : List (View.Piece (Elt F) S400x2048 .f32) //
      ∀ (xi3 : Vec F S400x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__matmul_kernel i arg2 harg2 arg3 harg3 arg4 harg4 arg5 harg5 arg6 harg6) K } := by
  refine ⟨[], ?_, fun xi3 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hA | exact hZ)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.KI.R0RunMid.lean ====
import proofs.«406476_j70849780514835_3_alg».proof.Proof.KI.R0RunFirst

/-! Layer 1's body at a middle k. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
noncomputable def run0_mid (c : Dev nD) (i : grid0.Coords) (arg2 : Memref sig .tc .vmem S400x1024 .bf16) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S400x2048 .f32) (harg5 : arg5.IsWhole) (arg6 : Memref sig .tc .vmem S400x2048 .f32) (harg6 : arg6.IsWhole) (hA : ¬firstK0 i) (hZ : ¬lastK0 i)
    (x0 : Vec F S400x1024 .bf16) (x1 : Vec F S1024x2048 .f32) (x2 : Vec F S1x2048 .f32) (xs : Vec F S400x2048 .f32) :
    Σ' (L3 : List (View.Piece (Elt F) S400x2048 .f32)), { LS : List (View.Piece (Elt F) S400x2048 .f32) //
      ∀ (xi3 : Vec F S400x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__matmul_kernel i arg2 harg2 arg3 harg3 arg4 harg4 arg5 harg5 arg6 harg6) K } := by
  refine ⟨[], ?_, fun xi3 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hA | exact hZ)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.KI.R0RunLast.lean ====
import proofs.«406476_j70849780514835_3_alg».proof.Proof.KI.R0RunMid

/-! Layer 1's body at a last k. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
noncomputable def run0_last (c : Dev nD) (i : grid0.Coords) (arg2 : Memref sig .tc .vmem S400x1024 .bf16) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S400x2048 .f32) (harg5 : arg5.IsWhole) (arg6 : Memref sig .tc .vmem S400x2048 .f32) (harg6 : arg6.IsWhole) (hA : ¬firstK0 i) (hZ : lastK0 i)
    (x0 : Vec F S400x1024 .bf16) (x1 : Vec F S1024x2048 .f32) (x2 : Vec F S1x2048 .f32) (xs : Vec F S400x2048 .f32) :
    Σ' (L3 : List (View.Piece (Elt F) S400x2048 .f32)), { LS : List (View.Piece (Elt F) S400x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__matmul_kernel i arg2 harg2 arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hA | exact hZ)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Hand

end
-- ==== Proof.KI.R0Frame.lean ====
import proofs.«406476_j70849780514835_3_alg».proof.Proof.KI.R0RunLast
import Idealize.ShloMosaic.Lib.Pipeline.Value

/-! What the points of layer 1's grid leave, by recursion on t, and the obligation every point's body meets. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section

variable (c : Dev nD) (i : grid0.Coords) (arg2 : Memref sig .tc .vmem S400x1024 .bf16) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S400x2048 .f32) (harg5 : arg5.IsWhole) (arg6 : Memref sig .tc .vmem S400x2048 .f32) (harg6 : arg6.IsWhole)

def out0_first (hA : firstK0 i) (hZ : ¬lastK0 i) (x0 : Vec F S400x1024 .bf16) (x1 : Vec F S1024x2048 .f32) (x2 : Vec F S1x2048 .f32) : Vec F S400x2048 .f32 :=
  VO0_3.read (Elt F) (VO0_3.writes (Elt F) VO0_3.junk (run0_first c i arg2 harg2 arg3 harg3 arg4 harg4 arg5 harg5 arg6 harg6 hA hZ x0 x1 x2).1)

theorem acover0_first (hA : firstK0 i) (hZ : ¬lastK0 i) (x0 : Vec F S400x1024 .bf16) (x1 : Vec F S1024x2048 .f32) (x2 : Vec F S1x2048 .f32) (y : S400x2048.Idx) :
    ∃ pc ∈ (run0_first c i arg2 harg2 arg3 harg3 arg4 harg4 arg5 harg5 arg6 harg6 hA hZ x0 x1 x2).2.1, y ∈ pc.1.set :=
  View.cover_of_tiledL (run0_first c i arg2 harg2 arg3 harg3 arg4 harg4 arg5 harg5 arg6 harg6 hA hZ x0 x1 x2).2.1 S400x2048.size (by sl_kernel_rfl) y

def acc0_first (hA : firstK0 i) (hZ : ¬lastK0 i) (x0 : Vec F S400x1024 .bf16) (x1 : Vec F S1024x2048 .f32) (x2 : Vec F S1x2048 .f32) : Vec F S400x2048 .f32 :=
  VS0.read (Elt F) (VS0.writes (Elt F) VS0.junk (run0_first c i arg2 harg2 arg3 harg3 arg4 harg4 arg5 harg5 arg6 harg6 hA hZ x0 x1 x2).2.1)

def out0_mid (hA : ¬firstK0 i) (hZ : ¬lastK0 i) (x0 : Vec F S400x1024 .bf16) (x1 : Vec F S1024x2048 .f32) (x2 : Vec F S1x2048 .f32) (xs : Vec F S400x2048 .f32) : Vec F S400x2048 .f32 :=
  VO0_3.read (Elt F) (VO0_3.writes (Elt F) VO0_3.junk (run0_mid c i arg2 harg2 arg3 harg3 arg4 harg4 arg5 harg5 arg6 harg6 hA hZ x0 x1 x2 xs).1)

theorem acover0_mid (hA : ¬firstK0 i) (hZ : ¬lastK0 i) (x0 : Vec F S400x1024 .bf16) (x1 : Vec F S1024x2048 .f32) (x2 : Vec F S1x2048 .f32) (xs : Vec F S400x2048 .f32) (y : S400x2048.Idx) :
    ∃ pc ∈ (run0_mid c i arg2 harg2 arg3 harg3 arg4 harg4 arg5 harg5 arg6 harg6 hA hZ x0 x1 x2 xs).2.1, y ∈ pc.1.set :=
  View.cover_of_tiledL (run0_mid c i arg2 harg2 arg3 harg3 arg4 harg4 arg5 harg5 arg6 harg6 hA hZ x0 x1 x2 xs).2.1 S400x2048.size (by sl_kernel_rfl) y

def acc0_mid (hA : ¬firstK0 i) (hZ : ¬lastK0 i) (x0 : Vec F S400x1024 .bf16) (x1 : Vec F S1024x2048 .f32) (x2 : Vec F S1x2048 .f32) (xs : Vec F S400x2048 .f32) : Vec F S400x2048 .f32 :=
  VS0.read (Elt F) (VS0.writes (Elt F) VS0.junk (run0_mid c i arg2 harg2 arg3 harg3 arg4 harg4 arg5 harg5 arg6 harg6 hA hZ x0 x1 x2 xs).2.1)

theorem ocover0_last (hA : ¬firstK0 i) (hZ : lastK0 i) (x0 : Vec F S400x1024 .bf16) (x1 : Vec F S1024x2048 .f32) (x2 : Vec F S1x2048 .f32) (xs : Vec F S400x2048 .f32) (y : S400x2048.Idx) :
    ∃ pc ∈ (run0_last c i arg2 harg2 arg3 harg3 arg4 harg4 arg5 harg5 arg6 harg6 hA hZ x0 x1 x2 xs).1, y ∈ pc.1.set :=
  View.cover_of_tiledL (run0_last c i arg2 harg2 arg3 harg3 arg4 harg4 arg5 harg5 arg6 harg6 hA hZ x0 x1 x2 xs).1 S400x2048.size (by sl_kernel_rfl) y

def out0_last (hA : ¬firstK0 i) (hZ : lastK0 i) (x0 : Vec F S400x1024 .bf16) (x1 : Vec F S1024x2048 .f32) (x2 : Vec F S1x2048 .f32) (xs : Vec F S400x2048 .f32) : Vec F S400x2048 .f32 :=
  VO0_3.read (Elt F) (VO0_3.writes (Elt F) VO0_3.junk (run0_last c i arg2 harg2 arg3 harg3 arg4 harg4 arg5 harg5 arg6 harg6 hA hZ x0 x1 x2 xs).1)

theorem acover0_last (hA : ¬firstK0 i) (hZ : lastK0 i) (x0 : Vec F S400x1024 .bf16) (x1 : Vec F S1024x2048 .f32) (x2 : Vec F S1x2048 .f32) (xs : Vec F S400x2048 .f32) (y : S400x2048.Idx) :
    ∃ pc ∈ (run0_last c i arg2 harg2 arg3 harg3 arg4 harg4 arg5 harg5 arg6 harg6 hA hZ x0 x1 x2 xs).2.1, y ∈ pc.1.set :=
  View.cover_of_tiledL (run0_last c i arg2 harg2 arg3 harg3 arg4 harg4 arg5 harg5 arg6 harg6 hA hZ x0 x1 x2 xs).2.1 S400x2048.size (by sl_kernel_rfl) y

def acc0_last (hA : ¬firstK0 i) (hZ : lastK0 i) (x0 : Vec F S400x1024 .bf16) (x1 : Vec F S1024x2048 .f32) (x2 : Vec F S1x2048 .f32) (xs : Vec F S400x2048 .f32) : Vec F S400x2048 .f32 :=
  VS0.read (Elt F) (VS0.writes (Elt F) VS0.junk (run0_last c i arg2 harg2 arg3 harg3 arg4 harg4 arg5 harg5 arg6 harg6 hA hZ x0 x1 x2 xs).2.1)

theorem zeroOff2 : (![0, 0] : Fin 2 → Nat) = fun _ => 0 := funext fun a => by fin_cases a <;> rfl

theorem acc0_first_eq (hA : firstK0 i) (hZ : ¬lastK0 i) (x0 : Vec F S400x1024 .bf16) (x1 : Vec F S1024x2048 .f32) (x2 : Vec F S1x2048 .f32) :
    acc0_first c i arg2 harg2 arg3 harg3 arg4 harg4 arg5 harg5 arg6 harg6 hA hZ x0 x1 x2 = k0_pay2 x1 (k0_pay1 (F := F)) x0 := by
  unfold acc0_first
  rw [View.read_writes_eq_canon _ _ _ (acover0_first c i arg2 harg2 arg3 harg3 arg4 harg4 arg5 harg5 arg6 harg6 hA hZ x0 x1 x2)]
  unfold run0_first; dsimp only; sl_unfold_words
  rw [View.canon_cons_unit_zero (S := S400x2048) zeroOff2]
  simp only [View.readAt_eq_ld, harg2.read_unread, harg3.read_unread, harg4.read_unread, harg6.read_unread, View.ld_unit_zero (S := S1024x2048) zeroOff2, View.ld_unit_zero (S := S400x1024) zeroOff2, View.ld_unit_zero (S := S1x2048) zeroOff2, View.ld_unit_zero (S := S400x2048) zeroOff2, View.readCov_unit_zero (S := S400x2048) _ zeroOff2]

theorem acc0_mid_eq (hA : ¬firstK0 i) (hZ : ¬lastK0 i) (x0 : Vec F S400x1024 .bf16) (x1 : Vec F S1024x2048 .f32) (x2 : Vec F S1x2048 .f32) (xs : Vec F S400x2048 .f32) :
    acc0_mid c i arg2 harg2 arg3 harg3 arg4 harg4 arg5 harg5 arg6 harg6 hA hZ x0 x1 x2 xs = k0_pay2 x1 xs x0 := by
  unfold acc0_mid
  rw [View.read_writes_eq_canon _ _ _ (acover0_mid c i arg2 harg2 arg3 harg3 arg4 harg4 arg5 harg5 arg6 harg6 hA hZ x0 x1 x2 xs)]
  unfold run0_mid; dsimp only; sl_unfold_words
  rw [View.canon_unit_zero (S := S400x2048) zeroOff2]
  simp only [View.readAt_eq_ld, harg2.read_unread, harg3.read_unread, harg4.read_unread, harg6.read_unread, View.ld_unit_zero (S := S1024x2048) zeroOff2, View.ld_unit_zero (S := S400x1024) zeroOff2, View.ld_unit_zero (S := S1x2048) zeroOff2, View.ld_unit_zero (S := S400x2048) zeroOff2, View.readCov_unit_zero (S := S400x2048) _ zeroOff2]

theorem acc0_last_eq (hA : ¬firstK0 i) (hZ : lastK0 i) (x0 : Vec F S400x1024 .bf16) (x1 : Vec F S1024x2048 .f32) (x2 : Vec F S1x2048 .f32) (xs : Vec F S400x2048 .f32) :
    acc0_last c i arg2 harg2 arg3 harg3 arg4 harg4 arg5 harg5 arg6 harg6 hA hZ x0 x1 x2 xs = k0_pay2 x1 xs x0 := by
  unfold acc0_last
  rw [View.read_writes_eq_canon _ _ _ (acover0_last c i arg2 harg2 arg3 harg3 arg4 harg4 arg5 harg5 arg6 harg6 hA hZ x0 x1 x2 xs)]
  unfold run0_last; dsimp only; sl_unfold_words
  rw [View.canon_unit_zero (S := S400x2048) zeroOff2]
  simp only [View.readAt_eq_ld, harg2.read_unread, harg3.read_unread, harg4.read_unread, harg6.read_unread, View.ld_unit_zero (S := S1024x2048) zeroOff2, View.ld_unit_zero (S := S400x1024) zeroOff2, View.ld_unit_zero (S := S1x2048) zeroOff2, View.ld_unit_zero (S := S400x2048) zeroOff2, View.readCov_unit_zero (S := S400x2048) _ zeroOff2]

theorem out0_last_eq (hA : ¬firstK0 i) (hZ : lastK0 i) (x0 : Vec F S400x1024 .bf16) (x1 : Vec F S1024x2048 .f32) (x2 : Vec F S1x2048 .f32) (xs : Vec F S400x2048 .f32) :
    out0_last c i arg2 harg2 arg3 harg3 arg4 harg4 arg5 harg5 arg6 harg6 hA hZ x0 x1 x2 xs = k0_pay3 (k0_pay2 x1 xs x0) x2 := by
  unfold out0_last
  rw [View.read_writes_eq_canon _ _ _ (ocover0_last c i arg2 harg2 arg3 harg3 arg4 harg4 arg5 harg5 arg6 harg6 hA hZ x0 x1 x2 xs)]
  unfold run0_last; dsimp only; sl_unfold_words
  rw [View.canon_unit_zero (S := S400x2048) zeroOff2]
  simp only [View.readAt_eq_ld, harg2.read_unread, harg3.read_unread, harg4.read_unread, harg6.read_unread, View.ld_unit_zero (S := S1024x2048) zeroOff2, View.ld_unit_zero (S := S400x1024) zeroOff2, View.ld_unit_zero (S := S1x2048) zeroOff2, View.ld_unit_zero (S := S400x2048) zeroOff2, View.readCov_unit_zero (S := S400x2048) _ zeroOff2]

end

def outsAt0 (c : Dev nD) : (n : ℕ) → n < cfg0.N → Vec F S400x2048 .f32 × Vec F S400x2048 .f32
  | 0, hn => (out0_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((firstK0_iff ⟨0, hn⟩).mpr (Nat.zero_mod _)) (fun h => (fun h => by (try dsimp only at h); omega) ((lastK0_iff ⟨0, hn⟩).mp h)) (iblk0 V c 0 ⟨0, hn⟩) (iblk0 V c 1 ⟨0, hn⟩) (iblk0 V c 2 ⟨0, hn⟩), acc0_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((firstK0_iff ⟨0, hn⟩).mpr (Nat.zero_mod _)) (fun h => (fun h => by (try dsimp only at h); omega) ((lastK0_iff ⟨0, hn⟩).mp h)) (iblk0 V c 0 ⟨0, hn⟩) (iblk0 V c 1 ⟨0, hn⟩) (iblk0 V c 2 ⟨0, hn⟩))
  | n + 1, hn =>
    if h0 : (n + 1) % 24 = 0 then
      if h1 : (n + 1) % 24 = 23 then
        False.elim (by omega)
      else
        (out0_first c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((firstK0_iff ⟨n + 1, hn⟩).mpr h0) (fun h => h1 ((lastK0_iff ⟨n + 1, hn⟩).mp h)) (iblk0 V c 0 ⟨n + 1, hn⟩) (iblk0 V c 1 ⟨n + 1, hn⟩) (iblk0 V c 2 ⟨n + 1, hn⟩), acc0_first c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((firstK0_iff ⟨n + 1, hn⟩).mpr h0) (fun h => h1 ((lastK0_iff ⟨n + 1, hn⟩).mp h)) (iblk0 V c 0 ⟨n + 1, hn⟩) (iblk0 V c 1 ⟨n + 1, hn⟩) (iblk0 V c 2 ⟨n + 1, hn⟩))
    else
      if h1 : (n + 1) % 24 = 23 then
        (out0_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((firstK0_iff ⟨n + 1, hn⟩).mp h)) ((lastK0_iff ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, acc0_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((firstK0_iff ⟨n + 1, hn⟩).mp h)) ((lastK0_iff ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_mid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((firstK0_iff ⟨n + 1, hn⟩).mp h)) (fun h => h1 ((lastK0_iff ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, acc0_mid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((firstK0_iff ⟨n + 1, hn⟩).mp h)) (fun h => h1 ((lastK0_iff ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_first (c : Dev nD) (t : Fin cfg0.N) (h0 : t.val % 24 = 0) (h1 : ¬t.val % 24 = 23) :
    outsAt0 V c t.val t.isLt = (out0_first c (grid0.coords t) (ms0_0 t) (hs0_0 t) (ms0_1 t) (hs0_1 t) (ms0_2 t) (hs0_2 t) (ms0_3 t) (hs0_3 t) scM0 (Memref.isWhole_whole _) ((firstK0_iff t).mpr h0) (fun h => h1 ((lastK0_iff t).mp h)) (iblk0 V c 0 t) (iblk0 V c 1 t) (iblk0 V c 2 t), acc0_first c (grid0.coords t) (ms0_0 t) (hs0_0 t) (ms0_1 t) (hs0_1 t) (ms0_2 t) (hs0_2 t) (ms0_3 t) (hs0_3 t) scM0 (Memref.isWhole_whole _) ((firstK0_iff t).mpr h0) (fun h => h1 ((lastK0_iff t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_mid (c : Dev nD) (t : Fin cfg0.N) (h0 : ¬t.val % 24 = 0) (h1 : ¬t.val % 24 = 23) :
    outsAt0 V c t.val t.isLt = (out0_mid c (grid0.coords t) (ms0_0 t) (hs0_0 t) (ms0_1 t) (hs0_1 t) (ms0_2 t) (hs0_2 t) (ms0_3 t) (hs0_3 t) scM0 (Memref.isWhole_whole _) (fun h => h0 ((firstK0_iff t).mp h)) (fun h => h1 ((lastK0_iff t).mp h)) (iblk0 V c 0 t) (iblk0 V c 1 t) (iblk0 V c 2 t) (outsAt0 V c (t.val - 1) (Nat.lt_of_le_of_lt (Nat.sub_le _ _) t.isLt)).2, acc0_mid c (grid0.coords t) (ms0_0 t) (hs0_0 t) (ms0_1 t) (hs0_1 t) (ms0_2 t) (hs0_2 t) (ms0_3 t) (hs0_3 t) scM0 (Memref.isWhole_whole _) (fun h => h0 ((firstK0_iff t).mp h)) (fun h => h1 ((lastK0_iff t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_last (c : Dev nD) (t : Fin cfg0.N) (h0 : ¬t.val % 24 = 0) (h1 : t.val % 24 = 23) :
    outsAt0 V c t.val t.isLt = (out0_last c (grid0.coords t) (ms0_0 t) (hs0_0 t) (ms0_1 t) (hs0_1 t) (ms0_2 t) (hs0_2 t) (ms0_3 t) (hs0_3 t) scM0 (Memref.isWhole_whole _) (fun h => h0 ((firstK0_iff t).mp h)) ((lastK0_iff t).mpr h1) (iblk0 V c 0 t) (iblk0 V c 1 t) (iblk0 V c 2 t) (outsAt0 V c (t.val - 1) (Nat.lt_of_le_of_lt (Nat.sub_le _ _) t.isLt)).2, acc0_last c (grid0.coords t) (ms0_0 t) (hs0_0 t) (ms0_1 t) (hs0_1 t) (ms0_2 t) (hs0_2 t) (ms0_3 t) (hs0_3 t) scM0 (Memref.isWhole_whole _) (fun h => h0 ((firstK0_iff t).mp h)) ((lastK0_iff t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

alias outsAt0_A := outsAt0_first

alias outsAt0_B := outsAt0_mid

alias outsAt0_C := outsAt0_last

def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ others0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]

theorem after0_1 (c : Dev nD) (t : Fin cfg0.N) : (dat0 V c).after 1 t = iblk0 V c 1 t := by dsimp only [dat0]

theorem after0_2 (c : Dev nD) (t : Fin cfg0.N) : (dat0 V c).after 2 t = iblk0 V c 2 t := by dsimp only [dat0]

theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [live0_0 t], after0_0]
  rw [show (dat0 V c).leavesExact 1 t = owns (c : Thread nD τ) (ms0_1 t) fullShare ((dat0 V c).after 1 t) from by
      unfold Dat.leavesExact; rw [live0_1 t], after0_1]
  rw [show (dat0 V c).leavesExact 2 t = owns (c : Thread nD τ) (ms0_2 t) fullShare ((dat0 V c).after 2 t) from by
      unfold Dat.leavesExact; rw [live0_2 t], after0_2]
  have hN : t.val < 48 := lt_of_lt_of_eq t.isLt (show cfg0.N = 48 from N_0)
  by_cases h0 : t.val % 24 = 0
  · by_cases h1 : t.val % 24 = 23
    · exfalso; omega
    · rw [Dat.leavesExact_idle (dat0 V c) 3 t (idle0_3 t (fun h => h1 ((lastK0_iff t).mp h))) (noFlush0_3 t (fun h => h1 ((lastK0_iff t).mp h)))]
      rw [outsAt0_first V c t h0 h1]
      unfold acc0_first; (try dsimp only)
      by_cases hz : t.val = 0
      case' pos => rw [PhiS0_castSucc V c t, PhiS0_zero V c _ _ hz, PhiA0_eq]
      case' neg => rw [PhiS0_castSucc V c t, PhiS0_pos V c _ _ hz]
      all_goals
        iintro ⟨⟨⟨HS, Hr⟩, Hg⟩, Ho, ⟨%d0, H0⟩, ⟨%d1, H1⟩, ⟨%d2, H2⟩, ⟨%d3, H3⟩⟩
        iapply ((run0_first c (grid0.coords t) _ _ _ _ _ _ _ _ _ _ ((firstK0_iff t).mpr h0) (fun h => h1 ((lastK0_iff t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS]; · first | iexact HS | (iexists _; iexact HS)
        iintro ⟨H0, H1, H2, H3, ⟨%es, HS⟩⟩
        isplitl [HS Hr Hg]
        · isplitl [HS Hr]
          · isplitl [HS]
            · unfold owns; iexists _; isplitr
              swap; · iexact HS
              ipureintro; exact View.read_writes_of_cover _ _ _ _ _ (acover0_first c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 24 = 23
    · rw [show (dat0 V c).leavesExact 3 t = owns (c : Thread nD τ) (ms0_3 t) fullShare ((dat0 V c).after 3 t) from by
      unfold Dat.leavesExact; rw [live0_3 t ((lastK0_iff t).mpr h1)], after0_3]
      rw [outsAt0_last V c t h0 h1]
      unfold out0_last acc0_last; (try dsimp only)
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply ((run0_last c (grid0.coords t) _ _ _ _ _ _ _ _ _ _ (fun h => h0 ((firstK0_iff t).mp h)) ((lastK0_iff t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (acover0_last c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocover0_last c _ _ _ _ _ _ _ _ _ _ _ _ _ _ _ _ _)
    · rw [Dat.leavesExact_idle (dat0 V c) 3 t (idle0_3 t (fun h => h1 ((lastK0_iff t).mp h))) (noFlush0_3 t (fun h => h1 ((lastK0_iff t).mp h)))]
      rw [outsAt0_mid V c t h0 h1]
      unfold acc0_mid; (try dsimp only)
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply ((run0_mid c (grid0.coords t) _ _ _ _ _ _ _ _ _ _ (fun h => h0 ((firstK0_iff t).mp h)) (fun h => h1 ((lastK0_iff t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (acover0_mid c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hr⟩, Hg⟩
  isplitl [HS Hr]
  · isplitl [HS]
    · iexists _; iexact HS
    iexact Hr
  iexact Hg

theorem hout0 (c : Dev nD) : (dat0 V c).Φ (Fin.last cfg0.N) ⊢ Pipeline.ΦA spec0 c :=
  Phi_out0 V c _ (by rw [Fin.val_last]; have : cfg0.N = 48 := N_0; omega)

abbrev ablk0 (c : Dev nD) (t : Fin cfg0.N) : Vec F S400x1024 .bf16 := iblk0 V c 0 t

abbrev bblk0 (c : Dev nD) (t : Fin cfg0.N) : Vec F S1024x2048 .f32 := iblk0 V c 1 t

abbrev cblk0 (c : Dev nD) (t : Fin cfg0.N) : Vec F S1x2048 .f32 := iblk0 V c 2 t

theorem acc0_at_first (c : Dev nD) (t : Fin cfg0.N) (h0 : t.val % 24 = 0) :
    (outsAt0 V c t.val t.isLt).2 = k0_pay2 (bblk0 V c t) (k0_pay1 (F := F)) (ablk0 V c t) := by
  have h1 : ¬t.val % 24 = 23 := by omega
  rw [outsAt0_first V c t h0 h1]; dsimp only
  exact acc0_first_eq c (grid0.coords t) (ms0_0 t) (hs0_0 t) (ms0_1 t) (hs0_1 t) (ms0_2 t) (hs0_2 t) (ms0_3 t) (hs0_3 t) scM0 (Memref.isWhole_whole _) ((firstK0_iff t).mpr h0) (fun h => h1 ((lastK0_iff t).mp h)) (iblk0 V c 0 t) (iblk0 V c 1 t) (iblk0 V c 2 t)

theorem acc0_at_next (c : Dev nD) (t : Fin cfg0.N) (h0 : ¬t.val % 24 = 0) :
    (outsAt0 V c t.val t.isLt).2 = k0_pay2 (bblk0 V c t) (outsAt0 V c (t.val - 1) (Nat.lt_of_le_of_lt (Nat.sub_le _ _) t.isLt)).2 (ablk0 V c t) := by
  by_cases h1 : t.val % 24 = 23
  · rw [outsAt0_last V c t h0 h1]; dsimp only
    exact acc0_last_eq c (grid0.coords t) (ms0_0 t) (hs0_0 t) (ms0_1 t) (hs0_1 t) (ms0_2 t) (hs0_2 t) (ms0_3 t) (hs0_3 t) scM0 (Memref.isWhole_whole _) (fun h => h0 ((firstK0_iff t).mp h)) ((lastK0_iff t).mpr h1) (iblk0 V c 0 t) (iblk0 V c 1 t) (iblk0 V c 2 t) (outsAt0 V c (t.val - 1) (Nat.lt_of_le_of_lt (Nat.sub_le _ _) t.isLt)).2
  · rw [outsAt0_mid V c t h0 h1]; dsimp only
    exact acc0_mid_eq c (grid0.coords t) (ms0_0 t) (hs0_0 t) (ms0_1 t) (hs0_1 t) (ms0_2 t) (hs0_2 t) (ms0_3 t) (hs0_3 t) scM0 (Memref.isWhole_whole _) (fun h => h0 ((firstK0_iff t).mp h)) (fun h => h1 ((lastK0_iff t).mp h)) (iblk0 V c 0 t) (iblk0 V c 1 t) (iblk0 V c 2 t) (outsAt0 V c (t.val - 1) (Nat.lt_of_le_of_lt (Nat.sub_le _ _) t.isLt)).2

theorem out0_at_last (c : Dev nD) (t : Fin cfg0.N) (h1 : t.val % 24 = 23) :
    (outsAt0 V c t.val t.isLt).1 = k0_pay3 (outsAt0 V c t.val t.isLt).2 (cblk0 V c t) := by
  have h0 : ¬t.val % 24 = 0 := by omega
  rw [outsAt0_last V c t h0 h1]; dsimp only
  exact (out0_last_eq c (grid0.coords t) (ms0_0 t) (hs0_0 t) (ms0_1 t) (hs0_1 t) (ms0_2 t) (hs0_2 t) (ms0_3 t) (hs0_3 t) scM0 (Memref.isWhole_whole _) (fun h => h0 ((firstK0_iff t).mp h)) ((lastK0_iff t).mpr h1) (iblk0 V c 0 t) (iblk0 V c 1 t) (iblk0 V c 2 t) (outsAt0 V c (t.val - 1) (Nat.lt_of_le_of_lt (Nat.sub_le _ _) t.isLt)).2).trans
    (congrArg (fun a => k0_pay3 a (cblk0 V c t)) (acc0_last_eq c (grid0.coords t) (ms0_0 t) (hs0_0 t) (ms0_1 t) (hs0_1 t) (ms0_2 t) (hs0_2 t) (ms0_3 t) (hs0_3 t) scM0 (Memref.isWhole_whole _) (fun h => h0 ((firstK0_iff t).mp h)) ((lastK0_iff t).mpr h1) (iblk0 V c 0 t) (iblk0 V c 1 t) (iblk0 V c 2 t) (outsAt0 V c (t.val - 1) (Nat.lt_of_le_of_lt (Nat.sub_le _ _) t.isLt)).2).symm)

end Cert.KernelIdeal.Hand

end
-- ==== Proof.KI.R1Runs.lean ====
import proofs.«406476_j70849780514835_3_alg».proof.Proof.Gen.KernelIdeal.Launch
import proofs.«406476_j70849780514835_3_alg».proof.Proof.Gen.KernelIdeal.Skeleton
import proofs.«406476_j70849780514835_3_alg».proof.Proof.Gen.KernelIdeal.Points
import Idealize.ShloMosaic.Lib.Pipeline.FrameBody
import Idealize.ShloMosaic.Lib.Ring
import Idealize.ShloMosaic.Lib.Tactic

/-! Layer 2's grid point t = 12·j + k: the body at a first, a middle and a last k. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

abbrev isFirstK (i : grid1.Coords) : Prop :=
  (Scalar.cmpi .ne (Scalar.extui (Scalar.cmpi .eq (BitVec.ofNat 32 (i 1).val) 0#32)) 0#32) = 1#1

theorem isFirstK_iff : ∀ t : Fin cfg1.N, isFirstK (grid1.coords t) ↔ t.val % 12 = 0 :=
  (by decide +kernel : ∀ t : Fin grid1.N, isFirstK (grid1.coords t) ↔ t.val % 12 = 0)

abbrev isLastK (i : grid1.Coords) : Prop := k1_cond2 i = 1#1

theorem isLastK_iff : ∀ t : Fin cfg1.N, isLastK (grid1.coords t) ↔ t.val % 12 = 11 :=
  (by decide +kernel : ∀ t : Fin grid1.N, isLastK (grid1.coords t) ↔ t.val % 12 = 11)

theorem live1_0 : ∀ t : Fin cfg1.N, cfg1.idle 0 (grid1.coords t) = false := by decide +kernel

theorem live1_1 : ∀ t : Fin cfg1.N, cfg1.idle 1 (grid1.coords t) = false := by decide +kernel

theorem live1_2 : ∀ t : Fin cfg1.N, cfg1.idle 2 (grid1.coords t) = false := by decide +kernel

theorem idle1_3 : ∀ t : Fin cfg1.N, ¬isLastK (grid1.coords t) → cfg1.idle 3 (grid1.coords t) = true := by decide +kernel

theorem noFlush1_3 : ∀ t : Fin cfg1.N, ¬isLastK (grid1.coords t) → (cfg1.win 3).flush t = false := by decide +kernel

theorem live1_3 : ∀ t : Fin cfg1.N, isLastK (grid1.coords t) → cfg1.idle 3 (grid1.coords t) = false := by decide +kernel

abbrev ms1_0 (t : Fin cfg1.N) : Memref sig .tc .vmem S400x1024 .bf16 := win1_0.stage (cfg1.slots t 0)

abbrev hs1_0 (t : Fin cfg1.N) : (ms1_0 t).IsWhole := hstage1_0 ((cfg1.slots t 0).cast nbuf1_0)

abbrev ms1_1 (t : Fin cfg1.N) : Memref sig .tc .vmem S1024x2048 .f32 := win1_1.stage (cfg1.slots t 1)

abbrev hs1_1 (t : Fin cfg1.N) : (ms1_1 t).IsWhole := hstage1_1 ((cfg1.slots t 1).cast nbuf1_1)

abbrev ms1_2 (t : Fin cfg1.N) : Memref sig .tc .vmem S1x2048 .f32 := win1_2.stage (cfg1.slots t 2)

abbrev hs1_2 (t : Fin cfg1.N) : (ms1_2 t).IsWhole := hstage1_2 ((cfg1.slots t 2).cast nbuf1_2)

abbrev ms1_3 (t : Fin cfg1.N) : Memref sig .tc .vmem S200x2048 .f32 := win1_3.stage (cfg1.slots t 3)

abbrev hs1_3 (t : Fin cfg1.N) : (ms1_3 t).IsWhole := hstage1_3 ((cfg1.slots t 3).cast nbuf1_3)

abbrev accM1 : Memref sig .tc .vmem S400x2048 .f32 := Memref.whole cc1_scratch0

abbrev accV1 : View sig .tc .vmem S400x2048 .f32 := accM1.view

abbrev outV1 : View sig .tc .vmem S200x2048 .f32 := (Memref.whole cc1_stg3_0 : Memref sig .tc .vmem S200x2048 .f32).view

section

variable (c : Dev nD) (i : grid1.Coords) (arg2 : Memref sig .tc .vmem S400x1024 .bf16) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S200x2048 .f32) (harg5 : arg5.IsWhole) (arg6 : Memref sig .tc .vmem S400x2048 .f32) (harg6 : arg6.IsWhole)

set_option maxHeartbeats 1000000 in
noncomputable def runFirst (hc0 : isFirstK i) (hc1 : ¬isLastK i)
    (x0 : Vec F S400x1024 .bf16) (x1 : Vec F S1024x2048 .f32) (x2 : Vec F S1x2048 .f32) :
    Σ' (L3 : List (View.Piece (Elt F) S200x2048 .f32)), { LS : List (View.Piece (Elt F) S400x2048 .f32) //
      ∀ (xi3 : Vec F S200x2048 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg2 harg2 arg3 harg3 arg4 harg4 arg5 harg5 arg6 harg6) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
noncomputable def runMiddle (hc0 : ¬isFirstK i) (hc1 : ¬isLastK i)
    (x0 : Vec F S400x1024 .bf16) (x1 : Vec F S1024x2048 .f32) (x2 : Vec F S1x2048 .f32) (xs : Vec F S400x2048 .f32) :
    Σ' (L3 : List (View.Piece (Elt F) S200x2048 .f32)), { LS : List (View.Piece (Elt F) S400x2048 .f32) //
      ∀ (xi3 : Vec F S200x2048 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg2 harg2 arg3 harg3 arg4 harg4 arg5 harg5 arg6 harg6) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
noncomputable def runLast (hc0 : ¬isFirstK i) (hc1 : isLastK i)
    (x0 : Vec F S400x1024 .bf16) (x1 : Vec F S1024x2048 .f32) (x2 : Vec F S1x2048 .f32) (xs : Vec F S400x2048 .f32) :
    Σ' (L3 : List (View.Piece (Elt F) S200x2048 .f32)), { LS : List (View.Piece (Elt F) S400x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg2 harg2 arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end

end Cert.KernelIdeal.Hand

end
-- ==== Proof.KI.R1Frame.lean ====
import proofs.«406476_j70849780514835_3_alg».proof.Proof.KI.R1Runs

/-! What the points of layer 2's grid leave, by recursion on t, and the obligation every point's body meets. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section

variable (c : Dev nD) (i : grid1.Coords) (arg2 : Memref sig .tc .vmem S400x1024 .bf16) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S200x2048 .f32) (harg5 : arg5.IsWhole) (arg6 : Memref sig .tc .vmem S400x2048 .f32) (harg6 : arg6.IsWhole)

def outFirst (hc0 : isFirstK i) (hc1 : ¬isLastK i) (x0 : Vec F S400x1024 .bf16) (x1 : Vec F S1024x2048 .f32) (x2 : Vec F S1x2048 .f32) : Vec F S200x2048 .f32 :=
  outV1.read (Elt F) (outV1.writes (Elt F) outV1.junk (runFirst c i arg2 harg2 arg3 harg3 arg4 harg4 arg5 harg5 arg6 harg6 hc0 hc1 x0 x1 x2).1)

theorem accCoverFirst (hc0 : isFirstK i) (hc1 : ¬isLastK i) (x0 : Vec F S400x1024 .bf16) (x1 : Vec F S1024x2048 .f32) (x2 : Vec F S1x2048 .f32) (y : S400x2048.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S400x2048.size (by sl_kernel_rfl) y

def accFirst (hc0 : isFirstK i) (hc1 : ¬isLastK i) (x0 : Vec F S400x1024 .bf16) (x1 : Vec F S1024x2048 .f32) (x2 : Vec F S1x2048 .f32) : Vec F S400x2048 .f32 :=
  accV1.read (Elt F) (accV1.writes (Elt F) accV1.junk (runFirst c i arg2 harg2 arg3 harg3 arg4 harg4 arg5 harg5 arg6 harg6 hc0 hc1 x0 x1 x2).2.1)

def outMiddle (hc0 : ¬isFirstK i) (hc1 : ¬isLastK i) (x0 : Vec F S400x1024 .bf16) (x1 : Vec F S1024x2048 .f32) (x2 : Vec F S1x2048 .f32) (xs : Vec F S400x2048 .f32) : Vec F S200x2048 .f32 :=
  outV1.read (Elt F) (outV1.writes (Elt F) outV1.junk (runMiddle c i arg2 harg2 arg3 harg3 arg4 harg4 arg5 harg5 arg6 harg6 hc0 hc1 x0 x1 x2 xs).1)

theorem accCoverMiddle (hc0 : ¬isFirstK i) (hc1 : ¬isLastK i) (x0 : Vec F S400x1024 .bf16) (x1 : Vec F S1024x2048 .f32) (x2 : Vec F S1x2048 .f32) (xs : Vec F S400x2048 .f32) (y : S400x2048.Idx) :
    ∃ pc ∈ (runMiddle c i arg2 harg2 arg3 harg3 arg4 harg4 arg5 harg5 arg6 harg6 hc0 hc1 x0 x1 x2 xs).2.1, y ∈ pc.1.set :=
  View.cover_of_tiledL (runMiddle c i arg2 harg2 arg3 harg3 arg4 harg4 arg5 harg5 arg6 harg6 hc0 hc1 x0 x1 x2 xs).2.1 S400x2048.size (by sl_kernel_rfl) y

def accMiddle (hc0 : ¬isFirstK i) (hc1 : ¬isLastK i) (x0 : Vec F S400x1024 .bf16) (x1 : Vec F S1024x2048 .f32) (x2 : Vec F S1x2048 .f32) (xs : Vec F S400x2048 .f32) : Vec F S400x2048 .f32 :=
  accV1.read (Elt F) (accV1.writes (Elt F) accV1.junk (runMiddle c i arg2 harg2 arg3 harg3 arg4 harg4 arg5 harg5 arg6 harg6 hc0 hc1 x0 x1 x2 xs).2.1)

theorem outCoverLast (hc0 : ¬isFirstK i) (hc1 : isLastK i) (x0 : Vec F S400x1024 .bf16) (x1 : Vec F S1024x2048 .f32) (x2 : Vec F S1x2048 .f32) (xs : Vec F S400x2048 .f32) (y : S200x2048.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S200x2048.size (by sl_kernel_rfl) y

def outLast (hc0 : ¬isFirstK i) (hc1 : isLastK i) (x0 : Vec F S400x1024 .bf16) (x1 : Vec F S1024x2048 .f32) (x2 : Vec F S1x2048 .f32) (xs : Vec F S400x2048 .f32) : Vec F S200x2048 .f32 :=
  outV1.read (Elt F) (outV1.writes (Elt F) outV1.junk (runLast c i arg2 harg2 arg3 harg3 arg4 harg4 arg5 harg5 arg6 harg6 hc0 hc1 x0 x1 x2 xs).1)

theorem accCoverLast (hc0 : ¬isFirstK i) (hc1 : isLastK i) (x0 : Vec F S400x1024 .bf16) (x1 : Vec F S1024x2048 .f32) (x2 : Vec F S1x2048 .f32) (xs : Vec F S400x2048 .f32) (y : S400x2048.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S400x2048.size (by sl_kernel_rfl) y

def accLast (hc0 : ¬isFirstK i) (hc1 : isLastK i) (x0 : Vec F S400x1024 .bf16) (x1 : Vec F S1024x2048 .f32) (x2 : Vec F S1x2048 .f32) (xs : Vec F S400x2048 .f32) : Vec F S400x2048 .f32 :=
  accV1.read (Elt F) (accV1.writes (Elt F) accV1.junk (runLast c i arg2 harg2 arg3 harg3 arg4 harg4 arg5 harg5 arg6 harg6 hc0 hc1 x0 x1 x2 xs).2.1)

end

section Region

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

def outsAt1 (c : Dev nD) : (n : ℕ) → n < cfg1.N → Vec F S200x2048 .f32 × Vec F S400x2048 .f32
  | 0, hn => (outFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) accM1 (Memref.isWhole_whole _) ((isFirstK_iff ⟨0, hn⟩).mpr (Nat.zero_mod _)) (fun h => (fun h => by (try dsimp only at h); omega) ((isLastK_iff ⟨0, hn⟩).mp h)) (iblk1 V c 0 ⟨0, hn⟩) (iblk1 V c 1 ⟨0, hn⟩) (iblk1 V c 2 ⟨0, hn⟩), accFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) accM1 (Memref.isWhole_whole _) ((isFirstK_iff ⟨0, hn⟩).mpr (Nat.zero_mod _)) (fun h => (fun h => by (try dsimp only at h); omega) ((isLastK_iff ⟨0, hn⟩).mp h)) (iblk1 V c 0 ⟨0, hn⟩) (iblk1 V c 1 ⟨0, hn⟩) (iblk1 V c 2 ⟨0, hn⟩))
  | n + 1, hn =>
    if h0 : (n + 1) % 12 = 0 then
      if h1 : (n + 1) % 12 = 11 then
        False.elim (by omega)
      else
        (outFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM1 (Memref.isWhole_whole _) ((isFirstK_iff ⟨n + 1, hn⟩).mpr h0) (fun h => h1 ((isLastK_iff ⟨n + 1, hn⟩).mp h)) (iblk1 V c 0 ⟨n + 1, hn⟩) (iblk1 V c 1 ⟨n + 1, hn⟩) (iblk1 V c 2 ⟨n + 1, hn⟩), accFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM1 (Memref.isWhole_whole _) ((isFirstK_iff ⟨n + 1, hn⟩).mpr h0) (fun h => h1 ((isLastK_iff ⟨n + 1, hn⟩).mp h)) (iblk1 V c 0 ⟨n + 1, hn⟩) (iblk1 V c 1 ⟨n + 1, hn⟩) (iblk1 V c 2 ⟨n + 1, hn⟩))
    else
      if h1 : (n + 1) % 12 = 11 then
        (outLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM1 (Memref.isWhole_whole _) (fun h => h0 ((isFirstK_iff ⟨n + 1, hn⟩).mp h)) ((isLastK_iff ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, accLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM1 (Memref.isWhole_whole _) (fun h => h0 ((isFirstK_iff ⟨n + 1, hn⟩).mp h)) ((isLastK_iff ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (outMiddle c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM1 (Memref.isWhole_whole _) (fun h => h0 ((isFirstK_iff ⟨n + 1, hn⟩).mp h)) (fun h => h1 ((isLastK_iff ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, accMiddle c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM1 (Memref.isWhole_whole _) (fun h => h0 ((isFirstK_iff ⟨n + 1, hn⟩).mp h)) (fun h => h1 ((isLastK_iff ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 12 = 0) (h1 : ¬t.val % 12 = 11) :
    outsAt1 V c t.val t.isLt = (outFirst c (grid1.coords t) (ms1_0 t) (hs1_0 t) (ms1_1 t) (hs1_1 t) (ms1_2 t) (hs1_2 t) (ms1_3 t) (hs1_3 t) accM1 (Memref.isWhole_whole _) ((isFirstK_iff t).mpr h0) (fun h => h1 ((isLastK_iff t).mp h)) (iblk1 V c 0 t) (iblk1 V c 1 t) (iblk1 V c 2 t), accFirst c (grid1.coords t) (ms1_0 t) (hs1_0 t) (ms1_1 t) (hs1_1 t) (ms1_2 t) (hs1_2 t) (ms1_3 t) (hs1_3 t) accM1 (Memref.isWhole_whole _) ((isFirstK_iff t).mpr h0) (fun h => h1 ((isLastK_iff t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 12 = 0) (h1 : ¬t.val % 12 = 11) :
    outsAt1 V c t.val t.isLt = (outMiddle c (grid1.coords t) (ms1_0 t) (hs1_0 t) (ms1_1 t) (hs1_1 t) (ms1_2 t) (hs1_2 t) (ms1_3 t) (hs1_3 t) accM1 (Memref.isWhole_whole _) (fun h => h0 ((isFirstK_iff t).mp h)) (fun h => h1 ((isLastK_iff t).mp h)) (iblk1 V c 0 t) (iblk1 V c 1 t) (iblk1 V c 2 t) (outsAt1 V c (t.val - 1) (Nat.lt_of_le_of_lt (Nat.sub_le _ _) t.isLt)).2, accMiddle c (grid1.coords t) (ms1_0 t) (hs1_0 t) (ms1_1 t) (hs1_1 t) (ms1_2 t) (hs1_2 t) (ms1_3 t) (hs1_3 t) accM1 (Memref.isWhole_whole _) (fun h => h0 ((isFirstK_iff t).mp h)) (fun h => h1 ((isLastK_iff t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 12 = 0) (h1 : t.val % 12 = 11) :
    outsAt1 V c t.val t.isLt = (outLast c (grid1.coords t) (ms1_0 t) (hs1_0 t) (ms1_1 t) (hs1_1 t) (ms1_2 t) (hs1_2 t) (ms1_3 t) (hs1_3 t) accM1 (Memref.isWhole_whole _) (fun h => h0 ((isFirstK_iff t).mp h)) ((isLastK_iff t).mpr h1) (iblk1 V c 0 t) (iblk1 V c 1 t) (iblk1 V c 2 t) (outsAt1 V c (t.val - 1) (Nat.lt_of_le_of_lt (Nat.sub_le _ _) t.isLt)).2, accLast c (grid1.coords t) (ms1_0 t) (hs1_0 t) (ms1_1 t) (hs1_1 t) (ms1_2 t) (hs1_2 t) (ms1_3 t) (hs1_3 t) accM1 (Memref.isWhole_whole _) (fun h => h0 ((isFirstK_iff t).mp h)) ((isLastK_iff t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

theorem PhiA1_split (c : Dev nD) :
    (Pipeline.ΦA spec1 c : sProp 𝕄) ⊢ iprop(iprop(others1 (F := F) c ∗ (∃ d, owns (c : Thread nD τ) accM1 fullShare d)) ∗ (∃ r, prngReg c r)) := by
  unfold Pipeline.ΦA; rw [scopedRest1_eq]; simp only [accM1, owns_whole]
  unfold others1
  iintro ⟨⟨R0, R1, R2, R3, R4, R5, R6, R7, R8, HS⟩, Hg⟩
  isplitr [Hg]
  · isplitr [HS]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      iexact R8
    iexact HS
  iexact Hg

theorem PhiA1_join (c : Dev nD) :
    iprop(iprop(others1 (F := F) c ∗ (∃ d, owns (c : Thread nD τ) accM1 fullShare d)) ∗ (∃ r, prngReg c r)) ⊢ (Pipeline.ΦA spec1 c : sProp 𝕄) := by
  unfold Pipeline.ΦA; rw [scopedRest1_eq]; simp only [accM1, owns_whole]
  unfold others1
  iintro ⟨⟨⟨R0, R1, R2, R3, R4, R5, R6, R7, R8⟩, HS⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact HS
  iexact Hg

theorem PhiA1_eq (c : Dev nD) :
    (Pipeline.ΦA spec1 c : sProp 𝕄) = iprop(iprop(others1 (F := F) c ∗ (∃ d, owns (c : Thread nD τ) accM1 fullShare d)) ∗ (∃ r, prngReg c r)) :=
  BI.equiv_iff.mp ⟨PhiA1_split c, PhiA1_join c⟩

def PhiS1 (c : Dev nD) : (n : ℕ) → n ≤ cfg1.N → sProp 𝕄
  | 0, _ => Pipeline.ΦA spec1 c
  | n + 1, hn => iprop(iprop(others1 (F := F) c ∗ owns (c : Thread nD τ) accM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(others1 (F := F) c ∗ owns (c : Thread nD τ) accM1 fullShare ((outsAt1 V c n hn).2)) ∗ (∃ r, prngReg c r)) := rfl

theorem PhiS1_pos (c : Dev nD) (n : ℕ) (h : n ≤ cfg1.N) (hz : n ≠ 0) :
    PhiS1 V c n h = iprop(iprop(others1 (F := F) c ∗ owns (c : Thread nD τ) accM1 fullShare ((outsAt1 V c (n - 1) (by omega)).2)) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]

theorem after1_1 (c : Dev nD) (t : Fin cfg1.N) : (dat1 V c).after 1 t = iblk1 V c 1 t := by dsimp only [dat1]

theorem after1_2 (c : Dev nD) (t : Fin cfg1.N) : (dat1 V c).after 2 t = iblk1 V c 2 t := by dsimp only [dat1]

theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V, before1_2 V]
  rw [show (dat1 V c).owesAt () t.succ = (dat1 V c).owesAt () t.castSucc from rfl]
  rw [show (dat1 V c).Φ t.succ = PhiS1 V c (t.val + 1) t.isLt from rfl, PhiS1_succ]
  have hN : t.val < 24 := lt_of_lt_of_eq t.isLt (show cfg1.N = 24 from N_1)
  rw [show (dat1 V c).leavesExact 0 t = owns (c : Thread nD τ) (ms1_0 t) fullShare ((dat1 V c).after 0 t) from by
    unfold Dat.leavesExact; rw [live1_0 t], after1_0 V]
  rw [show (dat1 V c).leavesExact 1 t = owns (c : Thread nD τ) (ms1_1 t) fullShare ((dat1 V c).after 1 t) from by
    unfold Dat.leavesExact; rw [live1_1 t], after1_1 V]
  rw [show (dat1 V c).leavesExact 2 t = owns (c : Thread nD τ) (ms1_2 t) fullShare ((dat1 V c).after 2 t) from by
    unfold Dat.leavesExact; rw [live1_2 t], after1_2 V]
  by_cases h0 : t.val % 12 = 0
  · have h1 : ¬t.val % 12 = 11 := by omega
    rw [Dat.leavesExact_idle (dat1 V c) 3 t (idle1_3 t (fun h => h1 ((isLastK_iff t).mp h))) (noFlush1_3 t (fun h => h1 ((isLastK_iff t).mp h)))]
    rw [outsAt1_A V c t h0 h1]
    unfold accFirst; (try dsimp only)
    by_cases hz : t.val = 0
    case' pos => rw [PhiS1_castSucc V c t, PhiS1_zero V c _ _ hz, PhiA1_eq]
    case' neg => rw [PhiS1_castSucc V c t, PhiS1_pos V c _ _ hz]
    all_goals
      iintro ⟨⟨⟨HR, HS⟩, Hg⟩, Ho, ⟨%d0, H0⟩, ⟨%d1, H1⟩, ⟨%d2, H2⟩, ⟨%d3, H3⟩⟩
      iapply ((runFirst c (grid1.coords t) (ms1_0 t) (hs1_0 t) (ms1_1 t) (hs1_1 t) (ms1_2 t) (hs1_2 t) (ms1_3 t) (hs1_3 t) accM1 (Memref.isWhole_whole _) ((isFirstK_iff t).mpr h0) (fun h => h1 ((isLastK_iff t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS]; · first | iexact HS | (iexists _; iexact HS)
      iintro ⟨H0, H1, H2, H3, ⟨%es, HS⟩⟩
      isplitl [HR HS Hg]
      · isplitl [HR HS]
        · isplitl [HR]; · iexact HR
          unfold owns; iexists _; isplitr
          swap; · iexact HS
          ipureintro; exact View.read_writes_of_cover _ _ _ _ _ (accCoverFirst c (grid1.coords t) (ms1_0 t) (hs1_0 t) (ms1_1 t) (hs1_1 t) (ms1_2 t) (hs1_2 t) (ms1_3 t) (hs1_3 t) accM1 (Memref.isWhole_whole _) ((isFirstK_iff t).mpr h0) (fun h => h1 ((isLastK_iff t).mp h)) (iblk1 V c 0 t) (iblk1 V c 1 t) (iblk1 V c 2 t))
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 12 = 11
    · rw [show (dat1 V c).leavesExact 3 t = owns (c : Thread nD τ) (ms1_3 t) fullShare ((dat1 V c).after 3 t) from by
        unfold Dat.leavesExact; rw [live1_3 t ((isLastK_iff t).mpr h1)], after1_3 V]
      rw [outsAt1_C V c t h0 h1]
      unfold outLast accLast; (try dsimp only)
      rw [PhiS1_castSucc V c t, PhiS1_pos V c _ _ hz]
      iintro ⟨⟨⟨HR, HS⟩, Hg⟩, Ho, ⟨%d0, H0⟩, ⟨%d1, H1⟩, ⟨%d2, H2⟩, ⟨%d3, H3⟩⟩
      iapply ((runLast c (grid1.coords t) (ms1_0 t) (hs1_0 t) (ms1_1 t) (hs1_1 t) (ms1_2 t) (hs1_2 t) (ms1_3 t) (hs1_3 t) accM1 (Memref.isWhole_whole _) (fun h => h0 ((isFirstK_iff t).mp h)) ((isLastK_iff t).mpr h1) (iblk1 V c 0 t) (iblk1 V c 1 t) (iblk1 V c 2 t) (outsAt1 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HR HS Hg]
      · isplitl [HR HS]
        · isplitl [HR]; · iexact HR
          unfold owns; iexists _; isplitr
          swap; · iexact HS
          ipureintro; exact View.read_writes_of_cover _ _ _ _ _ (accCoverLast c (grid1.coords t) (ms1_0 t) (hs1_0 t) (ms1_1 t) (hs1_1 t) (ms1_2 t) (hs1_2 t) (ms1_3 t) (hs1_3 t) accM1 (Memref.isWhole_whole _) (fun h => h0 ((isFirstK_iff t).mp h)) ((isLastK_iff t).mpr h1) (iblk1 V c 0 t) (iblk1 V c 1 t) (iblk1 V c 2 t) (outsAt1 V c (t.val - 1) (Nat.lt_of_le_of_lt (Nat.sub_le _ _) t.isLt)).2)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast c (grid1.coords t) (ms1_0 t) (hs1_0 t) (ms1_1 t) (hs1_1 t) (ms1_2 t) (hs1_2 t) (ms1_3 t) (hs1_3 t) accM1 (Memref.isWhole_whole _) (fun h => h0 ((isFirstK_iff t).mp h)) ((isLastK_iff t).mpr h1) (iblk1 V c 0 t) (iblk1 V c 1 t) (iblk1 V c 2 t) (outsAt1 V c (t.val - 1) (Nat.lt_of_le_of_lt (Nat.sub_le _ _) t.isLt)).2)
    · rw [Dat.leavesExact_idle (dat1 V c) 3 t (idle1_3 t (fun h => h1 ((isLastK_iff t).mp h))) (noFlush1_3 t (fun h => h1 ((isLastK_iff t).mp h)))]
      rw [outsAt1_B V c t h0 h1]
      unfold accMiddle; (try dsimp only)
      rw [PhiS1_castSucc V c t, PhiS1_pos V c _ _ hz]
      iintro ⟨⟨⟨HR, HS⟩, Hg⟩, Ho, ⟨%d0, H0⟩, ⟨%d1, H1⟩, ⟨%d2, H2⟩, ⟨%d3, H3⟩⟩
      iapply ((runMiddle c (grid1.coords t) (ms1_0 t) (hs1_0 t) (ms1_1 t) (hs1_1 t) (ms1_2 t) (hs1_2 t) (ms1_3 t) (hs1_3 t) accM1 (Memref.isWhole_whole _) (fun h => h0 ((isFirstK_iff t).mp h)) (fun h => h1 ((isLastK_iff t).mp h)) (iblk1 V c 0 t) (iblk1 V c 1 t) (iblk1 V c 2 t) (outsAt1 V c (t.val - 1) (Nat.lt_of_le_of_lt (Nat.sub_le _ _) t.isLt)).2).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HR HS Hg]
      · isplitl [HR HS]
        · isplitl [HR]; · iexact HR
          unfold owns; iexists _; isplitr
          swap; · iexact HS
          ipureintro; exact View.read_writes_of_cover _ _ _ _ _ (accCoverMiddle c (grid1.coords t) (ms1_0 t) (hs1_0 t) (ms1_1 t) (hs1_1 t) (ms1_2 t) (hs1_2 t) (ms1_3 t) (hs1_3 t) accM1 (Memref.isWhole_whole _) (fun h => h0 ((isFirstK_iff t).mp h)) (fun h => h1 ((isLastK_iff t).mp h)) (iblk1 V c 0 t) (iblk1 V c 1 t) (iblk1 V c 2 t) (outsAt1 V c (t.val - 1) (Nat.lt_of_le_of_lt (Nat.sub_le _ _) t.isLt)).2)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS⟩, Hg⟩
  isplitl [HR HS]
  · isplitl [HR]; · iexact HR
    iexists _; iexact HS
  iexact Hg

theorem hout1 (c : Dev nD) : (dat1 V c).Φ (Fin.last cfg1.N) ⊢ Pipeline.ΦA spec1 c :=
  Phi_out1 V c _ (by rw [Fin.val_last]; have : cfg1.N = 24 := N_1; omega)

end Region

end Cert.KernelIdeal.Hand

end
-- ==== Proof.KI.Run.lean ====
import proofs.«406476_j70849780514835_3_alg».proof.Proof.Gen.KernelIdeal.Regions
import proofs.«406476_j70849780514835_3_alg».proof.Proof.KI.R0Frame
import proofs.«406476_j70849780514835_3_alg».proof.Proof.KI.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The whole program in order: stretches of array operations around the two blocked products; between two items
    every array is a known function of the launch contents. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

def outsFirst : Gen.Outs (F := F) := fun _ r c =>
  if h : r = main_v113 then h ▸ (dat0 (fun c b => Gen.V9 m c b) c).arrAt 3 cfg0.N else Gen.V9 m c r

def outsK : Gen.Outs (F := F) := fun j r c =>
  if j = 10 then outsFirst m j r c
  else if h : r = main_v137 then h ▸ (dat1 (fun c b => Gen.V11 m (outsFirst m) c b) c).arrAt 3 cfg1.N
  else Gen.V11 m (outsFirst m) c r

theorem outsK_10 (c : Dev nD) :
    outsK m 10 main_v113 c = (dat0 (fun c b => Gen.V9 m c b) c).arrAt 3 cfg0.N := by
  unfold outsK outsFirst
  rw [if_pos rfl, dif_pos rfl]

theorem V11_outsK (c : Dev nD) : Gen.V11 m (outsK m) c = Gen.V11 m (outsFirst m) c := by
  have h : outsK m 10 main_v113 c = outsFirst m 10 main_v113 c := by unfold outsK; rw [if_pos rfl]
  unfold Gen.V11 Gen.V10
  rw [h]

theorem outsK_12 (c : Dev nD) :
    outsK m 12 main_v137 c = (dat1 (fun c b => Gen.V11 m (outsK m) c b) c).arrAt 3 cfg1.N := by
  have hV : (fun (c : Dev nD) (b : Ref sig .tc) => Gen.V11 m (outsK m) c b)
      = fun (c : Dev nD) (b : Ref sig .tc) => Gen.V11 m (outsFirst m) c b := by
    funext c b; rw [V11_outsK]
  rw [hV]
  unfold outsK
  rw [if_neg (by decide), dif_pos rfl]

def pdats : (p : Fin 2) → (c : Dev nD) → Dat τ (Elt F) Unit ℕ (UR sig nD τ) ℕ (cfgs p) c
  | ⟨0, _⟩ => fun c => dat0 (fun c b => Gen.V9 m c b) c
  | ⟨1, _⟩ => fun c => dat1 (fun c b => Gen.V11 m (outsK m) c b) c

abbrev mainVariants : Variants := Variants.none

abbrev mainPairs : GSem nD τ sig → Finset Unit := fun _ => ∅

abbrev mainLevels : GSem nD τ sig → Unit → ℕ := fun _ _ => 0

abbrev coreRest (c : Dev nD) : sProp 𝕄 :=
  iprop((∃ r, prngReg c r) ∗ ∃ W, owes (c : Thread nD τ) (0 : CellTallies nD τ sig Unit) W)

abbrev coreRestAt : Fin 3 → Dev nD → sProp 𝕄 := fun _ c => coreRest c

theorem exit0_arrays (c : Dev nD) (w : Fin cfg0.W) :
    (pdats m 0 c).arrAt w cfg0.N = (fun b : Ref sig .tc => Gen.V10 m (outsK m) c b) (Pipeline.arrRef spec0 w) := by
  match w with
  | ⟨0, _⟩ =>
    exact ((dat0 (fun c b => Gen.V9 m c b) c).arrAt_in 0 rfl _).trans
      ((A_eq0 _ c 0).trans (Gen.V10_of m (outsK m) c main_v110 (by decide)).symm)
  | ⟨1, _⟩ =>
    exact ((dat0 (fun c b => Gen.V9 m c b) c).arrAt_in 1 rfl _).trans
      ((A_eq0 _ c 1).trans (Gen.V10_of m (outsK m) c main_v111 (by decide)).symm)
  | ⟨2, _⟩ =>
    exact ((dat0 (fun c b => Gen.V9 m c b) c).arrAt_in 2 rfl _).trans
      ((A_eq0 _ c 2).trans (Gen.V10_of m (outsK m) c main_v112 (by decide)).symm)
  | ⟨3, _⟩ =>
    refine (outsK_10 m c).symm.trans ?_
    show outsK m 10 main_v113 c = Function.update (Gen.V9 m c) (Proc.devRef .tc main_v113) (outsK m 10 main_v113 c) (Proc.devRef .tc main_v113)
    rw [Function.update_self]

theorem exit0_others (c : Dev nD) : ∀ b : Ref sig .tc, b ∉ Finset.univ.image (Pipeline.arrRef spec0) →
    (fun b : Ref sig .tc => Gen.V10 m (outsK m) c b) b = (fun b : Ref sig .tc => Gen.V9 m c b) b :=
  fun b hb => Gen.V10_of m (outsK m) c b fun hmem => hb (by
    rw [List.mem_singleton] at hmem
    subst hmem
    exact Finset.mem_image.mpr ⟨3, Finset.mem_univ _, rfl⟩)

theorem exit1_arrays (c : Dev nD) (w : Fin cfg1.W) :
    (pdats m 1 c).arrAt w cfg1.N = (fun b : Ref sig .tc => Gen.V12 m (outsK m) c b) (Pipeline.arrRef spec1 w) := by
  match w with
  | ⟨0, _⟩ =>
    exact ((dat1 (fun c b => Gen.V11 m (outsK m) c b) c).arrAt_in 0 rfl _).trans
      ((A_eq1 _ c 0).trans (Gen.V12_of m (outsK m) c main_v134 (by decide)).symm)
  | ⟨1, _⟩ =>
    exact ((dat1 (fun c b => Gen.V11 m (outsK m) c b) c).arrAt_in 1 rfl _).trans
      ((A_eq1 _ c 1).trans (Gen.V12_of m (outsK m) c main_v135 (by decide)).symm)
  | ⟨2, _⟩ =>
    exact ((dat1 (fun c b => Gen.V11 m (outsK m) c b) c).arrAt_in 2 rfl _).trans
      ((A_eq1 _ c 2).trans (Gen.V12_of m (outsK m) c main_v136 (by decide)).symm)
  | ⟨3, _⟩ =>
    refine (outsK_12 m c).symm.trans ?_
    show outsK m 12 main_v137 c = Function.update (Gen.V11 m (outsK m) c) (Proc.devRef .tc main_v137) (outsK m 12 main_v137 c) (Proc.devRef .tc main_v137)
    rw [Function.update_self]

theorem exit1_others (c : Dev nD) : ∀ b : Ref sig .tc, b ∉ Finset.univ.image (Pipeline.arrRef spec1) →
    (fun b : Ref sig .tc => Gen.V12 m (outsK m) c b) b = (fun b : Ref sig .tc => Gen.V11 m (outsK m) c b) b :=
  fun b hb => Gen.V12_of m (outsK m) c b fun hmem => hb (by
    rw [List.mem_singleton] at hmem
    subst hmem
    exact Finset.mem_image.mpr ⟨3, Finset.mem_univ _, rfl⟩)

set_option backward.isDefEq.respectTransparency.types false in
def region0 : RegionSeg (pcfgs (F := F)) Gen.adm (pdats m) () defs₀ mainVariants mainPairs mainLevels 0 where
  win := Gen.launch0.win.to₀
  block_pos := Gen.launch0.block_pos
  stage_whole := Gen.launch0.stage_whole
  K := PEmpty
  osem k := k.elim
  ho := Pipeline.OwnSemFacts.none _
  hbody c := (body_obligation0 (fun c b => Gen.V9 m c b) c).loose
  hwaits := Pipeline.hwaits_of_owed_zero _ _ _ _ mainPairs mainLevels 0 fun _ _ => rfl
  pre c := iprop(StableHlo.held (c : Thread nD τ) (Pipeline.ucRefs τ sig) (Gen.V9 m c) ∗ coreRest c)
  post c := iprop(StableHlo.held (c : Thread nD τ) (Pipeline.ucRefs τ sig) (Gen.V10 m (outsK m) c) ∗ coreRest c)
  X c := iprop(∃ r, prngReg c r)
  Y c := iprop(∃ r, prngReg c r)
  Z c := Pipeline.unscopedRest (Ix := Unit) (Name := ℕ) (U := UR sig nD τ) (Lvl := ℕ) spec0 c (fun b : Ref sig .tc => Gen.V9 m c b)
  hentry c := by
    rw [Pipeline.ownSems0_none]
    have hsplit := Pipeline.arrays_of_unscopedBufs (p := 0) (pcfgs (F := F)) Gen.adm (pdats m) Gen.launch0.win Gen.launch0.arr_whole c
      ((pdats m 0 c).share_full fun _ => rfl) (fun b : Ref sig .tc => Gen.V9 m c b) fun w => A_eq0 (fun c b => Gen.V9 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (fun c b => Gen.V9 m c b) c)
    unfold Pipeline.ΦA
    iintro ⟨Hp, -, Hr⟩
    isplitl [Hr]; · iexact Hr
    iexact Hp
  hout c := by
    rw [Pipeline.ownSems0_none]
    refine BIBase.Entails.trans (hout0 (fun c b => Gen.V9 m c b) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      Gen.launch0.win Gen.launch0.arr_whole c (pdats m) ((pdats m 0 c).share_full fun _ => rfl)
      (fun b : Ref sig .tc => Gen.V9 m c b) (fun b : Ref sig .tc => Gen.V10 m (outsK m) c b) ((pdats m 0 c).arrAt · cfg0.N) (exit0_arrays m c) (exit0_others m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def region1 : RegionSeg (pcfgs (F := F)) Gen.adm (pdats m) () defs₀ mainVariants mainPairs mainLevels 1 where
  win := Gen.launch1.win.to₀
  block_pos := Gen.launch1.block_pos
  stage_whole := Gen.launch1.stage_whole
  K := PEmpty
  osem k := k.elim
  ho := Pipeline.OwnSemFacts.none _
  hbody c := (body_obligation1 (fun c b => Gen.V11 m (outsK m) c b) c).loose
  hwaits := Pipeline.hwaits_of_owed_zero _ _ _ _ mainPairs mainLevels 1 fun _ _ => rfl
  pre c := iprop(StableHlo.held (c : Thread nD τ) (Pipeline.ucRefs τ sig) (Gen.V11 m (outsK m) c) ∗ coreRest c)
  post c := iprop(StableHlo.held (c : Thread nD τ) (Pipeline.ucRefs τ sig) (Gen.V12 m (outsK m) c) ∗ coreRest c)
  X c := iprop(∃ r, prngReg c r)
  Y c := iprop(∃ r, prngReg c r)
  Z c := Pipeline.unscopedRest (Ix := Unit) (Name := ℕ) (U := UR sig nD τ) (Lvl := ℕ) spec1 c (fun b : Ref sig .tc => Gen.V11 m (outsK m) c b)
  hentry c := by
    rw [Pipeline.ownSems0_none]
    have hsplit := Pipeline.arrays_of_unscopedBufs (p := 1) (pcfgs (F := F)) Gen.adm (pdats m) Gen.launch1.win Gen.launch1.arr_whole c
      ((pdats m 1 c).share_full fun _ => rfl) (fun b : Ref sig .tc => Gen.V11 m (outsK m) c b) fun w => A_eq1 (fun c b => Gen.V11 m (outsK m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (fun c b => Gen.V11 m (outsK m) c b) c)
    unfold Pipeline.ΦA
    iintro ⟨Hp, -, Hr⟩
    isplitl [Hr]; · iexact Hr
    iexact Hp
  hout c := by
    rw [Pipeline.ownSems0_none]
    refine BIBase.Entails.trans (hout1 (fun c b => Gen.V11 m (outsK m) c b) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      Gen.launch1.win Gen.launch1.arr_whole c (pdats m) ((pdats m 1 c).share_full fun _ => rfl)
      (fun b : Ref sig .tc => Gen.V11 m (outsK m) c b) (fun b : Ref sig .tc => Gen.V12 m (outsK m) c b) ((pdats m 1 c).arrAt · cfg1.N) (exit1_arrays m c) (exit1_others m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem launch_element : (ownU (initOf (Pipeline.cells cfgs Gen.cellOf_inj) (Pipeline.launchToks cfgs Gen.cellOf_inj)) : sProp 𝕄)
    ⊢ |={Set.univ}=> iprop(BI.own ((emb₁ : Emb _ 𝕄) (initOf (Pipeline.cells cfgs Gen.cellOf_inj) (Pipeline.launchToks cfgs Gen.cellOf_inj)))
        ∗ bigSep Finset.univ fun _ : Dev nD => (BI.emp : sProp 𝕄)) := by
  iintro Hu; imodintro
  isplitl [Hu]
  · iapply (show (ownU (initOf (Pipeline.cells cfgs Gen.cellOf_inj) (Pipeline.launchToks cfgs Gen.cellOf_inj)) : sProp 𝕄)
        ⊢ BI.own ((emb₁ : Emb _ 𝕄) (initOf (Pipeline.cells cfgs Gen.cellOf_inj) (Pipeline.launchToks cfgs Gen.cellOf_inj))) from .rfl)
    iexact Hu
  iapply (show (BI.emp : sProp 𝕄) ⊢ bigSep Finset.univ (fun _ : Dev nD => (BI.emp : sProp 𝕄)) from by rw [BI.bigSep_emp_const])
  iempintro

theorem coreRest_launch (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts mainPairs mainLevels)
      ⊢ (|={Set.univ}=> bigSep Finset.univ (coreRestAt (F := F) 0) : sProp 𝕄) := by
  refine Pipeline.initEach mainPairs mainLevels fun c => ?_
  iintro ⟨⟨-, HO, -, Hp, -⟩, -⟩
  imodintro
  isplitl [Hp]; · iexists _; iexact Hp
  iexists ∅; iexact HO

theorem coreRest_end (c : Dev nD) : coreRestAt (F := F) 2 c ⊢ (iprop(∃ W, owes (c : Thread nD τ) (0 : CellTallies nD τ sig Unit) W) : sProp 𝕄) := by
  iintro ⟨-, HO⟩
  iexact HO

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Gen.frame_cond m emb₁ () mainVariants mainPairs mainLevels (fun _ _ => rfl) ρ (outsK m) (pdats m) 0 (fun _ => (BI.emp : sProp 𝕄))
    (initOf (Pipeline.cells cfgs Gen.cellOf_inj) (Pipeline.launchToks cfgs Gen.cellOf_inj)) launch_element coreRestAt (coreRest_launch ρ) coreRest_end
    (region0 m) (fun c => .rfl) (fun c => .rfl) (region1 m) (fun c => .rfl) (fun c => .rfl)

set_option backward.isDefEq.respectTransparency.types false in
theorem run_result (ρ : Dev nD → PrngReg) :
    θ_run defs (onTc (τ := τ) (main (F := F))) ⟨m, fun _ => 0, ρ⟩ (fun r => ∀ c : Dev nD,
      r.2.mem ((c.tc : Thread nD τ).loc main_v147) = Gen.V15 m (outsK m) c main_v147
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine Pipeline.θ_run_regions_kit_dev (pcfgs (F := F)) Gen.adm (pdats m) () Gen.cellOf_inj emb₁ defs₀ mainVariants mainPairs mainLevels m ρ main
    (Gen.segs m (outsK m) mainVariants mainPairs mainLevels coreRestAt () (pdats m) (region0 m) (region1 m))
    (fun c Q => by
      rewrite [Gen.main_chain c, Seg.run_eq_chain,
        show (Gen.segs m (outsK m) mainVariants mainPairs mainLevels coreRestAt () (pdats m) (region0 m) (region1 m) c).map Seg.prog = [
          StableHlo.seq Gen.hostOps0,
          StableHlo.seq Gen.hostOps0_1,
          StableHlo.seq Gen.hostOps0_2,
          StableHlo.seq Gen.hostOps0_3,
          StableHlo.seq Gen.hostOps0_4,
          StableHlo.seq Gen.hostOps0_5,
          StableHlo.seq Gen.hostOps0_6,
          StableHlo.seq Gen.hostOps0_7,
          StableHlo.seq Gen.hostOps0_8,
          Prog.lift (.customCall (Pipeline.entry 0) ()),
          StableHlo.seq Gen.hostOps1,
          Prog.lift (.customCall (Pipeline.entry 1) ()),
          StableHlo.seq Gen.hostOps2,
          StableHlo.seq Gen.hostOps2_1,
          StableHlo.seq Gen.hostOps2_2 ] from rfl]
      exact .rfl)
    (fun c => by simp only [Gen.segs, Seg.pipes_host, Seg.pipes_region, Seg.pipes_nil]; decide)
    (0 : Dev nD → CellTallies nD τ sig Unit) (fun _ _ => rfl) (fun _ => (BI.emp : sProp 𝕄))
    (initOf (Pipeline.cells cfgs Gen.cellOf_inj) (Pipeline.launchToks cfgs Gen.cellOf_inj)) launch_element
    (T₀ := fun c => iprop(StableHlo.held (c : Thread nD τ) (Pipeline.ucRefs τ sig) (Gen.V0 m c) ∗ coreRestAt 0 c))
    (Tₙ := fun c => StableHlo.held (c : Thread nD τ) (Pipeline.ucRefs τ sig) (Gen.V15 m (outsK m) c))
    (hch := fun c => ⟨.rfl, .rfl, .rfl, .rfl, .rfl, .rfl, .rfl, .rfl, .rfl, .rfl, .rfl, .rfl, .rfl, .rfl, .rfl, sep_mono .rfl (coreRest_end c)⟩)
    (hinit := ?_) (QY := fun c s => s.mem ((c.tc : Thread nD τ).loc main_v147) = Gen.V15 m (outsK m) c main_v147 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (coreRest_launch (F := F) ρ) $$ [Hr Hla] with HE
    · isplitl [Hr]; · iexact Hr
      iexact Hla
    imodintro
    rw [bigSep_sep' Finset.univ (fun c : Dev nD => StableHlo.held (c : Thread nD τ) (Pipeline.ucRefs τ sig) (Gen.V0 m c)) (coreRestAt (F := F) 0)]
    isplitl [Hh]; · iexact Hh
    iexact HE
  ·
    unfold StableHlo.held
    iintro ⟨Hh, HSI⟩
    ihave Hr := (pointsTo_read_all (Pipeline.ucRefs τ sig) (fun b => ((c : Thread nD τ).1, b)) (Gen.V15 m (outsK m) c) s') $$ [Hh HSI]
    · isplitl [Hh] <;> iassumption
    icases Hr with ⟨%h, HSI⟩
    imodintro
    isplitr
    · ipureintro
      exact ⟨h (Proc.devRef .tc main_v147) (Finset.mem_filter.mpr ⟨StableHlo.devRef_mem_tcRefs main_v147, by decide⟩),
        (h (Proc.devRef .tc main_arg0) (Finset.mem_filter.mpr ⟨StableHlo.devRef_mem_tcRefs main_arg0, by decide⟩)).trans (Gen.V15_main_arg0 m (outsK m) c),
        (h (Proc.devRef .tc main_arg1) (Finset.mem_filter.mpr ⟨StableHlo.devRef_mem_tcRefs main_arg1, by decide⟩)).trans (Gen.V15_main_arg1 m (outsK m) c),
        (h (Proc.devRef .tc main_arg2) (Finset.mem_filter.mpr ⟨StableHlo.devRef_mem_tcRefs main_arg2, by decide⟩)).trans (Gen.V15_main_arg2 m (outsK m) c),
        (h (Proc.devRef .tc main_arg3) (Finset.mem_filter.mpr ⟨StableHlo.devRef_mem_tcRefs main_arg3, by decide⟩)).trans (Gen.V15_main_arg3 m (outsK m) c),
        (h (Proc.devRef .tc main_arg4) (Finset.mem_filter.mpr ⟨StableHlo.devRef_mem_tcRefs main_arg4, by decide⟩)).trans (Gen.V15_main_arg4 m (outsK m) c),
        (h (Proc.devRef .tc main_arg5) (Finset.mem_filter.mpr ⟨StableHlo.devRef_mem_tcRefs main_arg5, by decide⟩)).trans (Gen.V15_main_arg5 m (outsK m) c),
        (h (Proc.devRef .tc main_arg6) (Finset.mem_filter.mpr ⟨StableHlo.devRef_mem_tcRefs main_arg6, by decide⟩)).trans (Gen.V15_main_arg6 m (outsK m) c),
        (h (Proc.devRef .tc main_arg7) (Finset.mem_filter.mpr ⟨StableHlo.devRef_mem_tcRefs main_arg7, by decide⟩)).trans (Gen.V15_main_arg7 m (outsK m) c),
        (h (Proc.devRef .tc main_arg8) (Finset.mem_filter.mpr ⟨StableHlo.devRef_mem_tcRefs main_arg8, by decide⟩)).trans (Gen.V15_main_arg8 m (outsK m) c),
        (h (Proc.devRef .tc main_arg9) (Finset.mem_filter.mpr ⟨StableHlo.devRef_mem_tcRefs main_arg9, by decide⟩)).trans (Gen.V15_main_arg9 m (outsK m) c),
        (h (Proc.devRef .tc main_arg10) (Finset.mem_filter.mpr ⟨StableHlo.devRef_mem_tcRefs main_arg10, by decide⟩)).trans (Gen.V15_main_arg10 m (outsK m) c),
        (h (Proc.devRef .tc main_arg11) (Finset.mem_filter.mpr ⟨StableHlo.devRef_mem_tcRefs main_arg11, by decide⟩)).trans (Gen.V15_main_arg11 m (outsK m) c),
        (h (Proc.devRef .tc main_arg12) (Finset.mem_filter.mpr ⟨StableHlo.devRef_mem_tcRefs main_arg12, by decide⟩)).trans (Gen.V15_main_arg12 m (outsK m) c),
        (h (Proc.devRef .tc main_arg13) (Finset.mem_filter.mpr ⟨StableHlo.devRef_mem_tcRefs main_arg13, by decide⟩)).trans (Gen.V15_main_arg13 m (outsK m) c)⟩
    · iexact HSI

end Cert.KernelIdeal.Hand

end
-- ==== Proof.RefRun.Inv.lean ====
import proofs.«406476_j70849780514835_3_alg».proof.Proof.RefRead
import Idealize.ShloMosaic.Lib.Pipeline.Frame
noncomputable section

namespace Cert.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The contents of the reference's fourteen arguments at launch. -/
structure Args (F : FTy → Type) where
  x0 : (⟨S200x8192, .f32⟩ : BufTy).Contents (Elt F)
  x1 : (⟨S200x8192, .f32⟩ : BufTy).Contents (Elt F)
  x2 : (⟨S2x3200, .i32⟩ : BufTy).Contents (Elt F)
  x3 : (⟨S2x3200, .i32⟩ : BufTy).Contents (Elt F)
  x4 : (⟨S3200, .f32⟩ : BufTy).Contents (Elt F)
  x5 : (⟨S3200, .f32⟩ : BufTy).Contents (Elt F)
  x6 : (⟨S3x8192x4096, .f32⟩ : BufTy).Contents (Elt F)
  x7 : (⟨S4096, .f32⟩ : BufTy).Contents (Elt F)
  x8 : (⟨S3x4096x4096, .f32⟩ : BufTy).Contents (Elt F)
  x9 : (⟨S4096, .f32⟩ : BufTy).Contents (Elt F)
  x10 : (⟨S200x100, .f32⟩ : BufTy).Contents (Elt F)
  x11 : (⟨S100, .f32⟩ : BufTy).Contents (Elt F)
  x12 : (⟨S100x1, .f32⟩ : BufTy).Contents (Elt F)
  x13 : (⟨S1, .f32⟩ : BufTy).Contents (Elt F)

theorem writes_mem {W : List (Ref sig .tc)} (y : Ref sig .tc) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The fourteen arguments hold their launch contents. -/
structure ArgsHold (a : Args F) (V : Valuation τ sig (Elt F)) : Prop where
  h_main_arg0 : V (no_index (Proc.devRef .tc main_arg0)) = a.x0
  h_main_arg1 : V (no_index (Proc.devRef .tc main_arg1)) = a.x1
  h_main_arg2 : V (no_index (Proc.devRef .tc main_arg2)) = a.x2
  h_main_arg3 : V (no_index (Proc.devRef .tc main_arg3)) = a.x3
  h_main_arg4 : V (no_index (Proc.devRef .tc main_arg4)) = a.x4
  h_main_arg5 : V (no_index (Proc.devRef .tc main_arg5)) = a.x5
  h_main_arg6 : V (no_index (Proc.devRef .tc main_arg6)) = a.x6
  h_main_arg7 : V (no_index (Proc.devRef .tc main_arg7)) = a.x7
  h_main_arg8 : V (no_index (Proc.devRef .tc main_arg8)) = a.x8
  h_main_arg9 : V (no_index (Proc.devRef .tc main_arg9)) = a.x9
  h_main_arg10 : V (no_index (Proc.devRef .tc main_arg10)) = a.x10
  h_main_arg11 : V (no_index (Proc.devRef .tc main_arg11)) = a.x11
  h_main_arg12 : V (no_index (Proc.devRef .tc main_arg12)) = a.x12
  h_main_arg13 : V (no_index (Proc.devRef .tc main_arg13)) = a.x13

abbrev argRefs : List (Ref sig .tc) :=
  [main_arg0, main_arg1, main_arg2, main_arg3, main_arg4, main_arg5, main_arg6, main_arg7, main_arg8, main_arg9, main_arg10, main_arg11, main_arg12, main_arg13]

/-- Operations that write none of the arguments leave all fourteen as they were. -/
theorem ArgsHold.step {a : Args F} {V : Valuation τ sig (Elt F)} (h : ArgsHold a V) {W : List (Ref sig .tc)} (ops : List (HloOp τ sig (Elt F)))
    (hW : ops.Forall fun op => op.writes ⊆ (W.map (Proc.devRef (τ := τ) .tc)).toFinset) (hr : ∀ r ∈ argRefs, r ∉ W) : ArgsHold a (after ops V) where
  h_main_arg0 := (after_of_writes_sub (r := main_arg0) ops V hW (hr _ (by decide))).trans h.h_main_arg0
  h_main_arg1 := (after_of_writes_sub (r := main_arg1) ops V hW (hr _ (by decide))).trans h.h_main_arg1
  h_main_arg2 := (after_of_writes_sub (r := main_arg2) ops V hW (hr _ (by decide))).trans h.h_main_arg2
  h_main_arg3 := (after_of_writes_sub (r := main_arg3) ops V hW (hr _ (by decide))).trans h.h_main_arg3
  h_main_arg4 := (after_of_writes_sub (r := main_arg4) ops V hW (hr _ (by decide))).trans h.h_main_arg4
  h_main_arg5 := (after_of_writes_sub (r := main_arg5) ops V hW (hr _ (by decide))).trans h.h_main_arg5
  h_main_arg6 := (after_of_writes_sub (r := main_arg6) ops V hW (hr _ (by decide))).trans h.h_main_arg6
  h_main_arg7 := (after_of_writes_sub (r := main_arg7) ops V hW (hr _ (by decide))).trans h.h_main_arg7
  h_main_arg8 := (after_of_writes_sub (r := main_arg8) ops V hW (hr _ (by decide))).trans h.h_main_arg8
  h_main_arg9 := (after_of_writes_sub (r := main_arg9) ops V hW (hr _ (by decide))).trans h.h_main_arg9
  h_main_arg10 := (after_of_writes_sub (r := main_arg10) ops V hW (hr _ (by decide))).trans h.h_main_arg10
  h_main_arg11 := (after_of_writes_sub (r := main_arg11) ops V hW (hr _ (by decide))).trans h.h_main_arg11
  h_main_arg12 := (after_of_writes_sub (r := main_arg12) ops V hW (hr _ (by decide))).trans h.h_main_arg12
  h_main_arg13 := (after_of_writes_sub (r := main_arg13) ops V hW (hr _ (by decide))).trans h.h_main_arg13

/-! `InvK`: between two stretches of @main the arguments are as launched and every buffer a later operation reads
    holds its stage value of them. -/

structure Inv1 (a : Args F) (V : Valuation τ sig (Elt F)) : Prop extends ArgsHold a V where
  h_main_v1 : V (no_index (Proc.devRef .tc main_v1)) = val_main_v1 (F := F) a.x2
  h_main_v3 : V (no_index (Proc.devRef .tc main_v3)) = val_main_v3 (F := F) a.x2
  h_main_v13 : V (no_index (Proc.devRef .tc main_v13)) = val_main_v13 (F := F) a.x2 a.x4
  h_main_v20 : V (no_index (Proc.devRef .tc main_v20)) = val_main_v20 (F := F) a.x2 a.x4

structure Inv2 (a : Args F) (V : Valuation τ sig (Elt F)) : Prop extends ArgsHold a V where
  h_main_v1 : V (no_index (Proc.devRef .tc main_v1)) = val_main_v1 (F := F) a.x2
  h_main_v3 : V (no_index (Proc.devRef .tc main_v3)) = val_main_v3 (F := F) a.x2
  h_main_v43 : V (no_index (Proc.devRef .tc main_v43)) = val_main_v43 (F := F) a.x0 a.x2 a.x4
  h_main_v45 : V (no_index (Proc.devRef .tc main_v45)) = val_main_v45 (F := F) a.x2 a.x4
  h_main_v46 : V (no_index (Proc.devRef .tc main_v46)) = val_main_v46 (F := F)

structure Inv3 (a : Args F) (V : Valuation τ sig (Elt F)) : Prop extends ArgsHold a V where
  h_main_v1 : V (no_index (Proc.devRef .tc main_v1)) = val_main_v1 (F := F) a.x2
  h_main_v3 : V (no_index (Proc.devRef .tc main_v3)) = val_main_v3 (F := F) a.x2
  h_main_v74 : V (no_index (Proc.devRef .tc main_v74)) = val_main_v74 (F := F) a.x0 a.x2 a.x4 a.x6 a.x7
  h_main_call2_v0 : V (no_index (Proc.devRef .tc main_call2_v0)) = val_main_call2_v0 (F := F)

structure Inv4 (a : Args F) (V : Valuation τ sig (Elt F)) : Prop extends ArgsHold a V where
  h_main_v1 : V (no_index (Proc.devRef .tc main_v1)) = val_main_v1 (F := F) a.x2
  h_main_v3 : V (no_index (Proc.devRef .tc main_v3)) = val_main_v3 (F := F) a.x2
  h_main_v75 : V (no_index (Proc.devRef .tc main_v75)) = val_main_v75 (F := F) a.x0 a.x2 a.x4 a.x6 a.x7
  h_main_v85 : V (no_index (Proc.devRef .tc main_v85)) = val_main_v85 (F := F) a.x2 a.x4
  h_main_v93 : V (no_index (Proc.devRef .tc main_v93)) = val_main_v93 (F := F) a.x2 a.x4
  h_main_v95 : V (no_index (Proc.devRef .tc main_v95)) = val_main_v95 (F := F) a.x2

structure Inv5 (a : Args F) (V : Valuation τ sig (Elt F)) : Prop extends ArgsHold a V where
  h_main_v1 : V (no_index (Proc.devRef .tc main_v1)) = val_main_v1 (F := F) a.x2
  h_main_v3 : V (no_index (Proc.devRef .tc main_v3)) = val_main_v3 (F := F) a.x2
  h_main_v75 : V (no_index (Proc.devRef .tc main_v75)) = val_main_v75 (F := F) a.x0 a.x2 a.x4 a.x6 a.x7
  h_main_v115 : V (no_index (Proc.devRef .tc main_v115)) = val_main_v115 (F := F) a.x0 a.x2 a.x4 a.x6 a.x7
  h_main_v117 : V (no_index (Proc.devRef .tc main_v117)) = val_main_v117 (F := F) a.x2 a.x4
  h_main_v119 : V (no_index (Proc.devRef .tc main_v119)) = val_main_v119 (F := F) a.x2
  h_main_v120 : V (no_index (Proc.devRef .tc main_v120)) = val_main_v120 (F := F)

structure Inv6 (a : Args F) (V : Valuation τ sig (Elt F)) : Prop extends ArgsHold a V where
  h_main_v147 : V (no_index (Proc.devRef .tc main_v147)) = val_main_v147 (F := F) a.x0 a.x2 a.x4 a.x6 a.x7 a.x8 a.x9

structure Inv7 (a : Args F) (V : Valuation τ sig (Elt F)) : Prop extends ArgsHold a V where
  h_main_v147 : V (no_index (Proc.devRef .tc main_v147)) = val_main_v147 (F := F) a.x0 a.x2 a.x4 a.x6 a.x7 a.x8 a.x9
  h_main_v149 : V (no_index (Proc.devRef .tc main_v149)) = val_main_v149 (F := F) a.x3
  h_main_v151 : V (no_index (Proc.devRef .tc main_v151)) = val_main_v151 (F := F) a.x3
  h_main_v161 : V (no_index (Proc.devRef .tc main_v161)) = val_main_v161 (F := F) a.x3 a.x5
  h_main_v168 : V (no_index (Proc.devRef .tc main_v168)) = val_main_v168 (F := F) a.x3 a.x5

structure Inv8 (a : Args F) (V : Valuation τ sig (Elt F)) : Prop extends ArgsHold a V where
  h_main_v147 : V (no_index (Proc.devRef .tc main_v147)) = val_main_v147 (F := F) a.x0 a.x2 a.x4 a.x6 a.x7 a.x8 a.x9
  h_main_v149 : V (no_index (Proc.devRef .tc main_v149)) = val_main_v149 (F := F) a.x3
  h_main_v151 : V (no_index (Proc.devRef .tc main_v151)) = val_main_v151 (F := F) a.x3
  h_main_v191 : V (no_index (Proc.devRef .tc main_v191)) = val_main_v191 (F := F) a.x1 a.x3 a.x5
  h_main_v193 : V (no_index (Proc.devRef .tc main_v193)) = val_main_v193 (F := F) a.x3 a.x5
  h_main_v194 : V (no_index (Proc.devRef .tc main_v194)) = val_main_v194 (F := F)

structure Inv9 (a : Args F) (V : Valuation τ sig (Elt F)) : Prop extends ArgsHold a V where
  h_main_v147 : V (no_index (Proc.devRef .tc main_v147)) = val_main_v147 (F := F) a.x0 a.x2 a.x4 a.x6 a.x7 a.x8 a.x9
  h_main_v149 : V (no_index (Proc.devRef .tc main_v149)) = val_main_v149 (F := F) a.x3
  h_main_v151 : V (no_index (Proc.devRef .tc main_v151)) = val_main_v151 (F := F) a.x3
  h_main_v222 : V (no_index (Proc.devRef .tc main_v222)) = val_main_v222 (F := F) a.x1 a.x3 a.x5 a.x6 a.x7
  h_main_call8_v0 : V (no_index (Proc.devRef .tc main_call8_v0)) = val_main_call8_v0 (F := F)

structure Inv10 (a : Args F) (V : Valuation τ sig (Elt F)) : Prop extends ArgsHold a V where
  h_main_v147 : V (no_index (Proc.devRef .tc main_v147)) = val_main_v147 (F := F) a.x0 a.x2 a.x4 a.x6 a.x7 a.x8 a.x9
  h_main_v149 : V (no_index (Proc.devRef .tc main_v149)) = val_main_v149 (F := F) a.x3
  h_main_v151 : V (no_index (Proc.devRef .tc main_v151)) = val_main_v151 (F := F) a.x3
  h_main_v223 : V (no_index (Proc.devRef .tc main_v223)) = val_main_v223 (F := F) a.x1 a.x3 a.x5 a.x6 a.x7
  h_main_v233 : V (no_index (Proc.devRef .tc main_v233)) = val_main_v233 (F := F) a.x3 a.x5
  h_main_v241 : V (no_index (Proc.devRef .tc main_v241)) = val_main_v241 (F := F) a.x3 a.x5
  h_main_v243 : V (no_index (Proc.devRef .tc main_v243)) = val_main_v243 (F := F) a.x3

structure Inv11 (a : Args F) (V : Valuation τ sig (Elt F)) : Prop extends ArgsHold a V where
  h_main_v147 : V (no_index (Proc.devRef .tc main_v147)) = val_main_v147 (F := F) a.x0 a.x2 a.x4 a.x6 a.x7 a.x8 a.x9
  h_main_v149 : V (no_index (Proc.devRef .tc main_v149)) = val_main_v149 (F := F) a.x3
  h_main_v151 : V (no_index (Proc.devRef .tc main_v151)) = val_main_v151 (F := F) a.x3
  h_main_v223 : V (no_index (Proc.devRef .tc main_v223)) = val_main_v223 (F := F) a.x1 a.x3 a.x5 a.x6 a.x7
  h_main_v263 : V (no_index (Proc.devRef .tc main_v263)) = val_main_v263 (F := F) a.x1 a.x3 a.x5 a.x6 a.x7
  h_main_v265 : V (no_index (Proc.devRef .tc main_v265)) = val_main_v265 (F := F) a.x3 a.x5
  h_main_v267 : V (no_index (Proc.devRef .tc main_v267)) = val_main_v267 (F := F) a.x3
  h_main_v268 : V (no_index (Proc.devRef .tc main_v268)) = val_main_v268 (F := F)

structure Inv12 (a : Args F) (V : Valuation τ sig (Elt F)) : Prop extends ArgsHold a V where
  h_main_v147 : V (no_index (Proc.devRef .tc main_v147)) = val_main_v147 (F := F) a.x0 a.x2 a.x4 a.x6 a.x7 a.x8 a.x9
  h_main_v295 : V (no_index (Proc.devRef .tc main_v295)) = val_main_v295 (F := F) a.x1 a.x3 a.x5 a.x6 a.x7 a.x8 a.x9

structure Inv13 (a : Args F) (V : Valuation τ sig (Elt F)) : Prop extends ArgsHold a V where
  h_main_v306 : V (no_index (Proc.devRef .tc main_v306)) = val_main_v306 (F := F) a.x0 a.x1 a.x2 a.x3 a.x4 a.x5 a.x6 a.x7 a.x8 a.x9 a.x10 a.x11 a.x12 a.x13

end Cert.RefRun

end
-- ==== Proof.RefRun.P0.lean ====
import proofs.«406476_j70849780514835_3_alg».proof.Proof.RefRun.Inv

/-! Stretch 0 of the reference's operations: each buffer a later operation reads ends at its stage value of the
    arguments. -/

noncomputable section

namespace Cert.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops_p0_0 : List (HloOp τ sig (Elt F)) :=
  [ unary main_arg2 main_v0 ((extractStridedSlice S1x3200 ![0, 0] · slices_S2x3200_S1x3200_0_0) : (⟨S2x3200, .i32⟩ : BufTy).Contents (Elt F) → (⟨S1x3200, .i32⟩ : BufTy).Contents (Elt F)),
    reshape main_v0 main_v1 rfl shapeCasts_S1x3200_S3200,
    unary main_arg2 main_v2 ((extractStridedSlice S1x3200 ![1, 0] · slices_S2x3200_S1x3200_1_0) : (⟨S2x3200, .i32⟩ : BufTy).Contents (Elt F) → (⟨S1x3200, .i32⟩ : BufTy).Contents (Elt F)),
    reshape main_v2 main_v3 rfl shapeCasts_S1x3200_S3200,
    nullary main_cst (constant S_ .f32 0x00000000#32),
    unary main_cst main_v4 (broadcastInDim S200 ![] bcast_S_S200 : (⟨S_, .f32⟩ : BufTy).Contents (Elt F) → (⟨S200, .f32⟩ : BufTy).Contents (Elt F)),
    unary main_v1 main_v5 (broadcastInDim S3200x1 ![0] bcast_S3200_S3200x1_0 : (⟨S3200, .i32⟩ : BufTy).Contents (Elt F) → (⟨S3200x1, .i32⟩ : BufTy).Contents (Elt F)),
    ternary main_v4 main_v5 main_arg4 main_v6 ((fun x i u => Host.scatterAdd scatter_S200_S3200x1_S3200_n_0_0_1 x i u) : (⟨S200, .f32⟩ : BufTy).Contents (Elt F) → (⟨S3200x1, .i32⟩ : BufTy).Contents (Elt F) → (⟨S3200, .f32⟩ : BufTy).Contents (Elt F) → (⟨S200, .f32⟩ : BufTy).Contents (Elt F)),
    nullary main_cst_0 (constant S_ .f32 0x00000000#32),
    unary main_cst_0 main_v7 (broadcastInDim S200 ![] bcast_S_S200 : (⟨S_, .f32⟩ : BufTy).Contents (Elt F) → (⟨S200, .f32⟩ : BufTy).Contents (Elt F)),
    binary main_v6 main_v7 main_v8 (cmpf .ogt : (⟨S200, .f32⟩ : BufTy).Contents (Elt F) → (⟨S200, .f32⟩ : BufTy).Contents (Elt F) → (⟨S200, .i1⟩ : BufTy).Contents (Elt F)),
    nullary main_cst_1 (constant S_ .f32 0x3F800000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S200, .f32⟩) main_call0_v1) (broadcastInDim S200 ![] bcast_S_S200),
    TRef.ternary (TRef.of (T := ⟨S200, .i1⟩) main_v8) (TRef.of (T := ⟨S200, .f32⟩) main_v6) (TRef.of (T := ⟨S200, .f32⟩) main_call0_v1) (TRef.of (T := ⟨S200, .f32⟩) main_v9) select,
    nullary main_cst_2 (constant S_ .f32 0x00000000#32),
    unary main_cst_2 main_v10 (broadcastInDim S200 ![] bcast_S_S200 : (⟨S_, .f32⟩ : BufTy).Contents (Elt F) → (⟨S200, .f32⟩ : BufTy).Contents (Elt F)),
    binary main_v6 main_v10 main_v11 (cmpf .ogt : (⟨S200, .f32⟩ : BufTy).Contents (Elt F) → (⟨S200, .f32⟩ : BufTy).Contents (Elt F) → (⟨S200, .i1⟩ : BufTy).Contents (Elt F)),
    unary main_v9 main_v12 (Host.rsqrt : (⟨S200, .f32⟩ : BufTy).Contents (Elt F) → (⟨S200, .f32⟩ : BufTy).Contents (Elt F)),
    nullary main_cst_3 (constant S_ .f32 0x00000000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S200, .f32⟩) main_call1_v1) (broadcastInDim S200 ![] bcast_S_S200),
    TRef.ternary (TRef.of (T := ⟨S200, .i1⟩) main_v11) (TRef.of (T := ⟨S200, .f32⟩) main_v12) (TRef.of (T := ⟨S200, .f32⟩) main_call1_v1) (TRef.of (T := ⟨S200, .f32⟩) main_v13) select,
    nullary main_c (constantI S_ 32 0#32),
    unary main_c main_v14 (broadcastInDim S3200 ![] bcast_S_S3200 : (⟨S_, .i32⟩ : BufTy).Contents (Elt F) → (⟨S3200, .i32⟩ : BufTy).Contents (Elt F)),
    binary main_v1 main_v14 main_v15 (cmpi .slt : (⟨S3200, .i32⟩ : BufTy).Contents (Elt F) → (⟨S3200, .i32⟩ : BufTy).Contents (Elt F) → (⟨S3200, .i1⟩ : BufTy).Contents (Elt F)),
    nullary main_c_4 (constantI S_ 32 200#32),
    unary main_c_4 main_v16 (broadcastInDim S3200 ![] bcast_S_S3200 : (⟨S_, .i32⟩ : BufTy).Contents (Elt F) → (⟨S3200, .i32⟩ : BufTy).Contents (Elt F)),
    binary main_v1 main_v16 main_v17 (addi : (⟨S3200, .i32⟩ : BufTy).Contents (Elt F) → (⟨S3200, .i32⟩ : BufTy).Contents (Elt F) → (⟨S3200, .i32⟩ : BufTy).Contents (Elt F)),
    ternary main_v15 main_v17 main_v1 main_v18 (select : (⟨S3200, .i1⟩ : BufTy).Contents (Elt F) → (⟨S3200, .i32⟩ : BufTy).Contents (Elt F) → (⟨S3200, .i32⟩ : BufTy).Contents (Elt F) → (⟨S3200, .i32⟩ : BufTy).Contents (Elt F)),
    unary main_v18 main_v19 (broadcastInDim S3200x1 ![0] bcast_S3200_S3200x1_0 : (⟨S3200, .i32⟩ : BufTy).Contents (Elt F) → (⟨S3200x1, .i32⟩ : BufTy).Contents (Elt F)),
    binary main_v13 main_v19 main_v20 ((fun x i => Host.gather gather_S200_S3200x1_S3200_n_0_n_n_0_1_1 x i) : (⟨S200, .f32⟩ : BufTy).Contents (Elt F) → (⟨S3200x1, .i32⟩ : BufTy).Contents (Elt F) → (⟨S3200, .f32⟩ : BufTy).Contents (Elt F)) ]

abbrev ops_p0_1 : List (HloOp τ sig (Elt F)) :=
  [ binary main_v20 main_arg4 main_v21 (mulf : (⟨S3200, .f32⟩ : BufTy).Contents (Elt F) → (⟨S3200, .f32⟩ : BufTy).Contents (Elt F) → (⟨S3200, .f32⟩ : BufTy).Contents (Elt F)),
    nullary main_c_5 (constantI S_ 32 0#32),
    unary main_c_5 main_v22 (broadcastInDim S3200 ![] bcast_S_S3200 : (⟨S_, .i32⟩ : BufTy).Contents (Elt F) → (⟨S3200, .i32⟩ : BufTy).Contents (Elt F)),
    binary main_v3 main_v22 main_v23 (cmpi .slt : (⟨S3200, .i32⟩ : BufTy).Contents (Elt F) → (⟨S3200, .i32⟩ : BufTy).Contents (Elt F) → (⟨S3200, .i1⟩ : BufTy).Contents (Elt F)),
    nullary main_c_6 (constantI S_ 32 200#32),
    unary main_c_6 main_v24 (broadcastInDim S3200 ![] bcast_S_S3200 : (⟨S_, .i32⟩ : BufTy).Contents (Elt F) → (⟨S3200, .i32⟩ : BufTy).Contents (Elt F)),
    binary main_v3 main_v24 main_v25 (addi : (⟨S3200, .i32⟩ : BufTy).Contents (Elt F) → (⟨S3200, .i32⟩ : BufTy).Contents (Elt F) → (⟨S3200, .i32⟩ : BufTy).Contents (Elt F)),
    ternary main_v23 main_v25 main_v3 main_v26 (select : (⟨S3200, .i1⟩ : BufTy).Contents (Elt F) → (⟨S3200, .i32⟩ : BufTy).Contents (Elt F) → (⟨S3200, .i32⟩ : BufTy).Contents (Elt F) → (⟨S3200, .i32⟩ : BufTy).Contents (Elt F)),
    unary main_v26 main_v27 (broadcastInDim S3200x1 ![0] bcast_S3200_S3200x1_0 : (⟨S3200, .i32⟩ : BufTy).Contents (Elt F) → (⟨S3200x1, .i32⟩ : BufTy).Contents (Elt F)),
    binary main_v13 main_v27 main_v28 ((fun x i => Host.gather gather_S200_S3200x1_S3200_n_0_n_n_0_1_1 x i) : (⟨S200, .f32⟩ : BufTy).Contents (Elt F) → (⟨S3200x1, .i32⟩ : BufTy).Contents (Elt F) → (⟨S3200, .f32⟩ : BufTy).Contents (Elt F)),
    binary main_v21 main_v28 main_v29 (mulf : (⟨S3200, .f32⟩ : BufTy).Contents (Elt F) → (⟨S3200, .f32⟩ : BufTy).Contents (Elt F) → (⟨S3200, .f32⟩ : BufTy).Contents (Elt F)),
    unary main_v29 main_v30 (broadcastInDim S3200x1 ![0] bcast_S3200_S3200x1_0 : (⟨S3200, .f32⟩ : BufTy).Contents (Elt F) → (⟨S3200x1, .f32⟩ : BufTy).Contents (Elt F)),
    unary main_v30 main_v31 (Host.negf : (⟨S3200x1, .f32⟩ : BufTy).Contents (Elt F) → (⟨S3200x1, .f32⟩ : BufTy).Contents (Elt F)),
    nullary main_c_7 (constantI S_ 32 0#32),
    unary main_c_7 main_v32 (broadcastInDim S3200 ![] bcast_S_S3200 : (⟨S_, .i32⟩ : BufTy).Contents (Elt F) → (⟨S3200, .i32⟩ : BufTy).Contents (Elt F)),
    binary main_v1 main_v32 main_v33 (cmpi .slt : (⟨S3200, .i32⟩ : BufTy).Contents (Elt F) → (⟨S3200, .i32⟩ : BufTy).Contents (Elt F) → (⟨S3200, .i1⟩ : BufTy).Contents (Elt F)),
    nullary main_c_8 (constantI S_ 32 200#32),
    unary main_c_8 main_v34 (broadcastInDim S3200 ![] bcast_S_S3200 : (⟨S_, .i32⟩ : BufTy).Contents (Elt F) → (⟨S3200, .i32⟩ : BufTy).Contents (Elt F)),
    binary main_v1 main_v34 main_v35 (addi : (⟨S3200, .i32⟩ : BufTy).Contents (Elt F) → (⟨S3200, .i32⟩ : BufTy).Contents (Elt F) → (⟨S3200, .i32⟩ : BufTy).Contents (Elt F)),
    ternary main_v33 main_v35 main_v1 main_v36 (select : (⟨S3200, .i1⟩ : BufTy).Contents (Elt F) → (⟨S3200, .i32⟩ : BufTy).Contents (Elt F) → (⟨S3200, .i32⟩ : BufTy).Contents (Elt F) → (⟨S3200, .i32⟩ : BufTy).Contents (Elt F)),
    unary main_v36 main_v37 (broadcastInDim S3200x1 ![0] bcast_S3200_S3200x1_0 : (⟨S3200, .i32⟩ : BufTy).Contents (Elt F) → (⟨S3200x1, .i32⟩ : BufTy).Contents (Elt F)),
    binary main_arg0 main_v37 main_v38 ((fun x i => Host.gather gather_S200x8192_S3200x1_S3200x8192_1_0_n_n_0_1_18192 x i) : (⟨S200x8192, .f32⟩ : BufTy).Contents (Elt F) → (⟨S3200x1, .i32⟩ : BufTy).Contents (Elt F) → (⟨S3200x8192, .f32⟩ : BufTy).Contents (Elt F)),
    unary main_v31 main_v39 (broadcastInDim S3200x8192 ![0, 1] bcast_S3200x1_S3200x8192_0_1 : (⟨S3200x1, .f32⟩ : BufTy).Contents (Elt F) → (⟨S3200x8192, .f32⟩ : BufTy).Contents (Elt F)),
    binary main_v39 main_v38 main_v40 (mulf : (⟨S3200x8192, .f32⟩ : BufTy).Contents (Elt F) → (⟨S3200x8192, .f32⟩ : BufTy).Contents (Elt F) → (⟨S3200x8192, .f32⟩ : BufTy).Contents (Elt F)),
    nullary main_cst_9 (constant S_ .f32 0x00000000#32),
    unary main_cst_9 main_v41 (broadcastInDim S200x8192 ![] bcast_S_S200x8192 : (⟨S_, .f32⟩ : BufTy).Contents (Elt F) → (⟨S200x8192, .f32⟩ : BufTy).Contents (Elt F)),
    unary main_v3 main_v42 (broadcastInDim S3200x1 ![0] bcast_S3200_S3200x1_0 : (⟨S3200, .i32⟩ : BufTy).Contents (Elt F) → (⟨S3200x1, .i32⟩ : BufTy).Contents (Elt F)),
    ternary main_v41 main_v42 main_v40 main_v43 ((fun x i u => Host.scatterAdd scatter_S200x8192_S3200x1_S3200x8192_1_0_0_1 x i u) : (⟨S200x8192, .f32⟩ : BufTy).Contents (Elt F) → (⟨S3200x1, .i32⟩ : BufTy).Contents (Elt F) → (⟨S3200x8192, .f32⟩ : BufTy).Contents (Elt F) → (⟨S200x8192, .f32⟩ : BufTy).Contents (Elt F)),
    unary main_v29 main_v44 (broadcastInDim S3200x1 ![0] bcast_S3200_S3200x1_0 : (⟨S3200, .f32⟩ : BufTy).Contents (Elt F) → (⟨S3200x1, .f32⟩ : BufTy).Contents (Elt F)),
    unary main_v44 main_v45 (Host.negf : (⟨S3200x1, .f32⟩ : BufTy).Contents (Elt F) → (⟨S3200x1, .f32⟩ : BufTy).Contents (Elt F)),
    nullary main_c_10 (constantI S_ 32 0#32),
    unary main_c_10 main_v46 (broadcastInDim S3200 ![] bcast_S_S3200 : (⟨S_, .i32⟩ : BufTy).Contents (Elt F) → (⟨S3200, .i32⟩ : BufTy).Contents (Elt F)) ]

abbrev ops_p0 : List (HloOp τ sig (Elt F)) := ops_p0_0 ++ ops_p0_1

set_option maxRecDepth 8192 in
set_option maxHeartbeats 4000000 in
theorem main_part0_eq (c : Dev nD) : main_part0 (F := F) c = seq ops_p0 := rfl

set_option maxRecDepth 8192 in
theorem ops_p0_0_sub : (ops_p0_0 : List (HloOp τ sig (Elt F))).Forall fun op => op.bufs ⊆ tcRefs τ sig :=
  ⟨unary_bufs_sub .., reshape_bufs_sub .., unary_bufs_sub .., reshape_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub ..⟩

set_option maxRecDepth 8192 in
theorem ops_p0_0_fresh : (ops_p0_0 : List (HloOp τ sig (Elt F))).Forall fun op => op.fresh = ∅ := by
  repeat' apply And.intro
  all_goals rfl

abbrev ops_p0_0_W : List (Ref sig .tc) := [main_v0, main_v1, main_v2, main_v3, main_cst, main_v4, main_v5, main_v6, main_cst_0, main_v7, main_v8, main_cst_1, main_call0_v0, main_call0_v1, main_v9, main_cst_2, main_v10, main_v11, main_v12, main_cst_3, main_call1_v0, main_call1_v1, main_v13, main_c, main_v14, main_v15, main_c_4, main_v16, main_v17, main_v18, main_v19, main_v20]

set_option maxRecDepth 8192 in
theorem ops_p0_0_writes : (ops_p0_0 : List (HloOp τ sig (Elt F))).Forall fun op => op.writes ⊆ (ops_p0_0_W.map (Proc.devRef (τ := τ) .tc)).toFinset := by
  repeat' apply And.intro
  all_goals exact writes_mem _ (by decide)

set_option maxRecDepth 8192 in
set_option maxHeartbeats 2000000 in
theorem p0_0_main_v1 (a : Args F) (V : Valuation τ sig (Elt F)) (h : ArgsHold a V) :
    after ops_p0_0 V (no_index (Proc.devRef .tc main_v1)) = val_main_v1 (F := F) a.x2 := by
  simp only [ops_p0_0]
  after_results_simp
  simp only [h.h_main_arg2] <;> rfl

set_option maxRecDepth 8192 in
set_option maxHeartbeats 2000000 in
theorem p0_0_main_v3 (a : Args F) (V : Valuation τ sig (Elt F)) (h : ArgsHold a V) :
    after ops_p0_0 V (no_index (Proc.devRef .tc main_v3)) = val_main_v3 (F := F) a.x2 := by
  simp only [ops_p0_0]
  after_results_simp
  simp only [h.h_main_arg2] <;> rfl

set_option maxRecDepth 8192 in
set_option maxHeartbeats 2000000 in
theorem p0_0_main_v13 (a : Args F) (V : Valuation τ sig (Elt F)) (h : ArgsHold a V) :
    after ops_p0_0 V (no_index (Proc.devRef .tc main_v13)) = val_main_v13 (F := F) a.x2 a.x4 := by
  simp only [ops_p0_0]
  after_results_simp
  simp only [h.h_main_arg4, h.h_main_arg2] <;> rfl

set_option maxRecDepth 8192 in
set_option maxHeartbeats 2000000 in
theorem p0_0_main_v20 (a : Args F) (V : Valuation τ sig (Elt F)) (h : ArgsHold a V) :
    after ops_p0_0 V (no_index (Proc.devRef .tc main_v20)) = val_main_v20 (F := F) a.x2 a.x4 := by
  simp only [ops_p0_0]
  after_results_simp
  simp only [h.h_main_arg2, h.h_main_arg4] <;> rfl

theorem step_p0_0 (a : Args F) (V : Valuation τ sig (Elt F)) (h : ArgsHold a V) : Inv1 a (after ops_p0_0 V) where
  toArgsHold := h.step ops_p0_0 ops_p0_0_writes (by decide)
  h_main_v1 := p0_0_main_v1 a V h
  h_main_v3 := p0_0_main_v3 a V h
  h_main_v13 := p0_0_main_v13 a V h
  h_main_v20 := p0_0_main_v20 a V h

set_option maxRecDepth 8192 in
theorem ops_p0_1_sub : (ops_p0_1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., nullary_bufs_sub .., unary_bufs_sub ..⟩

set_option maxRecDepth 8192 in
theorem ops_p0_1_fresh : (ops_p0_1 : List (HloOp τ sig (Elt F))).Forall fun op => op.fresh = ∅ := by
  repeat' apply And.intro
  all_goals rfl

abbrev ops_p0_1_W : List (Ref sig .tc) := [main_v21, main_c_5, main_v22, main_v23, main_c_6, main_v24, main_v25, main_v26, main_v27, main_v28, main_v29, main_v30, main_v31, main_c_7, main_v32, main_v33, main_c_8, main_v34, main_v35, main_v36, main_v37, main_v38, main_v39, main_v40, main_cst_9, main_v41, main_v42, main_v43, main_v44, main_v45, main_c_10, main_v46]

set_option maxRecDepth 8192 in
theorem ops_p0_1_writes : (ops_p0_1 : List (HloOp τ sig (Elt F))).Forall fun op => op.writes ⊆ (ops_p0_1_W.map (Proc.devRef (τ := τ) .tc)).toFinset := by
  repeat' apply And.intro
  all_goals exact writes_mem _ (by decide)

set_option maxRecDepth 8192 in
set_option maxHeartbeats 2000000 in
theorem p0_1_main_v43 (a : Args F) (V : Valuation τ sig (Elt F)) (h : Inv1 a V) :
    after ops_p0_1 V (no_index (Proc.devRef .tc main_v43)) = val_main_v43 (F := F) a.x0 a.x2 a.x4 := by
  simp only [ops_p0_1]
  after_results_simp
  simp only [h.h_main_v1, h.h_main_arg0, h.h_main_v3, h.h_main_v13, h.h_main_arg4, h.h_main_v20] <;> rfl

set_option maxRecDepth 8192 in
set_option maxHeartbeats 2000000 in
theorem p0_1_main_v45 (a : Args F) (V : Valuation τ sig (Elt F)) (h : Inv1 a V) :
    after ops_p0_1 V (no_index (Proc.devRef .tc main_v45)) = val_main_v45 (F := F) a.x2 a.x4 := by
  simp only [ops_p0_1]
  after_results_simp
  simp only [h.h_main_v3, h.h_main_v13, h.h_main_arg4, h.h_main_v20] <;> rfl

set_option maxRecDepth 8192 in
set_option maxHeartbeats 2000000 in
theorem p0_1_main_v46 (a : Args F) (V : Valuation τ sig (Elt F)) (h : Inv1 a V) :
    after ops_p0_1 V (no_index (Proc.devRef .tc main_v46)) = val_main_v46 (F := F) := by
  simp only [ops_p0_1]
  after_results_simp
  all_goals rfl

theorem step_p0_1 (a : Args F) (V : Valuation τ sig (Elt F)) (h : Inv1 a V) : Inv2 a (after ops_p0_1 V) where
  toArgsHold := h.toArgsHold.step ops_p0_1 ops_p0_1_writes (by decide)
  h_main_v1 := (after_of_writes_sub (r := main_v1) ops_p0_1 V ops_p0_1_writes (by decide)).trans h.h_main_v1
  h_main_v3 := (after_of_writes_sub (r := main_v3) ops_p0_1 V ops_p0_1_writes (by decide)).trans h.h_main_v3
  h_main_v43 := p0_1_main_v43 a V h
  h_main_v45 := p0_1_main_v45 a V h
  h_main_v46 := p0_1_main_v46 a V h

theorem ops_p0_sub : (ops_p0 : List (HloOp τ sig (Elt F))).Forall fun op => op.bufs ⊆ tcRefs τ sig :=
  List.forall_iff_forall_mem.mpr fun op h => by
    simp only [ops_p0, List.mem_append] at h
    rcases h with h | h
    exacts [List.forall_iff_forall_mem.mp ops_p0_0_sub op h, List.forall_iff_forall_mem.mp ops_p0_1_sub op h]

theorem ops_p0_fresh : ∀ op ∈ (ops_p0 : List (HloOp τ sig (Elt F))), op.fresh = ∅ := fun op h => by
  simp only [ops_p0, List.mem_append] at h
  rcases h with h | h
  exacts [List.forall_iff_forall_mem.mp ops_p0_0_fresh op h, List.forall_iff_forall_mem.mp ops_p0_1_fresh op h]

theorem step_p0 (a : Args F) (V : Valuation τ sig (Elt F)) (h : ArgsHold a V) : Inv2 a (after ops_p0 V) := by
  simp only [ops_p0, after_append]
  exact step_p0_1 a _ (step_p0_0 a V h)

end Cert.RefRun

end
-- ==== Proof.RefRun.P1.lean ====
import proofs.«406476_j70849780514835_3_alg».proof.Proof.RefRun.Inv

/-! Stretch 1 of the reference's operations: each buffer a later operation reads ends at its stage value of the
    arguments. -/

noncomputable section

namespace Cert.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops_p1_0 : List (HloOp τ sig (Elt F)) :=
  [ binary main_v1 main_v46 main_v47 (cmpi .slt : (⟨S3200, .i32⟩ : BufTy).Contents (Elt F) → (⟨S3200, .i32⟩ : BufTy).Contents (Elt F) → (⟨S3200, .i1⟩ : BufTy).Contents (Elt F)),
    nullary main_c_11 (constantI S_ 32 200#32),
    unary main_c_11 main_v48 (broadcastInDim S3200 ![] bcast_S_S3200 : (⟨S_, .i32⟩ : BufTy).Contents (Elt F) → (⟨S3200, .i32⟩ : BufTy).Contents (Elt F)),
    binary main_v1 main_v48 main_v49 (addi : (⟨S3200, .i32⟩ : BufTy).Contents (Elt F) → (⟨S3200, .i32⟩ : BufTy).Contents (Elt F) → (⟨S3200, .i32⟩ : BufTy).Contents (Elt F)),
    ternary main_v47 main_v49 main_v1 main_v50 (select : (⟨S3200, .i1⟩ : BufTy).Contents (Elt F) → (⟨S3200, .i32⟩ : BufTy).Contents (Elt F) → (⟨S3200, .i32⟩ : BufTy).Contents (Elt F) → (⟨S3200, .i32⟩ : BufTy).Contents (Elt F)),
    unary main_v50 main_v51 (broadcastInDim S3200x1 ![0] bcast_S3200_S3200x1_0 : (⟨S3200, .i32⟩ : BufTy).Contents (Elt F) → (⟨S3200x1, .i32⟩ : BufTy).Contents (Elt F)),
    binary main_v43 main_v51 main_v52 ((fun x i => Host.gather gather_S200x8192_S3200x1_S3200x8192_1_0_n_n_0_1_18192 x i) : (⟨S200x8192, .f32⟩ : BufTy).Contents (Elt F) → (⟨S3200x1, .i32⟩ : BufTy).Contents (Elt F) → (⟨S3200x8192, .f32⟩ : BufTy).Contents (Elt F)),
    unary main_v45 main_v53 (broadcastInDim S3200x8192 ![0, 1] bcast_S3200x1_S3200x8192_0_1 : (⟨S3200x1, .f32⟩ : BufTy).Contents (Elt F) → (⟨S3200x8192, .f32⟩ : BufTy).Contents (Elt F)),
    binary main_v53 main_v52 main_v54 (mulf : (⟨S3200x8192, .f32⟩ : BufTy).Contents (Elt F) → (⟨S3200x8192, .f32⟩ : BufTy).Contents (Elt F) → (⟨S3200x8192, .f32⟩ : BufTy).Contents (Elt F)),
    nullary main_cst_12 (constant S_ .f32 0x00000000#32),
    unary main_cst_12 main_v55 (broadcastInDim S200x8192 ![] bcast_S_S200x8192 : (⟨S_, .f32⟩ : BufTy).Contents (Elt F) → (⟨S200x8192, .f32⟩ : BufTy).Contents (Elt F)),
    unary main_v3 main_v56 (broadcastInDim S3200x1 ![0] bcast_S3200_S3200x1_0 : (⟨S3200, .i32⟩ : BufTy).Contents (Elt F) → (⟨S3200x1, .i32⟩ : BufTy).Contents (Elt F)),
    ternary main_v55 main_v56 main_v54 main_v57 ((fun x i u => Host.scatterAdd scatter_S200x8192_S3200x1_S3200x8192_1_0_0_1 x i u) : (⟨S200x8192, .f32⟩ : BufTy).Contents (Elt F) → (⟨S3200x1, .i32⟩ : BufTy).Contents (Elt F) → (⟨S3200x8192, .f32⟩ : BufTy).Contents (Elt F) → (⟨S200x8192, .f32⟩ : BufTy).Contents (Elt F)),
    nullary main_cst_13 (constant S_ .f32 0x40000000#32),
    unary main_cst_13 main_v58 (broadcastInDim S200x8192 ![] bcast_S_S200x8192 : (⟨S_, .f32⟩ : BufTy).Contents (Elt F) → (⟨S200x8192, .f32⟩ : BufTy).Contents (Elt F)),
    binary main_v58 main_v57 main_v59 (mulf : (⟨S200x8192, .f32⟩ : BufTy).Contents (Elt F) → (⟨S200x8192, .f32⟩ : BufTy).Contents (Elt F) → (⟨S200x8192, .f32⟩ : BufTy).Contents (Elt F)),
    binary main_v59 main_arg0 main_v60 (subf : (⟨S200x8192, .f32⟩ : BufTy).Contents (Elt F) → (⟨S200x8192, .f32⟩ : BufTy).Contents (Elt F) → (⟨S200x8192, .f32⟩ : BufTy).Contents (Elt F)),
    unary main_arg6 main_v61 ((extractStridedSlice S1x8192x4096 ![0, 0, 0] · slices_S3x8192x4096_S1x8192x4096_0_0_0) : (⟨S3x8192x4096, .f32⟩ : BufTy).Contents (Elt F) → (⟨S1x8192x4096, .f32⟩ : BufTy).Contents (Elt F)),
    reshape main_v61 main_v62 rfl shapeCasts_S1x8192x4096_S8192x4096,
    binary main_arg0 main_v62 main_v63 ((fun l r => Host.dotGeneral dot_S200x8192_S8192x4096_S200x4096_1_0_0_1_n_n none l r) : (⟨S200x8192, .f32⟩ : BufTy).Contents (Elt F) → (⟨S8192x4096, .f32⟩ : BufTy).Contents (Elt F) → (⟨S200x4096, .f32⟩ : BufTy).Contents (Elt F)),
    unary main_arg6 main_v64 ((extractStridedSlice S1x8192x4096 ![1, 0, 0] · slices_S3x8192x4096_S1x8192x4096_1_0_0) : (⟨S3x8192x4096, .f32⟩ : BufTy).Contents (Elt F) → (⟨S1x8192x4096, .f32⟩ : BufTy).Contents (Elt F)),
    reshape main_v64 main_v65 rfl shapeCasts_S1x8192x4096_S8192x4096,
    binary main_v43 main_v65 main_v66 ((fun l r => Host.dotGeneral dot_S200x8192_S8192x4096_S200x4096_1_0_0_1_n_n none l r) : (⟨S200x8192, .f32⟩ : BufTy).Contents (Elt F) → (⟨S8192x4096, .f32⟩ : BufTy).Contents (Elt F) → (⟨S200x4096, .f32⟩ : BufTy).Contents (Elt F)),
    binary main_v63 main_v66 main_v67 (addf : (⟨S200x4096, .f32⟩ : BufTy).Contents (Elt F) → (⟨S200x4096, .f32⟩ : BufTy).Contents (Elt F) → (⟨S200x4096, .f32⟩ : BufTy).Contents (Elt F)),
    unary main_arg6 main_v68 ((extractStridedSlice S1x8192x4096 ![2, 0, 0] · slices_S3x8192x4096_S1x8192x4096_2_0_0) : (⟨S3x8192x4096, .f32⟩ : BufTy).Contents (Elt F) → (⟨S1x8192x4096, .f32⟩ : BufTy).Contents (Elt F)),
    reshape main_v68 main_v69 rfl shapeCasts_S1x8192x4096_S8192x4096,
    binary main_v60 main_v69 main_v70 ((fun l r => Host.dotGeneral dot_S200x8192_S8192x4096_S200x4096_1_0_0_1_n_n none l r) : (⟨S200x8192, .f32⟩ : BufTy).Contents (Elt F) → (⟨S8192x4096, .f32⟩ : BufTy).Contents (Elt F) → (⟨S200x4096, .f32⟩ : BufTy).Contents (Elt F)),
    binary main_v67 main_v70 main_v71 (addf : (⟨S200x4096, .f32⟩ : BufTy).Contents (Elt F) → (⟨S200x4096, .f32⟩ : BufTy).Contents (Elt F) → (⟨S200x4096, .f32⟩ : BufTy).Contents (Elt F)),
    unary main_arg7 main_v72 (broadcastInDim S1x4096 ![1] bcast_S4096_S1x4096_1 : (⟨S4096, .f32⟩ : BufTy).Contents (Elt F) → (⟨S1x4096, .f32⟩ : BufTy).Contents (Elt F)),
    unary main_v72 main_v73 (broadcastInDim S200x4096 ![0, 1] bcast_S1x4096_S200x4096_0_1 : (⟨S1x4096, .f32⟩ : BufTy).Contents (Elt F) → (⟨S200x4096, .f32⟩ : BufTy).Contents (Elt F)),
    binary main_v71 main_v73 main_v74 (addf : (⟨S200x4096, .f32⟩ : BufTy).Contents (Elt F) → (⟨S200x4096, .f32⟩ : BufTy).Contents (Elt F) → (⟨S200x4096, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S200x4096, .f32⟩) main_call2_v0) (broadcastInDim S200x4096 ![] bcast_S_S200x4096) ]

abbrev ops_p1_1 : List (HloOp τ sig (Elt F)) :=
  [ TRef.binary (TRef.of (T := ⟨S200x4096, .f32⟩) main_v74) (TRef.of (T := ⟨S200x4096, .f32⟩) main_call2_v0) (TRef.of (T := ⟨S200x4096, .f32⟩) main_v75) maximumf,
    nullary main_cst_14 (constant S_ .f32 0x00000000#32),
    unary main_cst_14 main_v76 (broadcastInDim S200 ![] bcast_S_S200 : (⟨S_, .f32⟩ : BufTy).Contents (Elt F) → (⟨S200, .f32⟩ : BufTy).Contents (Elt F)),
    unary main_v1 main_v77 (broadcastInDim S3200x1 ![0] bcast_S3200_S3200x1_0 : (⟨S3200, .i32⟩ : BufTy).Contents (Elt F) → (⟨S3200x1, .i32⟩ : BufTy).Contents (Elt F)),
    ternary main_v76 main_v77 main_arg4 main_v78 ((fun x i u => Host.scatterAdd scatter_S200_S3200x1_S3200_n_0_0_1 x i u) : (⟨S200, .f32⟩ : BufTy).Contents (Elt F) → (⟨S3200x1, .i32⟩ : BufTy).Contents (Elt F) → (⟨S3200, .f32⟩ : BufTy).Contents (Elt F) → (⟨S200, .f32⟩ : BufTy).Contents (Elt F)),
    nullary main_cst_15 (constant S_ .f32 0x00000000#32),
    unary main_cst_15 main_v79 (broadcastInDim S200 ![] bcast_S_S200 : (⟨S_, .f32⟩ : BufTy).Contents (Elt F) → (⟨S200, .f32⟩ : BufTy).Contents (Elt F)),
    binary main_v78 main_v79 main_v80 (cmpf .ogt : (⟨S200, .f32⟩ : BufTy).Contents (Elt F) → (⟨S200, .f32⟩ : BufTy).Contents (Elt F) → (⟨S200, .i1⟩ : BufTy).Contents (Elt F)),
    nullary main_cst_16 (constant S_ .f32 0x3F800000#32),
    TRef.unary (TRef.of (T := ⟨S_, .f32⟩) main_cst_16) (TRef.of (T := ⟨S_, .f32⟩) main_call3_v0) id,
    TRef.unary (TRef.of (T := ⟨S_, .f32⟩) main_call3_v0) (TRef.of (T := ⟨S200, .f32⟩) main_call3_v1) (broadcastInDim S200 ![] bcast_S_S200),
    TRef.ternary (TRef.of (T := ⟨S200, .i1⟩) main_v80) (TRef.of (T := ⟨S200, .f32⟩) main_v78) (TRef.of (T := ⟨S200, .f32⟩) main_call3_v1) (TRef.of (T := ⟨S200, .f32⟩) main_v81) select,
    nullary main_cst_17 (constant S_ .f32 0x00000000#32),
    unary main_cst_17 main_v82 (broadcastInDim S200 ![] bcast_S_S200 : (⟨S_, .f32⟩ : BufTy).Contents (Elt F) → (⟨S200, .f32⟩ : BufTy).Contents (Elt F)),
    binary main_v78 main_v82 main_v83 (cmpf .ogt : (⟨S200, .f32⟩ : BufTy).Contents (Elt F) → (⟨S200, .f32⟩ : BufTy).Contents (Elt F) → (⟨S200, .i1⟩ : BufTy).Contents (Elt F)),
    unary main_v81 main_v84 (Host.rsqrt : (⟨S200, .f32⟩ : BufTy).Contents (Elt F) → (⟨S200, .f32⟩ : BufTy).Contents (Elt F)),
    nullary main_cst_18 (constant S_ .f32 0x00000000#32),
    TRef.unary (TRef.of (T := ⟨S_, .f32⟩) main_cst_18) (TRef.of (T := ⟨S_, .f32⟩) main_call4_v0) id,
    TRef.unary (TRef.of (T := ⟨S_, .f32⟩) main_call4_v0) (TRef.of (T := ⟨S200, .f32⟩) main_call4_v1) (broadcastInDim S200 ![] bcast_S_S200),
    TRef.ternary (TRef.of (T := ⟨S200, .i1⟩) main_v83) (TRef.of (T := ⟨S200, .f32⟩) main_v84) (TRef.of (T := ⟨S200, .f32⟩) main_call4_v1) (TRef.of (T := ⟨S200, .f32⟩) main_v85) select,
    nullary main_c_19 (constantI S_ 32 0#32),
    unary main_c_19 main_v86 (broadcastInDim S3200 ![] bcast_S_S3200 : (⟨S_, .i32⟩ : BufTy).Contents (Elt F) → (⟨S3200, .i32⟩ : BufTy).Contents (Elt F)),
    binary main_v1 main_v86 main_v87 (cmpi .slt : (⟨S3200, .i32⟩ : BufTy).Contents (Elt F) → (⟨S3200, .i32⟩ : BufTy).Contents (Elt F) → (⟨S3200, .i1⟩ : BufTy).Contents (Elt F)),
    nullary main_c_20 (constantI S_ 32 200#32),
    unary main_c_20 main_v88 (broadcastInDim S3200 ![] bcast_S_S3200 : (⟨S_, .i32⟩ : BufTy).Contents (Elt F) → (⟨S3200, .i32⟩ : BufTy).Contents (Elt F)),
    binary main_v1 main_v88 main_v89 (addi : (⟨S3200, .i32⟩ : BufTy).Contents (Elt F) → (⟨S3200, .i32⟩ : BufTy).Contents (Elt F) → (⟨S3200, .i32⟩ : BufTy).Contents (Elt F)),
    ternary main_v87 main_v89 main_v1 main_v90 (select : (⟨S3200, .i1⟩ : BufTy).Contents (Elt F) → (⟨S3200, .i32⟩ : BufTy).Contents (Elt F) → (⟨S3200, .i32⟩ : BufTy).Contents (Elt F) → (⟨S3200, .i32⟩ : BufTy).Contents (Elt F)),
    unary main_v90 main_v91 (broadcastInDim S3200x1 ![0] bcast_S3200_S3200x1_0 : (⟨S3200, .i32⟩ : BufTy).Contents (Elt F) → (⟨S3200x1, .i32⟩ : BufTy).Contents (Elt F)),
    binary main_v85 main_v91 main_v92 ((fun x i => Host.gather gather_S200_S3200x1_S3200_n_0_n_n_0_1_1 x i) : (⟨S200, .f32⟩ : BufTy).Contents (Elt F) → (⟨S3200x1, .i32⟩ : BufTy).Contents (Elt F) → (⟨S3200, .f32⟩ : BufTy).Contents (Elt F)),
    binary main_v92 main_arg4 main_v93 (mulf : (⟨S3200, .f32⟩ : BufTy).Contents (Elt F) → (⟨S3200, .f32⟩ : BufTy).Contents (Elt F) → (⟨S3200, .f32⟩ : BufTy).Contents (Elt F)),
    nullary main_c_21 (constantI S_ 32 0#32),
    unary main_c_21 main_v94 (broadcastInDim S3200 ![] bcast_S_S3200 : (⟨S_, .i32⟩ : BufTy).Contents (Elt F) → (⟨S3200, .i32⟩ : BufTy).Contents (Elt F)),
    binary main_v3 main_v94 main_v95 (cmpi .slt : (⟨S3200, .i32⟩ : BufTy).Contents (Elt F) → (⟨S3200, .i32⟩ : BufTy).Contents (Elt F) → (⟨S3200, .i1⟩ : BufTy).Contents (Elt F)) ]

abbrev ops_p1 : List (HloOp τ sig (Elt F)) := ops_p1_0 ++ ops_p1_1

set_option maxRecDepth 8192 in
set_option maxHeartbeats 4000000 in
theorem main_part1_eq (c : Dev nD) : main_part1 (F := F) c = seq ops_p1 := rfl

set_option maxRecDepth 8192 in
theorem ops_p1_0_sub : (ops_p1_0 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., unary_bufs_sub .., reshape_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub ..⟩

set_option maxRecDepth 8192 in
theorem ops_p1_0_fresh : (ops_p1_0 : List (HloOp τ sig (Elt F))).Forall fun op => op.fresh = ∅ := by
  repeat' apply And.intro
  all_goals rfl

abbrev ops_p1_0_W : List (Ref sig .tc) := [main_v47, main_c_11, main_v48, main_v49, main_v50, main_v51, main_v52, main_v53, main_v54, main_cst_12, main_v55, main_v56, main_v57, main_cst_13, main_v58, main_v59, main_v60, main_v61, main_v62, main_v63, main_v64, main_v65, main_v66, main_v67, main_v68, main_v69, main_v70, main_v71, main_v72, main_v73, main_v74, main_call2_cst, main_call2_v0]

set_option maxRecDepth 8192 in
theorem ops_p1_0_writes : (ops_p1_0 : List (HloOp τ sig (Elt F))).Forall fun op => op.writes ⊆ (ops_p1_0_W.map (Proc.devRef (τ := τ) .tc)).toFinset := by
  repeat' apply And.intro
  all_goals exact writes_mem _ (by decide)

set_option maxRecDepth 8192 in
set_option maxHeartbeats 2000000 in
theorem p1_0_main_v74 (a : Args F) (V : Valuation τ sig (Elt F)) (h : Inv2 a V) :
    after ops_p1_0 V (no_index (Proc.devRef .tc main_v74)) = val_main_v74 (F := F) a.x0 a.x2 a.x4 a.x6 a.x7 := by
  simp only [ops_p1_0]
  after_results_simp
  simp only [h.h_main_arg7, h.h_main_arg6, h.h_main_arg0, h.h_main_v1, h.h_main_v46, h.h_main_v43, h.h_main_v45, h.h_main_v3] <;> rfl

set_option maxRecDepth 8192 in
set_option maxHeartbeats 2000000 in
theorem p1_0_main_call2_v0 (a : Args F) (V : Valuation τ sig (Elt F)) (h : Inv2 a V) :
    after ops_p1_0 V (no_index (Proc.devRef .tc main_call2_v0)) = val_main_call2_v0 (F := F) := by
  simp only [ops_p1_0]
  after_results_simp
  all_goals rfl

theorem step_p1_0 (a : Args F) (V : Valuation τ sig (Elt F)) (h : Inv2 a V) : Inv3 a (after ops_p1_0 V) where
  toArgsHold := h.toArgsHold.step ops_p1_0 ops_p1_0_writes (by decide)
  h_main_v1 := (after_of_writes_sub (r := main_v1) ops_p1_0 V ops_p1_0_writes (by decide)).trans h.h_main_v1
  h_main_v3 := (after_of_writes_sub (r := main_v3) ops_p1_0 V ops_p1_0_writes (by decide)).trans h.h_main_v3
  h_main_v74 := p1_0_main_v74 a V h
  h_main_call2_v0 := p1_0_main_call2_v0 a V h

set_option maxRecDepth 8192 in
theorem ops_p1_1_sub : (ops_p1_1 : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub ..⟩

set_option maxRecDepth 8192 in
theorem ops_p1_1_fresh : (ops_p1_1 : List (HloOp τ sig (Elt F))).Forall fun op => op.fresh = ∅ := by
  repeat' apply And.intro
  all_goals rfl

abbrev ops_p1_1_W : List (Ref sig .tc) := [main_v75, main_cst_14, main_v76, main_v77, main_v78, main_cst_15, main_v79, main_v80, main_cst_16, main_call3_v0, main_call3_v1, main_v81, main_cst_17, main_v82, main_v83, main_v84, main_cst_18, main_call4_v0, main_call4_v1, main_v85, main_c_19, main_v86, main_v87, main_c_20, main_v88, main_v89, main_v90, main_v91, main_v92, main_v93, main_c_21, main_v94, main_v95]

set_option maxRecDepth 8192 in
theorem ops_p1_1_writes : (ops_p1_1 : List (HloOp τ sig (Elt F))).Forall fun op => op.writes ⊆ (ops_p1_1_W.map (Proc.devRef (τ := τ) .tc)).toFinset := by
  repeat' apply And.intro
  all_goals exact writes_mem _ (by decide)

set_option maxRecDepth 8192 in
set_option maxHeartbeats 2000000 in
theorem p1_1_main_v75 (a : Args F) (V : Valuation τ sig (Elt F)) (h : Inv3 a V) :
    after ops_p1_1 V (no_index (Proc.devRef .tc main_v75)) = val_main_v75 (F := F) a.x0 a.x2 a.x4 a.x6 a.x7 := by
  simp only [ops_p1_1]
  after_results_simp
  simp only [h.h_main_call2_v0, h.h_main_v74] <;> rfl

set_option maxRecDepth 8192 in
set_option maxHeartbeats 2000000 in
theorem p1_1_main_v85 (a : Args F) (V : Valuation τ sig (Elt F)) (h : Inv3 a V) :
    after ops_p1_1 V (no_index (Proc.devRef .tc main_v85)) = val_main_v85 (F := F) a.x2 a.x4 := by
  simp only [ops_p1_1]
  after_results_simp
  simp only [h.h_main_arg4, h.h_main_v1] <;> rfl

set_option maxRecDepth 8192 in
set_option maxHeartbeats 2000000 in
theorem p1_1_main_v93 (a : Args F) (V : Valuation τ sig (Elt F)) (h : Inv3 a V) :
    after ops_p1_1 V (no_index (Proc.devRef .tc main_v93)) = val_main_v93 (F := F) a.x2 a.x4 := by
  simp only [ops_p1_1]
  after_results_simp
  simp only [h.h_main_arg4, h.h_main_v1] <;> rfl

set_option maxRecDepth 8192 in
set_option maxHeartbeats 2000000 in
theorem p1_1_main_v95 (a : Args F) (V : Valuation τ sig (Elt F)) (h : Inv3 a V) :
    after ops_p1_1 V (no_index (Proc.devRef .tc main_v95)) = val_main_v95 (F := F) a.x2 := by
  simp only [ops_p1_1]
  after_results_simp
  simp only [h.h_main_v3] <;> rfl

theorem step_p1_1 (a : Args F) (V : Valuation τ sig (Elt F)) (h : Inv3 a V) : Inv4 a (after ops_p1_1 V) where
  toArgsHold := h.toArgsHold.step ops_p1_1 ops_p1_1_writes (by decide)
  h_main_v1 := (after_of_writes_sub (r := main_v1) ops_p1_1 V ops_p1_1_writes (by decide)).trans h.h_main_v1
  h_main_v3 := (after_of_writes_sub (r := main_v3) ops_p1_1 V ops_p1_1_writes (by decide)).trans h.h_main_v3
  h_main_v75 := p1_1_main_v75 a V h
  h_main_v85 := p1_1_main_v85 a V h
  h_main_v93 := p1_1_main_v93 a V h
  h_main_v95 := p1_1_main_v95 a V h

theorem ops_p1_sub : (ops_p1 : List (HloOp τ sig (Elt F))).Forall fun op => op.bufs ⊆ tcRefs τ sig :=
  List.forall_iff_forall_mem.mpr fun op h => by
    simp only [ops_p1, List.mem_append] at h
    rcases h with h | h
    exacts [List.forall_iff_forall_mem.mp ops_p1_0_sub op h, List.forall_iff_forall_mem.mp ops_p1_1_sub op h]

theorem ops_p1_fresh : ∀ op ∈ (ops_p1 : List (HloOp τ sig (Elt F))), op.fresh = ∅ := fun op h => by
  simp only [ops_p1, List.mem_append] at h
  rcases h with h | h
  exacts [List.forall_iff_forall_mem.mp ops_p1_0_fresh op h, List.forall_iff_forall_mem.mp ops_p1_1_fresh op h]

theorem step_p1 (a : Args F) (V : Valuation τ sig (Elt F)) (h : Inv2 a V) : Inv4 a (after ops_p1 V) := by
  simp only [ops_p1, after_append]
  exact step_p1_1 a _ (step_p1_0 a V h)

end Cert.RefRun

end
-- ==== Proof.RefRun.P2.lean ====
import proofs.«406476_j70849780514835_3_alg».proof.Proof.RefRun.Inv

/-! Stretch 2 of the reference's operations: each buffer a later operation reads ends at its stage value of the
    arguments. -/

noncomputable section

namespace Cert.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops_p2_0 : List (HloOp τ sig (Elt F)) :=
  [ nullary main_c_22 (constantI S_ 32 200#32),
    unary main_c_22 main_v96 (broadcastInDim S3200 ![] bcast_S_S3200 : (⟨S_, .i32⟩ : BufTy).Contents (Elt F) → (⟨S3200, .i32⟩ : BufTy).Contents (Elt F)),
    binary main_v3 main_v96 main_v97 (addi : (⟨S3200, .i32⟩ : BufTy).Contents (Elt F) → (⟨S3200, .i32⟩ : BufTy).Contents (Elt F) → (⟨S3200, .i32⟩ : BufTy).Contents (Elt F)),
    ternary main_v95 main_v97 main_v3 main_v98 (select : (⟨S3200, .i1⟩ : BufTy).Contents (Elt F) → (⟨S3200, .i32⟩ : BufTy).Contents (Elt F) → (⟨S3200, .i32⟩ : BufTy).Contents (Elt F) → (⟨S3200, .i32⟩ : BufTy).Contents (Elt F)),
    unary main_v98 main_v99 (broadcastInDim S3200x1 ![0] bcast_S3200_S3200x1_0 : (⟨S3200, .i32⟩ : BufTy).Contents (Elt F) → (⟨S3200x1, .i32⟩ : BufTy).Contents (Elt F)),
    binary main_v85 main_v99 main_v100 ((fun x i => Host.gather gather_S200_S3200x1_S3200_n_0_n_n_0_1_1 x i) : (⟨S200, .f32⟩ : BufTy).Contents (Elt F) → (⟨S3200x1, .i32⟩ : BufTy).Contents (Elt F) → (⟨S3200, .f32⟩ : BufTy).Contents (Elt F)),
    binary main_v93 main_v100 main_v101 (mulf : (⟨S3200, .f32⟩ : BufTy).Contents (Elt F) → (⟨S3200, .f32⟩ : BufTy).Contents (Elt F) → (⟨S3200, .f32⟩ : BufTy).Contents (Elt F)),
    unary main_v101 main_v102 (broadcastInDim S3200x1 ![0] bcast_S3200_S3200x1_0 : (⟨S3200, .f32⟩ : BufTy).Contents (Elt F) → (⟨S3200x1, .f32⟩ : BufTy).Contents (Elt F)),
    unary main_v102 main_v103 (Host.negf : (⟨S3200x1, .f32⟩ : BufTy).Contents (Elt F) → (⟨S3200x1, .f32⟩ : BufTy).Contents (Elt F)),
    nullary main_c_23 (constantI S_ 32 0#32),
    unary main_c_23 main_v104 (broadcastInDim S3200 ![] bcast_S_S3200 : (⟨S_, .i32⟩ : BufTy).Contents (Elt F) → (⟨S3200, .i32⟩ : BufTy).Contents (Elt F)),
    binary main_v1 main_v104 main_v105 (cmpi .slt : (⟨S3200, .i32⟩ : BufTy).Contents (Elt F) → (⟨S3200, .i32⟩ : BufTy).Contents (Elt F) → (⟨S3200, .i1⟩ : BufTy).Contents (Elt F)),
    nullary main_c_24 (constantI S_ 32 200#32),
    unary main_c_24 main_v106 (broadcastInDim S3200 ![] bcast_S_S3200 : (⟨S_, .i32⟩ : BufTy).Contents (Elt F) → (⟨S3200, .i32⟩ : BufTy).Contents (Elt F)),
    binary main_v1 main_v106 main_v107 (addi : (⟨S3200, .i32⟩ : BufTy).Contents (Elt F) → (⟨S3200, .i32⟩ : BufTy).Contents (Elt F) → (⟨S3200, .i32⟩ : BufTy).Contents (Elt F)),
    ternary main_v105 main_v107 main_v1 main_v108 (select : (⟨S3200, .i1⟩ : BufTy).Contents (Elt F) → (⟨S3200, .i32⟩ : BufTy).Contents (Elt F) → (⟨S3200, .i32⟩ : BufTy).Contents (Elt F) → (⟨S3200, .i32⟩ : BufTy).Contents (Elt F)),
    unary main_v108 main_v109 (broadcastInDim S3200x1 ![0] bcast_S3200_S3200x1_0 : (⟨S3200, .i32⟩ : BufTy).Contents (Elt F) → (⟨S3200x1, .i32⟩ : BufTy).Contents (Elt F)),
    binary main_v75 main_v109 main_v110 ((fun x i => Host.gather gather_S200x4096_S3200x1_S3200x4096_1_0_n_n_0_1_14096 x i) : (⟨S200x4096, .f32⟩ : BufTy).Contents (Elt F) → (⟨S3200x1, .i32⟩ : BufTy).Contents (Elt F) → (⟨S3200x4096, .f32⟩ : BufTy).Contents (Elt F)),
    unary main_v103 main_v111 (broadcastInDim S3200x4096 ![0, 1] bcast_S3200x1_S3200x4096_0_1 : (⟨S3200x1, .f32⟩ : BufTy).Contents (Elt F) → (⟨S3200x4096, .f32⟩ : BufTy).Contents (Elt F)),
    binary main_v111 main_v110 main_v112 (mulf : (⟨S3200x4096, .f32⟩ : BufTy).Contents (Elt F) → (⟨S3200x4096, .f32⟩ : BufTy).Contents (Elt F) → (⟨S3200x4096, .f32⟩ : BufTy).Contents (Elt F)),
    nullary main_cst_25 (constant S_ .f32 0x00000000#32),
    unary main_cst_25 main_v113 (broadcastInDim S200x4096 ![] bcast_S_S200x4096 : (⟨S_, .f32⟩ : BufTy).Contents (Elt F) → (⟨S200x4096, .f32⟩ : BufTy).Contents (Elt F)),
    unary main_v3 main_v114 (broadcastInDim S3200x1 ![0] bcast_S3200_S3200x1_0 : (⟨S3200, .i32⟩ : BufTy).Contents (Elt F) → (⟨S3200x1, .i32⟩ : BufTy).Contents (Elt F)),
    ternary main_v113 main_v114 main_v112 main_v115 ((fun x i u => Host.scatterAdd scatter_S200x4096_S3200x1_S3200x4096_1_0_0_1 x i u) : (⟨S200x4096, .f32⟩ : BufTy).Contents (Elt F) → (⟨S3200x1, .i32⟩ : BufTy).Contents (Elt F) → (⟨S3200x4096, .f32⟩ : BufTy).Contents (Elt F) → (⟨S200x4096, .f32⟩ : BufTy).Contents (Elt F)),
    unary main_v101 main_v116 (broadcastInDim S3200x1 ![0] bcast_S3200_S3200x1_0 : (⟨S3200, .f32⟩ : BufTy).Contents (Elt F) → (⟨S3200x1, .f32⟩ : BufTy).Contents (Elt F)),
    unary main_v116 main_v117 (Host.negf : (⟨S3200x1, .f32⟩ : BufTy).Contents (Elt F) → (⟨S3200x1, .f32⟩ : BufTy).Contents (Elt F)),
    nullary main_c_26 (constantI S_ 32 0#32),
    unary main_c_26 main_v118 (broadcastInDim S3200 ![] bcast_S_S3200 : (⟨S_, .i32⟩ : BufTy).Contents (Elt F) → (⟨S3200, .i32⟩ : BufTy).Contents (Elt F)),
    binary main_v1 main_v118 main_v119 (cmpi .slt : (⟨S3200, .i32⟩ : BufTy).Contents (Elt F) → (⟨S3200, .i32⟩ : BufTy).Contents (Elt F) → (⟨S3200, .i1⟩ : BufTy).Contents (Elt F)),
    nullary main_c_27 (constantI S_ 32 200#32),
    unary main_c_27 main_v120 (broadcastInDim S3200 ![] bcast_S_S3200 : (⟨S_, .i32⟩ : BufTy).Contents (Elt F) → (⟨S3200, .i32⟩ : BufTy).Contents (Elt F)) ]

abbrev ops_p2_1 : List (HloOp τ sig (Elt F)) :=
  [ binary main_v1 main_v120 main_v121 (addi : (⟨S3200, .i32⟩ : BufTy).Contents (Elt F) → (⟨S3200, .i32⟩ : BufTy).Contents (Elt F) → (⟨S3200, .i32⟩ : BufTy).Contents (Elt F)),
    ternary main_v119 main_v121 main_v1 main_v122 (select : (⟨S3200, .i1⟩ : BufTy).Contents (Elt F) → (⟨S3200, .i32⟩ : BufTy).Contents (Elt F) → (⟨S3200, .i32⟩ : BufTy).Contents (Elt F) → (⟨S3200, .i32⟩ : BufTy).Contents (Elt F)),
    unary main_v122 main_v123 (broadcastInDim S3200x1 ![0] bcast_S3200_S3200x1_0 : (⟨S3200, .i32⟩ : BufTy).Contents (Elt F) → (⟨S3200x1, .i32⟩ : BufTy).Contents (Elt F)),
    binary main_v115 main_v123 main_v124 ((fun x i => Host.gather gather_S200x4096_S3200x1_S3200x4096_1_0_n_n_0_1_14096 x i) : (⟨S200x4096, .f32⟩ : BufTy).Contents (Elt F) → (⟨S3200x1, .i32⟩ : BufTy).Contents (Elt F) → (⟨S3200x4096, .f32⟩ : BufTy).Contents (Elt F)),
    unary main_v117 main_v125 (broadcastInDim S3200x4096 ![0, 1] bcast_S3200x1_S3200x4096_0_1 : (⟨S3200x1, .f32⟩ : BufTy).Contents (Elt F) → (⟨S3200x4096, .f32⟩ : BufTy).Contents (Elt F)),
    binary main_v125 main_v124 main_v126 (mulf : (⟨S3200x4096, .f32⟩ : BufTy).Contents (Elt F) → (⟨S3200x4096, .f32⟩ : BufTy).Contents (Elt F) → (⟨S3200x4096, .f32⟩ : BufTy).Contents (Elt F)),
    nullary main_cst_28 (constant S_ .f32 0x00000000#32),
    unary main_cst_28 main_v127 (broadcastInDim S200x4096 ![] bcast_S_S200x4096 : (⟨S_, .f32⟩ : BufTy).Contents (Elt F) → (⟨S200x4096, .f32⟩ : BufTy).Contents (Elt F)),
    unary main_v3 main_v128 (broadcastInDim S3200x1 ![0] bcast_S3200_S3200x1_0 : (⟨S3200, .i32⟩ : BufTy).Contents (Elt F) → (⟨S3200x1, .i32⟩ : BufTy).Contents (Elt F)),
    ternary main_v127 main_v128 main_v126 main_v129 ((fun x i u => Host.scatterAdd scatter_S200x4096_S3200x1_S3200x4096_1_0_0_1 x i u) : (⟨S200x4096, .f32⟩ : BufTy).Contents (Elt F) → (⟨S3200x1, .i32⟩ : BufTy).Contents (Elt F) → (⟨S3200x4096, .f32⟩ : BufTy).Contents (Elt F) → (⟨S200x4096, .f32⟩ : BufTy).Contents (Elt F)),
    nullary main_cst_29 (constant S_ .f32 0x40000000#32),
    unary main_cst_29 main_v130 (broadcastInDim S200x4096 ![] bcast_S_S200x4096 : (⟨S_, .f32⟩ : BufTy).Contents (Elt F) → (⟨S200x4096, .f32⟩ : BufTy).Contents (Elt F)),
    binary main_v130 main_v129 main_v131 (mulf : (⟨S200x4096, .f32⟩ : BufTy).Contents (Elt F) → (⟨S200x4096, .f32⟩ : BufTy).Contents (Elt F) → (⟨S200x4096, .f32⟩ : BufTy).Contents (Elt F)),
    binary main_v131 main_v75 main_v132 (subf : (⟨S200x4096, .f32⟩ : BufTy).Contents (Elt F) → (⟨S200x4096, .f32⟩ : BufTy).Contents (Elt F) → (⟨S200x4096, .f32⟩ : BufTy).Contents (Elt F)),
    unary main_arg8 main_v133 ((extractStridedSlice S1x4096x4096 ![0, 0, 0] · slices_S3x4096x4096_S1x4096x4096_0_0_0) : (⟨S3x4096x4096, .f32⟩ : BufTy).Contents (Elt F) → (⟨S1x4096x4096, .f32⟩ : BufTy).Contents (Elt F)),
    reshape main_v133 main_v134 rfl shapeCasts_S1x4096x4096_S4096x4096,
    binary main_v75 main_v134 main_v135 ((fun l r => Host.dotGeneral dot_S200x4096_S4096x4096_S200x4096_1_0_0_1_n_n none l r) : (⟨S200x4096, .f32⟩ : BufTy).Contents (Elt F) → (⟨S4096x4096, .f32⟩ : BufTy).Contents (Elt F) → (⟨S200x4096, .f32⟩ : BufTy).Contents (Elt F)),
    unary main_arg8 main_v136 ((extractStridedSlice S1x4096x4096 ![1, 0, 0] · slices_S3x4096x4096_S1x4096x4096_1_0_0) : (⟨S3x4096x4096, .f32⟩ : BufTy).Contents (Elt F) → (⟨S1x4096x4096, .f32⟩ : BufTy).Contents (Elt F)),
    reshape main_v136 main_v137 rfl shapeCasts_S1x4096x4096_S4096x4096,
    binary main_v115 main_v137 main_v138 ((fun l r => Host.dotGeneral dot_S200x4096_S4096x4096_S200x4096_1_0_0_1_n_n none l r) : (⟨S200x4096, .f32⟩ : BufTy).Contents (Elt F) → (⟨S4096x4096, .f32⟩ : BufTy).Contents (Elt F) → (⟨S200x4096, .f32⟩ : BufTy).Contents (Elt F)),
    binary main_v135 main_v138 main_v139 (addf : (⟨S200x4096, .f32⟩ : BufTy).Contents (Elt F) → (⟨S200x4096, .f32⟩ : BufTy).Contents (Elt F) → (⟨S200x4096, .f32⟩ : BufTy).Contents (Elt F)),
    unary main_arg8 main_v140 ((extractStridedSlice S1x4096x4096 ![2, 0, 0] · slices_S3x4096x4096_S1x4096x4096_2_0_0) : (⟨S3x4096x4096, .f32⟩ : BufTy).Contents (Elt F) → (⟨S1x4096x4096, .f32⟩ : BufTy).Contents (Elt F)),
    reshape main_v140 main_v141 rfl shapeCasts_S1x4096x4096_S4096x4096,
    binary main_v132 main_v141 main_v142 ((fun l r => Host.dotGeneral dot_S200x4096_S4096x4096_S200x4096_1_0_0_1_n_n none l r) : (⟨S200x4096, .f32⟩ : BufTy).Contents (Elt F) → (⟨S4096x4096, .f32⟩ : BufTy).Contents (Elt F) → (⟨S200x4096, .f32⟩ : BufTy).Contents (Elt F)),
    binary main_v139 main_v142 main_v143 (addf : (⟨S200x4096, .f32⟩ : BufTy).Contents (Elt F) → (⟨S200x4096, .f32⟩ : BufTy).Contents (Elt F) → (⟨S200x4096, .f32⟩ : BufTy).Contents (Elt F)),
    unary main_arg9 main_v144 (broadcastInDim S1x4096 ![1] bcast_S4096_S1x4096_1 : (⟨S4096, .f32⟩ : BufTy).Contents (Elt F) → (⟨S1x4096, .f32⟩ : BufTy).Contents (Elt F)),
    unary main_v144 main_v145 (broadcastInDim S200x4096 ![0, 1] bcast_S1x4096_S200x4096_0_1 : (⟨S1x4096, .f32⟩ : BufTy).Contents (Elt F) → (⟨S200x4096, .f32⟩ : BufTy).Contents (Elt F)),
    binary main_v143 main_v145 main_v146 (addf : (⟨S200x4096, .f32⟩ : BufTy).Contents (Elt F) → (⟨S200x4096, .f32⟩ : BufTy).Contents (Elt F) → (⟨S200x4096, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S200x4096, .f32⟩) main_call5_v0) (broadcastInDim S200x4096 ![] bcast_S_S200x4096),
    TRef.binary (TRef.of (T := ⟨S200x4096, .f32⟩) main_v146) (TRef.of (T := ⟨S200x4096, .f32⟩) main_call5_v0) (TRef.of (T := ⟨S200x4096, .f32⟩) main_v147) maximumf ]

abbrev ops_p2 : List (HloOp τ sig (Elt F)) := ops_p2_0 ++ ops_p2_1

set_option maxRecDepth 8192 in
set_option maxHeartbeats 4000000 in
theorem main_part2_eq (c : Dev nD) : main_part2 (F := F) c = seq ops_p2 := rfl

set_option maxRecDepth 8192 in
theorem ops_p2_0_sub : (ops_p2_0 : List (HloOp τ sig (Elt F))).Forall fun op => op.bufs ⊆ tcRefs τ sig :=
  ⟨nullary_bufs_sub .., unary_bufs_sub .., binary_bufs_sub .., ternary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., nullary_bufs_sub .., unary_bufs_sub .., binary_bufs_sub .., nullary_bufs_sub .., unary_bufs_sub ..⟩

set_option maxRecDepth 8192 in
theorem ops_p2_0_fresh : (ops_p2_0 : List (HloOp τ sig (Elt F))).Forall fun op => op.fresh = ∅ := by
  repeat' apply And.intro
  all_goals rfl

abbrev ops_p2_0_W : List (Ref sig .tc) := [main_c_22, main_v96, main_v97, main_v98, main_v99, main_v100, main_v101, main_v102, main_v103, main_c_23, main_v104, main_v105, main_c_24, main_v106, main_v107, main_v108, main_v109, main_v110, main_v111, main_v112, main_cst_25, main_v113, main_v114, main_v115, main_v116, main_v117, main_c_26, main_v118, main_v119, main_c_27, main_v120]

set_option maxRecDepth 8192 in
theorem ops_p2_0_writes : (ops_p2_0 : List (HloOp τ sig (Elt F))).Forall fun op => op.writes ⊆ (ops_p2_0_W.map (Proc.devRef (τ := τ) .tc)).toFinset := by
  repeat' apply And.intro
  all_goals exact writes_mem _ (by decide)

set_option maxRecDepth 8192 in
set_option maxHeartbeats 2000000 in
theorem p2_0_main_v115 (a : Args F) (V : Valuation τ sig (Elt F)) (h : Inv4 a V) :
    after ops_p2_0 V (no_index (Proc.devRef .tc main_v115)) = val_main_v115 (F := F) a.x0 a.x2 a.x4 a.x6 a.x7 := by
  simp only [ops_p2_0]
  after_results_simp
  simp only [h.h_main_v1, h.h_main_v75, h.h_main_v3, h.h_main_v95, h.h_main_v85, h.h_main_v93] <;> rfl

set_option maxRecDepth 8192 in
set_option maxHeartbeats 2000000 in
theorem p2_0_main_v117 (a : Args F) (V : Valuation τ sig (Elt F)) (h : Inv4 a V) :
    after ops_p2_0 V (no_index (Proc.devRef .tc main_v117)) = val_main_v117 (F := F) a.x2 a.x4 := by
  simp only [ops_p2_0]
  after_results_simp
  simp only [h.h_main_v3, h.h_main_v95, h.h_main_v85, h.h_main_v93] <;> rfl

set_option maxRecDepth 8192 in
set_option maxHeartbeats 2000000 in
theorem p2_0_main_v119 (a : Args F) (V : Valuation τ sig (Elt F)) (h : Inv4 a V) :
    after ops_p2_0 V (no_index (Proc.devRef .tc main_v119)) = val_main_v119 (F := F) a.x2 := by
  simp only [ops_p2_0]
  after_results_simp
  simp only [h.h_main_v1] <;> rfl

set_option maxRecDepth 8192 in
set_option maxHeartbeats 2000000 in
theorem p2_0_main_v120 (a : Args F) (V : Valuation τ sig (Elt F)) (h : Inv4 a V) :
    after ops_p2_0 V (no_index (Proc.devRef .tc main_v120)) = val_main_v120 (F := F) := by
  simp only [ops_p2_0]
  after_results_simp
  all_goals rfl

theorem step_p2_0 (a : Args F) (V : Valuation τ sig (Elt F)) (h : Inv4 a V) : Inv5 a (after ops_p2_0 V) where
  toArgsHold := h.toArgsHold.step ops_p2_0 ops_p2_0_writes (by decide)
  h_main_v1 := (after_of_writes_sub (r := main_v1) ops_p2_0 V ops_p2_0_writes (by decide)).trans h.h_main_v1
  h_main_v3 := (after_of_writes_sub (r := main_v3) ops_p2_0 V ops_p2_0_writes (by decide)).trans h.h_main_v3
  h_main_v75 := (after_of_writes_sub (r := main_v75) ops_p2_0 V ops_p2_0_writes (by decide)).trans h.h_main_v75
  h_main_v115 := p2_0_main_v115 a V h
  h_main_v117 := p2_0_main_v117 a V h
  h_main_v119 := p2_0_main_v119 a V h
  h_main_v120 := p2_0_main_v120 a V h

set_option maxRecDepth 8192 in
theorem ops_p2_1_sub : (ops_p2_1 : List (HloOp τ sig (Elt F))).Forall fun op => op.bufs ⊆ tcRefs τ sig :=
  ⟨binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., unary_bufs_sub .., reshape_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub ..⟩

set_option maxRecDepth 8192 in
theorem ops_p2_1_fresh : (ops_p2_1 : List (HloOp τ sig (Elt F))).Forall fun op => op.fresh = ∅ := by
  repeat' apply And.intro
  all_goals rfl

abbrev ops_p2_1_W : List (Ref sig .tc) := [main_v121, main_v122, main_v123, main_v124, main_v125, main_v126, main_cst_28, main_v127, main_v128, main_v129, main_cst_29, main_v130, main_v131, main_v132, main_v133, main_v134, main_v135, main_v136, main_v137, main_v138, main_v139, main_v140, main_v141, main_v142, main_v143, main_v144, main_v145, main_v146, main_call5_cst, main_call5_v0, main_v147]

set_option maxRecDepth 8192 in
theorem ops_p2_1_writes : (ops_p2_1 : List (HloOp τ sig (Elt F))).Forall fun op => op.writes ⊆ (ops_p2_1_W.map (Proc.devRef (τ := τ) .tc)).toFinset := by
  repeat' apply And.intro
  all_goals exact writes_mem _ (by decide)

set_option maxRecDepth 8192 in
set_option maxHeartbeats 2000000 in
theorem p2_1_main_v147 (a : Args F) (V : Valuation τ sig (Elt F)) (h : Inv5 a V) :
    after ops_p2_1 V (no_index (Proc.devRef .tc main_v147)) = val_main_v147 (F := F) a.x0 a.x2 a.x4 a.x6 a.x7 a.x8 a.x9 := by
  simp only [ops_p2_1]
  after_results_simp
  simp only [h.h_main_arg9, h.h_main_arg8, h.h_main_v75, h.h_main_v1, h.h_main_v120, h.h_main_v119, h.h_main_v115, h.h_main_v117, h.h_main_v3] <;> rfl

theorem step_p2_1 (a : Args F) (V : Valuation τ sig (Elt F)) (h : Inv5 a V) : Inv6 a (after ops_p2_1 V) where
  toArgsHold := h.toArgsHold.step ops_p2_1 ops_p2_1_writes (by decide)
  h_main_v147 := p2_1_main_v147 a V h

theorem ops_p2_sub : (ops_p2 : List (HloOp τ sig (Elt F))).Forall fun op => op.bufs ⊆ tcRefs τ sig :=
  List.forall_iff_forall_mem.mpr fun op h => by
    simp only [ops_p2, List.mem_append] at h
    rcases h with h | h
    exacts [List.forall_iff_forall_mem.mp ops_p2_0_sub op h, List.forall_iff_forall_mem.mp ops_p2_1_sub op h]

theorem ops_p2_fresh : ∀ op ∈ (ops_p2 : List (HloOp τ sig (Elt F))), op.fresh = ∅ := fun op h => by
  simp only [ops_p2, List.mem_append] at h
  rcases h with h | h
  exacts [List.forall_iff_forall_mem.mp ops_p2_0_fresh op h, List.forall_iff_forall_mem.mp ops_p2_1_fresh op h]

theorem step_p2 (a : Args F) (V : Valuation τ sig (Elt F)) (h : Inv4 a V) : Inv6 a (after ops_p2 V) := by
  simp only [ops_p2, after_append]
  exact step_p2_1 a _ (step_p2_0 a V h)

end Cert.RefRun

end
-- ==== Proof.RefRun.P3.lean ====
import proofs.«406476_j70849780514835_3_alg».proof.Proof.RefRun.Inv

/-! Stretch 3 of the reference's operations: each buffer a later operation reads ends at its stage value of the
    arguments. -/

noncomputable section

namespace Cert.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops_p3_0 : List (HloOp τ sig (Elt F)) :=
  [ unary main_arg3 main_v148 ((extractStridedSlice S1x3200 ![0, 0] · slices_S2x3200_S1x3200_0_0) : (⟨S2x3200, .i32⟩ : BufTy).Contents (Elt F) → (⟨S1x3200, .i32⟩ : BufTy).Contents (Elt F)),
    reshape main_v148 main_v149 rfl shapeCasts_S1x3200_S3200,
    unary main_arg3 main_v150 ((extractStridedSlice S1x3200 ![1, 0] · slices_S2x3200_S1x3200_1_0) : (⟨S2x3200, .i32⟩ : BufTy).Contents (Elt F) → (⟨S1x3200, .i32⟩ : BufTy).Contents (Elt F)),
    reshape main_v150 main_v151 rfl shapeCasts_S1x3200_S3200,
    nullary main_cst_30 (constant S_ .f32 0x00000000#32),
    unary main_cst_30 main_v152 (broadcastInDim S200 ![] bcast_S_S200 : (⟨S_, .f32⟩ : BufTy).Contents (Elt F) → (⟨S200, .f32⟩ : BufTy).Contents (Elt F)),
    unary main_v149 main_v153 (broadcastInDim S3200x1 ![0] bcast_S3200_S3200x1_0 : (⟨S3200, .i32⟩ : BufTy).Contents (Elt F) → (⟨S3200x1, .i32⟩ : BufTy).Contents (Elt F)),
    ternary main_v152 main_v153 main_arg5 main_v154 ((fun x i u => Host.scatterAdd scatter_S200_S3200x1_S3200_n_0_0_1 x i u) : (⟨S200, .f32⟩ : BufTy).Contents (Elt F) → (⟨S3200x1, .i32⟩ : BufTy).Contents (Elt F) → (⟨S3200, .f32⟩ : BufTy).Contents (Elt F) → (⟨S200, .f32⟩ : BufTy).Contents (Elt F)),
    nullary main_cst_31 (constant S_ .f32 0x00000000#32),
    unary main_cst_31 main_v155 (broadcastInDim S200 ![] bcast_S_S200 : (⟨S_, .f32⟩ : BufTy).Contents (Elt F) → (⟨S200, .f32⟩ : BufTy).Contents (Elt F)),
    binary main_v154 main_v155 main_v156 (cmpf .ogt : (⟨S200, .f32⟩ : BufTy).Contents (Elt F) → (⟨S200, .f32⟩ : BufTy).Contents (Elt F) → (⟨S200, .i1⟩ : BufTy).Contents (Elt F)),
    nullary main_cst_32 (constant S_ .f32 0x3F800000#32),
    TRef.unary (TRef.of (T := ⟨S_, .f32⟩) main_cst_32) (TRef.of (T := ⟨S_, .f32⟩) main_call6_v0) id,
    TRef.unary (TRef.of (T := ⟨S_, .f32⟩) main_call6_v0) (TRef.of (T := ⟨S200, .f32⟩) main_call6_v1) (broadcastInDim S200 ![] bcast_S_S200),
    TRef.ternary (TRef.of (T := ⟨S200, .i1⟩) main_v156) (TRef.of (T := ⟨S200, .f32⟩) main_v154) (TRef.of (T := ⟨S200, .f32⟩) main_call6_v1) (TRef.of (T := ⟨S200, .f32⟩) main_v157) select,
    nullary main_cst_33 (constant S_ .f32 0x00000000#32),
    unary main_cst_33 main_v158 (broadcastInDim S200 ![] bcast_S_S200 : (⟨S_, .f32⟩ : BufTy).Contents (Elt F) → (⟨S200, .f32⟩ : BufTy).Contents (Elt F)),
    binary main_v154 main_v158 main_v159 (cmpf .ogt : (⟨S200, .f32⟩ : BufTy).Contents (Elt F) → (⟨S200, .f32⟩ : BufTy).Contents (Elt F) → (⟨S200, .i1⟩ : BufTy).Contents (Elt F)),
    unary main_v157 main_v160 (Host.rsqrt : (⟨S200, .f32⟩ : BufTy).Contents (Elt F) → (⟨S200, .f32⟩ : BufTy).Contents (Elt F)),
    nullary main_cst_34 (constant S_ .f32 0x00000000#32),
    TRef.unary (TRef.of (T := ⟨S_, .f32⟩) main_cst_34) (TRef.of (T := ⟨S_, .f32⟩) main_call7_v0) id,
    TRef.unary (TRef.of (T := ⟨S_, .f32⟩) main_call7_v0) (TRef.of (T := ⟨S200, .f32⟩) main_call7_v1) (broadcastInDim S200 ![] bcast_S_S200),
    TRef.ternary (TRef.of (T := ⟨S200, .i1⟩) main_v159) (TRef.of (T := ⟨S200, .f32⟩) main_v160) (TRef.of (T := ⟨S200, .f32⟩) main_call7_v1) (TRef.of (T := ⟨S200, .f32⟩) main_v161) select,
    nullary main_c_35 (constantI S_ 32 0#32),
    unary main_c_35 main_v162 (broadcastInDim S3200 ![] bcast_S_S3200 : (⟨S_, .i32⟩ : BufTy).Contents (Elt F) → (⟨S3200, .i32⟩ : BufTy).Contents (Elt F)),
    binary main_v149 main_v162 main_v163 (cmpi .slt : (⟨S3200, .i32⟩ : BufTy).Contents (Elt F) → (⟨S3200, .i32⟩ : BufTy).Contents (Elt F) → (⟨S3200, .i1⟩ : BufTy).Contents (Elt F)),
    nullary main_c_36 (constantI S_ 32 200#32),
    unary main_c_36 main_v164 (broadcastInDim S3200 ![] bcast_S_S3200 : (⟨S_, .i32⟩ : BufTy).Contents (Elt F) → (⟨S3200, .i32⟩ : BufTy).Contents (Elt F)),
    binary main_v149 main_v164 main_v165 (addi : (⟨S3200, .i32⟩ : BufTy).Contents (Elt F) → (⟨S3200, .i32⟩ : BufTy).Contents (Elt F) → (⟨S3200, .i32⟩ : BufTy).Contents (Elt F)),
    ternary main_v163 main_v165 main_v149 main_v166 (select : (⟨S3200, .i1⟩ : BufTy).Contents (Elt F) → (⟨S3200, .i32⟩ : BufTy).Contents (Elt F) → (⟨S3200, .i32⟩ : BufTy).Contents (Elt F) → (⟨S3200, .i32⟩ : BufTy).Contents (Elt F)),
    unary main_v166 main_v167 (broadcastInDim S3200x1 ![0] bcast_S3200_S3200x1_0 : (⟨S3200, .i32⟩ : BufTy).Contents (Elt F) → (⟨S3200x1, .i32⟩ : BufTy).Contents (Elt F)),
    binary main_v161 main_v167 main_v168 ((fun x i => Host.gather gather_S200_S3200x1_S3200_n_0_n_n_0_1_1 x i) : (⟨S200, .f32⟩ : BufTy).Contents (Elt F) → (⟨S3200x1, .i32⟩ : BufTy).Contents (Elt F) → (⟨S3200, .f32⟩ : BufTy).Contents (Elt F)) ]

abbrev ops_p3_1 : List (HloOp τ sig (Elt F)) :=
  [ binary main_v168 main_arg5 main_v169 (mulf : (⟨S3200, .f32⟩ : BufTy).Contents (Elt F) → (⟨S3200, .f32⟩ : BufTy).Contents (Elt F) → (⟨S3200, .f32⟩ : BufTy).Contents (Elt F)),
    nullary main_c_37 (constantI S_ 32 0#32),
    unary main_c_37 main_v170 (broadcastInDim S3200 ![] bcast_S_S3200 : (⟨S_, .i32⟩ : BufTy).Contents (Elt F) → (⟨S3200, .i32⟩ : BufTy).Contents (Elt F)),
    binary main_v151 main_v170 main_v171 (cmpi .slt : (⟨S3200, .i32⟩ : BufTy).Contents (Elt F) → (⟨S3200, .i32⟩ : BufTy).Contents (Elt F) → (⟨S3200, .i1⟩ : BufTy).Contents (Elt F)),
    nullary main_c_38 (constantI S_ 32 200#32),
    unary main_c_38 main_v172 (broadcastInDim S3200 ![] bcast_S_S3200 : (⟨S_, .i32⟩ : BufTy).Contents (Elt F) → (⟨S3200, .i32⟩ : BufTy).Contents (Elt F)),
    binary main_v151 main_v172 main_v173 (addi : (⟨S3200, .i32⟩ : BufTy).Contents (Elt F) → (⟨S3200, .i32⟩ : BufTy).Contents (Elt F) → (⟨S3200, .i32⟩ : BufTy).Contents (Elt F)),
    ternary main_v171 main_v173 main_v151 main_v174 (select : (⟨S3200, .i1⟩ : BufTy).Contents (Elt F) → (⟨S3200, .i32⟩ : BufTy).Contents (Elt F) → (⟨S3200, .i32⟩ : BufTy).Contents (Elt F) → (⟨S3200, .i32⟩ : BufTy).Contents (Elt F)),
    unary main_v174 main_v175 (broadcastInDim S3200x1 ![0] bcast_S3200_S3200x1_0 : (⟨S3200, .i32⟩ : BufTy).Contents (Elt F) → (⟨S3200x1, .i32⟩ : BufTy).Contents (Elt F)),
    binary main_v161 main_v175 main_v176 ((fun x i => Host.gather gather_S200_S3200x1_S3200_n_0_n_n_0_1_1 x i) : (⟨S200, .f32⟩ : BufTy).Contents (Elt F) → (⟨S3200x1, .i32⟩ : BufTy).Contents (Elt F) → (⟨S3200, .f32⟩ : BufTy).Contents (Elt F)),
    binary main_v169 main_v176 main_v177 (mulf : (⟨S3200, .f32⟩ : BufTy).Contents (Elt F) → (⟨S3200, .f32⟩ : BufTy).Contents (Elt F) → (⟨S3200, .f32⟩ : BufTy).Contents (Elt F)),
    unary main_v177 main_v178 (broadcastInDim S3200x1 ![0] bcast_S3200_S3200x1_0 : (⟨S3200, .f32⟩ : BufTy).Contents (Elt F) → (⟨S3200x1, .f32⟩ : BufTy).Contents (Elt F)),
    unary main_v178 main_v179 (Host.negf : (⟨S3200x1, .f32⟩ : BufTy).Contents (Elt F) → (⟨S3200x1, .f32⟩ : BufTy).Contents (Elt F)),
    nullary main_c_39 (constantI S_ 32 0#32),
    unary main_c_39 main_v180 (broadcastInDim S3200 ![] bcast_S_S3200 : (⟨S_, .i32⟩ : BufTy).Contents (Elt F) → (⟨S3200, .i32⟩ : BufTy).Contents (Elt F)),
    binary main_v149 main_v180 main_v181 (cmpi .slt : (⟨S3200, .i32⟩ : BufTy).Contents (Elt F) → (⟨S3200, .i32⟩ : BufTy).Contents (Elt F) → (⟨S3200, .i1⟩ : BufTy).Contents (Elt F)),
    nullary main_c_40 (constantI S_ 32 200#32),
    unary main_c_40 main_v182 (broadcastInDim S3200 ![] bcast_S_S3200 : (⟨S_, .i32⟩ : BufTy).Contents (Elt F) → (⟨S3200, .i32⟩ : BufTy).Contents (Elt F)),
    binary main_v149 main_v182 main_v183 (addi : (⟨S3200, .i32⟩ : BufTy).Contents (Elt F) → (⟨S3200, .i32⟩ : BufTy).Contents (Elt F) → (⟨S3200, .i32⟩ : BufTy).Contents (Elt F)),
    ternary main_v181 main_v183 main_v149 main_v184 (select : (⟨S3200, .i1⟩ : BufTy).Contents (Elt F) → (⟨S3200, .i32⟩ : BufTy).Contents (Elt F) → (⟨S3200, .i32⟩ : BufTy).Contents (Elt F) → (⟨S3200, .i32⟩ : BufTy).Contents (Elt F)),
    unary main_v184 main_v185 (broadcastInDim S3200x1 ![0] bcast_S3200_S3200x1_0 : (⟨S3200, .i32⟩ : BufTy).Contents (Elt F) → (⟨S3200x1, .i32⟩ : BufTy).Contents (Elt F)),
    binary main_arg1 main_v185 main_v186 ((fun x i => Host.gather gather_S200x8192_S3200x1_S3200x8192_1_0_n_n_0_1_18192 x i) : (⟨S200x8192, .f32⟩ : BufTy).Contents (Elt F) → (⟨S3200x1, .i32⟩ : BufTy).Contents (Elt F) → (⟨S3200x8192, .f32⟩ : BufTy).Contents (Elt F)),
    unary main_v179 main_v187 (broadcastInDim S3200x8192 ![0, 1] bcast_S3200x1_S3200x8192_0_1 : (⟨S3200x1, .f32⟩ : BufTy).Contents (Elt F) → (⟨S3200x8192, .f32⟩ : BufTy).Contents (Elt F)),
    binary main_v187 main_v186 main_v188 (mulf : (⟨S3200x8192, .f32⟩ : BufTy).Contents (Elt F) → (⟨S3200x8192, .f32⟩ : BufTy).Contents (Elt F) → (⟨S3200x8192, .f32⟩ : BufTy).Contents (Elt F)),
    nullary main_cst_41 (constant S_ .f32 0x00000000#32),
    unary main_cst_41 main_v189 (broadcastInDim S200x8192 ![] bcast_S_S200x8192 : (⟨S_, .f32⟩ : BufTy).Contents (Elt F) → (⟨S200x8192, .f32⟩ : BufTy).Contents (Elt F)),
    unary main_v151 main_v190 (broadcastInDim S3200x1 ![0] bcast_S3200_S3200x1_0 : (⟨S3200, .i32⟩ : BufTy).Contents (Elt F) → (⟨S3200x1, .i32⟩ : BufTy).Contents (Elt F)),
    ternary main_v189 main_v190 main_v188 main_v191 ((fun x i u => Host.scatterAdd scatter_S200x8192_S3200x1_S3200x8192_1_0_0_1 x i u) : (⟨S200x8192, .f32⟩ : BufTy).Contents (Elt F) → (⟨S3200x1, .i32⟩ : BufTy).Contents (Elt F) → (⟨S3200x8192, .f32⟩ : BufTy).Contents (Elt F) → (⟨S200x8192, .f32⟩ : BufTy).Contents (Elt F)),
    unary main_v177 main_v192 (broadcastInDim S3200x1 ![0] bcast_S3200_S3200x1_0 : (⟨S3200, .f32⟩ : BufTy).Contents (Elt F) → (⟨S3200x1, .f32⟩ : BufTy).Contents (Elt F)),
    unary main_v192 main_v193 (Host.negf : (⟨S3200x1, .f32⟩ : BufTy).Contents (Elt F) → (⟨S3200x1, .f32⟩ : BufTy).Contents (Elt F)),
    nullary main_c_42 (constantI S_ 32 0#32),
    unary main_c_42 main_v194 (broadcastInDim S3200 ![] bcast_S_S3200 : (⟨S_, .i32⟩ : BufTy).Contents (Elt F) → (⟨S3200, .i32⟩ : BufTy).Contents (Elt F)) ]

abbrev ops_p3 : List (HloOp τ sig (Elt F)) := ops_p3_0 ++ ops_p3_1

set_option maxRecDepth 8192 in
set_option maxHeartbeats 4000000 in
theorem main_part3_eq (c : Dev nD) : main_part3 (F := F) c = seq ops_p3 := rfl

set_option maxRecDepth 8192 in
theorem ops_p3_0_sub : (ops_p3_0 : List (HloOp τ sig (Elt F))).Forall fun op => op.bufs ⊆ tcRefs τ sig :=
  ⟨unary_bufs_sub .., reshape_bufs_sub .., unary_bufs_sub .., reshape_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub ..⟩

set_option maxRecDepth 8192 in
theorem ops_p3_0_fresh : (ops_p3_0 : List (HloOp τ sig (Elt F))).Forall fun op => op.fresh = ∅ := by
  repeat' apply And.intro
  all_goals rfl

abbrev ops_p3_0_W : List (Ref sig .tc) := [main_v148, main_v149, main_v150, main_v151, main_cst_30, main_v152, main_v153, main_v154, main_cst_31, main_v155, main_v156, main_cst_32, main_call6_v0, main_call6_v1, main_v157, main_cst_33, main_v158, main_v159, main_v160, main_cst_34, main_call7_v0, main_call7_v1, main_v161, main_c_35, main_v162, main_v163, main_c_36, main_v164, main_v165, main_v166, main_v167, main_v168]

set_option maxRecDepth 8192 in
theorem ops_p3_0_writes : (ops_p3_0 : List (HloOp τ sig (Elt F))).Forall fun op => op.writes ⊆ (ops_p3_0_W.map (Proc.devRef (τ := τ) .tc)).toFinset := by
  repeat' apply And.intro
  all_goals exact writes_mem _ (by decide)

set_option maxRecDepth 8192 in
set_option maxHeartbeats 2000000 in
theorem p3_0_main_v149 (a : Args F) (V : Valuation τ sig (Elt F)) (h : Inv6 a V) :
    after ops_p3_0 V (no_index (Proc.devRef .tc main_v149)) = val_main_v149 (F := F) a.x3 := by
  simp only [ops_p3_0]
  after_results_simp
  simp only [h.h_main_arg3] <;> rfl

set_option maxRecDepth 8192 in
set_option maxHeartbeats 2000000 in
theorem p3_0_main_v151 (a : Args F) (V : Valuation τ sig (Elt F)) (h : Inv6 a V) :
    after ops_p3_0 V (no_index (Proc.devRef .tc main_v151)) = val_main_v151 (F := F) a.x3 := by
  simp only [ops_p3_0]
  after_results_simp
  simp only [h.h_main_arg3] <;> rfl

set_option maxRecDepth 8192 in
set_option maxHeartbeats 2000000 in
theorem p3_0_main_v161 (a : Args F) (V : Valuation τ sig (Elt F)) (h : Inv6 a V) :
    after ops_p3_0 V (no_index (Proc.devRef .tc main_v161)) = val_main_v161 (F := F) a.x3 a.x5 := by
  simp only [ops_p3_0]
  after_results_simp
  simp only [h.h_main_arg5, h.h_main_arg3] <;> rfl

set_option maxRecDepth 8192 in
set_option maxHeartbeats 2000000 in
theorem p3_0_main_v168 (a : Args F) (V : Valuation τ sig (Elt F)) (h : Inv6 a V) :
    after ops_p3_0 V (no_index (Proc.devRef .tc main_v168)) = val_main_v168 (F := F) a.x3 a.x5 := by
  simp only [ops_p3_0]
  after_results_simp
  simp only [h.h_main_arg3, h.h_main_arg5] <;> rfl

theorem step_p3_0 (a : Args F) (V : Valuation τ sig (Elt F)) (h : Inv6 a V) : Inv7 a (after ops_p3_0 V) where
  toArgsHold := h.toArgsHold.step ops_p3_0 ops_p3_0_writes (by decide)
  h_main_v147 := (after_of_writes_sub (r := main_v147) ops_p3_0 V ops_p3_0_writes (by decide)).trans h.h_main_v147
  h_main_v149 := p3_0_main_v149 a V h
  h_main_v151 := p3_0_main_v151 a V h
  h_main_v161 := p3_0_main_v161 a V h
  h_main_v168 := p3_0_main_v168 a V h

set_option maxRecDepth 8192 in
theorem ops_p3_1_sub : (ops_p3_1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., nullary_bufs_sub .., unary_bufs_sub ..⟩

set_option maxRecDepth 8192 in
theorem ops_p3_1_fresh : (ops_p3_1 : List (HloOp τ sig (Elt F))).Forall fun op => op.fresh = ∅ := by
  repeat' apply And.intro
  all_goals rfl

abbrev ops_p3_1_W : List (Ref sig .tc) := [main_v169, main_c_37, main_v170, main_v171, main_c_38, main_v172, main_v173, main_v174, main_v175, main_v176, main_v177, main_v178, main_v179, main_c_39, main_v180, main_v181, main_c_40, main_v182, main_v183, main_v184, main_v185, main_v186, main_v187, main_v188, main_cst_41, main_v189, main_v190, main_v191, main_v192, main_v193, main_c_42, main_v194]

set_option maxRecDepth 8192 in
theorem ops_p3_1_writes : (ops_p3_1 : List (HloOp τ sig (Elt F))).Forall fun op => op.writes ⊆ (ops_p3_1_W.map (Proc.devRef (τ := τ) .tc)).toFinset := by
  repeat' apply And.intro
  all_goals exact writes_mem _ (by decide)

set_option maxRecDepth 8192 in
set_option maxHeartbeats 2000000 in
theorem p3_1_main_v191 (a : Args F) (V : Valuation τ sig (Elt F)) (h : Inv7 a V) :
    after ops_p3_1 V (no_index (Proc.devRef .tc main_v191)) = val_main_v191 (F := F) a.x1 a.x3 a.x5 := by
  simp only [ops_p3_1]
  after_results_simp
  simp only [h.h_main_v149, h.h_main_arg1, h.h_main_v151, h.h_main_v161, h.h_main_arg5, h.h_main_v168] <;> rfl

set_option maxRecDepth 8192 in
set_option maxHeartbeats 2000000 in
theorem p3_1_main_v193 (a : Args F) (V : Valuation τ sig (Elt F)) (h : Inv7 a V) :
    after ops_p3_1 V (no_index (Proc.devRef .tc main_v193)) = val_main_v193 (F := F) a.x3 a.x5 := by
  simp only [ops_p3_1]
  after_results_simp
  simp only [h.h_main_v151, h.h_main_v161, h.h_main_arg5, h.h_main_v168] <;> rfl

set_option maxRecDepth 8192 in
set_option maxHeartbeats 2000000 in
theorem p3_1_main_v194 (a : Args F) (V : Valuation τ sig (Elt F)) (h : Inv7 a V) :
    after ops_p3_1 V (no_index (Proc.devRef .tc main_v194)) = val_main_v194 (F := F) := by
  simp only [ops_p3_1]
  after_results_simp
  all_goals rfl

theorem step_p3_1 (a : Args F) (V : Valuation τ sig (Elt F)) (h : Inv7 a V) : Inv8 a (after ops_p3_1 V) where
  toArgsHold := h.toArgsHold.step ops_p3_1 ops_p3_1_writes (by decide)
  h_main_v147 := (after_of_writes_sub (r := main_v147) ops_p3_1 V ops_p3_1_writes (by decide)).trans h.h_main_v147
  h_main_v149 := (after_of_writes_sub (r := main_v149) ops_p3_1 V ops_p3_1_writes (by decide)).trans h.h_main_v149
  h_main_v151 := (after_of_writes_sub (r := main_v151) ops_p3_1 V ops_p3_1_writes (by decide)).trans h.h_main_v151
  h_main_v191 := p3_1_main_v191 a V h
  h_main_v193 := p3_1_main_v193 a V h
  h_main_v194 := p3_1_main_v194 a V h

theorem ops_p3_sub : (ops_p3 : List (HloOp τ sig (Elt F))).Forall fun op => op.bufs ⊆ tcRefs τ sig :=
  List.forall_iff_forall_mem.mpr fun op h => by
    simp only [ops_p3, List.mem_append] at h
    rcases h with h | h
    exacts [List.forall_iff_forall_mem.mp ops_p3_0_sub op h, List.forall_iff_forall_mem.mp ops_p3_1_sub op h]

theorem ops_p3_fresh : ∀ op ∈ (ops_p3 : List (HloOp τ sig (Elt F))), op.fresh = ∅ := fun op h => by
  simp only [ops_p3, List.mem_append] at h
  rcases h with h | h
  exacts [List.forall_iff_forall_mem.mp ops_p3_0_fresh op h, List.forall_iff_forall_mem.mp ops_p3_1_fresh op h]

theorem step_p3 (a : Args F) (V : Valuation τ sig (Elt F)) (h : Inv6 a V) : Inv8 a (after ops_p3 V) := by
  simp only [ops_p3, after_append]
  exact step_p3_1 a _ (step_p3_0 a V h)

end Cert.RefRun

end
-- ==== Proof.RefRun.P4.lean ====
import proofs.«406476_j70849780514835_3_alg».proof.Proof.RefRun.Inv

/-! Stretch 4 of the reference's operations: each buffer a later operation reads ends at its stage value of the
    arguments. -/

noncomputable section

namespace Cert.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops_p4_0 : List (HloOp τ sig (Elt F)) :=
  [ binary main_v149 main_v194 main_v195 (cmpi .slt : (⟨S3200, .i32⟩ : BufTy).Contents (Elt F) → (⟨S3200, .i32⟩ : BufTy).Contents (Elt F) → (⟨S3200, .i1⟩ : BufTy).Contents (Elt F)),
    nullary main_c_43 (constantI S_ 32 200#32),
    unary main_c_43 main_v196 (broadcastInDim S3200 ![] bcast_S_S3200 : (⟨S_, .i32⟩ : BufTy).Contents (Elt F) → (⟨S3200, .i32⟩ : BufTy).Contents (Elt F)),
    binary main_v149 main_v196 main_v197 (addi : (⟨S3200, .i32⟩ : BufTy).Contents (Elt F) → (⟨S3200, .i32⟩ : BufTy).Contents (Elt F) → (⟨S3200, .i32⟩ : BufTy).Contents (Elt F)),
    ternary main_v195 main_v197 main_v149 main_v198 (select : (⟨S3200, .i1⟩ : BufTy).Contents (Elt F) → (⟨S3200, .i32⟩ : BufTy).Contents (Elt F) → (⟨S3200, .i32⟩ : BufTy).Contents (Elt F) → (⟨S3200, .i32⟩ : BufTy).Contents (Elt F)),
    unary main_v198 main_v199 (broadcastInDim S3200x1 ![0] bcast_S3200_S3200x1_0 : (⟨S3200, .i32⟩ : BufTy).Contents (Elt F) → (⟨S3200x1, .i32⟩ : BufTy).Contents (Elt F)),
    binary main_v191 main_v199 main_v200 ((fun x i => Host.gather gather_S200x8192_S3200x1_S3200x8192_1_0_n_n_0_1_18192 x i) : (⟨S200x8192, .f32⟩ : BufTy).Contents (Elt F) → (⟨S3200x1, .i32⟩ : BufTy).Contents (Elt F) → (⟨S3200x8192, .f32⟩ : BufTy).Contents (Elt F)),
    unary main_v193 main_v201 (broadcastInDim S3200x8192 ![0, 1] bcast_S3200x1_S3200x8192_0_1 : (⟨S3200x1, .f32⟩ : BufTy).Contents (Elt F) → (⟨S3200x8192, .f32⟩ : BufTy).Contents (Elt F)),
    binary main_v201 main_v200 main_v202 (mulf : (⟨S3200x8192, .f32⟩ : BufTy).Contents (Elt F) → (⟨S3200x8192, .f32⟩ : BufTy).Contents (Elt F) → (⟨S3200x8192, .f32⟩ : BufTy).Contents (Elt F)),
    nullary main_cst_44 (constant S_ .f32 0x00000000#32),
    unary main_cst_44 main_v203 (broadcastInDim S200x8192 ![] bcast_S_S200x8192 : (⟨S_, .f32⟩ : BufTy).Contents (Elt F) → (⟨S200x8192, .f32⟩ : BufTy).Contents (Elt F)),
    unary main_v151 main_v204 (broadcastInDim S3200x1 ![0] bcast_S3200_S3200x1_0 : (⟨S3200, .i32⟩ : BufTy).Contents (Elt F) → (⟨S3200x1, .i32⟩ : BufTy).Contents (Elt F)),
    ternary main_v203 main_v204 main_v202 main_v205 ((fun x i u => Host.scatterAdd scatter_S200x8192_S3200x1_S3200x8192_1_0_0_1 x i u) : (⟨S200x8192, .f32⟩ : BufTy).Contents (Elt F) → (⟨S3200x1, .i32⟩ : BufTy).Contents (Elt F) → (⟨S3200x8192, .f32⟩ : BufTy).Contents (Elt F) → (⟨S200x8192, .f32⟩ : BufTy).Contents (Elt F)),
    nullary main_cst_45 (constant S_ .f32 0x40000000#32),
    unary main_cst_45 main_v206 (broadcastInDim S200x8192 ![] bcast_S_S200x8192 : (⟨S_, .f32⟩ : BufTy).Contents (Elt F) → (⟨S200x8192, .f32⟩ : BufTy).Contents (Elt F)),
    binary main_v206 main_v205 main_v207 (mulf : (⟨S200x8192, .f32⟩ : BufTy).Contents (Elt F) → (⟨S200x8192, .f32⟩ : BufTy).Contents (Elt F) → (⟨S200x8192, .f32⟩ : BufTy).Contents (Elt F)),
    binary main_v207 main_arg1 main_v208 (subf : (⟨S200x8192, .f32⟩ : BufTy).Contents (Elt F) → (⟨S200x8192, .f32⟩ : BufTy).Contents (Elt F) → (⟨S200x8192, .f32⟩ : BufTy).Contents (Elt F)),
    unary main_arg6 main_v209 ((extractStridedSlice S1x8192x4096 ![0, 0, 0] · slices_S3x8192x4096_S1x8192x4096_0_0_0) : (⟨S3x8192x4096, .f32⟩ : BufTy).Contents (Elt F) → (⟨S1x8192x4096, .f32⟩ : BufTy).Contents (Elt F)),
    reshape main_v209 main_v210 rfl shapeCasts_S1x8192x4096_S8192x4096,
    binary main_arg1 main_v210 main_v211 ((fun l r => Host.dotGeneral dot_S200x8192_S8192x4096_S200x4096_1_0_0_1_n_n none l r) : (⟨S200x8192, .f32⟩ : BufTy).Contents (Elt F) → (⟨S8192x4096, .f32⟩ : BufTy).Contents (Elt F) → (⟨S200x4096, .f32⟩ : BufTy).Contents (Elt F)),
    unary main_arg6 main_v212 ((extractStridedSlice S1x8192x4096 ![1, 0, 0] · slices_S3x8192x4096_S1x8192x4096_1_0_0) : (⟨S3x8192x4096, .f32⟩ : BufTy).Contents (Elt F) → (⟨S1x8192x4096, .f32⟩ : BufTy).Contents (Elt F)),
    reshape main_v212 main_v213 rfl shapeCasts_S1x8192x4096_S8192x4096,
    binary main_v191 main_v213 main_v214 ((fun l r => Host.dotGeneral dot_S200x8192_S8192x4096_S200x4096_1_0_0_1_n_n none l r) : (⟨S200x8192, .f32⟩ : BufTy).Contents (Elt F) → (⟨S8192x4096, .f32⟩ : BufTy).Contents (Elt F) → (⟨S200x4096, .f32⟩ : BufTy).Contents (Elt F)),
    binary main_v211 main_v214 main_v215 (addf : (⟨S200x4096, .f32⟩ : BufTy).Contents (Elt F) → (⟨S200x4096, .f32⟩ : BufTy).Contents (Elt F) → (⟨S200x4096, .f32⟩ : BufTy).Contents (Elt F)),
    unary main_arg6 main_v216 ((extractStridedSlice S1x8192x4096 ![2, 0, 0] · slices_S3x8192x4096_S1x8192x4096_2_0_0) : (⟨S3x8192x4096, .f32⟩ : BufTy).Contents (Elt F) → (⟨S1x8192x4096, .f32⟩ : BufTy).Contents (Elt F)),
    reshape main_v216 main_v217 rfl shapeCasts_S1x8192x4096_S8192x4096,
    binary main_v208 main_v217 main_v218 ((fun l r => Host.dotGeneral dot_S200x8192_S8192x4096_S200x4096_1_0_0_1_n_n none l r) : (⟨S200x8192, .f32⟩ : BufTy).Contents (Elt F) → (⟨S8192x4096, .f32⟩ : BufTy).Contents (Elt F) → (⟨S200x4096, .f32⟩ : BufTy).Contents (Elt F)),
    binary main_v215 main_v218 main_v219 (addf : (⟨S200x4096, .f32⟩ : BufTy).Contents (Elt F) → (⟨S200x4096, .f32⟩ : BufTy).Contents (Elt F) → (⟨S200x4096, .f32⟩ : BufTy).Contents (Elt F)),
    unary main_arg7 main_v220 (broadcastInDim S1x4096 ![1] bcast_S4096_S1x4096_1 : (⟨S4096, .f32⟩ : BufTy).Contents (Elt F) → (⟨S1x4096, .f32⟩ : BufTy).Contents (Elt F)),
    unary main_v220 main_v221 (broadcastInDim S200x4096 ![0, 1] bcast_S1x4096_S200x4096_0_1 : (⟨S1x4096, .f32⟩ : BufTy).Contents (Elt F) → (⟨S200x4096, .f32⟩ : BufTy).Contents (Elt F)),
    binary main_v219 main_v221 main_v222 (addf : (⟨S200x4096, .f32⟩ : BufTy).Contents (Elt F) → (⟨S200x4096, .f32⟩ : BufTy).Contents (Elt F) → (⟨S200x4096, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S200x4096, .f32⟩) main_call8_v0) (broadcastInDim S200x4096 ![] bcast_S_S200x4096) ]

abbrev ops_p4_1 : List (HloOp τ sig (Elt F)) :=
  [ TRef.binary (TRef.of (T := ⟨S200x4096, .f32⟩) main_v222) (TRef.of (T := ⟨S200x4096, .f32⟩) main_call8_v0) (TRef.of (T := ⟨S200x4096, .f32⟩) main_v223) maximumf,
    nullary main_cst_46 (constant S_ .f32 0x00000000#32),
    unary main_cst_46 main_v224 (broadcastInDim S200 ![] bcast_S_S200 : (⟨S_, .f32⟩ : BufTy).Contents (Elt F) → (⟨S200, .f32⟩ : BufTy).Contents (Elt F)),
    unary main_v149 main_v225 (broadcastInDim S3200x1 ![0] bcast_S3200_S3200x1_0 : (⟨S3200, .i32⟩ : BufTy).Contents (Elt F) → (⟨S3200x1, .i32⟩ : BufTy).Contents (Elt F)),
    ternary main_v224 main_v225 main_arg5 main_v226 ((fun x i u => Host.scatterAdd scatter_S200_S3200x1_S3200_n_0_0_1 x i u) : (⟨S200, .f32⟩ : BufTy).Contents (Elt F) → (⟨S3200x1, .i32⟩ : BufTy).Contents (Elt F) → (⟨S3200, .f32⟩ : BufTy).Contents (Elt F) → (⟨S200, .f32⟩ : BufTy).Contents (Elt F)),
    nullary main_cst_47 (constant S_ .f32 0x00000000#32),
    unary main_cst_47 main_v227 (broadcastInDim S200 ![] bcast_S_S200 : (⟨S_, .f32⟩ : BufTy).Contents (Elt F) → (⟨S200, .f32⟩ : BufTy).Contents (Elt F)),
    binary main_v226 main_v227 main_v228 (cmpf .ogt : (⟨S200, .f32⟩ : BufTy).Contents (Elt F) → (⟨S200, .f32⟩ : BufTy).Contents (Elt F) → (⟨S200, .i1⟩ : BufTy).Contents (Elt F)),
    nullary main_cst_48 (constant S_ .f32 0x3F800000#32),
    TRef.unary (TRef.of (T := ⟨S_, .f32⟩) main_cst_48) (TRef.of (T := ⟨S_, .f32⟩) main_call9_v0) id,
    TRef.unary (TRef.of (T := ⟨S_, .f32⟩) main_call9_v0) (TRef.of (T := ⟨S200, .f32⟩) main_call9_v1) (broadcastInDim S200 ![] bcast_S_S200),
    TRef.ternary (TRef.of (T := ⟨S200, .i1⟩) main_v228) (TRef.of (T := ⟨S200, .f32⟩) main_v226) (TRef.of (T := ⟨S200, .f32⟩) main_call9_v1) (TRef.of (T := ⟨S200, .f32⟩) main_v229) select,
    nullary main_cst_49 (constant S_ .f32 0x00000000#32),
    unary main_cst_49 main_v230 (broadcastInDim S200 ![] bcast_S_S200 : (⟨S_, .f32⟩ : BufTy).Contents (Elt F) → (⟨S200, .f32⟩ : BufTy).Contents (Elt F)),
    binary main_v226 main_v230 main_v231 (cmpf .ogt : (⟨S200, .f32⟩ : BufTy).Contents (Elt F) → (⟨S200, .f32⟩ : BufTy).Contents (Elt F) → (⟨S200, .i1⟩ : BufTy).Contents (Elt F)),
    unary main_v229 main_v232 (Host.rsqrt : (⟨S200, .f32⟩ : BufTy).Contents (Elt F) → (⟨S200, .f32⟩ : BufTy).Contents (Elt F)),
    nullary main_cst_50 (constant S_ .f32 0x00000000#32),
    TRef.unary (TRef.of (T := ⟨S_, .f32⟩) main_cst_50) (TRef.of (T := ⟨S_, .f32⟩) main_call10_v0) id,
    TRef.unary (TRef.of (T := ⟨S_, .f32⟩) main_call10_v0) (TRef.of (T := ⟨S200, .f32⟩) main_call10_v1) (broadcastInDim S200 ![] bcast_S_S200),
    TRef.ternary (TRef.of (T := ⟨S200, .i1⟩) main_v231) (TRef.of (T := ⟨S200, .f32⟩) main_v232) (TRef.of (T := ⟨S200, .f32⟩) main_call10_v1) (TRef.of (T := ⟨S200, .f32⟩) main_v233) select,
    nullary main_c_51 (constantI S_ 32 0#32),
    unary main_c_51 main_v234 (broadcastInDim S3200 ![] bcast_S_S3200 : (⟨S_, .i32⟩ : BufTy).Contents (Elt F) → (⟨S3200, .i32⟩ : BufTy).Contents (Elt F)),
    binary main_v149 main_v234 main_v235 (cmpi .slt : (⟨S3200, .i32⟩ : BufTy).Contents (Elt F) → (⟨S3200, .i32⟩ : BufTy).Contents (Elt F) → (⟨S3200, .i1⟩ : BufTy).Contents (Elt F)),
    nullary main_c_52 (constantI S_ 32 200#32),
    unary main_c_52 main_v236 (broadcastInDim S3200 ![] bcast_S_S3200 : (⟨S_, .i32⟩ : BufTy).Contents (Elt F) → (⟨S3200, .i32⟩ : BufTy).Contents (Elt F)),
    binary main_v149 main_v236 main_v237 (addi : (⟨S3200, .i32⟩ : BufTy).Contents (Elt F) → (⟨S3200, .i32⟩ : BufTy).Contents (Elt F) → (⟨S3200, .i32⟩ : BufTy).Contents (Elt F)),
    ternary main_v235 main_v237 main_v149 main_v238 (select : (⟨S3200, .i1⟩ : BufTy).Contents (Elt F) → (⟨S3200, .i32⟩ : BufTy).Contents (Elt F) → (⟨S3200, .i32⟩ : BufTy).Contents (Elt F) → (⟨S3200, .i32⟩ : BufTy).Contents (Elt F)),
    unary main_v238 main_v239 (broadcastInDim S3200x1 ![0] bcast_S3200_S3200x1_0 : (⟨S3200, .i32⟩ : BufTy).Contents (Elt F) → (⟨S3200x1, .i32⟩ : BufTy).Contents (Elt F)),
    binary main_v233 main_v239 main_v240 ((fun x i => Host.gather gather_S200_S3200x1_S3200_n_0_n_n_0_1_1 x i) : (⟨S200, .f32⟩ : BufTy).Contents (Elt F) → (⟨S3200x1, .i32⟩ : BufTy).Contents (Elt F) → (⟨S3200, .f32⟩ : BufTy).Contents (Elt F)),
    binary main_v240 main_arg5 main_v241 (mulf : (⟨S3200, .f32⟩ : BufTy).Contents (Elt F) → (⟨S3200, .f32⟩ : BufTy).Contents (Elt F) → (⟨S3200, .f32⟩ : BufTy).Contents (Elt F)),
    nullary main_c_53 (constantI S_ 32 0#32),
    unary main_c_53 main_v242 (broadcastInDim S3200 ![] bcast_S_S3200 : (⟨S_, .i32⟩ : BufTy).Contents (Elt F) → (⟨S3200, .i32⟩ : BufTy).Contents (Elt F)),
    binary main_v151 main_v242 main_v243 (cmpi .slt : (⟨S3200, .i32⟩ : BufTy).Contents (Elt F) → (⟨S3200, .i32⟩ : BufTy).Contents (Elt F) → (⟨S3200, .i1⟩ : BufTy).Contents (Elt F)) ]

abbrev ops_p4 : List (HloOp τ sig (Elt F)) := ops_p4_0 ++ ops_p4_1

set_option maxRecDepth 8192 in
set_option maxHeartbeats 4000000 in
theorem main_part4_eq (c : Dev nD) : main_part4 (F := F) c = seq ops_p4 := rfl

set_option maxRecDepth 8192 in
theorem ops_p4_0_sub : (ops_p4_0 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., unary_bufs_sub .., reshape_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub ..⟩

set_option maxRecDepth 8192 in
theorem ops_p4_0_fresh : (ops_p4_0 : List (HloOp τ sig (Elt F))).Forall fun op => op.fresh = ∅ := by
  repeat' apply And.intro
  all_goals rfl

abbrev ops_p4_0_W : List (Ref sig .tc) := [main_v195, main_c_43, main_v196, main_v197, main_v198, main_v199, main_v200, main_v201, main_v202, main_cst_44, main_v203, main_v204, main_v205, main_cst_45, main_v206, main_v207, main_v208, main_v209, main_v210, main_v211, main_v212, main_v213, main_v214, main_v215, main_v216, main_v217, main_v218, main_v219, main_v220, main_v221, main_v222, main_call8_cst, main_call8_v0]

set_option maxRecDepth 8192 in
theorem ops_p4_0_writes : (ops_p4_0 : List (HloOp τ sig (Elt F))).Forall fun op => op.writes ⊆ (ops_p4_0_W.map (Proc.devRef (τ := τ) .tc)).toFinset := by
  repeat' apply And.intro
  all_goals exact writes_mem _ (by decide)

set_option maxRecDepth 8192 in
set_option maxHeartbeats 2000000 in
theorem p4_0_main_v222 (a : Args F) (V : Valuation τ sig (Elt F)) (h : Inv8 a V) :
    after ops_p4_0 V (no_index (Proc.devRef .tc main_v222)) = val_main_v222 (F := F) a.x1 a.x3 a.x5 a.x6 a.x7 := by
  simp only [ops_p4_0]
  after_results_simp
  simp only [h.h_main_arg7, h.h_main_arg6, h.h_main_arg1, h.h_main_v149, h.h_main_v194, h.h_main_v191, h.h_main_v193, h.h_main_v151] <;> rfl

set_option maxRecDepth 8192 in
set_option maxHeartbeats 2000000 in
theorem p4_0_main_call8_v0 (a : Args F) (V : Valuation τ sig (Elt F)) (h : Inv8 a V) :
    after ops_p4_0 V (no_index (Proc.devRef .tc main_call8_v0)) = val_main_call8_v0 (F := F) := by
  simp only [ops_p4_0]
  after_results_simp
  all_goals rfl

theorem step_p4_0 (a : Args F) (V : Valuation τ sig (Elt F)) (h : Inv8 a V) : Inv9 a (after ops_p4_0 V) where
  toArgsHold := h.toArgsHold.step ops_p4_0 ops_p4_0_writes (by decide)
  h_main_v147 := (after_of_writes_sub (r := main_v147) ops_p4_0 V ops_p4_0_writes (by decide)).trans h.h_main_v147
  h_main_v149 := (after_of_writes_sub (r := main_v149) ops_p4_0 V ops_p4_0_writes (by decide)).trans h.h_main_v149
  h_main_v151 := (after_of_writes_sub (r := main_v151) ops_p4_0 V ops_p4_0_writes (by decide)).trans h.h_main_v151
  h_main_v222 := p4_0_main_v222 a V h
  h_main_call8_v0 := p4_0_main_call8_v0 a V h

set_option maxRecDepth 8192 in
theorem ops_p4_1_sub : (ops_p4_1 : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub ..⟩

set_option maxRecDepth 8192 in
theorem ops_p4_1_fresh : (ops_p4_1 : List (HloOp τ sig (Elt F))).Forall fun op => op.fresh = ∅ := by
  repeat' apply And.intro
  all_goals rfl

abbrev ops_p4_1_W : List (Ref sig .tc) := [main_v223, main_cst_46, main_v224, main_v225, main_v226, main_cst_47, main_v227, main_v228, main_cst_48, main_call9_v0, main_call9_v1, main_v229, main_cst_49, main_v230, main_v231, main_v232, main_cst_50, main_call10_v0, main_call10_v1, main_v233, main_c_51, main_v234, main_v235, main_c_52, main_v236, main_v237, main_v238, main_v239, main_v240, main_v241, main_c_53, main_v242, main_v243]

set_option maxRecDepth 8192 in
theorem ops_p4_1_writes : (ops_p4_1 : List (HloOp τ sig (Elt F))).Forall fun op => op.writes ⊆ (ops_p4_1_W.map (Proc.devRef (τ := τ) .tc)).toFinset := by
  repeat' apply And.intro
  all_goals exact writes_mem _ (by decide)

set_option maxRecDepth 8192 in
set_option maxHeartbeats 2000000 in
theorem p4_1_main_v223 (a : Args F) (V : Valuation τ sig (Elt F)) (h : Inv9 a V) :
    after ops_p4_1 V (no_index (Proc.devRef .tc main_v223)) = val_main_v223 (F := F) a.x1 a.x3 a.x5 a.x6 a.x7 := by
  simp only [ops_p4_1]
  after_results_simp
  simp only [h.h_main_call8_v0, h.h_main_v222] <;> rfl

set_option maxRecDepth 8192 in
set_option maxHeartbeats 2000000 in
theorem p4_1_main_v233 (a : Args F) (V : Valuation τ sig (Elt F)) (h : Inv9 a V) :
    after ops_p4_1 V (no_index (Proc.devRef .tc main_v233)) = val_main_v233 (F := F) a.x3 a.x5 := by
  simp only [ops_p4_1]
  after_results_simp
  simp only [h.h_main_arg5, h.h_main_v149] <;> rfl

set_option maxRecDepth 8192 in
set_option maxHeartbeats 2000000 in
theorem p4_1_main_v241 (a : Args F) (V : Valuation τ sig (Elt F)) (h : Inv9 a V) :
    after ops_p4_1 V (no_index (Proc.devRef .tc main_v241)) = val_main_v241 (F := F) a.x3 a.x5 := by
  simp only [ops_p4_1]
  after_results_simp
  simp only [h.h_main_arg5, h.h_main_v149] <;> rfl

set_option maxRecDepth 8192 in
set_option maxHeartbeats 2000000 in
theorem p4_1_main_v243 (a : Args F) (V : Valuation τ sig (Elt F)) (h : Inv9 a V) :
    after ops_p4_1 V (no_index (Proc.devRef .tc main_v243)) = val_main_v243 (F := F) a.x3 := by
  simp only [ops_p4_1]
  after_results_simp
  simp only [h.h_main_v151] <;> rfl

theorem step_p4_1 (a : Args F) (V : Valuation τ sig (Elt F)) (h : Inv9 a V) : Inv10 a (after ops_p4_1 V) where
  toArgsHold := h.toArgsHold.step ops_p4_1 ops_p4_1_writes (by decide)
  h_main_v147 := (after_of_writes_sub (r := main_v147) ops_p4_1 V ops_p4_1_writes (by decide)).trans h.h_main_v147
  h_main_v149 := (after_of_writes_sub (r := main_v149) ops_p4_1 V ops_p4_1_writes (by decide)).trans h.h_main_v149
  h_main_v151 := (after_of_writes_sub (r := main_v151) ops_p4_1 V ops_p4_1_writes (by decide)).trans h.h_main_v151
  h_main_v223 := p4_1_main_v223 a V h
  h_main_v233 := p4_1_main_v233 a V h
  h_main_v241 := p4_1_main_v241 a V h
  h_main_v243 := p4_1_main_v243 a V h

theorem ops_p4_sub : (ops_p4 : List (HloOp τ sig (Elt F))).Forall fun op => op.bufs ⊆ tcRefs τ sig :=
  List.forall_iff_forall_mem.mpr fun op h => by
    simp only [ops_p4, List.mem_append] at h
    rcases h with h | h
    exacts [List.forall_iff_forall_mem.mp ops_p4_0_sub op h, List.forall_iff_forall_mem.mp ops_p4_1_sub op h]

theorem ops_p4_fresh : ∀ op ∈ (ops_p4 : List (HloOp τ sig (Elt F))), op.fresh = ∅ := fun op h => by
  simp only [ops_p4, List.mem_append] at h
  rcases h with h | h
  exacts [List.forall_iff_forall_mem.mp ops_p4_0_fresh op h, List.forall_iff_forall_mem.mp ops_p4_1_fresh op h]

theorem step_p4 (a : Args F) (V : Valuation τ sig (Elt F)) (h : Inv8 a V) : Inv10 a (after ops_p4 V) := by
  simp only [ops_p4, after_append]
  exact step_p4_1 a _ (step_p4_0 a V h)

end Cert.RefRun

end
-- ==== Proof.RefRun.P5.lean ====
import proofs.«406476_j70849780514835_3_alg».proof.Proof.RefRun.Inv

/-! Stretch 5 of the reference's operations: each buffer a later operation reads ends at its stage value of the
    arguments. -/

noncomputable section

namespace Cert.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops_p5_0 : List (HloOp τ sig (Elt F)) :=
  [ nullary main_c_54 (constantI S_ 32 200#32),
    unary main_c_54 main_v244 (broadcastInDim S3200 ![] bcast_S_S3200 : (⟨S_, .i32⟩ : BufTy).Contents (Elt F) → (⟨S3200, .i32⟩ : BufTy).Contents (Elt F)),
    binary main_v151 main_v244 main_v245 (addi : (⟨S3200, .i32⟩ : BufTy).Contents (Elt F) → (⟨S3200, .i32⟩ : BufTy).Contents (Elt F) → (⟨S3200, .i32⟩ : BufTy).Contents (Elt F)),
    ternary main_v243 main_v245 main_v151 main_v246 (select : (⟨S3200, .i1⟩ : BufTy).Contents (Elt F) → (⟨S3200, .i32⟩ : BufTy).Contents (Elt F) → (⟨S3200, .i32⟩ : BufTy).Contents (Elt F) → (⟨S3200, .i32⟩ : BufTy).Contents (Elt F)),
    unary main_v246 main_v247 (broadcastInDim S3200x1 ![0] bcast_S3200_S3200x1_0 : (⟨S3200, .i32⟩ : BufTy).Contents (Elt F) → (⟨S3200x1, .i32⟩ : BufTy).Contents (Elt F)),
    binary main_v233 main_v247 main_v248 ((fun x i => Host.gather gather_S200_S3200x1_S3200_n_0_n_n_0_1_1 x i) : (⟨S200, .f32⟩ : BufTy).Contents (Elt F) → (⟨S3200x1, .i32⟩ : BufTy).Contents (Elt F) → (⟨S3200, .f32⟩ : BufTy).Contents (Elt F)),
    binary main_v241 main_v248 main_v249 (mulf : (⟨S3200, .f32⟩ : BufTy).Contents (Elt F) → (⟨S3200, .f32⟩ : BufTy).Contents (Elt F) → (⟨S3200, .f32⟩ : BufTy).Contents (Elt F)),
    unary main_v249 main_v250 (broadcastInDim S3200x1 ![0] bcast_S3200_S3200x1_0 : (⟨S3200, .f32⟩ : BufTy).Contents (Elt F) → (⟨S3200x1, .f32⟩ : BufTy).Contents (Elt F)),
    unary main_v250 main_v251 (Host.negf : (⟨S3200x1, .f32⟩ : BufTy).Contents (Elt F) → (⟨S3200x1, .f32⟩ : BufTy).Contents (Elt F)),
    nullary main_c_55 (constantI S_ 32 0#32),
    unary main_c_55 main_v252 (broadcastInDim S3200 ![] bcast_S_S3200 : (⟨S_, .i32⟩ : BufTy).Contents (Elt F) → (⟨S3200, .i32⟩ : BufTy).Contents (Elt F)),
    binary main_v149 main_v252 main_v253 (cmpi .slt : (⟨S3200, .i32⟩ : BufTy).Contents (Elt F) → (⟨S3200, .i32⟩ : BufTy).Contents (Elt F) → (⟨S3200, .i1⟩ : BufTy).Contents (Elt F)),
    nullary main_c_56 (constantI S_ 32 200#32),
    unary main_c_56 main_v254 (broadcastInDim S3200 ![] bcast_S_S3200 : (⟨S_, .i32⟩ : BufTy).Contents (Elt F) → (⟨S3200, .i32⟩ : BufTy).Contents (Elt F)),
    binary main_v149 main_v254 main_v255 (addi : (⟨S3200, .i32⟩ : BufTy).Contents (Elt F) → (⟨S3200, .i32⟩ : BufTy).Contents (Elt F) → (⟨S3200, .i32⟩ : BufTy).Contents (Elt F)),
    ternary main_v253 main_v255 main_v149 main_v256 (select : (⟨S3200, .i1⟩ : BufTy).Contents (Elt F) → (⟨S3200, .i32⟩ : BufTy).Contents (Elt F) → (⟨S3200, .i32⟩ : BufTy).Contents (Elt F) → (⟨S3200, .i32⟩ : BufTy).Contents (Elt F)),
    unary main_v256 main_v257 (broadcastInDim S3200x1 ![0] bcast_S3200_S3200x1_0 : (⟨S3200, .i32⟩ : BufTy).Contents (Elt F) → (⟨S3200x1, .i32⟩ : BufTy).Contents (Elt F)),
    binary main_v223 main_v257 main_v258 ((fun x i => Host.gather gather_S200x4096_S3200x1_S3200x4096_1_0_n_n_0_1_14096 x i) : (⟨S200x4096, .f32⟩ : BufTy).Contents (Elt F) → (⟨S3200x1, .i32⟩ : BufTy).Contents (Elt F) → (⟨S3200x4096, .f32⟩ : BufTy).Contents (Elt F)),
    unary main_v251 main_v259 (broadcastInDim S3200x4096 ![0, 1] bcast_S3200x1_S3200x4096_0_1 : (⟨S3200x1, .f32⟩ : BufTy).Contents (Elt F) → (⟨S3200x4096, .f32⟩ : BufTy).Contents (Elt F)),
    binary main_v259 main_v258 main_v260 (mulf : (⟨S3200x4096, .f32⟩ : BufTy).Contents (Elt F) → (⟨S3200x4096, .f32⟩ : BufTy).Contents (Elt F) → (⟨S3200x4096, .f32⟩ : BufTy).Contents (Elt F)),
    nullary main_cst_57 (constant S_ .f32 0x00000000#32),
    unary main_cst_57 main_v261 (broadcastInDim S200x4096 ![] bcast_S_S200x4096 : (⟨S_, .f32⟩ : BufTy).Contents (Elt F) → (⟨S200x4096, .f32⟩ : BufTy).Contents (Elt F)),
    unary main_v151 main_v262 (broadcastInDim S3200x1 ![0] bcast_S3200_S3200x1_0 : (⟨S3200, .i32⟩ : BufTy).Contents (Elt F) → (⟨S3200x1, .i32⟩ : BufTy).Contents (Elt F)),
    ternary main_v261 main_v262 main_v260 main_v263 ((fun x i u => Host.scatterAdd scatter_S200x4096_S3200x1_S3200x4096_1_0_0_1 x i u) : (⟨S200x4096, .f32⟩ : BufTy).Contents (Elt F) → (⟨S3200x1, .i32⟩ : BufTy).Contents (Elt F) → (⟨S3200x4096, .f32⟩ : BufTy).Contents (Elt F) → (⟨S200x4096, .f32⟩ : BufTy).Contents (Elt F)),
    unary main_v249 main_v264 (broadcastInDim S3200x1 ![0] bcast_S3200_S3200x1_0 : (⟨S3200, .f32⟩ : BufTy).Contents (Elt F) → (⟨S3200x1, .f32⟩ : BufTy).Contents (Elt F)),
    unary main_v264 main_v265 (Host.negf : (⟨S3200x1, .f32⟩ : BufTy).Contents (Elt F) → (⟨S3200x1, .f32⟩ : BufTy).Contents (Elt F)),
    nullary main_c_58 (constantI S_ 32 0#32),
    unary main_c_58 main_v266 (broadcastInDim S3200 ![] bcast_S_S3200 : (⟨S_, .i32⟩ : BufTy).Contents (Elt F) → (⟨S3200, .i32⟩ : BufTy).Contents (Elt F)),
    binary main_v149 main_v266 main_v267 (cmpi .slt : (⟨S3200, .i32⟩ : BufTy).Contents (Elt F) → (⟨S3200, .i32⟩ : BufTy).Contents (Elt F) → (⟨S3200, .i1⟩ : BufTy).Contents (Elt F)),
    nullary main_c_59 (constantI S_ 32 200#32),
    unary main_c_59 main_v268 (broadcastInDim S3200 ![] bcast_S_S3200 : (⟨S_, .i32⟩ : BufTy).Contents (Elt F) → (⟨S3200, .i32⟩ : BufTy).Contents (Elt F)) ]

abbrev ops_p5_1 : List (HloOp τ sig (Elt F)) :=
  [ binary main_v149 main_v268 main_v269 (addi : (⟨S3200, .i32⟩ : BufTy).Contents (Elt F) → (⟨S3200, .i32⟩ : BufTy).Contents (Elt F) → (⟨S3200, .i32⟩ : BufTy).Contents (Elt F)),
    ternary main_v267 main_v269 main_v149 main_v270 (select : (⟨S3200, .i1⟩ : BufTy).Contents (Elt F) → (⟨S3200, .i32⟩ : BufTy).Contents (Elt F) → (⟨S3200, .i32⟩ : BufTy).Contents (Elt F) → (⟨S3200, .i32⟩ : BufTy).Contents (Elt F)),
    unary main_v270 main_v271 (broadcastInDim S3200x1 ![0] bcast_S3200_S3200x1_0 : (⟨S3200, .i32⟩ : BufTy).Contents (Elt F) → (⟨S3200x1, .i32⟩ : BufTy).Contents (Elt F)),
    binary main_v263 main_v271 main_v272 ((fun x i => Host.gather gather_S200x4096_S3200x1_S3200x4096_1_0_n_n_0_1_14096 x i) : (⟨S200x4096, .f32⟩ : BufTy).Contents (Elt F) → (⟨S3200x1, .i32⟩ : BufTy).Contents (Elt F) → (⟨S3200x4096, .f32⟩ : BufTy).Contents (Elt F)),
    unary main_v265 main_v273 (broadcastInDim S3200x4096 ![0, 1] bcast_S3200x1_S3200x4096_0_1 : (⟨S3200x1, .f32⟩ : BufTy).Contents (Elt F) → (⟨S3200x4096, .f32⟩ : BufTy).Contents (Elt F)),
    binary main_v273 main_v272 main_v274 (mulf : (⟨S3200x4096, .f32⟩ : BufTy).Contents (Elt F) → (⟨S3200x4096, .f32⟩ : BufTy).Contents (Elt F) → (⟨S3200x4096, .f32⟩ : BufTy).Contents (Elt F)),
    nullary main_cst_60 (constant S_ .f32 0x00000000#32),
    unary main_cst_60 main_v275 (broadcastInDim S200x4096 ![] bcast_S_S200x4096 : (⟨S_, .f32⟩ : BufTy).Contents (Elt F) → (⟨S200x4096, .f32⟩ : BufTy).Contents (Elt F)),
    unary main_v151 main_v276 (broadcastInDim S3200x1 ![0] bcast_S3200_S3200x1_0 : (⟨S3200, .i32⟩ : BufTy).Contents (Elt F) → (⟨S3200x1, .i32⟩ : BufTy).Contents (Elt F)),
    ternary main_v275 main_v276 main_v274 main_v277 ((fun x i u => Host.scatterAdd scatter_S200x4096_S3200x1_S3200x4096_1_0_0_1 x i u) : (⟨S200x4096, .f32⟩ : BufTy).Contents (Elt F) → (⟨S3200x1, .i32⟩ : BufTy).Contents (Elt F) → (⟨S3200x4096, .f32⟩ : BufTy).Contents (Elt F) → (⟨S200x4096, .f32⟩ : BufTy).Contents (Elt F)),
    nullary main_cst_61 (constant S_ .f32 0x40000000#32),
    unary main_cst_61 main_v278 (broadcastInDim S200x4096 ![] bcast_S_S200x4096 : (⟨S_, .f32⟩ : BufTy).Contents (Elt F) → (⟨S200x4096, .f32⟩ : BufTy).Contents (Elt F)),
    binary main_v278 main_v277 main_v279 (mulf : (⟨S200x4096, .f32⟩ : BufTy).Contents (Elt F) → (⟨S200x4096, .f32⟩ : BufTy).Contents (Elt F) → (⟨S200x4096, .f32⟩ : BufTy).Contents (Elt F)),
    binary main_v279 main_v223 main_v280 (subf : (⟨S200x4096, .f32⟩ : BufTy).Contents (Elt F) → (⟨S200x4096, .f32⟩ : BufTy).Contents (Elt F) → (⟨S200x4096, .f32⟩ : BufTy).Contents (Elt F)),
    unary main_arg8 main_v281 ((extractStridedSlice S1x4096x4096 ![0, 0, 0] · slices_S3x4096x4096_S1x4096x4096_0_0_0) : (⟨S3x4096x4096, .f32⟩ : BufTy).Contents (Elt F) → (⟨S1x4096x4096, .f32⟩ : BufTy).Contents (Elt F)),
    reshape main_v281 main_v282 rfl shapeCasts_S1x4096x4096_S4096x4096,
    binary main_v223 main_v282 main_v283 ((fun l r => Host.dotGeneral dot_S200x4096_S4096x4096_S200x4096_1_0_0_1_n_n none l r) : (⟨S200x4096, .f32⟩ : BufTy).Contents (Elt F) → (⟨S4096x4096, .f32⟩ : BufTy).Contents (Elt F) → (⟨S200x4096, .f32⟩ : BufTy).Contents (Elt F)),
    unary main_arg8 main_v284 ((extractStridedSlice S1x4096x4096 ![1, 0, 0] · slices_S3x4096x4096_S1x4096x4096_1_0_0) : (⟨S3x4096x4096, .f32⟩ : BufTy).Contents (Elt F) → (⟨S1x4096x4096, .f32⟩ : BufTy).Contents (Elt F)),
    reshape main_v284 main_v285 rfl shapeCasts_S1x4096x4096_S4096x4096,
    binary main_v263 main_v285 main_v286 ((fun l r => Host.dotGeneral dot_S200x4096_S4096x4096_S200x4096_1_0_0_1_n_n none l r) : (⟨S200x4096, .f32⟩ : BufTy).Contents (Elt F) → (⟨S4096x4096, .f32⟩ : BufTy).Contents (Elt F) → (⟨S200x4096, .f32⟩ : BufTy).Contents (Elt F)),
    binary main_v283 main_v286 main_v287 (addf : (⟨S200x4096, .f32⟩ : BufTy).Contents (Elt F) → (⟨S200x4096, .f32⟩ : BufTy).Contents (Elt F) → (⟨S200x4096, .f32⟩ : BufTy).Contents (Elt F)),
    unary main_arg8 main_v288 ((extractStridedSlice S1x4096x4096 ![2, 0, 0] · slices_S3x4096x4096_S1x4096x4096_2_0_0) : (⟨S3x4096x4096, .f32⟩ : BufTy).Contents (Elt F) → (⟨S1x4096x4096, .f32⟩ : BufTy).Contents (Elt F)),
    reshape main_v288 main_v289 rfl shapeCasts_S1x4096x4096_S4096x4096,
    binary main_v280 main_v289 main_v290 ((fun l r => Host.dotGeneral dot_S200x4096_S4096x4096_S200x4096_1_0_0_1_n_n none l r) : (⟨S200x4096, .f32⟩ : BufTy).Contents (Elt F) → (⟨S4096x4096, .f32⟩ : BufTy).Contents (Elt F) → (⟨S200x4096, .f32⟩ : BufTy).Contents (Elt F)),
    binary main_v287 main_v290 main_v291 (addf : (⟨S200x4096, .f32⟩ : BufTy).Contents (Elt F) → (⟨S200x4096, .f32⟩ : BufTy).Contents (Elt F) → (⟨S200x4096, .f32⟩ : BufTy).Contents (Elt F)),
    unary main_arg9 main_v292 (broadcastInDim S1x4096 ![1] bcast_S4096_S1x4096_1 : (⟨S4096, .f32⟩ : BufTy).Contents (Elt F) → (⟨S1x4096, .f32⟩ : BufTy).Contents (Elt F)),
    unary main_v292 main_v293 (broadcastInDim S200x4096 ![0, 1] bcast_S1x4096_S200x4096_0_1 : (⟨S1x4096, .f32⟩ : BufTy).Contents (Elt F) → (⟨S200x4096, .f32⟩ : BufTy).Contents (Elt F)),
    binary main_v291 main_v293 main_v294 (addf : (⟨S200x4096, .f32⟩ : BufTy).Contents (Elt F) → (⟨S200x4096, .f32⟩ : BufTy).Contents (Elt F) → (⟨S200x4096, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S200x4096, .f32⟩) main_call11_v0) (broadcastInDim S200x4096 ![] bcast_S_S200x4096),
    TRef.binary (TRef.of (T := ⟨S200x4096, .f32⟩) main_v294) (TRef.of (T := ⟨S200x4096, .f32⟩) main_call11_v0) (TRef.of (T := ⟨S200x4096, .f32⟩) main_v295) maximumf ]

abbrev ops_p5 : List (HloOp τ sig (Elt F)) := ops_p5_0 ++ ops_p5_1

set_option maxRecDepth 8192 in
set_option maxHeartbeats 4000000 in
theorem main_part5_eq (c : Dev nD) : main_part5 (F := F) c = seq ops_p5 := rfl

set_option maxRecDepth 8192 in
theorem ops_p5_0_sub : (ops_p5_0 : List (HloOp τ sig (Elt F))).Forall fun op => op.bufs ⊆ tcRefs τ sig :=
  ⟨nullary_bufs_sub .., unary_bufs_sub .., binary_bufs_sub .., ternary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., nullary_bufs_sub .., unary_bufs_sub .., binary_bufs_sub .., nullary_bufs_sub .., unary_bufs_sub ..⟩

set_option maxRecDepth 8192 in
theorem ops_p5_0_fresh : (ops_p5_0 : List (HloOp τ sig (Elt F))).Forall fun op => op.fresh = ∅ := by
  repeat' apply And.intro
  all_goals rfl

abbrev ops_p5_0_W : List (Ref sig .tc) := [main_c_54, main_v244, main_v245, main_v246, main_v247, main_v248, main_v249, main_v250, main_v251, main_c_55, main_v252, main_v253, main_c_56, main_v254, main_v255, main_v256, main_v257, main_v258, main_v259, main_v260, main_cst_57, main_v261, main_v262, main_v263, main_v264, main_v265, main_c_58, main_v266, main_v267, main_c_59, main_v268]

set_option maxRecDepth 8192 in
theorem ops_p5_0_writes : (ops_p5_0 : List (HloOp τ sig (Elt F))).Forall fun op => op.writes ⊆ (ops_p5_0_W.map (Proc.devRef (τ := τ) .tc)).toFinset := by
  repeat' apply And.intro
  all_goals exact writes_mem _ (by decide)

set_option maxRecDepth 8192 in
set_option maxHeartbeats 2000000 in
theorem p5_0_main_v263 (a : Args F) (V : Valuation τ sig (Elt F)) (h : Inv10 a V) :
    after ops_p5_0 V (no_index (Proc.devRef .tc main_v263)) = val_main_v263 (F := F) a.x1 a.x3 a.x5 a.x6 a.x7 := by
  simp only [ops_p5_0]
  after_results_simp
  simp only [h.h_main_v149, h.h_main_v223, h.h_main_v151, h.h_main_v243, h.h_main_v233, h.h_main_v241] <;> rfl

set_option maxRecDepth 8192 in
set_option maxHeartbeats 2000000 in
theorem p5_0_main_v265 (a : Args F) (V : Valuation τ sig (Elt F)) (h : Inv10 a V) :
    after ops_p5_0 V (no_index (Proc.devRef .tc main_v265)) = val_main_v265 (F := F) a.x3 a.x5 := by
  simp only [ops_p5_0]
  after_results_simp
  simp only [h.h_main_v151, h.h_main_v243, h.h_main_v233, h.h_main_v241] <;> rfl

set_option maxRecDepth 8192 in
set_option maxHeartbeats 2000000 in
theorem p5_0_main_v267 (a : Args F) (V : Valuation τ sig (Elt F)) (h : Inv10 a V) :
    after ops_p5_0 V (no_index (Proc.devRef .tc main_v267)) = val_main_v267 (F := F) a.x3 := by
  simp only [ops_p5_0]
  after_results_simp
  simp only [h.h_main_v149] <;> rfl

set_option maxRecDepth 8192 in
set_option maxHeartbeats 2000000 in
theorem p5_0_main_v268 (a : Args F) (V : Valuation τ sig (Elt F)) (h : Inv10 a V) :
    after ops_p5_0 V (no_index (Proc.devRef .tc main_v268)) = val_main_v268 (F := F) := by
  simp only [ops_p5_0]
  after_results_simp
  all_goals rfl

theorem step_p5_0 (a : Args F) (V : Valuation τ sig (Elt F)) (h : Inv10 a V) : Inv11 a (after ops_p5_0 V) where
  toArgsHold := h.toArgsHold.step ops_p5_0 ops_p5_0_writes (by decide)
  h_main_v147 := (after_of_writes_sub (r := main_v147) ops_p5_0 V ops_p5_0_writes (by decide)).trans h.h_main_v147
  h_main_v149 := (after_of_writes_sub (r := main_v149) ops_p5_0 V ops_p5_0_writes (by decide)).trans h.h_main_v149
  h_main_v151 := (after_of_writes_sub (r := main_v151) ops_p5_0 V ops_p5_0_writes (by decide)).trans h.h_main_v151
  h_main_v223 := (after_of_writes_sub (r := main_v223) ops_p5_0 V ops_p5_0_writes (by decide)).trans h.h_main_v223
  h_main_v263 := p5_0_main_v263 a V h
  h_main_v265 := p5_0_main_v265 a V h
  h_main_v267 := p5_0_main_v267 a V h
  h_main_v268 := p5_0_main_v268 a V h

set_option maxRecDepth 8192 in
theorem ops_p5_1_sub : (ops_p5_1 : List (HloOp τ sig (Elt F))).Forall fun op => op.bufs ⊆ tcRefs τ sig :=
  ⟨binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., unary_bufs_sub .., reshape_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub ..⟩

set_option maxRecDepth 8192 in
theorem ops_p5_1_fresh : (ops_p5_1 : List (HloOp τ sig (Elt F))).Forall fun op => op.fresh = ∅ := by
  repeat' apply And.intro
  all_goals rfl

abbrev ops_p5_1_W : List (Ref sig .tc) := [main_v269, main_v270, main_v271, main_v272, main_v273, main_v274, main_cst_60, main_v275, main_v276, main_v277, main_cst_61, main_v278, main_v279, main_v280, main_v281, main_v282, main_v283, main_v284, main_v285, main_v286, main_v287, main_v288, main_v289, main_v290, main_v291, main_v292, main_v293, main_v294, main_call11_cst, main_call11_v0, main_v295]

set_option maxRecDepth 8192 in
theorem ops_p5_1_writes : (ops_p5_1 : List (HloOp τ sig (Elt F))).Forall fun op => op.writes ⊆ (ops_p5_1_W.map (Proc.devRef (τ := τ) .tc)).toFinset := by
  repeat' apply And.intro
  all_goals exact writes_mem _ (by decide)

set_option maxRecDepth 8192 in
set_option maxHeartbeats 2000000 in
theorem p5_1_main_v295 (a : Args F) (V : Valuation τ sig (Elt F)) (h : Inv11 a V) :
    after ops_p5_1 V (no_index (Proc.devRef .tc main_v295)) = val_main_v295 (F := F) a.x1 a.x3 a.x5 a.x6 a.x7 a.x8 a.x9 := by
  simp only [ops_p5_1]
  after_results_simp
  simp only [h.h_main_arg9, h.h_main_arg8, h.h_main_v223, h.h_main_v149, h.h_main_v268, h.h_main_v267, h.h_main_v263, h.h_main_v265, h.h_main_v151] <;> rfl

theorem step_p5_1 (a : Args F) (V : Valuation τ sig (Elt F)) (h : Inv11 a V) : Inv12 a (after ops_p5_1 V) where
  toArgsHold := h.toArgsHold.step ops_p5_1 ops_p5_1_writes (by decide)
  h_main_v147 := (after_of_writes_sub (r := main_v147) ops_p5_1 V ops_p5_1_writes (by decide)).trans h.h_main_v147
  h_main_v295 := p5_1_main_v295 a V h

theorem ops_p5_sub : (ops_p5 : List (HloOp τ sig (Elt F))).Forall fun op => op.bufs ⊆ tcRefs τ sig :=
  List.forall_iff_forall_mem.mpr fun op h => by
    simp only [ops_p5, List.mem_append] at h
    rcases h with h | h
    exacts [List.forall_iff_forall_mem.mp ops_p5_0_sub op h, List.forall_iff_forall_mem.mp ops_p5_1_sub op h]

theorem ops_p5_fresh : ∀ op ∈ (ops_p5 : List (HloOp τ sig (Elt F))), op.fresh = ∅ := fun op h => by
  simp only [ops_p5, List.mem_append] at h
  rcases h with h | h
  exacts [List.forall_iff_forall_mem.mp ops_p5_0_fresh op h, List.forall_iff_forall_mem.mp ops_p5_1_fresh op h]

theorem step_p5 (a : Args F) (V : Valuation τ sig (Elt F)) (h : Inv10 a V) : Inv12 a (after ops_p5 V) := by
  simp only [ops_p5, after_append]
  exact step_p5_1 a _ (step_p5_0 a V h)

end Cert.RefRun

end
-- ==== Proof.RefRun.P6.lean ====
import proofs.«406476_j70849780514835_3_alg».proof.Proof.RefRun.Inv

/-! Stretch 6 of the reference's operations: each buffer a later operation reads ends at its stage value of the
    arguments. -/

noncomputable section

namespace Cert.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops_p6_0 : List (HloOp τ sig (Elt F)) :=
  [ binary main_v147 main_v295 main_v296 (mulf : (⟨S200x4096, .f32⟩ : BufTy).Contents (Elt F) → (⟨S200x4096, .f32⟩ : BufTy).Contents (Elt F) → (⟨S200x4096, .f32⟩ : BufTy).Contents (Elt F)),
    unary main_v296 main_v297 ((transpose S4096x200 [1, 0] · transposes_S200x4096_S4096x200_1_0) : (⟨S200x4096, .f32⟩ : BufTy).Contents (Elt F) → (⟨S4096x200, .f32⟩ : BufTy).Contents (Elt F)),
    binary main_v297 main_arg10 main_v298 ((fun l r => Host.dotGeneral dot_S4096x200_S200x100_S4096x100_1_0_0_1_n_n none l r) : (⟨S4096x200, .f32⟩ : BufTy).Contents (Elt F) → (⟨S200x100, .f32⟩ : BufTy).Contents (Elt F) → (⟨S4096x100, .f32⟩ : BufTy).Contents (Elt F)),
    unary main_arg11 main_v299 (broadcastInDim S1x100 ![1] bcast_S100_S1x100_1 : (⟨S100, .f32⟩ : BufTy).Contents (Elt F) → (⟨S1x100, .f32⟩ : BufTy).Contents (Elt F)),
    unary main_v299 main_v300 (broadcastInDim S4096x100 ![0, 1] bcast_S1x100_S4096x100_0_1 : (⟨S1x100, .f32⟩ : BufTy).Contents (Elt F) → (⟨S4096x100, .f32⟩ : BufTy).Contents (Elt F)),
    binary main_v298 main_v300 main_v301 (addf : (⟨S4096x100, .f32⟩ : BufTy).Contents (Elt F) → (⟨S4096x100, .f32⟩ : BufTy).Contents (Elt F) → (⟨S4096x100, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S4096x100, .f32⟩) main_call12_v0) (broadcastInDim S4096x100 ![] bcast_S_S4096x100),
    TRef.binary (TRef.of (T := ⟨S4096x100, .f32⟩) main_v301) (TRef.of (T := ⟨S4096x100, .f32⟩) main_call12_v0) (TRef.of (T := ⟨S4096x100, .f32⟩) main_v302) maximumf,
    binary main_v302 main_arg12 main_v303 ((fun l r => Host.dotGeneral dot_S4096x100_S100x1_S4096x1_1_0_0_1_n_n none l r) : (⟨S4096x100, .f32⟩ : BufTy).Contents (Elt F) → (⟨S100x1, .f32⟩ : BufTy).Contents (Elt F) → (⟨S4096x1, .f32⟩ : BufTy).Contents (Elt F)),
    unary main_arg13 main_v304 (broadcastInDim S1x1 ![1] bcast_S1_S1x1_1 : (⟨S1, .f32⟩ : BufTy).Contents (Elt F) → (⟨S1x1, .f32⟩ : BufTy).Contents (Elt F)),
    unary main_v304 main_v305 (broadcastInDim S4096x1 ![0, 1] bcast_S1x1_S4096x1_0_1 : (⟨S1x1, .f32⟩ : BufTy).Contents (Elt F) → (⟨S4096x1, .f32⟩ : BufTy).Contents (Elt F)),
    binary main_v303 main_v305 main_v306 (addf : (⟨S4096x1, .f32⟩ : BufTy).Contents (Elt F) → (⟨S4096x1, .f32⟩ : BufTy).Contents (Elt F) → (⟨S4096x1, .f32⟩ : BufTy).Contents (Elt F)) ]

abbrev ops_p6 : List (HloOp τ sig (Elt F)) := ops_p6_0

set_option maxRecDepth 8192 in
set_option maxHeartbeats 4000000 in
theorem main_part6_eq (c : Dev nD) : main_part6 (F := F) c = seq ops_p6 := rfl

set_option maxRecDepth 8192 in
theorem ops_p6_0_sub : (ops_p6_0 : List (HloOp τ sig (Elt F))).Forall fun op => op.bufs ⊆ tcRefs τ sig :=
  ⟨binary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in
theorem ops_p6_0_fresh : (ops_p6_0 : List (HloOp τ sig (Elt F))).Forall fun op => op.fresh = ∅ := by
  repeat' apply And.intro
  all_goals rfl

abbrev ops_p6_0_W : List (Ref sig .tc) := [main_v296, main_v297, main_v298, main_v299, main_v300, main_v301, main_call12_cst, main_call12_v0, main_v302, main_v303, main_v304, main_v305, main_v306]

set_option maxRecDepth 8192 in
theorem ops_p6_0_writes : (ops_p6_0 : List (HloOp τ sig (Elt F))).Forall fun op => op.writes ⊆ (ops_p6_0_W.map (Proc.devRef (τ := τ) .tc)).toFinset := by
  repeat' apply And.intro
  all_goals exact writes_mem _ (by decide)

set_option maxRecDepth 8192 in
set_option maxHeartbeats 2000000 in
theorem p6_0_main_v306 (a : Args F) (V : Valuation τ sig (Elt F)) (h : Inv12 a V) :
    after ops_p6_0 V (no_index (Proc.devRef .tc main_v306)) = val_main_v306 (F := F) a.x0 a.x1 a.x2 a.x3 a.x4 a.x5 a.x6 a.x7 a.x8 a.x9 a.x10 a.x11 a.x12 a.x13 := by
  simp only [ops_p6_0]
  after_results_simp
  simp only [h.h_main_arg13, h.h_main_arg12, h.h_main_arg11, h.h_main_arg10, h.h_main_v295, h.h_main_v147] <;> rfl

theorem step_p6_0 (a : Args F) (V : Valuation τ sig (Elt F)) (h : Inv12 a V) : Inv13 a (after ops_p6_0 V) where
  toArgsHold := h.toArgsHold.step ops_p6_0 ops_p6_0_writes (by decide)
  h_main_v306 := p6_0_main_v306 a V h

theorem ops_p6_sub : (ops_p6 : List (HloOp τ sig (Elt F))).Forall fun op => op.bufs ⊆ tcRefs τ sig :=
  ops_p6_0_sub

theorem ops_p6_fresh : ∀ op ∈ (ops_p6 : List (HloOp τ sig (Elt F))), op.fresh = ∅ := fun op h => by
  exact List.forall_iff_forall_mem.mp ops_p6_0_fresh op h

theorem step_p6 (a : Args F) (V : Valuation τ sig (Elt F)) (h : Inv12 a V) : Inv13 a (after ops_p6 V) := by
  exact step_p6_0 a V h

end Cert.RefRun

end
-- ==== Proof.RefRun.lean ====
import proofs.«406476_j70849780514835_3_alg».proof.Proof.RefRun.P0
import proofs.«406476_j70849780514835_3_alg».proof.Proof.RefRun.P1
import proofs.«406476_j70849780514835_3_alg».proof.Proof.RefRun.P2
import proofs.«406476_j70849780514835_3_alg».proof.Proof.RefRun.P3
import proofs.«406476_j70849780514835_3_alg».proof.Proof.RefRun.P4
import proofs.«406476_j70849780514835_3_alg».proof.Proof.RefRun.P5
import proofs.«406476_j70849780514835_3_alg».proof.Proof.RefRun.P6

/-! The reference's @main as one list of 397 operations, and its run: the result is its stage value of the
    arguments, which are left unchanged. -/

noncomputable section

namespace Cert.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops : List (HloOp τ sig (Elt F)) :=
  ops_p0 ++ (ops_p1 ++ (ops_p2 ++ (ops_p3 ++ (ops_p4 ++ (ops_p5 ++ (ops_p6))))))

set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl

theorem scopedRefs_eq : (Finset.univ.filter fun b : Ref sig .tc => b.isScoped) = ∅ := by decide

theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h =>
    (List.mem_append.mp h).elim (List.forall_iff_forall_mem.mp ops_p0_sub op) fun h =>
    (List.mem_append.mp h).elim (List.forall_iff_forall_mem.mp ops_p1_sub op) fun h =>
    (List.mem_append.mp h).elim (List.forall_iff_forall_mem.mp ops_p2_sub op) fun h =>
    (List.mem_append.mp h).elim (List.forall_iff_forall_mem.mp ops_p3_sub op) fun h =>
    (List.mem_append.mp h).elim (List.forall_iff_forall_mem.mp ops_p4_sub op) fun h =>
    (List.mem_append.mp h).elim (List.forall_iff_forall_mem.mp ops_p5_sub op) (List.forall_iff_forall_mem.mp ops_p6_sub op)

theorem ops_fresh : ∀ op ∈ (ops : List (HloOp τ sig (Elt F))), op.fresh = ∅ := fun op h =>
    (List.mem_append.mp h).elim (ops_p0_fresh op) fun h =>
    (List.mem_append.mp h).elim (ops_p1_fresh op) fun h =>
    (List.mem_append.mp h).elim (ops_p2_fresh op) fun h =>
    (List.mem_append.mp h).elim (ops_p3_fresh op) fun h =>
    (List.mem_append.mp h).elim (ops_p4_fresh op) fun h =>
    (List.mem_append.mp h).elim (ops_p5_fresh op) (ops_p6_fresh op)

theorem after_ops (a : Args F) (V : Valuation τ sig (Elt F)) (h : ArgsHold a V) : Inv13 a (after ops V) := by
  simp only [ops, after_append]
  exact step_p6 a _ (step_p5 a _ (step_p4 a _ (step_p3 a _ (step_p2 a _ (step_p1 a _ (step_p0 a V h))))))

/-- Every fair execution of the reference ends with the result buffer at its stage value of the launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v306) = val_main_v306 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
      have I := after_ops (F := F) ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13)⟩ (launchContents m c)
        ⟨rfl, rfl, rfl, rfl, rfl, rfl, rfl, rfl, rfl, rfl, rfl, rfl, rfl, rfl⟩
      ⟨(h c main_v306).trans I.h_main_v306,
       (h c main_arg0).trans I.h_main_arg0,
       (h c main_arg1).trans I.h_main_arg1,
       (h c main_arg2).trans I.h_main_arg2,
       (h c main_arg3).trans I.h_main_arg3,
       (h c main_arg4).trans I.h_main_arg4,
       (h c main_arg5).trans I.h_main_arg5,
       (h c main_arg6).trans I.h_main_arg6,
       (h c main_arg7).trans I.h_main_arg7,
       (h c main_arg8).trans I.h_main_arg8,
       (h c main_arg9).trans I.h_main_arg9,
       (h c main_arg10).trans I.h_main_arg10,
       (h c main_arg11).trans I.h_main_arg11,
       (h c main_arg12).trans I.h_main_arg12,
       (h c main_arg13).trans I.h_main_arg13⟩)
    (run_seq scopedRefs_eq scopedSems_eq defs main (fun _ => ops) main_eq (fun _ => ops_sub) m ρ (fun _ => ops_fresh))
end Cert.RefRun
end
-- ==== Proof.KV.HostDefs.lean ====
import proofs.«406476_j70849780514835_3_alg».proof.Proof.Gen.KernelIdeal

/-! From an edge list (2 × 3200 node words) and 3200 weights to the dense 200 × 200 operator, stage by stage. -/

noncomputable section

namespace Cert.KernelIdeal.Val

open Idealize.ShloMosaic
open Cert.KernelIdeal.Facts₀

variable {F : FTy → Type} [FloatOps F]

def kSrc (ei : IVec S2x3200 32) : IVec S3200 32 :=
  shapeCast S3200 (extractStridedSlice S1x3200 ![0, 0] ei slices_S2x3200_S1x3200_0_0) shapeCasts_S1x3200_S3200

def kDst (ei : IVec S2x3200 32) : IVec S3200 32 :=
  shapeCast S3200 (extractStridedSlice S1x3200 ![1, 0] ei slices_S2x3200_S1x3200_1_0) shapeCasts_S1x3200_S3200

def kDeg (ei : IVec S2x3200 32) (ew : FVec F S3200 .f32) : FVec F S200 .f32 :=
  Host.scatterAdd scatter_S200_S3200x1_S3200_n_0_0_1
    (broadcastInDim S200 ![] bcast_S_S200 (constant S_ .f32 0x00000000#32))
    (broadcastInDim S3200x1 ![0] bcast_S3200_S3200x1_0 (kSrc ei)) ew

def kPos (ei : IVec S2x3200 32) (ew : FVec F S3200 .f32) : IVec S200 1 :=
  cmpf .ogt (kDeg ei ew) (broadcastInDim S200 ![] bcast_S_S200 (constant S_ .f32 0x00000000#32))

def kDegSafe (ei : IVec S2x3200 32) (ew : FVec F S3200 .f32) : FVec F S200 .f32 :=
  select (kPos ei ew) (kDeg ei ew) (broadcastInDim S200 ![] bcast_S_S200 (id (constant S_ .f32 0x3F800000#32)))

def kDinv (ei : IVec S2x3200 32) (ew : FVec F S3200 .f32) : FVec F S200 .f32 :=
  select (kPos ei ew) (Host.rsqrt (kDegSafe ei ew)) (broadcastInDim S200 ![] bcast_S_S200 (id (constant S_ .f32 0x00000000#32)))

def kNorm (x : IVec S3200 32) : IVec S3200 32 :=
  select (cmpi .slt x (broadcastInDim S3200 ![] bcast_S_S3200 (constantI S_ 32 0#32)))
    (addi x (broadcastInDim S3200 ![] bcast_S_S3200 (constantI S_ 32 200#32))) x

def kCol (x : IVec S3200 32) : IVec S3200x1 32 := broadcastInDim S3200x1 ![0] bcast_S3200_S3200x1_0 x

def kNwOf (src dst : IVec S3200 32) (dinv : FVec F S200 .f32) (ew : FVec F S3200 .f32) : FVec F S3200 .f32 :=
  mulf (mulf (Host.gather gather_S200_S3200x1_S3200_n_0_n_n_0_1_1 dinv (kCol (kNorm src))) ew)
    (Host.gather gather_S200_S3200x1_S3200_n_0_n_n_0_1_1 dinv (kCol (kNorm dst)))

def kPairsOf (src dst : IVec S3200 32) : IVec S3200x2 32 :=
  concatenate S3200x2 1 [⟨S3200x1, kCol (kNorm dst)⟩, ⟨S3200x1, kCol (kNorm src)⟩]
    concatenates_S3200x1_S3200x1_S3200x2_d1

def kLhatOf (src dst : IVec S3200 32) (dinv : FVec F S200 .f32) (ew : FVec F S3200 .f32) : FVec F S200x200 .f32 :=
  Host.scatterAdd scatter_S200x200_S3200x2_S3200_n_01_01_1
    (broadcastInDim S200x200 ![] bcast_S_S200x200 (constant S_ .f32 0x00000000#32))
    (kPairsOf src dst) (Host.negf (kNwOf src dst dinv ew))

def kNw (ei : IVec S2x3200 32) (ew : FVec F S3200 .f32) : FVec F S3200 .f32 :=
  kNwOf (kSrc ei) (kDst ei) (kDinv ei ew) ew

def kLhat (ei : IVec S2x3200 32) (ew : FVec F S3200 .f32) : FVec F S200x200 .f32 :=
  kLhatOf (kSrc ei) (kDst ei) (kDinv ei ew) ew

def kT1 (L : FVec F S200x200 .f32) (x : FVec F S200x8192 .f32) : FVec F S200x8192 .f32 :=
  Host.dotGeneral dot_S200x200_S200x8192_S200x8192_1_0_0_1_n_n (some .fp32) L x

def kT2 (L : FVec F S200x200 .f32) (x : FVec F S200x8192 .f32) : FVec F S200x8192 .f32 :=
  subf (mulf (broadcastInDim S200x8192 ![] bcast_S_S200x8192 (constant S_ .f32 0x40000000#32)) (kT1 L (kT1 L x))) x

def kStack1 (L : FVec F S200x200 .f32) (x : FVec F S200x8192 .f32) : FVec F S200x24576 .bf16 :=
  concatenate S200x24576 1
    [⟨S200x8192, truncf .bf16 x bitsLt_bf16_f32⟩, ⟨S200x8192, truncf .bf16 (kT1 L x) bitsLt_bf16_f32⟩,
     ⟨S200x8192, truncf .bf16 (kT2 L x) bitsLt_bf16_f32⟩]
    concatenates_S200x8192_S200x8192_S200x8192_S200x24576_d1

def kTcat1 (L1 L2 : FVec F S200x200 .f32) (x1 x2 : FVec F S200x8192 .f32) : FVec F S400x24576 .bf16 :=
  concatenate S400x24576 0 [⟨S200x24576, kStack1 L1 x1⟩, ⟨S200x24576, kStack1 L2 x2⟩]
    concatenates_S200x24576_S200x24576_S400x24576_d0

def kW1 (w : FVec F S3x8192x4096 .f32) : FVec F S24576x4096 .f32 :=
  shapeCast S24576x4096 w shapeCasts_S3x8192x4096_S24576x4096

def kBias (b : FVec F S4096 .f32) : FVec F S1x4096 .f32 := shapeCast S1x4096 b shapeCasts_S4096_S1x4096

def kRows0 (h : FVec F S400x4096 .f32) : FVec F S200x4096 .f32 :=
  extractStridedSlice S200x4096 ![0, 0] h slices_S400x4096_S200x4096_0_0

def kRows1 (h : FVec F S400x4096 .f32) : FVec F S200x4096 .f32 :=
  extractStridedSlice S200x4096 ![200, 0] h slices_S400x4096_S200x4096_200_0

def kU1 (L : FVec F S200x200 .f32) (x : FVec F S200x4096 .f32) : FVec F S200x4096 .f32 :=
  Host.dotGeneral dot_S200x200_S200x4096_S200x4096_1_0_0_1_n_n (some .fp32) L x

def kU2 (L : FVec F S200x200 .f32) (x : FVec F S200x4096 .f32) : FVec F S200x4096 .f32 :=
  subf (mulf (broadcastInDim S200x4096 ![] bcast_S_S200x4096 (constant S_ .f32 0x40000000#32)) (kU1 L (kU1 L x))) x

def kStack2 (L : FVec F S200x200 .f32) (x : FVec F S200x4096 .f32) : FVec F S200x12288 .bf16 :=
  concatenate S200x12288 1
    [⟨S200x4096, truncf .bf16 x bitsLt_bf16_f32⟩, ⟨S200x4096, truncf .bf16 (kU1 L x) bitsLt_bf16_f32⟩,
     ⟨S200x4096, truncf .bf16 (kU2 L x) bitsLt_bf16_f32⟩]
    concatenates_S200x4096_S200x4096_S200x4096_S200x12288_d1

def kTcat2 (L1 L2 : FVec F S200x200 .f32) (h : FVec F S400x4096 .f32) : FVec F S400x12288 .bf16 :=
  concatenate S400x12288 0 [⟨S200x12288, kStack2 L1 (kRows0 h)⟩, ⟨S200x12288, kStack2 L2 (kRows1 h)⟩]
    concatenates_S200x12288_S200x12288_S400x12288_d0

def kW2 (w : FVec F S3x4096x4096 .f32) : FVec F S12288x4096 .f32 :=
  shapeCast S12288x4096 w shapeCasts_S3x4096x4096_S12288x4096

def kHead1 (p : FVec F S200x4096 .f32) (w1 : FVec F S200x100 .f32) (b1 : FVec F S100 .f32) : FVec F S4096x100 .f32 :=
  addf (Host.dotGeneral dot_S4096x200_S200x100_S4096x100_1_0_0_1_n_n none
      (transpose S4096x200 [1, 0] p transposes_S200x4096_S4096x200_1_0) w1)
    (broadcastInDim S4096x100 ![0, 1] bcast_S1x100_S4096x100_0_1 (broadcastInDim S1x100 ![1] bcast_S100_S1x100_1 b1))

def kRelu (z : FVec F S4096x100 .f32) : FVec F S4096x100 .f32 :=
  maximumf z (broadcastInDim S4096x100 ![] bcast_S_S4096x100 (constant S_ .f32 0x00000000#32))

def kHead2 (z : FVec F S4096x100 .f32) (w2 : FVec F S100x1 .f32) (b2 : FVec F S1 .f32) : FVec F S4096x1 .f32 :=
  addf (Host.dotGeneral dot_S4096x100_S100x1_S4096x1_1_0_0_1_n_n none z w2)
    (broadcastInDim S4096x1 ![0, 1] bcast_S1x1_S4096x1_0_1 (broadcastInDim S1x1 ![1] bcast_S1_S1x1_1 b2))

def kTail (p : FVec F S200x4096 .f32) (w1 : FVec F S200x100 .f32) (b1 : FVec F S100 .f32) (w2 : FVec F S100x1 .f32)
    (b2 : FVec F S1 .f32) : FVec F S4096x1 .f32 :=
  kHead2 (kRelu (kHead1 p w1 b1)) w2 b2

end Cert.KernelIdeal.Val
-- ==== Proof.KV.Host.lean ====
import proofs.«406476_j70849780514835_3_alg».proof.Proof.Gen.KernelIdeal.Regions
import Idealize.ShloMosaic.Lib.Pipeline.Value
import Idealize.ShloMosaic.Lib.ValueIdx
import Idealize.ShloMosaic.Lib.ValueLayout
import proofs.«406476_j70849780514835_3_alg».proof.Proof.KV.HostDefs

/-! Every array the two blocked products and the result depend on, as a composition of the stage functions applied
    to the arguments. -/

set_option maxRecDepth 16384

noncomputable section

namespace Cert.KernelIdeal.Val

open Idealize.ShloMosaic Idealize.ShloMosaic.TcCoe
open Idealize.SL.Sem
open Cert.KernelIdeal.Facts₀

variable {F : FTy → Type} [FloatOps F]

theorem nary3_result {x a b y : Ref sig .tc}
    (f : ((k : Fin 3) → ((![x, a, b] : Fin 3 → Ref sig .tc) k).ty.Contents (Elt F)) → y.ty.Contents (Elt F)) (hxs hy)
    (V : Valuation τ sig (Elt F)) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

theorem nary3_result' {x a b y : Ref sig .tc}
    (f : ((k : Fin 3) → ((![x, a, b] : Fin 3 → Ref sig .tc) k).ty.Contents (Elt F)) → y.ty.Contents (Elt F)) (hxs hy)
    (V : Valuation τ sig (Elt F)) :
    (StableHlo.nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

open Idealize.ShloMosaic.StableHlo in

macro "stretch_results" : tactic =>
  `(tactic| (simp (disch := decide) only [after_cons, after_nil, nary3_result',
      nullary_result', unary_result', binary_result', ternary_result', quaternary_result', reshape_result',
      nullary_result_ne', unary_result_ne', binary_result_ne', ternary_result_ne', quaternary_result_ne', reshape_result_ne',
      nary_result_ne']))

section Stretches

variable (W : Valuation τ sig (Elt F))

theorem s0_v1 : StableHlo.after Gen.hostOps0 W (Proc.devRef .tc main_v1) = kSrc (W (Proc.devRef .tc main_arg2)) := by stretch_results; rfl

theorem s0_v3 : StableHlo.after Gen.hostOps0 W (Proc.devRef .tc main_v3) = kDst (W (Proc.devRef .tc main_arg2)) := by stretch_results; rfl

theorem s0_v6 : StableHlo.after Gen.hostOps0 W (Proc.devRef .tc main_v6) = kDeg (W (Proc.devRef .tc main_arg2)) (W (Proc.devRef .tc main_arg4)) := by stretch_results; rfl

theorem s0_v8 : StableHlo.after Gen.hostOps0 W (Proc.devRef .tc main_v8) = kPos (W (Proc.devRef .tc main_arg2)) (W (Proc.devRef .tc main_arg4)) := by stretch_results; rfl

theorem s0_cst1 : StableHlo.after Gen.hostOps0 W (Proc.devRef .tc main_cst_1) = constant S_ .f32 0x3F800000#32 := by stretch_results

theorem s1_v9 : StableHlo.after Gen.hostOps0_1 W (Proc.devRef .tc main_v9)
    = select (W (Proc.devRef .tc main_v8)) (W (Proc.devRef .tc main_v6)) (broadcastInDim S200 ![] bcast_S_S200 (id (W (Proc.devRef .tc main_cst_1)))) := by
  stretch_results; rfl

theorem s2_v11 : StableHlo.after Gen.hostOps0_2 W (Proc.devRef .tc main_v11) = cmpf .ogt (W (Proc.devRef .tc main_v6)) (broadcastInDim S200 ![] bcast_S_S200 (constant S_ .f32 0x00000000#32)) := by stretch_results

theorem s2_v12 : StableHlo.after Gen.hostOps0_2 W (Proc.devRef .tc main_v12) = Host.rsqrt (W (Proc.devRef .tc main_v9)) := by stretch_results

theorem s2_cst3 : StableHlo.after Gen.hostOps0_2 W (Proc.devRef .tc main_cst_3) = constant S_ .f32 0x00000000#32 := by stretch_results

theorem s3_v13 : StableHlo.after Gen.hostOps0_3 W (Proc.devRef .tc main_v13)
    = select (W (Proc.devRef .tc main_v11)) (W (Proc.devRef .tc main_v12)) (broadcastInDim S200 ![] bcast_S_S200 (id (W (Proc.devRef .tc main_cst_3)))) := by
  stretch_results; rfl

set_option maxHeartbeats 1000000 in
theorem s4_v45 : StableHlo.after Gen.hostOps0_4 W (Proc.devRef .tc main_v45)
    = kLhatOf (W (Proc.devRef .tc main_v1)) (W (Proc.devRef .tc main_v3)) (W (Proc.devRef .tc main_v13)) (W (Proc.devRef .tc main_arg4)) := by
  stretch_results; rfl

set_option maxHeartbeats 1000000 in
theorem s4_v47 : StableHlo.after Gen.hostOps0_4 W (Proc.devRef .tc main_v47) = kSrc (W (Proc.devRef .tc main_arg3)) := by stretch_results; rfl

set_option maxHeartbeats 1000000 in
theorem s4_v49 : StableHlo.after Gen.hostOps0_4 W (Proc.devRef .tc main_v49) = kDst (W (Proc.devRef .tc main_arg3)) := by stretch_results; rfl

set_option maxHeartbeats 1000000 in
theorem s4_v52 : StableHlo.after Gen.hostOps0_4 W (Proc.devRef .tc main_v52) = kDeg (W (Proc.devRef .tc main_arg3)) (W (Proc.devRef .tc main_arg5)) := by stretch_results; rfl

set_option maxHeartbeats 1000000 in
theorem s4_v54 : StableHlo.after Gen.hostOps0_4 W (Proc.devRef .tc main_v54) = kPos (W (Proc.devRef .tc main_arg3)) (W (Proc.devRef .tc main_arg5)) := by stretch_results; rfl

set_option maxHeartbeats 1000000 in
theorem s4_cst14 : StableHlo.after Gen.hostOps0_4 W (Proc.devRef .tc main_cst_14) = constant S_ .f32 0x3F800000#32 := by stretch_results

theorem s5_v55 : StableHlo.after Gen.hostOps0_5 W (Proc.devRef .tc main_v55)
    = select (W (Proc.devRef .tc main_v54)) (W (Proc.devRef .tc main_v52)) (broadcastInDim S200 ![] bcast_S_S200 (id (W (Proc.devRef .tc main_cst_14)))) := by
  stretch_results; rfl

theorem s6_v57 : StableHlo.after Gen.hostOps0_6 W (Proc.devRef .tc main_v57) = cmpf .ogt (W (Proc.devRef .tc main_v52)) (broadcastInDim S200 ![] bcast_S_S200 (constant S_ .f32 0x00000000#32)) := by stretch_results

theorem s6_v58 : StableHlo.after Gen.hostOps0_6 W (Proc.devRef .tc main_v58) = Host.rsqrt (W (Proc.devRef .tc main_v55)) := by stretch_results

theorem s6_cst16 : StableHlo.after Gen.hostOps0_6 W (Proc.devRef .tc main_cst_16) = constant S_ .f32 0x00000000#32 := by stretch_results

theorem s7_v59 : StableHlo.after Gen.hostOps0_7 W (Proc.devRef .tc main_v59)
    = select (W (Proc.devRef .tc main_v57)) (W (Proc.devRef .tc main_v58)) (broadcastInDim S200 ![] bcast_S_S200 (id (W (Proc.devRef .tc main_cst_16)))) := by
  stretch_results; rfl

set_option maxHeartbeats 1000000 in
theorem s8_v91 : StableHlo.after Gen.hostOps0_8 W (Proc.devRef .tc main_v91)
    = kLhatOf (W (Proc.devRef .tc main_v47)) (W (Proc.devRef .tc main_v49)) (W (Proc.devRef .tc main_v59)) (W (Proc.devRef .tc main_arg5)) := by
  stretch_results; rfl

end Stretches

section Stretches2

variable (W : Valuation τ sig (Elt F))

set_option maxHeartbeats 2000000 in
theorem s8_v110 : StableHlo.after Gen.hostOps0_8 W (Proc.devRef .tc main_v110)
    = kTcat1 (W (Proc.devRef .tc main_v45)) (StableHlo.after Gen.hostOps0_8 W (Proc.devRef .tc main_v91)) (W (Proc.devRef .tc main_arg0)) (W (Proc.devRef .tc main_arg1)) := by
  stretch_results; rfl

set_option maxHeartbeats 1000000 in
theorem s8_v111 : StableHlo.after Gen.hostOps0_8 W (Proc.devRef .tc main_v111) = kW1 (W (Proc.devRef .tc main_arg6)) := by stretch_results; rfl

set_option maxHeartbeats 1000000 in
theorem s8_v112 : StableHlo.after Gen.hostOps0_8 W (Proc.devRef .tc main_v112) = kBias (W (Proc.devRef .tc main_arg7)) := by stretch_results; rfl

set_option maxHeartbeats 1000000 in
theorem s10_v134 : StableHlo.after Gen.hostOps1 W (Proc.devRef .tc main_v134)
    = kTcat2 (W (Proc.devRef .tc main_v45)) (W (Proc.devRef .tc main_v91)) (W (Proc.devRef .tc main_v113)) := by
  stretch_results; rfl

theorem s10_v135 : StableHlo.after Gen.hostOps1 W (Proc.devRef .tc main_v135) = kW2 (W (Proc.devRef .tc main_arg8)) := by stretch_results; rfl

theorem s10_v136 : StableHlo.after Gen.hostOps1 W (Proc.devRef .tc main_v136) = kBias (W (Proc.devRef .tc main_arg9)) := by stretch_results; rfl

theorem s12_v142 : StableHlo.after Gen.hostOps2 W (Proc.devRef .tc main_v142)
    = kHead1 (W (Proc.devRef .tc main_v137)) (W (Proc.devRef .tc main_arg10)) (W (Proc.devRef .tc main_arg11)) := by
  stretch_results; rfl

theorem s13_v143 : StableHlo.after Gen.hostOps2_1 W (Proc.devRef .tc main_v143) = kRelu (W (Proc.devRef .tc main_v142)) := by
  stretch_results; rfl

theorem s14_v147 : StableHlo.after Gen.hostOps2_2 W (Proc.devRef .tc main_v147)
    = kHead2 (W (Proc.devRef .tc main_v143)) (W (Proc.devRef .tc main_arg12)) (W (Proc.devRef .tc main_arg13)) := by
  stretch_results; rfl

end Stretches2

section Chain

variable (m : (ℓ : Loc nD τ sig) → Buf (Elt F) ℓ) (outs : Gen.Outs (F := F))

theorem V1_v1 (c : Dev nD) : Gen.V1 m c main_v1 = kSrc (m ((c.tc : Thread nD τ).loc main_arg2)) := s0_v1 (Gen.V0 m c)

theorem V1_v3 (c : Dev nD) : Gen.V1 m c main_v3 = kDst (m ((c.tc : Thread nD τ).loc main_arg2)) := s0_v3 (Gen.V0 m c)

theorem V1_v6 (c : Dev nD) : Gen.V1 m c main_v6 = kDeg (m ((c.tc : Thread nD τ).loc main_arg2)) (m ((c.tc : Thread nD τ).loc main_arg4)) := s0_v6 (Gen.V0 m c)

theorem V1_v8 (c : Dev nD) : Gen.V1 m c main_v8 = kPos (m ((c.tc : Thread nD τ).loc main_arg2)) (m ((c.tc : Thread nD τ).loc main_arg4)) := s0_v8 (Gen.V0 m c)

theorem V1_cst1 (c : Dev nD) : Gen.V1 m c main_cst_1 = constant S_ .f32 0x3F800000#32 := s0_cst1 (Gen.V0 m c)

theorem V2_v9 (c : Dev nD) : Gen.V2 m c main_v9 = kDegSafe (m ((c.tc : Thread nD τ).loc main_arg2)) (m ((c.tc : Thread nD τ).loc main_arg4)) := by
  refine (s1_v9 (Gen.V1 m c)).trans ?_
  rewrite [V1_v8 m c, V1_v6 m c, V1_cst1 m c]; rfl

theorem V2_v6 (c : Dev nD) : Gen.V2 m c main_v6 = kDeg (m ((c.tc : Thread nD τ).loc main_arg2)) (m ((c.tc : Thread nD τ).loc main_arg4)) := by
  rewrite [Gen.V2_of m c main_v6 (by decide)]; exact V1_v6 m c

theorem V3_v11 (c : Dev nD) : Gen.V3 m c main_v11 = kPos (m ((c.tc : Thread nD τ).loc main_arg2)) (m ((c.tc : Thread nD τ).loc main_arg4)) := by
  refine (s2_v11 (Gen.V2 m c)).trans ?_
  rewrite [V2_v6 m c]; rfl

theorem V3_v12 (c : Dev nD) : Gen.V3 m c main_v12 = Host.rsqrt (kDegSafe (m ((c.tc : Thread nD τ).loc main_arg2)) (m ((c.tc : Thread nD τ).loc main_arg4))) := by
  refine (s2_v12 (Gen.V2 m c)).trans ?_
  rewrite [V2_v9 m c]; rfl

theorem V3_cst3 (c : Dev nD) : Gen.V3 m c main_cst_3 = constant S_ .f32 0x00000000#32 := s2_cst3 (Gen.V2 m c)

theorem V4_v13 (c : Dev nD) : Gen.V4 m c main_v13 = kDinv (m ((c.tc : Thread nD τ).loc main_arg2)) (m ((c.tc : Thread nD τ).loc main_arg4)) := by
  refine (s3_v13 (Gen.V3 m c)).trans ?_
  rewrite [V3_v11 m c, V3_v12 m c, V3_cst3 m c]; rfl

theorem V4_v1 (c : Dev nD) : Gen.V4 m c main_v1 = kSrc (m ((c.tc : Thread nD τ).loc main_arg2)) := by
  rewrite [Gen.V4_of m c main_v1 (by decide), Gen.V3_of m c main_v1 (by decide), Gen.V2_of m c main_v1 (by decide)]; exact V1_v1 m c

theorem V4_v3 (c : Dev nD) : Gen.V4 m c main_v3 = kDst (m ((c.tc : Thread nD τ).loc main_arg2)) := by
  rewrite [Gen.V4_of m c main_v3 (by decide), Gen.V3_of m c main_v3 (by decide), Gen.V2_of m c main_v3 (by decide)]; exact V1_v3 m c

theorem V4_arg4 (c : Dev nD) : Gen.V4 m c main_arg4 = m ((c.tc : Thread nD τ).loc main_arg4) := by
  rewrite [Gen.V4_of m c main_arg4 (by decide), Gen.V3_of m c main_arg4 (by decide), Gen.V2_of m c main_arg4 (by decide), Gen.V1_of m c main_arg4 (by decide)]; rfl

theorem V4_arg3 (c : Dev nD) : Gen.V4 m c main_arg3 = m ((c.tc : Thread nD τ).loc main_arg3) := by
  rewrite [Gen.V4_of m c main_arg3 (by decide), Gen.V3_of m c main_arg3 (by decide), Gen.V2_of m c main_arg3 (by decide), Gen.V1_of m c main_arg3 (by decide)]; rfl

theorem V4_arg5 (c : Dev nD) : Gen.V4 m c main_arg5 = m ((c.tc : Thread nD τ).loc main_arg5) := by
  rewrite [Gen.V4_of m c main_arg5 (by decide), Gen.V3_of m c main_arg5 (by decide), Gen.V2_of m c main_arg5 (by decide), Gen.V1_of m c main_arg5 (by decide)]; rfl

theorem V5_v45 (c : Dev nD) : Gen.V5 m c main_v45 = kLhat (m ((c.tc : Thread nD τ).loc main_arg2)) (m ((c.tc : Thread nD τ).loc main_arg4)) := by
  refine (s4_v45 (Gen.V4 m c)).trans ?_
  rewrite [V4_v1 m c, V4_v3 m c, V4_v13 m c, V4_arg4 m c]; rfl

theorem V5_v47 (c : Dev nD) : Gen.V5 m c main_v47 = kSrc (m ((c.tc : Thread nD τ).loc main_arg3)) := by
  refine (s4_v47 (Gen.V4 m c)).trans ?_
  rewrite [V4_arg3 m c]; rfl

theorem V5_v49 (c : Dev nD) : Gen.V5 m c main_v49 = kDst (m ((c.tc : Thread nD τ).loc main_arg3)) := by
  refine (s4_v49 (Gen.V4 m c)).trans ?_
  rewrite [V4_arg3 m c]; rfl

theorem V5_v52 (c : Dev nD) : Gen.V5 m c main_v52 = kDeg (m ((c.tc : Thread nD τ).loc main_arg3)) (m ((c.tc : Thread nD τ).loc main_arg5)) := by
  refine (s4_v52 (Gen.V4 m c)).trans ?_
  rewrite [V4_arg3 m c, V4_arg5 m c]; rfl

theorem V5_v54 (c : Dev nD) : Gen.V5 m c main_v54 = kPos (m ((c.tc : Thread nD τ).loc main_arg3)) (m ((c.tc : Thread nD τ).loc main_arg5)) := by
  refine (s4_v54 (Gen.V4 m c)).trans ?_
  rewrite [V4_arg3 m c, V4_arg5 m c]; rfl

theorem V5_cst14 (c : Dev nD) : Gen.V5 m c main_cst_14 = constant S_ .f32 0x3F800000#32 := s4_cst14 (Gen.V4 m c)

theorem V6_v55 (c : Dev nD) : Gen.V6 m c main_v55 = kDegSafe (m ((c.tc : Thread nD τ).loc main_arg3)) (m ((c.tc : Thread nD τ).loc main_arg5)) := by
  refine (s5_v55 (Gen.V5 m c)).trans ?_
  rewrite [V5_v54 m c, V5_v52 m c, V5_cst14 m c]; rfl

theorem V6_v52 (c : Dev nD) : Gen.V6 m c main_v52 = kDeg (m ((c.tc : Thread nD τ).loc main_arg3)) (m ((c.tc : Thread nD τ).loc main_arg5)) := by
  rewrite [Gen.V6_of m c main_v52 (by decide)]; exact V5_v52 m c

theorem V7_v57 (c : Dev nD) : Gen.V7 m c main_v57 = kPos (m ((c.tc : Thread nD τ).loc main_arg3)) (m ((c.tc : Thread nD τ).loc main_arg5)) := by
  refine (s6_v57 (Gen.V6 m c)).trans ?_
  rewrite [V6_v52 m c]; rfl

theorem V7_v58 (c : Dev nD) : Gen.V7 m c main_v58 = Host.rsqrt (kDegSafe (m ((c.tc : Thread nD τ).loc main_arg3)) (m ((c.tc : Thread nD τ).loc main_arg5))) := by
  refine (s6_v58 (Gen.V6 m c)).trans ?_
  rewrite [V6_v55 m c]; rfl

theorem V7_cst16 (c : Dev nD) : Gen.V7 m c main_cst_16 = constant S_ .f32 0x00000000#32 := s6_cst16 (Gen.V6 m c)

theorem V8_v59 (c : Dev nD) : Gen.V8 m c main_v59 = kDinv (m ((c.tc : Thread nD τ).loc main_arg3)) (m ((c.tc : Thread nD τ).loc main_arg5)) := by
  refine (s7_v59 (Gen.V7 m c)).trans ?_
  rewrite [V7_v57 m c, V7_v58 m c, V7_cst16 m c]; rfl

theorem V8_v45 (c : Dev nD) : Gen.V8 m c main_v45 = kLhat (m ((c.tc : Thread nD τ).loc main_arg2)) (m ((c.tc : Thread nD τ).loc main_arg4)) := by
  rewrite [Gen.V8_of m c main_v45 (by decide), Gen.V7_of m c main_v45 (by decide), Gen.V6_of m c main_v45 (by decide)]; exact V5_v45 m c

theorem V8_v47 (c : Dev nD) : Gen.V8 m c main_v47 = kSrc (m ((c.tc : Thread nD τ).loc main_arg3)) := by
  rewrite [Gen.V8_of m c main_v47 (by decide), Gen.V7_of m c main_v47 (by decide), Gen.V6_of m c main_v47 (by decide)]; exact V5_v47 m c

theorem V8_v49 (c : Dev nD) : Gen.V8 m c main_v49 = kDst (m ((c.tc : Thread nD τ).loc main_arg3)) := by
  rewrite [Gen.V8_of m c main_v49 (by decide), Gen.V7_of m c main_v49 (by decide), Gen.V6_of m c main_v49 (by decide)]; exact V5_v49 m c

theorem V8_arg5 (c : Dev nD) : Gen.V8 m c main_arg5 = m ((c.tc : Thread nD τ).loc main_arg5) := by
  rewrite [Gen.V8_of m c main_arg5 (by decide), Gen.V7_of m c main_arg5 (by decide), Gen.V6_of m c main_arg5 (by decide), Gen.V5_of m c main_arg5 (by decide), Gen.V4_of m c main_arg5 (by decide), Gen.V3_of m c main_arg5 (by decide), Gen.V2_of m c main_arg5 (by decide), Gen.V1_of m c main_arg5 (by decide)]; rfl

theorem V8_arg0 (c : Dev nD) : Gen.V8 m c main_arg0 = m ((c.tc : Thread nD τ).loc main_arg0) := by
  rewrite [Gen.V8_of m c main_arg0 (by decide), Gen.V7_of m c main_arg0 (by decide), Gen.V6_of m c main_arg0 (by decide), Gen.V5_of m c main_arg0 (by decide), Gen.V4_of m c main_arg0 (by decide), Gen.V3_of m c main_arg0 (by decide), Gen.V2_of m c main_arg0 (by decide), Gen.V1_of m c main_arg0 (by decide)]; rfl

theorem V8_arg1 (c : Dev nD) : Gen.V8 m c main_arg1 = m ((c.tc : Thread nD τ).loc main_arg1) := by
  rewrite [Gen.V8_of m c main_arg1 (by decide), Gen.V7_of m c main_arg1 (by decide), Gen.V6_of m c main_arg1 (by decide), Gen.V5_of m c main_arg1 (by decide), Gen.V4_of m c main_arg1 (by decide), Gen.V3_of m c main_arg1 (by decide), Gen.V2_of m c main_arg1 (by decide), Gen.V1_of m c main_arg1 (by decide)]; rfl

theorem V8_arg6 (c : Dev nD) : Gen.V8 m c main_arg6 = m ((c.tc : Thread nD τ).loc main_arg6) := by
  rewrite [Gen.V8_of m c main_arg6 (by decide), Gen.V7_of m c main_arg6 (by decide), Gen.V6_of m c main_arg6 (by decide), Gen.V5_of m c main_arg6 (by decide), Gen.V4_of m c main_arg6 (by decide), Gen.V3_of m c main_arg6 (by decide), Gen.V2_of m c main_arg6 (by decide), Gen.V1_of m c main_arg6 (by decide)]; rfl

theorem V8_arg7 (c : Dev nD) : Gen.V8 m c main_arg7 = m ((c.tc : Thread nD τ).loc main_arg7) := by
  rewrite [Gen.V8_of m c main_arg7 (by decide), Gen.V7_of m c main_arg7 (by decide), Gen.V6_of m c main_arg7 (by decide), Gen.V5_of m c main_arg7 (by decide), Gen.V4_of m c main_arg7 (by decide), Gen.V3_of m c main_arg7 (by decide), Gen.V2_of m c main_arg7 (by decide), Gen.V1_of m c main_arg7 (by decide)]; rfl

theorem V9_v91 (c : Dev nD) : Gen.V9 m c main_v91 = kLhat (m ((c.tc : Thread nD τ).loc main_arg3)) (m ((c.tc : Thread nD τ).loc main_arg5)) := by
  refine (s8_v91 (Gen.V8 m c)).trans ?_
  rewrite [V8_v47 m c, V8_v49 m c, V8_v59 m c, V8_arg5 m c]; rfl

theorem V9_v45 (c : Dev nD) : Gen.V9 m c main_v45 = kLhat (m ((c.tc : Thread nD τ).loc main_arg2)) (m ((c.tc : Thread nD τ).loc main_arg4)) := by
  rewrite [Gen.V9_of m c main_v45 (by decide), Gen.V8_of m c main_v45 (by decide), Gen.V7_of m c main_v45 (by decide), Gen.V6_of m c main_v45 (by decide)]; exact V5_v45 m c

theorem V9_v91' (c : Dev nD) :
    StableHlo.after Gen.hostOps0_8 (Gen.V8 m c) (Proc.devRef .tc main_v91) = kLhat (m ((c.tc : Thread nD τ).loc main_arg3)) (m ((c.tc : Thread nD τ).loc main_arg5)) := V9_v91 m c

theorem V9_v110 (c : Dev nD) : Gen.V9 m c main_v110 = kTcat1 (kLhat (m ((c.tc : Thread nD τ).loc main_arg2)) (m ((c.tc : Thread nD τ).loc main_arg4))) (kLhat (m ((c.tc : Thread nD τ).loc main_arg3)) (m ((c.tc : Thread nD τ).loc main_arg5))) (m ((c.tc : Thread nD τ).loc main_arg0)) (m ((c.tc : Thread nD τ).loc main_arg1)) := by
  refine (s8_v110 (Gen.V8 m c)).trans ?_
  rewrite [V9_v91' m c, V8_v45 m c, V8_arg0 m c, V8_arg1 m c]; rfl

theorem V9_v111 (c : Dev nD) : Gen.V9 m c main_v111 = kW1 (m ((c.tc : Thread nD τ).loc main_arg6)) := by
  refine (s8_v111 (Gen.V8 m c)).trans ?_
  rewrite [V8_arg6 m c]; rfl

theorem V9_v112 (c : Dev nD) : Gen.V9 m c main_v112 = kBias (m ((c.tc : Thread nD τ).loc main_arg7)) := by
  refine (s8_v112 (Gen.V8 m c)).trans ?_
  rewrite [V8_arg7 m c]; rfl

theorem V10_v113 (c : Dev nD) : Gen.V10 m outs c main_v113 = outs 10 main_v113 c := Function.update_self _ _ _

theorem V10_v45 (c : Dev nD) : Gen.V10 m outs c main_v45 = kLhat (m ((c.tc : Thread nD τ).loc main_arg2)) (m ((c.tc : Thread nD τ).loc main_arg4)) := by
  rewrite [Gen.V10_of m outs c main_v45 (by decide)]; exact V9_v45 m c

theorem V10_v91 (c : Dev nD) : Gen.V10 m outs c main_v91 = kLhat (m ((c.tc : Thread nD τ).loc main_arg3)) (m ((c.tc : Thread nD τ).loc main_arg5)) := by
  rewrite [Gen.V10_of m outs c main_v91 (by decide)]; exact V9_v91 m c

theorem V10_arg8 (c : Dev nD) : Gen.V10 m outs c main_arg8 = m ((c.tc : Thread nD τ).loc main_arg8) := by
  rewrite [Gen.V10_of m outs c main_arg8 (by decide), Gen.V9_of m c main_arg8 (by decide), Gen.V8_of m c main_arg8 (by decide), Gen.V7_of m c main_arg8 (by decide), Gen.V6_of m c main_arg8 (by decide), Gen.V5_of m c main_arg8 (by decide), Gen.V4_of m c main_arg8 (by decide), Gen.V3_of m c main_arg8 (by decide), Gen.V2_of m c main_arg8 (by decide), Gen.V1_of m c main_arg8 (by decide)]; rfl

theorem V10_arg9 (c : Dev nD) : Gen.V10 m outs c main_arg9 = m ((c.tc : Thread nD τ).loc main_arg9) := by
  rewrite [Gen.V10_of m outs c main_arg9 (by decide), Gen.V9_of m c main_arg9 (by decide), Gen.V8_of m c main_arg9 (by decide), Gen.V7_of m c main_arg9 (by decide), Gen.V6_of m c main_arg9 (by decide), Gen.V5_of m c main_arg9 (by decide), Gen.V4_of m c main_arg9 (by decide), Gen.V3_of m c main_arg9 (by decide), Gen.V2_of m c main_arg9 (by decide), Gen.V1_of m c main_arg9 (by decide)]; rfl

theorem V11_v134 (c : Dev nD) : Gen.V11 m outs c main_v134 = kTcat2 (kLhat (m ((c.tc : Thread nD τ).loc main_arg2)) (m ((c.tc : Thread nD τ).loc main_arg4))) (kLhat (m ((c.tc : Thread nD τ).loc main_arg3)) (m ((c.tc : Thread nD τ).loc main_arg5))) (outs 10 main_v113 c) := by
  refine (s10_v134 (Gen.V10 m outs c)).trans ?_
  rewrite [V10_v45 m outs c, V10_v91 m outs c, V10_v113 m outs c]; rfl

theorem V11_v135 (c : Dev nD) : Gen.V11 m outs c main_v135 = kW2 (m ((c.tc : Thread nD τ).loc main_arg8)) := by
  refine (s10_v135 (Gen.V10 m outs c)).trans ?_
  rewrite [V10_arg8 m outs c]; rfl

theorem V11_v136 (c : Dev nD) : Gen.V11 m outs c main_v136 = kBias (m ((c.tc : Thread nD τ).loc main_arg9)) := by
  refine (s10_v136 (Gen.V10 m outs c)).trans ?_
  rewrite [V10_arg9 m outs c]; rfl

theorem V12_v137 (c : Dev nD) : Gen.V12 m outs c main_v137 = outs 12 main_v137 c := Function.update_self _ _ _

theorem V12_arg10 (c : Dev nD) : Gen.V12 m outs c main_arg10 = m ((c.tc : Thread nD τ).loc main_arg10) := by
  rewrite [Gen.V12_of m outs c main_arg10 (by decide), Gen.V11_of m outs c main_arg10 (by decide), Gen.V10_of m outs c main_arg10 (by decide), Gen.V9_of m c main_arg10 (by decide), Gen.V8_of m c main_arg10 (by decide), Gen.V7_of m c main_arg10 (by decide), Gen.V6_of m c main_arg10 (by decide), Gen.V5_of m c main_arg10 (by decide), Gen.V4_of m c main_arg10 (by decide), Gen.V3_of m c main_arg10 (by decide), Gen.V2_of m c main_arg10 (by decide), Gen.V1_of m c main_arg10 (by decide)]; rfl

theorem V12_arg11 (c : Dev nD) : Gen.V12 m outs c main_arg11 = m ((c.tc : Thread nD τ).loc main_arg11) := by
  rewrite [Gen.V12_of m outs c main_arg11 (by decide), Gen.V11_of m outs c main_arg11 (by decide), Gen.V10_of m outs c main_arg11 (by decide), Gen.V9_of m c main_arg11 (by decide), Gen.V8_of m c main_arg11 (by decide), Gen.V7_of m c main_arg11 (by decide), Gen.V6_of m c main_arg11 (by decide), Gen.V5_of m c main_arg11 (by decide), Gen.V4_of m c main_arg11 (by decide), Gen.V3_of m c main_arg11 (by decide), Gen.V2_of m c main_arg11 (by decide), Gen.V1_of m c main_arg11 (by decide)]; rfl

theorem V13_v142 (c : Dev nD) : Gen.V13 m outs c main_v142 = kHead1 (outs 12 main_v137 c) (m ((c.tc : Thread nD τ).loc main_arg10)) (m ((c.tc : Thread nD τ).loc main_arg11)) := by
  refine (s12_v142 (Gen.V12 m outs c)).trans ?_
  rewrite [V12_v137 m outs c, V12_arg10 m outs c, V12_arg11 m outs c]; rfl

theorem V14_v143 (c : Dev nD) : Gen.V14 m outs c main_v143 = kRelu (kHead1 (outs 12 main_v137 c) (m ((c.tc : Thread nD τ).loc main_arg10)) (m ((c.tc : Thread nD τ).loc main_arg11))) := by
  refine (s13_v143 (Gen.V13 m outs c)).trans ?_
  rewrite [V13_v142 m outs c]; rfl

theorem V14_arg12 (c : Dev nD) : Gen.V14 m outs c main_arg12 = m ((c.tc : Thread nD τ).loc main_arg12) := by
  rewrite [Gen.V14_of m outs c main_arg12 (by decide), Gen.V13_of m outs c main_arg12 (by decide), Gen.V12_of m outs c main_arg12 (by decide), Gen.V11_of m outs c main_arg12 (by decide), Gen.V10_of m outs c main_arg12 (by decide), Gen.V9_of m c main_arg12 (by decide), Gen.V8_of m c main_arg12 (by decide), Gen.V7_of m c main_arg12 (by decide), Gen.V6_of m c main_arg12 (by decide), Gen.V5_of m c main_arg12 (by decide), Gen.V4_of m c main_arg12 (by decide), Gen.V3_of m c main_arg12 (by decide), Gen.V2_of m c main_arg12 (by decide), Gen.V1_of m c main_arg12 (by decide)]; rfl

theorem V14_arg13 (c : Dev nD) : Gen.V14 m outs c main_arg13 = m ((c.tc : Thread nD τ).loc main_arg13) := by
  rewrite [Gen.V14_of m outs c main_arg13 (by decide), Gen.V13_of m outs c main_arg13 (by decide), Gen.V12_of m outs c main_arg13 (by decide), Gen.V11_of m outs c main_arg13 (by decide), Gen.V10_of m outs c main_arg13 (by decide), Gen.V9_of m c main_arg13 (by decide), Gen.V8_of m c main_arg13 (by decide), Gen.V7_of m c main_arg13 (by decide), Gen.V6_of m c main_arg13 (by decide), Gen.V5_of m c main_arg13 (by decide), Gen.V4_of m c main_arg13 (by decide), Gen.V3_of m c main_arg13 (by decide), Gen.V2_of m c main_arg13 (by decide), Gen.V1_of m c main_arg13 (by decide)]; rfl

theorem V15_v147 (c : Dev nD) : Gen.V15 m outs c main_v147
    = kTail (outs 12 main_v137 c) (m ((c.tc : Thread nD τ).loc main_arg10)) (m ((c.tc : Thread nD τ).loc main_arg11)) (m ((c.tc : Thread nD τ).loc main_arg12)) (m ((c.tc : Thread nD τ).loc main_arg13)) := by
  refine (s14_v147 (Gen.V14 m outs c)).trans ?_
  rewrite [V14_v143 m outs c, V14_arg12 m outs c, V14_arg13 m outs c]; rfl

end Chain

end Cert.KernelIdeal.Val
-- ==== Proof.KV.Payload.lean ====
import proofs.«406476_j70849780514835_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-! One block step at entry (r, q): the accumulator gains Σ_k left (r, k) · right (k, q); the last step adds the
    bias and takes the maximum with zero. -/

noncomputable section

open scoped BigOperators

namespace Cert.KernelIdeal.Val

open Cert.KernelIdeal Cert.KernelIdeal.Gen Idealize.ShloMosaic Idealize.ShloMosaic.ValueIdx

theorem blockDot_lhs_0 (i : S400x2048.Idx) (p : dot_S400x1024_S1024x2048_S400x2048_1_0_0_1_n_n.contr.Idx) :
    (dot_S400x1024_S1024x2048_S400x2048_1_0_0_1_n_n.lhsIdx i p 0).val = (i 0).val := by
  unfold DotDims.lhsIdx
  rw [dif_neg (show ¬(0 : Fin S400x1024.rank) ∈ dot_S400x1024_S1024x2048_S400x2048_1_0_0_1_n_n.lhsBatch by decide), dif_pos (show (0 : Fin S400x1024.rank) ∈ dot_S400x1024_S1024x2048_S400x2048_1_0_0_1_n_n.lhsNonContracting by decide)]
  rfl

theorem blockDot_lhs_1 (i : S400x2048.Idx) (p : dot_S400x1024_S1024x2048_S400x2048_1_0_0_1_n_n.contr.Idx) :
    (dot_S400x1024_S1024x2048_S400x2048_1_0_0_1_n_n.lhsIdx i p 1).val = (p ⟨0, by decide⟩).val :=
  dot_S400x1024_S1024x2048_S400x2048_1_0_0_1_n_n.lhsIdx_val_of_single rfl i p

theorem blockDot_rhs_0 (i : S400x2048.Idx) (p : dot_S400x1024_S1024x2048_S400x2048_1_0_0_1_n_n.contr.Idx) :
    (dot_S400x1024_S1024x2048_S400x2048_1_0_0_1_n_n.rhsIdx i p 0).val = (p ⟨0, by decide⟩).val :=
  dot_S400x1024_S1024x2048_S400x2048_1_0_0_1_n_n.rhsIdx_val_of_single rfl i p

theorem blockDot_rhs_1 (i : S400x2048.Idx) (p : dot_S400x1024_S1024x2048_S400x2048_1_0_0_1_n_n.contr.Idx) :
    (dot_S400x1024_S1024x2048_S400x2048_1_0_0_1_n_n.rhsIdx i p 1).val = (i 1).val := by
  unfold DotDims.rhsIdx
  rw [dif_neg (show ¬(1 : Fin S1024x2048.rank) ∈ dot_S400x1024_S1024x2048_S400x2048_1_0_0_1_n_n.rhsBatch by decide), dif_pos (show (1 : Fin S1024x2048.rank) ∈ dot_S400x1024_S1024x2048_S400x2048_1_0_0_1_n_n.rhsNonContracting by decide)]
  rfl

theorem blockDot_apply (a : FVec Ideal S400x1024 .bf16) (b : FVec Ideal S1024x2048 .bf16) (r : Fin 400) (q : Fin 2048) :
    matmul dot_S400x1024_S1024x2048_S400x2048_1_0_0_1_n_n none a b (constant (F := Ideal) S400x2048 .f32 0x00000000#32) (ix2 r q)
      = ∑ k : Fin 1024, a (ix2 r k) * b (ix2 k q) := by
  simp only [matmul]
  rw [Ideal.matmul_constant_zero_apply, ← Equiv.sum_comp (contrEquiv1 dot_S400x1024_S1024x2048_S400x2048_1_0_0_1_n_n 1024 rfl rfl).symm]
  refine Finset.sum_congr rfl fun k _ => ?_
  have hk := contrEquiv1_symm_val dot_S400x1024_S1024x2048_S400x2048_1_0_0_1_n_n 1024 rfl rfl k
  have el : dot_S400x1024_S1024x2048_S400x2048_1_0_0_1_n_n.lhsIdx (ix2 r q) ((contrEquiv1 dot_S400x1024_S1024x2048_S400x2048_1_0_0_1_n_n 1024 rfl rfl).symm k) = ix2 r k := funext fun ax => Fin.ext (by
    match ax with
    | ⟨0, _⟩ => exact blockDot_lhs_0 _ _
    | ⟨1, _⟩ => exact (blockDot_lhs_1 _ _).trans hk)
  have er : dot_S400x1024_S1024x2048_S400x2048_1_0_0_1_n_n.rhsIdx (ix2 r q) ((contrEquiv1 dot_S400x1024_S1024x2048_S400x2048_1_0_0_1_n_n 1024 rfl rfl).symm k) = ix2 k q := funext fun ax => Fin.ext (by
    match ax with
    | ⟨0, _⟩ => exact (blockDot_rhs_0 _ _).trans hk
    | ⟨1, _⟩ => exact blockDot_rhs_1 _ _)
  rw [el, er]

theorem k0_pay1_apply (i : S400x2048.Idx) : (k0_pay1 (F := Ideal)) i = 0 := by
  unfold k0_pay1
  simp only [shapeCast_self]
  exact Ideal.ofBits_zero_f32

theorem k0_pay2_apply (v3 : FVec Ideal S1024x2048 .f32) (v6 : FVec Ideal S400x2048 .f32) (v7 : FVec Ideal S400x1024 .bf16)
    (r : Fin 400) (q : Fin 2048) :
    k0_pay2 (F := Ideal) v3 v6 v7 (ix2 r q) = v6 (ix2 r q) + ∑ k : Fin 1024, v7 (ix2 r k) * v3 (ix2 k q) := by
  unfold k0_pay2
  simp only [shapeCast_self]
  exact congrArg (v6 (ix2 r q) + ·) (blockDot_apply v7 (truncf .bf16 v3 bitsLt_bf16_f32) r q)

theorem k0_pay3_apply (v17 : FVec Ideal S400x2048 .f32) (v18 : FVec Ideal S1x2048 .f32) (r : Fin 400) (q : Fin 2048) :
    k0_pay3 (F := Ideal) v17 v18 (ix2 r q) = max (v17 (ix2 r q) + v18 (ix2 (0 : Fin 1) q)) 0 := by
  unfold k0_pay3
  simp only [shapeCast_self]
  show max (v17 (ix2 r q) + broadcastTo S400x2048 v18 broadcasts_S1x2048_S400x2048 (ix2 r q)) (Ideal.ofBits .f32 0x00000000#32) = _
  rw [broadcastTo_1b_ab_apply, Ideal.ofBits_zero_f32]

theorem k1_pay1_apply (i : S400x2048.Idx) : (k1_pay1 (F := Ideal)) i = 0 := by
  unfold k1_pay1
  simp only [shapeCast_self]
  exact Ideal.ofBits_zero_f32

theorem k1_pay2_apply (v3 : FVec Ideal S1024x2048 .f32) (v6 : FVec Ideal S400x2048 .f32) (v7 : FVec Ideal S400x1024 .bf16)
    (r : Fin 400) (q : Fin 2048) :
    k1_pay2 (F := Ideal) v3 v6 v7 (ix2 r q) = v6 (ix2 r q) + ∑ k : Fin 1024, v7 (ix2 r k) * v3 (ix2 k q) := by
  unfold k1_pay2
  simp only [shapeCast_self]
  exact congrArg (v6 (ix2 r q) + ·) (blockDot_apply v7 (truncf .bf16 v3 bitsLt_bf16_f32) r q)

theorem k1_pay3_apply (v17 : FVec Ideal S400x2048 .f32) (v18 : FVec Ideal S1x2048 .f32) (r : Fin 200) (q : Fin 2048)
    (r0 r1 : Fin 400) (h0 : r0.val = r.val) (h1 : r1.val = 200 + r.val) :
    k1_pay3 (F := Ideal) v17 v18 (ix2 r q)
      = max (v17 (ix2 r0 q) + v18 (ix2 (0 : Fin 1) q)) 0 * max (v17 (ix2 r1 q) + v18 (ix2 (0 : Fin 1) q)) 0 := by
  unfold k1_pay3
  simp only [shapeCast_self]
  refine (mulf_apply _ _ _).trans ?_
  rw [slice2_axis0_apply 0 _ slices_S400x2048_o0_0_S200x2048 r q r0 (by omega),
    slice2_axis0_apply 200 _ slices_S400x2048_o200_0_S200x2048 r q r1 h1]
  show max (v17 (ix2 r0 q) + broadcastTo S400x2048 v18 broadcasts_S1x2048_S400x2048 (ix2 r0 q)) (Ideal.ofBits .f32 0x00000000#32)
      * max (v17 (ix2 r1 q) + broadcastTo S400x2048 v18 broadcasts_S1x2048_S400x2048 (ix2 r1 q)) (Ideal.ofBits .f32 0x00000000#32) = _
  rw [broadcastTo_1b_ab_apply, broadcastTo_1b_ab_apply, Ideal.ofBits_zero_f32]

end Cert.KernelIdeal.Val

end
-- ==== Proof.Math.KBlock.lean ====
import Mathlib.Algebra.BigOperators.Fin
import Mathlib.Data.Fintype.BigOperators
import Mathlib.Logic.Equiv.Fin.Basic

/-! A sum over n·m indices is the sum over n blocks of the m-term block sums, through (s, k) ↦ m·s + k; valid in
    any commutative additive monoid. -/

open scoped BigOperators

namespace Cert.Math

theorem blockPos_lt {n m : ℕ} (s : Fin n) (k : Fin m) : m * s.val + k.val < n * m := by
  have hs : s.val + 1 ≤ n := s.isLt
  have hk := k.isLt
  calc m * s.val + k.val < m * s.val + m := Nat.add_lt_add_left hk _
    _ = m * (s.val + 1) := (Nat.mul_succ _ _).symm
    _ ≤ m * n := Nat.mul_le_mul_left _ hs
    _ = n * m := Nat.mul_comm _ _

theorem sum_blocks {M : Type*} [AddCommMonoid M] (n m K : ℕ) (hK : n * m = K) (f : Fin K → M) :
    ∑ s : Fin n, ∑ k : Fin m, f ⟨m * s.val + k.val, hK ▸ blockPos_lt s k⟩ = ∑ x : Fin K, f x := by
  subst hK
  rw [← Equiv.sum_comp finProdFinEquiv f, Fintype.sum_prod_type]
  refine Finset.sum_congr rfl fun s _ => Finset.sum_congr rfl fun k _ => ?_
  exact congrArg f (Fin.ext (Nat.add_comm _ _))

theorem sum_range_blocks {M : Type*} [AddCommMonoid M] (n m K : ℕ) (hK : n * m = K) (f : Fin K → M) (B : ℕ → M)
    (hB : ∀ s : Fin n, B s.val = ∑ k : Fin m, f ⟨m * s.val + k.val, hK ▸ blockPos_lt s k⟩) :
    ∑ s ∈ Finset.range n, B s = ∑ x : Fin K, f x := by
  rw [Finset.sum_range, ← sum_blocks n m K hK f]
  exact Finset.sum_congr rfl fun s _ => hB s

theorem run_sum {M : Type*} [AddCommMonoid M] {N : ℕ} (J : ℕ) (hJ : 0 < J) (sc : (n : ℕ) → n < N → M) (T : ℕ → M)
    (h0 : ∀ (n : ℕ) (h : n < N), n % J = 0 → sc n h = T n)
    (hs : ∀ (n : ℕ) (h : n + 1 < N), ¬(n + 1) % J = 0 → sc (n + 1) h = sc n (Nat.lt_of_succ_lt h) + T (n + 1))
    (t : ℕ) (ht : t < N) : sc t ht = ∑ s ∈ Finset.range (t % J + 1), T (J * (t / J) + s) := by
  have key : ∀ (q j : ℕ), j < J → ∀ (h : J * q + j < N), sc (J * q + j) h = ∑ s ∈ Finset.range (j + 1), T (J * q + s) := by
    intro q j
    induction j with
    | zero =>
      intro _ h
      rw [Finset.sum_range_one]
      exact h0 _ h (by rw [Nat.add_zero, Nat.mul_mod_right])
    | succ j ih =>
      intro hj h
      have hne : ¬(J * q + j + 1) % J = 0 := by
        rw [Nat.add_assoc, Nat.mul_add_mod, Nat.mod_eq_of_lt hj]; exact Nat.succ_ne_zero j
      rw [Finset.sum_range_succ _ (j + 1), ← ih (Nat.lt_of_succ_lt hj) (Nat.lt_of_succ_lt h)]
      exact hs (J * q + j) h hne
  have same : ∀ (u : ℕ) (hu : u < N), u = t → sc u hu = sc t ht := fun u hu e => by subst e; rfl
  have h' : J * (t / J) + t % J < N := by rw [Nat.div_add_mod]; exact ht
  rw [← same _ h' (Nat.div_add_mod t J)]
  exact key (t / J) (t % J) (Nat.mod_lt t hJ) h'

end Cert.Math
-- ==== Proof.KV.R0Value.lean ====
import proofs.«406476_j70849780514835_3_alg».proof.Proof.KI.R0Frame
import proofs.«406476_j70849780514835_3_alg».proof.Proof.Gen.KernelIdeal.Launch
import proofs.«406476_j70849780514835_3_alg».proof.Proof.Gen.KernelIdeal.Points
import proofs.«406476_j70849780514835_3_alg».proof.Proof.KV.Payload
import proofs.«406476_j70849780514835_3_alg».proof.Proof.Math.KBlock
import Idealize.ShloMosaic.Lib.Pipeline.Value
import Idealize.ShloMosaic.Lib.ValueIdx
import Idealize.ShloMosaic.Lib.Tactic

/-! Layer 1 as one function of its three arrays: 24 block sums of 1024 terms are the one sum over 24576 positions;
    then the bias and the maximum with zero. -/

set_option maxRecDepth 16384

noncomputable section

open scoped BigOperators
open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Hand Idealize.ShloMosaic.ValueIdx

def layerOut0 (A : FVec Ideal S400x24576 .bf16) (B : FVec Ideal S24576x4096 .f32) (b : FVec Ideal S1x4096 .f32) :
    FVec Ideal S400x4096 .f32 :=
  fun i => max ((∑ k : Fin 24576, A (ix2 (i 0) k) * B (ix2 k (i 1))) + b (ix2 (0 : Fin 1) (i 1))) 0

theorem layerOut0_apply (A : FVec Ideal S400x24576 .bf16) (B : FVec Ideal S24576x4096 .f32) (b : FVec Ideal S1x4096 .f32)
    (r : Fin 400) (q : Fin 4096) :
    layerOut0 A B b (ix2 r q) = max ((∑ k : Fin 24576, A (ix2 r k) * B (ix2 k q)) + b (ix2 (0 : Fin 1) q)) 0 := rfl

theorem idx0_0 : ∀ t : Fin cfg0.N, win0_0.index t (0 : Fin 2) = 0 ∧ win0_0.index t (1 : Fin 2) = t.val % 24 :=
  (by decide +kernel : ∀ t : Fin grid0.N, win0_0.index t (0 : Fin 2) = 0 ∧ win0_0.index t (1 : Fin 2) = t.val % 24)

theorem idx0_1 : ∀ t : Fin cfg0.N, win0_1.index t (0 : Fin 2) = t.val % 24 ∧ win0_1.index t (1 : Fin 2) = t.val / 24 :=
  (by decide +kernel : ∀ t : Fin grid0.N, win0_1.index t (0 : Fin 2) = t.val % 24 ∧ win0_1.index t (1 : Fin 2) = t.val / 24)

theorem idx0_2 : ∀ t : Fin cfg0.N, win0_2.index t (0 : Fin 2) = 0 ∧ win0_2.index t (1 : Fin 2) = t.val / 24 :=
  (by decide +kernel : ∀ t : Fin grid0.N, win0_2.index t (0 : Fin 2) = 0 ∧ win0_2.index t (1 : Fin 2) = t.val / 24)

theorem idx0_3 : ∀ t : Fin cfg0.N, win0_3.index t (0 : Fin 2) = 0 ∧ win0_3.index t (1 : Fin 2) = t.val / 24 :=
  (by decide +kernel : ∀ t : Fin grid0.N, win0_3.index t (0 : Fin 2) = 0 ∧ win0_3.index t (1 : Fin 2) = t.val / 24)

section Region0

variable (V : (c : Dev nD) → (b : Ref sig .tc) → Buf (Elt Ideal) ((c : Thread nD τ).loc b))

abbrev arrA0 (c : Dev nD) : FVec Ideal S400x24576 .bf16 := V c main_v110

abbrev arrB0 (c : Dev nD) : FVec Ideal S24576x4096 .f32 := V c main_v111

abbrev arrC0 (c : Dev nD) : FVec Ideal S1x4096 .f32 := V c main_v112

theorem ablk0_apply (c : Dev nD) (t : Fin cfg0.N) (y : S400x1024.Idx) (k : S400x24576.Idx)
    (hk0 : (k 0).val = (y 0).val) (hk1 : (k 1).val = 1024 * (t.val % 24) + (y 1).val) :
    ablk0 V c t y = arrA0 V c k := by
  unfold ablk0 iblk0 arrA0
  rw [View.read_apply]
  refine congrArg (V c main_v110 : S400x24576.Idx → Elt Ideal .bf16) (funext fun a => Fin.ext ?_)
  match a with
  | ⟨0, _⟩ => show win0_0.index t 0 * 400 + 1 * (y 0).val = (k 0).val; rw [(idx0_0 t).1, hk0]; omega
  | ⟨1, _⟩ => show win0_0.index t 1 * 1024 + 1 * (y 1).val = (k 1).val; rw [(idx0_0 t).2, hk1]; omega

theorem bblk0_apply (c : Dev nD) (t : Fin cfg0.N) (y : S1024x2048.Idx) (k : S24576x4096.Idx)
    (hk0 : (k 0).val = 1024 * (t.val % 24) + (y 0).val) (hk1 : (k 1).val = 2048 * (t.val / 24) + (y 1).val) :
    bblk0 V c t y = arrB0 V c k := by
  unfold bblk0 iblk0 arrB0
  rw [View.read_apply]
  refine congrArg (V c main_v111 : S24576x4096.Idx → Elt Ideal .f32) (funext fun a => Fin.ext ?_)
  match a with
  | ⟨0, _⟩ => show win0_1.index t 0 * 1024 + 1 * (y 0).val = (k 0).val; rw [(idx0_1 t).1, hk0]; omega
  | ⟨1, _⟩ => show win0_1.index t 1 * 2048 + 1 * (y 1).val = (k 1).val; rw [(idx0_1 t).2, hk1]; omega

theorem cblk0_apply (c : Dev nD) (t : Fin cfg0.N) (y : S1x2048.Idx) (k : S1x4096.Idx)
    (hk0 : (k 0).val = (y 0).val) (hk1 : (k 1).val = 2048 * (t.val / 24) + (y 1).val) :
    cblk0 V c t y = arrC0 V c k := by
  unfold cblk0 iblk0 arrC0
  rw [View.read_apply]
  refine congrArg (V c main_v112 : S1x4096.Idx → Elt Ideal .f32) (funext fun a => Fin.ext ?_)
  match a with
  | ⟨0, _⟩ => show win0_2.index t 0 * 1 + 1 * (y 0).val = (k 0).val; rw [(idx0_2 t).1, hk0]; omega
  | ⟨1, _⟩ => show win0_2.index t 1 * 2048 + 1 * (y 1).val = (k 1).val; rw [(idx0_2 t).2, hk1]; omega

end Region0

section Region0Value

variable (V : (c : Dev nD) → (b : Ref sig .tc) → Buf (Elt Ideal) ((c : Thread nD τ).loc b))

def term0 (c : Dev nD) (n : ℕ) (i : S400x2048.Idx) : EReal :=
  if h : n < cfg0.N then
    ∑ k : Fin 1024, (ablk0 V c ⟨n, h⟩ : FVec Ideal S400x1024 .bf16) (ix2 (i 0) k) * (bblk0 V c ⟨n, h⟩ : FVec Ideal S1024x2048 .f32) (ix2 k (i 1))
  else 0

theorem acc0_sum (c : Dev nD) (t : Fin cfg0.N) (r : Fin 400) (q : Fin 2048) :
    (outsAt0 V c t.val t.isLt).2 (ix2 r q) = ∑ s ∈ Finset.range (t.val % 24 + 1), term0 V c (24 * (t.val / 24) + s) (ix2 r q) := by
  refine Cert.Math.run_sum 24 (by decide) (fun n h => (outsAt0 V c n h).2 (ix2 r q)) (fun n => term0 V c n (ix2 r q)) ?_ ?_ t.val t.isLt
  · intro n h hn
    refine (congrFun (acc0_at_first V c ⟨n, h⟩ hn) (ix2 r q)).trans ?_
    rw [k0_pay2_apply, k0_pay1_apply, zero_add]
    unfold term0
    rw [dif_pos h]
  · intro n h hn
    refine (congrFun (acc0_at_next V c ⟨n + 1, h⟩ hn) (ix2 r q)).trans ?_
    rw [k0_pay2_apply]
    unfold term0
    rw [dif_pos h]
    rfl

theorem out0_last_apply (c : Dev nD) (t : Fin cfg0.N) (h23 : t.val % 24 = 23) (y : S400x2048.Idx) (i : S400x4096.Idx)
    (hi0 : (i 0).val = (y 0).val) (hi1 : (i 1).val = 2048 * (t.val / 24) + (y 1).val) :
    (outsAt0 V c t.val t.isLt).1 y = layerOut0 (arrA0 V c) (arrB0 V c) (arrC0 V c) i := by
  obtain ⟨r, q, rfl⟩ : ∃ (r : Fin 400) (q : Fin 2048), y = ix2 r q := ⟨y 0, y 1, eq_ix2 y⟩
  obtain ⟨r', Q, rfl⟩ : ∃ (r' : Fin 400) (Q : Fin 4096), i = ix2 r' Q := ⟨i 0, i 1, eq_ix2 i⟩
  obtain rfl : r' = r := Fin.ext hi0
  have hQ : Q.val = 2048 * (t.val / 24) + q.val := hi1
  have hN : cfg0.N = 48 := N_0
  have ht : t.val < 48 := lt_of_lt_of_eq t.isLt hN
  refine (congrFun (out0_at_last V c t h23) (ix2 r' q)).trans ?_
  rw [k0_pay3_apply, layerOut0_apply, acc0_sum V c t r' q, h23,
    cblk0_apply V c t (ix2 (0 : Fin 1) q) (ix2 (0 : Fin 1) Q) rfl hQ]
  refine congrArg (fun x => max (x + arrC0 V c (ix2 (0 : Fin 1) Q)) 0) ?_
  refine Cert.Math.sum_range_blocks 24 1024 24576 rfl
    (fun x : Fin 24576 => arrA0 V c (ix2 r' x) * arrB0 V c (ix2 x Q))
    (fun s => term0 V c (24 * (t.val / 24) + s) (ix2 r' q)) fun s => ?_
  have hs : s.val < 24 := s.isLt
  have hlt : 24 * (t.val / 24) + s.val < cfg0.N := lt_of_lt_of_eq (by omega : 24 * (t.val / 24) + s.val < 48) hN.symm
  unfold term0
  rw [dif_pos hlt]
  refine Finset.sum_congr rfl fun k _ => ?_
  have hk : k.val < 1024 := k.isLt
  have hpos : 1024 * s.val + k.val < 24576 := by omega
  rw [ablk0_apply V c ⟨24 * (t.val / 24) + s.val, hlt⟩ (ix2 r' k) (ix2 r' (⟨1024 * s.val + k.val, hpos⟩ : Fin 24576)) rfl
      (by show 1024 * s.val + k.val = 1024 * ((24 * (t.val / 24) + s.val) % 24) + k.val; omega),
    bblk0_apply V c ⟨24 * (t.val / 24) + s.val, hlt⟩ (ix2 k q) (ix2 (⟨1024 * s.val + k.val, hpos⟩ : Fin 24576) Q)
      (by show 1024 * s.val + k.val = 1024 * ((24 * (t.val / 24) + s.val) % 24) + k.val; omega)
      (by show Q.val = 2048 * ((24 * (t.val / 24) + s.val) / 24) + q.val; omega)]

end Region0Value

section Region0Array

variable (V : (c : Dev nD) → (b : Ref sig .tc) → Buf (Elt Ideal) ((c : Thread nD τ).loc b))

theorem flushed0_eq (c : Dev nD) (t : Fin cfg0.N) (hf : (cfg0.win 3).flush t = true) :
    (dat0 V c).flushed 3 t
      = ((cfg0.win 3).blk t).view.read (Elt Ideal) (layerOut0 (V c main_v110) (V c main_v111) (V c main_v112)) := by
  have h23 : t.val % 24 = 23 := (flush0_3 t).mp hf
  show (cfg0.win 3).cut (grid0.coords t) ((dat0 V c).after 3 t) = _
  rw [after0_3]
  funext j
  rw [View.read_apply]
  refine out0_last_apply V c t h23 j _ ?_ ?_
  · show win0_3.index t 0 * 400 + 1 * (j 0).val = (j 0).val
    rw [(idx0_3 t).1]; omega
  · show win0_3.index t 1 * 2048 + 1 * (j 1).val = 2048 * (t.val / 24) + (j 1).val
    rw [(idx0_3 t).2]; omega

theorem mem_blk0 (t : Fin cfg0.N) (i : S400x4096.Idx) :
    i ∈ ((cfg0.win 3).blk t).view.set ↔ ∀ a : Fin 2, win0_3.index t a * S400x2048.size a ≤ (i a).val ∧ (i a).val < win0_3.index t a * S400x2048.size a + S400x2048.size a := by
  show i ∈ ((View.whole main_v113).slice (win0_3.rect t)).set ↔ _
  rw [View.set_slice_whole, Rect.mem_set_unit]
  exact Iff.rfl

theorem cover0 (i : S400x4096.Idx) :
    ∃ t : Fin cfg0.N, (cfg0.win 3).flush t = true ∧ i ∈ ((cfg0.win 3).blk t).view.set := by
  have hN : cfg0.N = 48 := N_0
  have h0 : (i 0).val < 400 := (i 0).isLt
  have h1 : (i 1).val < 4096 := (i 1).isLt
  have hlt : 24 * ((i 1).val / 2048) + 23 < cfg0.N := by rw [hN]; omega
  refine ⟨⟨24 * ((i 1).val / 2048) + 23, hlt⟩, (flush0_3 _).mpr (by show (24 * ((i 1).val / 2048) + 23) % 24 = 23; omega), ?_⟩
  rw [mem_blk0]
  obtain ⟨e0, e1⟩ := idx0_3 ⟨24 * ((i 1).val / 2048) + 23, hlt⟩
  have e1' : win0_3.index ⟨24 * ((i 1).val / 2048) + 23, hlt⟩ (1 : Fin 2) = (24 * ((i 1).val / 2048) + 23) / 24 := e1
  intro a
  match a with
  | ⟨0, _⟩ =>
    show win0_3.index ⟨24 * ((i 1).val / 2048) + 23, hlt⟩ (0 : Fin 2) * 400 ≤ (i 0).val ∧ (i 0).val < win0_3.index ⟨24 * ((i 1).val / 2048) + 23, hlt⟩ (0 : Fin 2) * 400 + 400
    rw [e0]; omega
  | ⟨1, _⟩ =>
    show win0_3.index ⟨24 * ((i 1).val / 2048) + 23, hlt⟩ (1 : Fin 2) * 2048 ≤ (i 1).val ∧ (i 1).val < win0_3.index ⟨24 * ((i 1).val / 2048) + 23, hlt⟩ (1 : Fin 2) * 2048 + 2048
    rw [e1']; omega

theorem out0_eq (c : Dev nD) :
    (dat0 (F := Ideal) V c).arrAt 3 cfg0.N = layerOut0 (V c main_v110) (V c main_v111) (V c main_v112) :=
  (dat0 V c).arrAt_eq_of_cover 3 (layerOut0 (V c main_v110) (V c main_v111) (V c main_v112)) (flushed0_eq V c) cover0

end Region0Array

end Cert.KernelIdeal.Val

end
-- ==== Proof.KI.R1Pieces.lean ====
import proofs.«406476_j70849780514835_3_alg».proof.Proof.KI.R1Frame
import Idealize.ShloMosaic.Lib.Pipeline.Value

/-! Layer 2: what each position of k leaves, as the body's arithmetic. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

theorem zeroOff : (![0, 0] : Fin 2 → Nat) = fun _ => 0 := funext fun a => by fin_cases a <;> rfl

section

variable (c : Dev nD) (i : grid1.Coords) (arg2 : Memref sig .tc .vmem S400x1024 .bf16) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S200x2048 .f32) (harg5 : arg5.IsWhole) (arg6 : Memref sig .tc .vmem S400x2048 .f32) (harg6 : arg6.IsWhole)

theorem accFirst_eq (hc0 : isFirstK i) (hc1 : ¬isLastK i) (x0 : Vec F S400x1024 .bf16) (x1 : Vec F S1024x2048 .f32) (x2 : Vec F S1x2048 .f32) :
    accFirst c i arg2 harg2 arg3 harg3 arg4 harg4 arg5 harg5 arg6 harg6 hc0 hc1 x0 x1 x2 = k1_pay2 x1 (k1_pay1 (F := F)) x0 := by
  unfold accFirst
  rw [View.read_writes_eq_canon _ _ _ (accCoverFirst c i arg2 harg2 arg3 harg3 arg4 harg4 arg5 harg5 arg6 harg6 hc0 hc1 x0 x1 x2)]
  unfold runFirst
  dsimp only
  try sl_unfold_words
  rw [View.canon_cons_unit_zero (S := S400x2048) zeroOff, View.readCov_unit_zero (S := S400x2048) _ zeroOff]
  simp only [View.readAt_eq_ld, harg2.read_unread, harg3.read_unread, harg4.read_unread, harg6.read_unread, View.ld_unit_zero (S := S400x1024) zeroOff, View.ld_unit_zero (S := S1024x2048) zeroOff, View.ld_unit_zero (S := S1x2048) zeroOff, View.ld_unit_zero (S := S400x2048) zeroOff]

theorem accMiddle_eq (hc0 : ¬isFirstK i) (hc1 : ¬isLastK i) (x0 : Vec F S400x1024 .bf16) (x1 : Vec F S1024x2048 .f32) (x2 : Vec F S1x2048 .f32) (xs : Vec F S400x2048 .f32) :
    accMiddle c i arg2 harg2 arg3 harg3 arg4 harg4 arg5 harg5 arg6 harg6 hc0 hc1 x0 x1 x2 xs = k1_pay2 x1 xs x0 := by
  unfold accMiddle
  rw [View.read_writes_eq_canon _ _ _ (accCoverMiddle c i arg2 harg2 arg3 harg3 arg4 harg4 arg5 harg5 arg6 harg6 hc0 hc1 x0 x1 x2 xs)]
  unfold runMiddle
  dsimp only
  try sl_unfold_words
  rw [View.canon_unit_zero (S := S400x2048) zeroOff]
  simp only [View.readAt_eq_ld, harg2.read_unread, harg3.read_unread, harg4.read_unread, harg6.read_unread, View.ld_unit_zero (S := S400x1024) zeroOff, View.ld_unit_zero (S := S1024x2048) zeroOff, View.ld_unit_zero (S := S1x2048) zeroOff, View.ld_unit_zero (S := S400x2048) zeroOff]

theorem accLast_eq (hc0 : ¬isFirstK i) (hc1 : isLastK i) (x0 : Vec F S400x1024 .bf16) (x1 : Vec F S1024x2048 .f32) (x2 : Vec F S1x2048 .f32) (xs : Vec F S400x2048 .f32) :
    accLast c i arg2 harg2 arg3 harg3 arg4 harg4 arg5 harg5 arg6 harg6 hc0 hc1 x0 x1 x2 xs = k1_pay2 x1 xs x0 := by
  unfold accLast
  rw [View.read_writes_eq_canon _ _ _ (accCoverLast c i arg2 harg2 arg3 harg3 arg4 harg4 arg5 harg5 arg6 harg6 hc0 hc1 x0 x1 x2 xs)]
  unfold runLast
  dsimp only
  try sl_unfold_words
  rw [View.canon_unit_zero (S := S400x2048) zeroOff]
  simp only [View.readAt_eq_ld, harg2.read_unread, harg3.read_unread, harg4.read_unread, harg6.read_unread, View.ld_unit_zero (S := S400x1024) zeroOff, View.ld_unit_zero (S := S1024x2048) zeroOff, View.ld_unit_zero (S := S1x2048) zeroOff, View.ld_unit_zero (S := S400x2048) zeroOff]

theorem outLast_eq (hc0 : ¬isFirstK i) (hc1 : isLastK i) (x0 : Vec F S400x1024 .bf16) (x1 : Vec F S1024x2048 .f32) (x2 : Vec F S1x2048 .f32) (xs : Vec F S400x2048 .f32) :
    outLast c i arg2 harg2 arg3 harg3 arg4 harg4 arg5 harg5 arg6 harg6 hc0 hc1 x0 x1 x2 xs = k1_pay3 (k1_pay2 x1 xs x0) x2 := by
  unfold outLast
  rw [View.read_writes_eq_canon _ _ _ (outCoverLast c i arg2 harg2 arg3 harg3 arg4 harg4 arg5 harg5 arg6 harg6 hc0 hc1 x0 x1 x2 xs)]
  unfold runLast
  dsimp only
  try sl_unfold_words
  rw [View.canon_unit_zero (S := S200x2048) zeroOff, View.readCov_unit_zero (S := S400x2048) _ zeroOff]
  simp only [View.readAt_eq_ld, harg2.read_unread, harg3.read_unread, harg4.read_unread, harg6.read_unread, View.ld_unit_zero (S := S400x1024) zeroOff, View.ld_unit_zero (S := S1024x2048) zeroOff, View.ld_unit_zero (S := S1x2048) zeroOff, View.ld_unit_zero (S := S400x2048) zeroOff]

end

section Region

variable (V : (c : Dev nD) → (b : Ref sig .tc) → Buf (Elt F) ((c : Thread nD τ).loc b))

theorem acc1_first (c : Dev nD) (t : Fin cfg1.N) (hk : t.val % 12 = 0) :
    (outsAt1 V c t.val t.isLt).2 = k1_pay2 (iblk1 V c 1 t) (k1_pay1 (F := F)) (iblk1 V c 0 t) := by
  have h1 : ¬t.val % 12 = 11 := by omega
  rw [outsAt1_A V c t hk h1]; dsimp only
  exact accFirst_eq c (grid1.coords t) (ms1_0 t) (hs1_0 t) (ms1_1 t) (hs1_1 t) (ms1_2 t) (hs1_2 t) (ms1_3 t) (hs1_3 t) accM1 (Memref.isWhole_whole _) ((isFirstK_iff t).mpr hk) (fun h => h1 ((isLastK_iff t).mp h)) (iblk1 V c 0 t) (iblk1 V c 1 t) (iblk1 V c 2 t)

theorem acc1_step (c : Dev nD) (t : Fin cfg1.N) (hk : ¬t.val % 12 = 0) :
    (outsAt1 V c t.val t.isLt).2 = k1_pay2 (iblk1 V c 1 t) (outsAt1 V c (t.val - 1) (Nat.lt_of_le_of_lt (Nat.sub_le _ _) t.isLt)).2 (iblk1 V c 0 t) := by
  by_cases h1 : t.val % 12 = 11
  · rw [outsAt1_C V c t hk h1]; dsimp only
    exact accLast_eq c (grid1.coords t) (ms1_0 t) (hs1_0 t) (ms1_1 t) (hs1_1 t) (ms1_2 t) (hs1_2 t) (ms1_3 t) (hs1_3 t) accM1 (Memref.isWhole_whole _) (fun h => hk ((isFirstK_iff t).mp h)) ((isLastK_iff t).mpr h1) (iblk1 V c 0 t) (iblk1 V c 1 t) (iblk1 V c 2 t) (outsAt1 V c (t.val - 1) (Nat.lt_of_le_of_lt (Nat.sub_le _ _) t.isLt)).2
  · rw [outsAt1_B V c t hk h1]; dsimp only
    exact accMiddle_eq c (grid1.coords t) (ms1_0 t) (hs1_0 t) (ms1_1 t) (hs1_1 t) (ms1_2 t) (hs1_2 t) (ms1_3 t) (hs1_3 t) accM1 (Memref.isWhole_whole _) (fun h => hk ((isFirstK_iff t).mp h)) (fun h => h1 ((isLastK_iff t).mp h)) (iblk1 V c 0 t) (iblk1 V c 1 t) (iblk1 V c 2 t) (outsAt1 V c (t.val - 1) (Nat.lt_of_le_of_lt (Nat.sub_le _ _) t.isLt)).2

theorem out1_last (c : Dev nD) (t : Fin cfg1.N) (hk : t.val % 12 = 11) :
    (outsAt1 V c t.val t.isLt).1 = k1_pay3 (outsAt1 V c t.val t.isLt).2 (iblk1 V c 2 t) := by
  have h0 : ¬t.val % 12 = 0 := by omega
  rw [outsAt1_C V c t h0 hk]; dsimp only
  exact (outLast_eq c (grid1.coords t) (ms1_0 t) (hs1_0 t) (ms1_1 t) (hs1_1 t) (ms1_2 t) (hs1_2 t) (ms1_3 t) (hs1_3 t) accM1 (Memref.isWhole_whole _) (fun h => h0 ((isFirstK_iff t).mp h)) ((isLastK_iff t).mpr hk) (iblk1 V c 0 t) (iblk1 V c 1 t) (iblk1 V c 2 t) (outsAt1 V c (t.val - 1) (Nat.lt_of_le_of_lt (Nat.sub_le _ _) t.isLt)).2).trans
    (congrArg (fun a => k1_pay3 a (iblk1 V c 2 t))
      (accLast_eq c (grid1.coords t) (ms1_0 t) (hs1_0 t) (ms1_1 t) (hs1_1 t) (ms1_2 t) (hs1_2 t) (ms1_3 t) (hs1_3 t) accM1 (Memref.isWhole_whole _) (fun h => h0 ((isFirstK_iff t).mp h)) ((isLastK_iff t).mpr hk) (iblk1 V c 0 t) (iblk1 V c 1 t) (iblk1 V c 2 t) (outsAt1 V c (t.val - 1) (Nat.lt_of_le_of_lt (Nat.sub_le _ _) t.isLt)).2).symm)

end Region

end Cert.KernelIdeal.Hand

end
-- ==== Proof.KV.R1Value.lean ====
import proofs.«406476_j70849780514835_3_alg».proof.Proof.KI.R1Pieces
import proofs.«406476_j70849780514835_3_alg».proof.Proof.Gen.KernelIdeal.Launch
import proofs.«406476_j70849780514835_3_alg».proof.Proof.Gen.KernelIdeal.Points
import proofs.«406476_j70849780514835_3_alg».proof.Proof.KV.Payload
import proofs.«406476_j70849780514835_3_alg».proof.Proof.Math.KBlock
import Idealize.ShloMosaic.Lib.Pipeline.Value
import Idealize.ShloMosaic.Lib.ValueIdx
import Idealize.ShloMosaic.Lib.Tactic

/-! Layer 2 as one function of its three arrays: 12 block sums of 1024 terms are the one sum over 12288 positions;
    then the bias, the maximum with zero, and row r times row 200 + r. -/

set_option maxRecDepth 16384

noncomputable section

open scoped BigOperators
open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Hand Idealize.ShloMosaic.ValueIdx

def rowLo (r : Fin 200) : Fin 400 := ⟨r.val, by have := r.isLt; omega⟩

def rowHi (r : Fin 200) : Fin 400 := ⟨200 + r.val, by have := r.isLt; omega⟩

def layerOut1 (A : FVec Ideal S400x12288 .bf16) (B : FVec Ideal S12288x4096 .f32) (b : FVec Ideal S1x4096 .f32) :
    FVec Ideal S200x4096 .f32 :=
  fun i => max ((∑ k : Fin 12288, A (ix2 (rowLo (i 0)) k) * B (ix2 k (i 1))) + b (ix2 (0 : Fin 1) (i 1))) 0
    * max ((∑ k : Fin 12288, A (ix2 (rowHi (i 0)) k) * B (ix2 k (i 1))) + b (ix2 (0 : Fin 1) (i 1))) 0

theorem layerOut1_apply (A : FVec Ideal S400x12288 .bf16) (B : FVec Ideal S12288x4096 .f32) (b : FVec Ideal S1x4096 .f32)
    (r : Fin 200) (q : Fin 4096) :
    layerOut1 A B b (ix2 r q) = max ((∑ k : Fin 12288, A (ix2 (rowLo r) k) * B (ix2 k q)) + b (ix2 (0 : Fin 1) q)) 0
      * max ((∑ k : Fin 12288, A (ix2 (rowHi r) k) * B (ix2 k q)) + b (ix2 (0 : Fin 1) q)) 0 := rfl

theorem idx1_0 : ∀ t : Fin cfg1.N, win1_0.index t (0 : Fin 2) = 0 ∧ win1_0.index t (1 : Fin 2) = t.val % 12 :=
  (by decide +kernel : ∀ t : Fin grid1.N, win1_0.index t (0 : Fin 2) = 0 ∧ win1_0.index t (1 : Fin 2) = t.val % 12)

theorem idx1_1 : ∀ t : Fin cfg1.N, win1_1.index t (0 : Fin 2) = t.val % 12 ∧ win1_1.index t (1 : Fin 2) = t.val / 12 :=
  (by decide +kernel : ∀ t : Fin grid1.N, win1_1.index t (0 : Fin 2) = t.val % 12 ∧ win1_1.index t (1 : Fin 2) = t.val / 12)

theorem idx1_2 : ∀ t : Fin cfg1.N, win1_2.index t (0 : Fin 2) = 0 ∧ win1_2.index t (1 : Fin 2) = t.val / 12 :=
  (by decide +kernel : ∀ t : Fin grid1.N, win1_2.index t (0 : Fin 2) = 0 ∧ win1_2.index t (1 : Fin 2) = t.val / 12)

theorem idx1_3 : ∀ t : Fin cfg1.N, win1_3.index t (0 : Fin 2) = 0 ∧ win1_3.index t (1 : Fin 2) = t.val / 12 :=
  (by decide +kernel : ∀ t : Fin grid1.N, win1_3.index t (0 : Fin 2) = 0 ∧ win1_3.index t (1 : Fin 2) = t.val / 12)

section Region1

variable (V : (c : Dev nD) → (b : Ref sig .tc) → Buf (Elt Ideal) ((c : Thread nD τ).loc b))

abbrev arrA1 (c : Dev nD) : FVec Ideal S400x12288 .bf16 := V c main_v134

abbrev arrB1 (c : Dev nD) : FVec Ideal S12288x4096 .f32 := V c main_v135

abbrev arrC1 (c : Dev nD) : FVec Ideal S1x4096 .f32 := V c main_v136

abbrev lhsBlk1 (c : Dev nD) (t : Fin cfg1.N) : FVec Ideal S400x1024 .bf16 := iblk1 V c 0 t

abbrev rhsBlk1 (c : Dev nD) (t : Fin cfg1.N) : FVec Ideal S1024x2048 .f32 := iblk1 V c 1 t

abbrev biasBlk1 (c : Dev nD) (t : Fin cfg1.N) : FVec Ideal S1x2048 .f32 := iblk1 V c 2 t

theorem lhsBlk1_apply (c : Dev nD) (t : Fin cfg1.N) (y : S400x1024.Idx) (k : S400x12288.Idx)
    (hk0 : (k 0).val = (y 0).val) (hk1 : (k 1).val = 1024 * (t.val % 12) + (y 1).val) :
    lhsBlk1 V c t y = arrA1 V c k := by
  unfold lhsBlk1 iblk1 arrA1
  rw [View.read_apply]
  refine congrArg (V c main_v134 : S400x12288.Idx → Elt Ideal .bf16) (funext fun a => Fin.ext ?_)
  match a with
  | ⟨0, _⟩ => show win1_0.index t 0 * 400 + 1 * (y 0).val = (k 0).val; rw [(idx1_0 t).1, hk0]; omega
  | ⟨1, _⟩ => show win1_0.index t 1 * 1024 + 1 * (y 1).val = (k 1).val; rw [(idx1_0 t).2, hk1]; omega

theorem rhsBlk1_apply (c : Dev nD) (t : Fin cfg1.N) (y : S1024x2048.Idx) (k : S12288x4096.Idx)
    (hk0 : (k 0).val = 1024 * (t.val % 12) + (y 0).val) (hk1 : (k 1).val = 2048 * (t.val / 12) + (y 1).val) :
    rhsBlk1 V c t y = arrB1 V c k := by
  unfold rhsBlk1 iblk1 arrB1
  rw [View.read_apply]
  refine congrArg (V c main_v135 : S12288x4096.Idx → Elt Ideal .f32) (funext fun a => Fin.ext ?_)
  match a with
  | ⟨0, _⟩ => show win1_1.index t 0 * 1024 + 1 * (y 0).val = (k 0).val; rw [(idx1_1 t).1, hk0]; omega
  | ⟨1, _⟩ => show win1_1.index t 1 * 2048 + 1 * (y 1).val = (k 1).val; rw [(idx1_1 t).2, hk1]; omega

theorem biasBlk1_apply (c : Dev nD) (t : Fin cfg1.N) (y : S1x2048.Idx) (k : S1x4096.Idx)
    (hk0 : (k 0).val = (y 0).val) (hk1 : (k 1).val = 2048 * (t.val / 12) + (y 1).val) :
    biasBlk1 V c t y = arrC1 V c k := by
  unfold biasBlk1 iblk1 arrC1
  rw [View.read_apply]
  refine congrArg (V c main_v136 : S1x4096.Idx → Elt Ideal .f32) (funext fun a => Fin.ext ?_)
  match a with
  | ⟨0, _⟩ => show win1_2.index t 0 * 1 + 1 * (y 0).val = (k 0).val; rw [(idx1_2 t).1, hk0]; omega
  | ⟨1, _⟩ => show win1_2.index t 1 * 2048 + 1 * (y 1).val = (k 1).val; rw [(idx1_2 t).2, hk1]; omega

def term1 (c : Dev nD) (n : ℕ) (i : S400x2048.Idx) : EReal :=
  if h : n < cfg1.N then ∑ k : Fin 1024, lhsBlk1 V c ⟨n, h⟩ (ix2 (i 0) k) * rhsBlk1 V c ⟨n, h⟩ (ix2 k (i 1)) else 0

theorem acc1_sum (c : Dev nD) (t : Fin cfg1.N) (r : Fin 400) (q : Fin 2048) :
    (outsAt1 V c t.val t.isLt).2 (ix2 r q) = ∑ s ∈ Finset.range (t.val % 12 + 1), term1 V c (12 * (t.val / 12) + s) (ix2 r q) := by
  refine Cert.Math.run_sum 12 (by decide) (fun n h => (outsAt1 V c n h).2 (ix2 r q)) (fun n => term1 V c n (ix2 r q)) ?_ ?_ t.val t.isLt
  · intro n h hn
    refine (congrFun (acc1_first V c ⟨n, h⟩ hn) (ix2 r q)).trans ?_
    rw [k1_pay2_apply, k1_pay1_apply, zero_add]
    unfold term1
    rw [dif_pos h]
  · intro n h hn
    refine (congrFun (acc1_step V c ⟨n + 1, h⟩ hn) (ix2 r q)).trans ?_
    rw [k1_pay2_apply]
    unfold term1
    rw [dif_pos h]
    rfl

theorem acc1_last_apply (c : Dev nD) (t : Fin cfg1.N) (h11 : t.val % 12 = 11) (r : Fin 400) (q : Fin 2048) (Q : Fin 4096)
    (hQ : Q.val = 2048 * (t.val / 12) + q.val) :
    (outsAt1 V c t.val t.isLt).2 (ix2 r q) = ∑ x : Fin 12288, arrA1 V c (ix2 r x) * arrB1 V c (ix2 x Q) := by
  have hN : cfg1.N = 24 := N_1
  have ht : t.val < 24 := lt_of_lt_of_eq t.isLt hN
  rw [acc1_sum V c t r q, h11]
  refine Cert.Math.sum_range_blocks 12 1024 12288 rfl
    (fun x : Fin 12288 => arrA1 V c (ix2 r x) * arrB1 V c (ix2 x Q))
    (fun s => term1 V c (12 * (t.val / 12) + s) (ix2 r q)) fun s => ?_
  have hs : s.val < 12 := s.isLt
  have hlt : 12 * (t.val / 12) + s.val < cfg1.N := lt_of_lt_of_eq (by omega : 12 * (t.val / 12) + s.val < 24) hN.symm
  unfold term1
  rw [dif_pos hlt]
  refine Finset.sum_congr rfl fun k _ => ?_
  have hk : k.val < 1024 := k.isLt
  have hpos : 1024 * s.val + k.val < 12288 := by omega
  rw [lhsBlk1_apply V c ⟨12 * (t.val / 12) + s.val, hlt⟩ (ix2 r k) (ix2 r (⟨1024 * s.val + k.val, hpos⟩ : Fin 12288)) rfl
      (by show 1024 * s.val + k.val = 1024 * ((12 * (t.val / 12) + s.val) % 12) + k.val; omega),
    rhsBlk1_apply V c ⟨12 * (t.val / 12) + s.val, hlt⟩ (ix2 k q) (ix2 (⟨1024 * s.val + k.val, hpos⟩ : Fin 12288) Q)
      (by show 1024 * s.val + k.val = 1024 * ((12 * (t.val / 12) + s.val) % 12) + k.val; omega)
      (by show Q.val = 2048 * ((12 * (t.val / 12) + s.val) / 12) + q.val; omega)]

theorem out1_last_apply (c : Dev nD) (t : Fin cfg1.N) (h11 : t.val % 12 = 11) (y : S200x2048.Idx) (i : S200x4096.Idx)
    (hi0 : (i 0).val = (y 0).val) (hi1 : (i 1).val = 2048 * (t.val / 12) + (y 1).val) :
    (outsAt1 V c t.val t.isLt).1 y = layerOut1 (arrA1 V c) (arrB1 V c) (arrC1 V c) i := by
  obtain ⟨r, q, rfl⟩ : ∃ (r : Fin 200) (q : Fin 2048), y = ix2 r q := ⟨y 0, y 1, eq_ix2 y⟩
  obtain ⟨r', Q, rfl⟩ : ∃ (r' : Fin 200) (Q : Fin 4096), i = ix2 r' Q := ⟨i 0, i 1, eq_ix2 i⟩
  obtain rfl : r' = r := Fin.ext hi0
  have hQ : Q.val = 2048 * (t.val / 12) + q.val := hi1
  refine (congrFun (out1_last V c t h11) (ix2 r' q)).trans ?_
  rw [k1_pay3_apply _ _ r' q (rowLo r') (rowHi r') rfl rfl, layerOut1_apply,
    acc1_last_apply V c t h11 (rowLo r') q Q hQ, acc1_last_apply V c t h11 (rowHi r') q Q hQ]
  have hc : biasBlk1 V c t (ix2 (0 : Fin 1) q) = arrC1 V c (ix2 (0 : Fin 1) Q) :=
    biasBlk1_apply V c t (ix2 (0 : Fin 1) q) (ix2 (0 : Fin 1) Q) rfl hQ
  exact congrArg (fun z => max ((∑ x : Fin 12288, arrA1 V c (ix2 (rowLo r') x) * arrB1 V c (ix2 x Q)) + z) 0
    * max ((∑ x : Fin 12288, arrA1 V c (ix2 (rowHi r') x) * arrB1 V c (ix2 x Q)) + z) 0) hc

theorem flushed1_eq (c : Dev nD) (t : Fin cfg1.N) (hf : (cfg1.win 3).flush t = true) :
    (dat1 V c).flushed 3 t
      = ((cfg1.win 3).blk t).view.read (Elt Ideal) (layerOut1 (V c main_v134) (V c main_v135) (V c main_v136)) := by
  have h11 : t.val % 12 = 11 := (flush1_3 t).mp hf
  show (cfg1.win 3).cut (grid1.coords t) ((dat1 V c).after 3 t) = _
  rw [after1_3]
  funext j
  rw [View.read_apply]
  refine out1_last_apply V c t h11 j _ ?_ ?_
  · show win1_3.index t 0 * 200 + 1 * (j 0).val = (j 0).val
    rw [(idx1_3 t).1]; omega
  · show win1_3.index t 1 * 2048 + 1 * (j 1).val = 2048 * (t.val / 12) + (j 1).val
    rw [(idx1_3 t).2]; omega

theorem mem_blk1 (t : Fin cfg1.N) (i : S200x4096.Idx) :
    i ∈ ((cfg1.win 3).blk t).view.set ↔ ∀ a : Fin 2, win1_3.index t a * S200x2048.size a ≤ (i a).val ∧ (i a).val < win1_3.index t a * S200x2048.size a + S200x2048.size a := by
  show i ∈ ((View.whole main_v137).slice (win1_3.rect t)).set ↔ _
  rw [View.set_slice_whole, Rect.mem_set_unit]
  exact Iff.rfl

theorem cover1 (i : S200x4096.Idx) :
    ∃ t : Fin cfg1.N, (cfg1.win 3).flush t = true ∧ i ∈ ((cfg1.win 3).blk t).view.set := by
  have hN : cfg1.N = 24 := N_1
  have h0 : (i 0).val < 200 := (i 0).isLt
  have h1 : (i 1).val < 4096 := (i 1).isLt
  have hlt : 12 * ((i 1).val / 2048) + 11 < cfg1.N := by rw [hN]; omega
  refine ⟨⟨12 * ((i 1).val / 2048) + 11, hlt⟩, (flush1_3 _).mpr (by show (12 * ((i 1).val / 2048) + 11) % 12 = 11; omega), ?_⟩
  rw [mem_blk1]
  obtain ⟨e0, e1⟩ := idx1_3 ⟨12 * ((i 1).val / 2048) + 11, hlt⟩
  have e1' : win1_3.index ⟨12 * ((i 1).val / 2048) + 11, hlt⟩ (1 : Fin 2) = (12 * ((i 1).val / 2048) + 11) / 12 := e1
  intro a
  match a with
  | ⟨0, _⟩ =>
    show win1_3.index ⟨12 * ((i 1).val / 2048) + 11, hlt⟩ (0 : Fin 2) * 200 ≤ (i 0).val ∧ (i 0).val < win1_3.index ⟨12 * ((i 1).val / 2048) + 11, hlt⟩ (0 : Fin 2) * 200 + 200
    rw [e0]; omega
  | ⟨1, _⟩ =>
    show win1_3.index ⟨12 * ((i 1).val / 2048) + 11, hlt⟩ (1 : Fin 2) * 2048 ≤ (i 1).val ∧ (i 1).val < win1_3.index ⟨12 * ((i 1).val / 2048) + 11, hlt⟩ (1 : Fin 2) * 2048 + 2048
    rw [e1']; omega

theorem out1_eq (c : Dev nD) :
    (dat1 (F := Ideal) V c).arrAt 3 cfg1.N = layerOut1 (V c main_v134) (V c main_v135) (V c main_v136) :=
  (dat1 V c).arrAt_eq_of_cover 3 (layerOut1 (V c main_v134) (V c main_v135) (V c main_v136)) (flushed1_eq V c) cover1

end Region1

end Cert.KernelIdeal.Val

end
-- ==== Proof.Bridge.RefLayer.lean ====
import proofs.«406476_j70849780514835_3_alg».proof.Proof.RefRead
import Idealize.ShloMosaic.Lib.ValueIdx

/-! A reference layer at entry (r, q): max((x·W₀ + T₁·W₁ + T₂·W₂)(r, q) + b q, 0), each product a sum over the
    feature axis, with T₂ = 2·(L T₁) − x. -/

set_option maxRecDepth 16384

noncomputable section

namespace Cert.Bridge

open Cert.ReferenceIdeal Cert.ReferenceIdeal.Gen Cert.ReferenceIdeal.ReadP
open Idealize.ShloMosaic Idealize.ShloMosaic.ValueIdx
open scoped BigOperators

theorem w1_slab0 (x6 : (⟨S3x8192x4096, .f32⟩ : BufTy).Contents (Elt Ideal)) (k : Fin 8192) (q : Fin 4096) :
    val_main_v62 (F := Ideal) x6 (ix2 k q) = x6 (ix3 (0 : Fin 3) k q) := by
  rw [val_main_v62_apply, val_main_v61_apply]
  refine congrArg x6 (funext fun a => ?_)
  match a with
  | ⟨0, _⟩ => rfl
  | ⟨1, _⟩ => exact Fin.ext (by have := k.isLt; have := q.isLt; show (k.val * 4096 + q.val) / 4096 % 8192 = k.val; omega)
  | ⟨2, _⟩ => exact Fin.ext (by have := k.isLt; have := q.isLt; show (k.val * 4096 + q.val) % 4096 = q.val; omega)

theorem w1_slab1 (x6 : (⟨S3x8192x4096, .f32⟩ : BufTy).Contents (Elt Ideal)) (k : Fin 8192) (q : Fin 4096) :
    val_main_v65 (F := Ideal) x6 (ix2 k q) = x6 (ix3 (1 : Fin 3) k q) := by
  rw [val_main_v65_apply, val_main_v64_apply]
  refine congrArg x6 (funext fun a => ?_)
  match a with
  | ⟨0, _⟩ => rfl
  | ⟨1, _⟩ => exact Fin.ext (by have := k.isLt; have := q.isLt; show (k.val * 4096 + q.val) / 4096 % 8192 = k.val; omega)
  | ⟨2, _⟩ => exact Fin.ext (by have := k.isLt; have := q.isLt; show (k.val * 4096 + q.val) % 4096 = q.val; omega)

theorem w1_slab2 (x6 : (⟨S3x8192x4096, .f32⟩ : BufTy).Contents (Elt Ideal)) (k : Fin 8192) (q : Fin 4096) :
    val_main_v69 (F := Ideal) x6 (ix2 k q) = x6 (ix3 (2 : Fin 3) k q) := by
  rw [val_main_v69_apply, val_main_v68_apply]
  refine congrArg x6 (funext fun a => ?_)
  match a with
  | ⟨0, _⟩ => rfl
  | ⟨1, _⟩ => exact Fin.ext (by have := k.isLt; have := q.isLt; show (k.val * 4096 + q.val) / 4096 % 8192 = k.val; omega)
  | ⟨2, _⟩ => exact Fin.ext (by have := k.isLt; have := q.isLt; show (k.val * 4096 + q.val) % 4096 = q.val; omega)

theorem lidx1 (r : Fin 200) (q : Fin 4096) (k : Fin 8192) : lidx_main_v63 (ix2 r q) k = ix2 r k := by
  funext a; match a with | ⟨0, _⟩ => rfl | ⟨1, _⟩ => rfl

theorem ridx1 (r : Fin 200) (q : Fin 4096) (k : Fin 8192) : ridx_main_v63 (ix2 r q) k = ix2 k q := by
  funext a; match a with | ⟨0, _⟩ => rfl | ⟨1, _⟩ => rfl

theorem bias1_at (x7 : (⟨S4096, .f32⟩ : BufTy).Contents (Elt Ideal)) (r : Fin 200) (q : Fin 4096) :
    val_main_v73 (F := Ideal) x7 (ix2 r q) = x7 (ix1 q) := by
  rw [val_main_v73_apply, val_main_v72_apply]
  refine congrArg x7 (funext fun a => ?_)
  match a with
  | ⟨0, _⟩ => rfl

theorem ref_h_apply (x0 : (⟨S200x8192, .f32⟩ : BufTy).Contents (Elt Ideal)) (x2 : (⟨S2x3200, .i32⟩ : BufTy).Contents (Elt Ideal)) (x4 : (⟨S3200, .f32⟩ : BufTy).Contents (Elt Ideal)) (x6 : (⟨S3x8192x4096, .f32⟩ : BufTy).Contents (Elt Ideal)) (x7 : (⟨S4096, .f32⟩ : BufTy).Contents (Elt Ideal)) (r : Fin 200) (q : Fin 4096) :
    val_main_v75 (F := Ideal) x0 x2 x4 x6 x7 (ix2 r q)
      = max ((((∑ k : Fin 8192, x0 (ix2 r k) * x6 (ix3 (0 : Fin 3) k q))
              + ∑ k : Fin 8192, val_main_v43 (F := Ideal) x0 x2 x4 (ix2 r k) * x6 (ix3 (1 : Fin 3) k q))
              + ∑ k : Fin 8192, val_main_v60 (F := Ideal) x0 x2 x4 (ix2 r k) * x6 (ix3 (2 : Fin 3) k q))
            + x7 (ix1 q)) 0 := by
  rw [val_main_v75_apply, val_main_v74_apply, val_main_v71_apply, val_main_v67_apply, val_main_v63_apply,
    val_main_v66_apply, val_main_v70_apply, bias1_at, val_main_call2_v0_apply, val_main_call2_cst_apply]
  simp only [Ideal.maximumf_def, Ideal.addf_def, Ideal.ofBits_def, Ideal.ofBits_zero_f32]
  refine congrArg₂ max (congrArg₂ (· + ·) (congrArg₂ (· + ·) (congrArg₂ (· + ·) ?_ ?_) ?_) rfl) rfl
  · refine Finset.sum_congr rfl fun k _ => ?_
    rw [lidx1, ridx1, w1_slab0]
  · refine Finset.sum_congr rfl fun k _ => ?_
    rw [show lidx_main_v66 (ix2 r q) k = ix2 r k from lidx1 r q k, show ridx_main_v66 (ix2 r q) k = ix2 k q from ridx1 r q k, w1_slab1]
  · refine Finset.sum_congr rfl fun k _ => ?_
    rw [show lidx_main_v70 (ix2 r q) k = ix2 r k from lidx1 r q k, show ridx_main_v70 (ix2 r q) k = ix2 k q from ridx1 r q k, w1_slab2]

theorem w2_slab0 (x8 : (⟨S3x4096x4096, .f32⟩ : BufTy).Contents (Elt Ideal)) (k : Fin 4096) (q : Fin 4096) :
    val_main_v134 (F := Ideal) x8 (ix2 k q) = x8 (ix3 (0 : Fin 3) k q) := by
  rw [val_main_v134_apply, val_main_v133_apply]
  refine congrArg x8 (funext fun a => ?_)
  match a with
  | ⟨0, _⟩ => rfl
  | ⟨1, _⟩ => exact Fin.ext (by have := k.isLt; have := q.isLt; show (k.val * 4096 + q.val) / 4096 % 4096 = k.val; omega)
  | ⟨2, _⟩ => exact Fin.ext (by have := k.isLt; have := q.isLt; show (k.val * 4096 + q.val) % 4096 = q.val; omega)

theorem w2_slab1 (x8 : (⟨S3x4096x4096, .f32⟩ : BufTy).Contents (Elt Ideal)) (k : Fin 4096) (q : Fin 4096) :
    val_main_v137 (F := Ideal) x8 (ix2 k q) = x8 (ix3 (1 : Fin 3) k q) := by
  rw [val_main_v137_apply, val_main_v136_apply]
  refine congrArg x8 (funext fun a => ?_)
  match a with
  | ⟨0, _⟩ => rfl
  | ⟨1, _⟩ => exact Fin.ext (by have := k.isLt; have := q.isLt; show (k.val * 4096 + q.val) / 4096 % 4096 = k.val; omega)
  | ⟨2, _⟩ => exact Fin.ext (by have := k.isLt; have := q.isLt; show (k.val * 4096 + q.val) % 4096 = q.val; omega)

theorem w2_slab2 (x8 : (⟨S3x4096x4096, .f32⟩ : BufTy).Contents (Elt Ideal)) (k : Fin 4096) (q : Fin 4096) :
    val_main_v141 (F := Ideal) x8 (ix2 k q) = x8 (ix3 (2 : Fin 3) k q) := by
  rw [val_main_v141_apply, val_main_v140_apply]
  refine congrArg x8 (funext fun a => ?_)
  match a with
  | ⟨0, _⟩ => rfl
  | ⟨1, _⟩ => exact Fin.ext (by have := k.isLt; have := q.isLt; show (k.val * 4096 + q.val) / 4096 % 4096 = k.val; omega)
  | ⟨2, _⟩ => exact Fin.ext (by have := k.isLt; have := q.isLt; show (k.val * 4096 + q.val) % 4096 = q.val; omega)

theorem lidx2 (r : Fin 200) (q : Fin 4096) (k : Fin 4096) : lidx_main_v135 (ix2 r q) k = ix2 r k := by
  funext a; match a with | ⟨0, _⟩ => rfl | ⟨1, _⟩ => rfl

theorem ridx2 (r : Fin 200) (q : Fin 4096) (k : Fin 4096) : ridx_main_v135 (ix2 r q) k = ix2 k q := by
  funext a; match a with | ⟨0, _⟩ => rfl | ⟨1, _⟩ => rfl

theorem bias2_at (x9 : (⟨S4096, .f32⟩ : BufTy).Contents (Elt Ideal)) (r : Fin 200) (q : Fin 4096) :
    val_main_v145 (F := Ideal) x9 (ix2 r q) = x9 (ix1 q) := by
  rw [val_main_v145_apply, val_main_v144_apply]
  refine congrArg x9 (funext fun a => ?_)
  match a with
  | ⟨0, _⟩ => rfl

theorem ref_o_apply (x0 : (⟨S200x8192, .f32⟩ : BufTy).Contents (Elt Ideal)) (x2 : (⟨S2x3200, .i32⟩ : BufTy).Contents (Elt Ideal)) (x4 : (⟨S3200, .f32⟩ : BufTy).Contents (Elt Ideal)) (x6 : (⟨S3x8192x4096, .f32⟩ : BufTy).Contents (Elt Ideal)) (x7 : (⟨S4096, .f32⟩ : BufTy).Contents (Elt Ideal)) (x8 : (⟨S3x4096x4096, .f32⟩ : BufTy).Contents (Elt Ideal)) (x9 : (⟨S4096, .f32⟩ : BufTy).Contents (Elt Ideal)) (r : Fin 200) (q : Fin 4096) :
    val_main_v147 (F := Ideal) x0 x2 x4 x6 x7 x8 x9 (ix2 r q)
      = max ((((∑ k : Fin 4096, val_main_v75 (F := Ideal) x0 x2 x4 x6 x7 (ix2 r k) * x8 (ix3 (0 : Fin 3) k q))
              + ∑ k : Fin 4096, val_main_v115 (F := Ideal) x0 x2 x4 x6 x7 (ix2 r k) * x8 (ix3 (1 : Fin 3) k q))
              + ∑ k : Fin 4096, val_main_v132 (F := Ideal) x0 x2 x4 x6 x7 (ix2 r k) * x8 (ix3 (2 : Fin 3) k q))
            + x9 (ix1 q)) 0 := by
  rw [val_main_v147_apply, val_main_v146_apply, val_main_v143_apply, val_main_v139_apply, val_main_v135_apply,
    val_main_v138_apply, val_main_v142_apply, bias2_at, val_main_call5_v0_apply, val_main_call5_cst_apply]
  simp only [Ideal.maximumf_def, Ideal.addf_def, Ideal.ofBits_def, Ideal.ofBits_zero_f32]
  refine congrArg₂ max (congrArg₂ (· + ·) (congrArg₂ (· + ·) (congrArg₂ (· + ·) ?_ ?_) ?_) rfl) rfl
  · refine Finset.sum_congr rfl fun k _ => ?_
    rw [lidx2, ridx2, w2_slab0]
  · refine Finset.sum_congr rfl fun k _ => ?_
    rw [show lidx_main_v138 (ix2 r q) k = ix2 r k from lidx2 r q k, show ridx_main_v138 (ix2 r q) k = ix2 k q from ridx2 r q k, w2_slab1]
  · refine Finset.sum_congr rfl fun k _ => ?_
    rw [show lidx_main_v142 (ix2 r q) k = ix2 r k from lidx2 r q k, show ridx_main_v142 (ix2 r q) k = ix2 k q from ridx2 r q k, w2_slab2]

def tailR (P : FVec Ideal S200x4096 .f32) (x10 : FVec Ideal S200x100 .f32) (x11 : FVec Ideal S100 .f32)
    (x12 : FVec Ideal S100x1 .f32) (x13 : FVec Ideal S1 .f32) : FVec Ideal S4096x1 .f32 :=
  addf
    (Host.dotGeneral dot_S4096x100_S100x1_S4096x1_1_0_0_1_n_n none
      (maximumf
        (addf
          (Host.dotGeneral dot_S4096x200_S200x100_S4096x100_1_0_0_1_n_n none
            (transpose S4096x200 [1, 0] P transposes_S200x4096_S4096x200_1_0) x10)
          (broadcastInDim S4096x100 ![0, 1] bcast_S1x100_S4096x100_0_1 (broadcastInDim S1x100 ![1] bcast_S100_S1x100_1 x11)))
        (broadcastInDim S4096x100 ![] bcast_S_S4096x100 (constant (F := Ideal) S_ .f32 0x00000000#32)))
      x12)
    (broadcastInDim S4096x1 ![0, 1] bcast_S1x1_S4096x1_0_1 (broadcastInDim S1x1 ![1] bcast_S1_S1x1_1 x13))

theorem ref_tail (x0 : (⟨S200x8192, .f32⟩ : BufTy).Contents (Elt Ideal)) (x1 : (⟨S200x8192, .f32⟩ : BufTy).Contents (Elt Ideal)) (x2 : (⟨S2x3200, .i32⟩ : BufTy).Contents (Elt Ideal)) (x3 : (⟨S2x3200, .i32⟩ : BufTy).Contents (Elt Ideal)) (x4 : (⟨S3200, .f32⟩ : BufTy).Contents (Elt Ideal)) (x5 : (⟨S3200, .f32⟩ : BufTy).Contents (Elt Ideal)) (x6 : (⟨S3x8192x4096, .f32⟩ : BufTy).Contents (Elt Ideal)) (x7 : (⟨S4096, .f32⟩ : BufTy).Contents (Elt Ideal)) (x8 : (⟨S3x4096x4096, .f32⟩ : BufTy).Contents (Elt Ideal)) (x9 : (⟨S4096, .f32⟩ : BufTy).Contents (Elt Ideal)) (x10 : (⟨S200x100, .f32⟩ : BufTy).Contents (Elt Ideal)) (x11 : (⟨S100, .f32⟩ : BufTy).Contents (Elt Ideal)) (x12 : (⟨S100x1, .f32⟩ : BufTy).Contents (Elt Ideal)) (x13 : (⟨S1, .f32⟩ : BufTy).Contents (Elt Ideal)) :
    val_main_v306 (F := Ideal) x0 x1 x2 x3 x4 x5 x6 x7 x8 x9 x10 x11 x12 x13
      = tailR (val_main_v296 (F := Ideal) x0 x1 x2 x3 x4 x5 x6 x7 x8 x9) x10 x11 x12 x13 := rfl

theorem ref_prod_apply (x0 : (⟨S200x8192, .f32⟩ : BufTy).Contents (Elt Ideal)) (x1 : (⟨S200x8192, .f32⟩ : BufTy).Contents (Elt Ideal)) (x2 : (⟨S2x3200, .i32⟩ : BufTy).Contents (Elt Ideal)) (x3 : (⟨S2x3200, .i32⟩ : BufTy).Contents (Elt Ideal)) (x4 : (⟨S3200, .f32⟩ : BufTy).Contents (Elt Ideal)) (x5 : (⟨S3200, .f32⟩ : BufTy).Contents (Elt Ideal)) (x6 : (⟨S3x8192x4096, .f32⟩ : BufTy).Contents (Elt Ideal)) (x7 : (⟨S4096, .f32⟩ : BufTy).Contents (Elt Ideal)) (x8 : (⟨S3x4096x4096, .f32⟩ : BufTy).Contents (Elt Ideal)) (x9 : (⟨S4096, .f32⟩ : BufTy).Contents (Elt Ideal)) (i : S200x4096.Idx) :
    val_main_v296 (F := Ideal) x0 x1 x2 x3 x4 x5 x6 x7 x8 x9 i
      = val_main_v147 (F := Ideal) x0 x2 x4 x6 x7 x8 x9 i * val_main_v295 (F := Ideal) x1 x3 x5 x6 x7 x8 x9 i := rfl

end Cert.Bridge

end
-- ==== Proof.LibERealBatchNorm.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Analysis.SpecialFunctions.Pow.Real
import Mathlib.Tactic.Ring
import Mathlib.Tactic.FieldSimp
import Mathlib.Tactic.Positivity
import Mathlib.Tactic.Linarith

/-! Extended reals that are real numbers: sums, differences, products, maxima, finite sums, a quotient by a nonzero real and
    the inverse square root of a positive real are again real; the coercion from ℝ commutes with finite sums. -/

noncomputable section

namespace Cert.ERealBN

open Idealize.ShloMosaic
open scoped BigOperators

def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

theorem IsReal.div_coe {x : EReal} (hx : IsReal x) {r : ℝ} (hr : r ≠ 0) : IsReal (Ideal.div x (r : EReal)) := by
  rw [Ideal.div_coe hr x]
  exact IsReal.mul hx (IsReal.coe _)

theorem IsReal.rsqrt_of_pos {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg hr.ne']
  exact ⟨_, rfl⟩

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

private theorem div_sum_coe {ι : Type*} [Fintype ι] (f : ι → ℝ) {N : ℝ} (hN : N ≠ 0) :
    Ideal.div (∑ i, ((f i : ℝ) : EReal)) (N : EReal) = (((∑ i, f i) * (1 / N) : ℝ) : EReal) := by
  rw [Ideal.div_coe hN, coe_sum, ← EReal.coe_mul]

private theorem sum_dev_sq {ι : Type*} [Fintype ι] (f : ι → ℝ) (m : ℝ) :
    ∑ i, (f i - m) * (f i - m)
      = ∑ i, f i * f i - 2 * m * ∑ i, f i + (Fintype.card ι : ℝ) * (m * m) := by
  have h : ∀ i, (f i - m) * (f i - m) = f i * f i - 2 * m * f i + m * m := fun i => by ring
  simp_rw [h, Finset.sum_add_distrib, Finset.sum_sub_distrib, ← Finset.mul_sum, Finset.sum_const,
    Finset.card_univ, nsmul_eq_mul]
  ring

private theorem dev_coe {ι : Type*} [Fintype ι] (f : ι → ℝ) {N : ℝ} (hN : N ≠ 0) :
    Ideal.div (∑ i, (((f i : ℝ) : EReal) - Ideal.div (∑ i, ((f i : ℝ) : EReal)) (N : EReal))
        * (((f i : ℝ) : EReal) - Ideal.div (∑ i, ((f i : ℝ) : EReal)) (N : EReal))) (N : EReal)
      = (((∑ i, (f i - (∑ i, f i) * (1 / N)) * (f i - (∑ i, f i) * (1 / N))) * (1 / N) : ℝ) : EReal) := by
  rw [div_sum_coe f hN]
  simp_rw [← EReal.coe_sub, ← EReal.coe_mul]
  rw [div_sum_coe _ hN]

end Cert.ERealBN

end
-- ==== Proof.Math.Prop.lean ====
import Idealize.ShloMosaic.PureOps.Ideal
import Idealize.ShloMosaic.PureOps.Ideal.Laws
import Idealize.ShloMosaic.Lib.ValueIdx
import proofs.«406476_j70849780514835_3_alg».proof.Proof.LibERealBatchNorm

/-! A weighted edge list applied to a node-indexed matrix: adding the weights into a 200 × 200 matrix and
    multiplying, or gathering source rows, scaling them and adding them into target rows, agree when the node
    words are in range and every entry is real. -/

noncomputable section

namespace Cert.Math

open Idealize.ShloMosaic Idealize.ShloMosaic.ValueIdx Cert.ERealBN
open scoped BigOperators

def InRange (w : BitVec 32) : Prop := 0 ≤ w.toInt ∧ w.toInt < 200

def nd (w : BitVec 32) : Fin 200 := ⟨w.toInt.toNat % 200, Nat.mod_lt _ (by decide)⟩

theorem nd_val {w : BitVec 32} (h : InRange w) : ((nd w).val : Int) = w.toInt := by
  obtain ⟨h0, h1⟩ := h
  show ((w.toInt.toNat % 200 : ℕ) : Int) = w.toInt
  omega

theorem norm_word {w z c : BitVec 32} (h : InRange w) (hz : z = 0#32) :
    Scalar.select (IntOp.cmpi .slt w z) (IntOp.addi w c) w = w := by
  subst hz
  have hlt : ¬ (w.toInt < (0#32 : BitVec 32).toInt) := by
    rw [BitVec.toInt_zero]; exact not_lt.mpr h.1
  have hs : IntOp.cmpi .slt w 0#32 = 0#1 := by
    show BitVec.ofBool (decide (w.toInt < (0#32 : BitVec 32).toInt)) = 0#1
    rw [decide_eq_false hlt]; rfl
  rw [hs]
  exact select_zero _ _

theorem norm_vec {s : Shape} (v z c : IVec s 32) (h : ∀ i, InRange (v i)) (hz : ∀ i, z i = 0#32) :
    select (cmpi .slt v z) (addi v c) v = v :=
  funext fun i => norm_word (h i) (hz i)

section Records

variable {D : Nat}

theorem scatter1_resultIdx (d : ScatterDims ⟨1, ![200]⟩ ⟨2, ![3200, 1]⟩ ⟨1, ![3200]⟩)
    (h1 : d.updateWindowDims = []) (h2 : d.insertedWindowDims = [0]) (h3 : d.scatterDimsToOperandDims = [0])
    (h4 : d.indexVectorDim = 1) (idx : IVec ⟨2, ![3200, 1]⟩ 32) (e : Fin 3200) (h : InRange (idx (ix2 e 0))) :
    d.resultIdx? (ix1 e) idx = some (ix1 (nd (idx (ix2 e 0)))) := by
  obtain ⟨uw, iw, sd, iv, wf⟩ := d
  dsimp only at h1 h2 h3 h4
  subst h1 h2 h3 h4
  have hstart : ∀ a, (ScatterDims.mk [] [0] [0] 1 wf).start (ix1 e) idx a = (idx (ix2 e 0)).toInt := by
    intro a
    obtain rfl : a = 0 := Subsingleton.elim _ _
    unfold ScatterDims.start
    rw [dif_pos (List.mem_singleton.mpr rfl)]
    refine congrArg (fun j => (idx j).toInt) ?_
    funext b
    refine Fin.ext ?_
    match b with
    | ⟨0, _⟩ => rfl
    | ⟨1, _⟩ => rfl
  have hwin : ∀ a, (ScatterDims.mk [] [0] [0] 1 wf).window (ix1 e) a = 0 := by
    intro a
    obtain rfl : a = 0 := Subsingleton.elim _ _
    unfold ScatterDims.window
    exact dif_neg (show (0 : Fin 1) ∉ (List.finRange 1).filter (· ∉ [(0 : Fin 1)]) by decide)
  have H : ∀ a, 0 ≤ (ScatterDims.mk [] [0] [0] 1 wf).start (ix1 e) idx a + ((ScatterDims.mk [] [0] [0] 1 wf).window (ix1 e) a : Int)
      ∧ (ScatterDims.mk [] [0] [0] 1 wf).start (ix1 e) idx a + ((ScatterDims.mk [] [0] [0] 1 wf).window (ix1 e) a : Int)
          < ((⟨1, ![200]⟩ : Shape).size a : Int) := by
    intro a
    rw [hstart, hwin]
    obtain rfl : a = 0 := Subsingleton.elim _ _
    have := h.1; have := h.2
    show 0 ≤ (idx (ix2 e 0)).toInt + ((0 : ℕ) : Int) ∧ (idx (ix2 e 0)).toInt + ((0 : ℕ) : Int) < ((200 : ℕ) : Int)
    omega
  unfold ScatterDims.resultIdx?
  rw [dif_pos H]
  refine congrArg some ?_
  funext a
  obtain rfl : a = 0 := Subsingleton.elim _ _
  refine Fin.ext ?_
  show ((ScatterDims.mk [] [0] [0] 1 wf).start (ix1 e) idx 0 + ((ScatterDims.mk [] [0] [0] 1 wf).window (ix1 e) 0 : Int)).toNat
      = (nd (idx (ix2 e 0))).val
  rw [hstart, hwin]
  have := nd_val h
  omega

theorem scatter2_resultIdx (d : ScatterDims ⟨2, ![200, 200]⟩ ⟨2, ![3200, 2]⟩ ⟨1, ![3200]⟩)
    (h1 : d.updateWindowDims = []) (h2 : d.insertedWindowDims = [0, 1]) (h3 : d.scatterDimsToOperandDims = [0, 1])
    (h4 : d.indexVectorDim = 1) (idx : IVec ⟨2, ![3200, 2]⟩ 32) (e : Fin 3200)
    (ha : InRange (idx (ix2 e 0))) (hb : InRange (idx (ix2 e 1))) :
    d.resultIdx? (ix1 e) idx = some (ix2 (nd (idx (ix2 e 0))) (nd (idx (ix2 e 1)))) := by
  obtain ⟨uw, iw, sd, iv, wf⟩ := d
  dsimp only at h1 h2 h3 h4
  subst h1 h2 h3 h4
  have hstart0 : (ScatterDims.mk [] [0, 1] [0, 1] 1 wf).start (ix1 e) idx 0 = (idx (ix2 e 0)).toInt := by
    unfold ScatterDims.start
    rw [dif_pos (show (0 : Fin 2) ∈ [(0 : Fin 2), 1] by decide)]
    refine congrArg (fun j => (idx j).toInt) ?_
    funext b
    refine Fin.ext ?_
    match b with
    | ⟨0, _⟩ => rfl
    | ⟨1, _⟩ => rfl
  have hstart1 : (ScatterDims.mk [] [0, 1] [0, 1] 1 wf).start (ix1 e) idx 1 = (idx (ix2 e 1)).toInt := by
    unfold ScatterDims.start
    rw [dif_pos (show (1 : Fin 2) ∈ [(0 : Fin 2), 1] by decide)]
    refine congrArg (fun j => (idx j).toInt) ?_
    funext b
    refine Fin.ext ?_
    match b with
    | ⟨0, _⟩ => rfl
    | ⟨1, _⟩ => rfl
  have hwin0 : (ScatterDims.mk [] [0, 1] [0, 1] 1 wf).window (ix1 e) 0 = 0 := by
    unfold ScatterDims.window
    exact dif_neg (show (0 : Fin 2) ∉ (List.finRange 2).filter (· ∉ [(0 : Fin 2), 1]) by decide)
  have hwin1 : (ScatterDims.mk [] [0, 1] [0, 1] 1 wf).window (ix1 e) 1 = 0 := by
    unfold ScatterDims.window
    exact dif_neg (show (1 : Fin 2) ∉ (List.finRange 2).filter (· ∉ [(0 : Fin 2), 1]) by decide)
  have H : ∀ a, 0 ≤ (ScatterDims.mk [] [0, 1] [0, 1] 1 wf).start (ix1 e) idx a + ((ScatterDims.mk [] [0, 1] [0, 1] 1 wf).window (ix1 e) a : Int)
      ∧ (ScatterDims.mk [] [0, 1] [0, 1] 1 wf).start (ix1 e) idx a + ((ScatterDims.mk [] [0, 1] [0, 1] 1 wf).window (ix1 e) a : Int)
          < ((⟨2, ![200, 200]⟩ : Shape).size a : Int) := by
    intro a
    match a with
    | ⟨0, _⟩ =>
      show 0 ≤ (ScatterDims.mk [] [0, 1] [0, 1] 1 wf).start (ix1 e) idx 0 + ((ScatterDims.mk [] [0, 1] [0, 1] 1 wf).window (ix1 e) 0 : Int)
        ∧ (ScatterDims.mk [] [0, 1] [0, 1] 1 wf).start (ix1 e) idx 0 + ((ScatterDims.mk [] [0, 1] [0, 1] 1 wf).window (ix1 e) 0 : Int) < ((200 : ℕ) : Int)
      rw [hstart0, hwin0]
      have := ha.1; have := ha.2
      omega
    | ⟨1, _⟩ =>
      show 0 ≤ (ScatterDims.mk [] [0, 1] [0, 1] 1 wf).start (ix1 e) idx 1 + ((ScatterDims.mk [] [0, 1] [0, 1] 1 wf).window (ix1 e) 1 : Int)
        ∧ (ScatterDims.mk [] [0, 1] [0, 1] 1 wf).start (ix1 e) idx 1 + ((ScatterDims.mk [] [0, 1] [0, 1] 1 wf).window (ix1 e) 1 : Int) < ((200 : ℕ) : Int)
      rw [hstart1, hwin1]
      have := hb.1; have := hb.2
      omega
  unfold ScatterDims.resultIdx?
  rw [dif_pos H]
  refine congrArg some ?_
  funext a
  refine Fin.ext ?_
  match a with
  | ⟨0, _⟩ =>
    show ((ScatterDims.mk [] [0, 1] [0, 1] 1 wf).start (ix1 e) idx 0 + ((ScatterDims.mk [] [0, 1] [0, 1] 1 wf).window (ix1 e) 0 : Int)).toNat
      = (nd (idx (ix2 e 0))).val
    rw [hstart0, hwin0]
    have := nd_val ha
    omega
  | ⟨1, _⟩ =>
    show ((ScatterDims.mk [] [0, 1] [0, 1] 1 wf).start (ix1 e) idx 1 + ((ScatterDims.mk [] [0, 1] [0, 1] 1 wf).window (ix1 e) 1 : Int)).toNat
      = (nd (idx (ix2 e 1))).val
    rw [hstart1, hwin1]
    have := nd_val hb
    omega

theorem scatterRows_resultIdx (d : ScatterDims ⟨2, ![200, D]⟩ ⟨2, ![3200, 1]⟩ ⟨2, ![3200, D]⟩)
    (h1 : d.updateWindowDims = [1]) (h2 : d.insertedWindowDims = [0]) (h3 : d.scatterDimsToOperandDims = [0])
    (h4 : d.indexVectorDim = 1) (idx : IVec ⟨2, ![3200, 1]⟩ 32) (e : Fin 3200) (f : Fin D) (h : InRange (idx (ix2 e 0))) :
    d.resultIdx? (ix2 e f) idx = some (ix2 (nd (idx (ix2 e 0))) f) := by
  obtain ⟨uw, iw, sd, iv, wf⟩ := d
  dsimp only at h1 h2 h3 h4
  subst h1 h2 h3 h4
  have hstart0 : (ScatterDims.mk [1] [0] [0] 1 wf).start (ix2 e f) idx 0 = (idx (ix2 e 0)).toInt := by
    unfold ScatterDims.start
    rw [dif_pos (show (0 : Fin 2) ∈ [(0 : Fin 2)] by decide)]
    refine congrArg (fun j => (idx j).toInt) ?_
    funext b
    refine Fin.ext ?_
    match b with
    | ⟨0, _⟩ => rfl
    | ⟨1, _⟩ => rfl
  have hstart1 : (ScatterDims.mk [1] [0] [0] 1 wf).start (ix2 e f) idx 1 = 0 := by
    unfold ScatterDims.start
    rw [dif_neg (show (1 : Fin 2) ∉ [(0 : Fin 2)] by decide)]
  have hwin0 : (ScatterDims.mk [1] [0] [0] 1 wf).window (ix2 e f) 0 = 0 := by
    unfold ScatterDims.window
    exact dif_neg (show (0 : Fin 2) ∉ (List.finRange 2).filter (· ∉ [(0 : Fin 2)]) by decide)
  have hwin1 : (ScatterDims.mk [1] [0] [0] 1 wf).window (ix2 e f) 1 = f.val := by
    unfold ScatterDims.window
    exact (dif_pos (show (1 : Fin 2) ∈ (List.finRange 2).filter (· ∉ [(0 : Fin 2)]) by decide)).trans rfl
  have H : ∀ a, 0 ≤ (ScatterDims.mk [1] [0] [0] 1 wf).start (ix2 e f) idx a + ((ScatterDims.mk [1] [0] [0] 1 wf).window (ix2 e f) a : Int)
      ∧ (ScatterDims.mk [1] [0] [0] 1 wf).start (ix2 e f) idx a + ((ScatterDims.mk [1] [0] [0] 1 wf).window (ix2 e f) a : Int)
          < ((⟨2, ![200, D]⟩ : Shape).size a : Int) := by
    intro a
    match a with
    | ⟨0, _⟩ =>
      show 0 ≤ (ScatterDims.mk [1] [0] [0] 1 wf).start (ix2 e f) idx 0 + ((ScatterDims.mk [1] [0] [0] 1 wf).window (ix2 e f) 0 : Int)
        ∧ (ScatterDims.mk [1] [0] [0] 1 wf).start (ix2 e f) idx 0 + ((ScatterDims.mk [1] [0] [0] 1 wf).window (ix2 e f) 0 : Int) < ((200 : ℕ) : Int)
      rw [hstart0, hwin0]
      have := h.1; have := h.2
      omega
    | ⟨1, _⟩ =>
      show 0 ≤ (ScatterDims.mk [1] [0] [0] 1 wf).start (ix2 e f) idx 1 + ((ScatterDims.mk [1] [0] [0] 1 wf).window (ix2 e f) 1 : Int)
        ∧ (ScatterDims.mk [1] [0] [0] 1 wf).start (ix2 e f) idx 1 + ((ScatterDims.mk [1] [0] [0] 1 wf).window (ix2 e f) 1 : Int) < ((D : ℕ) : Int)
      rw [hstart1, hwin1]
      have := f.isLt
      omega
  unfold ScatterDims.resultIdx?
  rw [dif_pos H]
  refine congrArg some ?_
  funext a
  refine Fin.ext ?_
  match a with
  | ⟨0, _⟩ =>
    show ((ScatterDims.mk [1] [0] [0] 1 wf).start (ix2 e f) idx 0 + ((ScatterDims.mk [1] [0] [0] 1 wf).window (ix2 e f) 0 : Int)).toNat
      = (nd (idx (ix2 e 0))).val
    rw [hstart0, hwin0]
    have := nd_val h
    omega
  | ⟨1, _⟩ =>
    show ((ScatterDims.mk [1] [0] [0] 1 wf).start (ix2 e f) idx 1 + ((ScatterDims.mk [1] [0] [0] 1 wf).window (ix2 e f) 1 : Int)).toNat
      = f.val
    rw [hstart1, hwin1]
    omega

private abbrev dDims (D : Nat) (wf : DotDims.WF ⟨2, ![200, 200]⟩ ⟨2, ![200, D]⟩ ⟨2, ![200, D]⟩ [1] [0] [0] [1] [] []) :
    DotDims ⟨2, ![200, 200]⟩ ⟨2, ![200, D]⟩ ⟨2, ![200, D]⟩ :=
  ⟨[1], [0], [0], [1], [], [], wf⟩

private abbrev gDims1 (wf : GatherDims.WF ⟨1, ![200]⟩ ⟨2, ![3200, 1]⟩ ⟨1, ![3200]⟩ [] [0] [] [0] [] 1 ![1]) :
    GatherDims ⟨1, ![200]⟩ ⟨2, ![3200, 1]⟩ ⟨1, ![3200]⟩ :=
  ⟨[], [0], [], [], [0], 1, ![1], wf⟩

private abbrev gDimsR (D : Nat) (wf : GatherDims.WF ⟨2, ![200, D]⟩ ⟨2, ![3200, 1]⟩ ⟨2, ![3200, D]⟩ [1] [0] [] [0] [] 1 ![1, D]) :
    GatherDims ⟨2, ![200, D]⟩ ⟨2, ![3200, 1]⟩ ⟨2, ![3200, D]⟩ :=
  ⟨[1], [0], [], [], [0], 1, ![1, D], wf⟩

theorem gather1_operandIdx (d : GatherDims ⟨1, ![200]⟩ ⟨2, ![3200, 1]⟩ ⟨1, ![3200]⟩)
    (h1 : d.offsetDims = []) (h2 : d.collapsedSliceDims = [0]) (h3 : d.operandBatchingDims = [])
    (h4 : d.startIndicesBatchingDims = []) (h5 : d.startIndexMap = [0]) (h6 : d.indexVectorDim = 1) (h7 : d.sliceSizes = ![1])
    (idx : IVec ⟨2, ![3200, 1]⟩ 32) (e : Fin 3200) (h : InRange (idx (ix2 e 0))) :
    d.operandIdx (ix1 e) idx = ix1 (nd (idx (ix2 e 0))) := by
  obtain ⟨od, cd, ob, sb, sim, iv, ss, wf⟩ := d
  dsimp only at h1 h2 h3 h4 h5 h6 h7
  subst h1 h2 h3 h4 h5 h6 h7
  show (gDims1 wf).operandIdx (ix1 e) idx = ix1 (nd (idx (ix2 e 0)))
  funext a
  obtain rfl : a = 0 := Subsingleton.elim _ _
  refine Fin.ext ?_
  show (gDims1 wf).start (ix1 e) idx 0 + (gDims1 wf).batchCoord (ix1 e) 0 + (gDims1 wf).offCoord (ix1 e) 0
      = (nd (idx (ix2 e 0))).val
  rw [GatherDims.batchCoord_eq_zero _ _ _ List.not_mem_nil,
    GatherDims.offCoord_eq_zero _ _ _ (fun hm => ((GatherDims.mem_sKept _ _).mp hm).1 (List.mem_singleton.mpr rfl))]
  unfold GatherDims.start
  rw [dif_pos (show (0 : Fin 1) ∈ (gDims1 wf).startIndexMap from List.mem_singleton.mpr rfl)]
  have hsi : (gDims1 wf).siIdx (ix1 e) ⟨List.idxOf (0 : Fin 1) (gDims1 wf).startIndexMap,
      List.idxOf_lt_length_iff.2 (List.mem_singleton.mpr rfl)⟩ = ix2 e 0 := by
    funext b
    refine Fin.ext ?_
    match b with
    | ⟨0, _⟩ => rfl
    | ⟨1, _⟩ => rfl
  rw [hsi]
  show min (idx (ix2 e 0)).toInt.toNat (200 - 1) + 0 + 0 = (nd (idx (ix2 e 0))).val
  have := nd_val h
  have := h.1; have := h.2
  omega

theorem gatherRows_operandIdx (d : GatherDims ⟨2, ![200, D]⟩ ⟨2, ![3200, 1]⟩ ⟨2, ![3200, D]⟩)
    (h1 : d.offsetDims = [1]) (h2 : d.collapsedSliceDims = [0]) (h3 : d.operandBatchingDims = [])
    (h4 : d.startIndicesBatchingDims = []) (h5 : d.startIndexMap = [0]) (h6 : d.indexVectorDim = 1) (h7 : d.sliceSizes = ![1, D])
    (idx : IVec ⟨2, ![3200, 1]⟩ 32) (e : Fin 3200) (f : Fin D) (h : InRange (idx (ix2 e 0))) :
    d.operandIdx (ix2 e f) idx = ix2 (nd (idx (ix2 e 0))) f := by
  obtain ⟨od, cd, ob, sb, sim, iv, ss, wf⟩ := d
  dsimp only at h1 h2 h3 h4 h5 h6 h7
  subst h1 h2 h3 h4 h5 h6 h7
  show (gDimsR D wf).operandIdx (ix2 e f) idx = ix2 (nd (idx (ix2 e 0))) f
  have hax0 : ((gDimsR D wf).operandIdx (ix2 e f) idx 0).val = (nd (idx (ix2 e 0))).val := by
    show (gDimsR D wf).start (ix2 e f) idx 0 + (gDimsR D wf).batchCoord (ix2 e f) 0 + (gDimsR D wf).offCoord (ix2 e f) 0
        = (nd (idx (ix2 e 0))).val
    rw [GatherDims.batchCoord_eq_zero _ _ _ List.not_mem_nil,
      GatherDims.offCoord_eq_zero _ _ _ (fun hm => ((GatherDims.mem_sKept _ _).mp hm).1 (List.mem_singleton.mpr rfl))]
    unfold GatherDims.start
    rw [dif_pos (show (0 : Fin 2) ∈ (gDimsR D wf).startIndexMap from List.mem_singleton.mpr rfl)]
    have hsi : (gDimsR D wf).siIdx (ix2 e f) ⟨List.idxOf (0 : Fin 2) (gDimsR D wf).startIndexMap,
        List.idxOf_lt_length_iff.2 (List.mem_singleton.mpr rfl)⟩ = ix2 e 0 := by
      funext b
      refine Fin.ext ?_
      match b with
      | ⟨0, _⟩ => rfl
      | ⟨1, _⟩ => rfl
    rw [hsi]
    show min (idx (ix2 e 0)).toInt.toNat (200 - 1) + 0 + 0 = (nd (idx (ix2 e 0))).val
    have := nd_val h
    have := h.1; have := h.2
    omega
  have hax1 : ((gDimsR D wf).operandIdx (ix2 e f) idx 1).val = f.val := by
    show (gDimsR D wf).start (ix2 e f) idx 1 + (gDimsR D wf).batchCoord (ix2 e f) 1 + (gDimsR D wf).offCoord (ix2 e f) 1 = f.val
    have hs : (gDimsR D wf).start (ix2 e f) idx 1 = 0 := by
      unfold GatherDims.start
      exact dif_neg (show (1 : Fin 2) ∉ [(0 : Fin 2)] by decide)
    have ho : (gDimsR D wf).offCoord (ix2 e f) 1 = f.val := by
      unfold GatherDims.offCoord
      exact (dif_pos (show (1 : Fin 2) ∈ (List.finRange 2).filter (· ∉ [(0 : Fin 2)] ++ []) by decide)).trans rfl
    rw [GatherDims.batchCoord_eq_zero _ _ _ List.not_mem_nil, hs, ho]
    omega
  funext a
  refine Fin.ext ?_
  match a with
  | ⟨0, _⟩ => exact hax0
  | ⟨1, _⟩ => exact hax1

theorem gatherRows_apply {α : Type} (d : GatherDims ⟨2, ![200, D]⟩ ⟨2, ![3200, 1]⟩ ⟨2, ![3200, D]⟩)
    (h1 : d.offsetDims = [1]) (h2 : d.collapsedSliceDims = [0]) (h3 : d.operandBatchingDims = [])
    (h4 : d.startIndicesBatchingDims = []) (h5 : d.startIndexMap = [0]) (h6 : d.indexVectorDim = 1) (h7 : d.sliceSizes = ![1, D])
    (x : (⟨2, ![200, D]⟩ : Shape).Idx → α) (idx : IVec ⟨2, ![3200, 1]⟩ 32) (e : Fin 3200) (f : Fin D) (h : InRange (idx (ix2 e 0))) :
    Host.gather d x idx (ix2 e f) = x (ix2 (nd (idx (ix2 e 0))) f) := by
  show x (d.operandIdx (ix2 e f) idx) = _
  rw [gatherRows_operandIdx d h1 h2 h3 h4 h5 h6 h7 idx e f h]

theorem scatterAdd2_apply (d : ScatterDims ⟨2, ![200, 200]⟩ ⟨2, ![3200, 2]⟩ ⟨1, ![3200]⟩)
    (h1 : d.updateWindowDims = []) (h2 : d.insertedWindowDims = [0, 1]) (h3 : d.scatterDimsToOperandDims = [0, 1])
    (h4 : d.indexVectorDim = 1) (x : FVec Ideal ⟨2, ![200, 200]⟩ .f32) (idx : IVec ⟨2, ![3200, 2]⟩ 32)
    (upd : FVec Ideal ⟨1, ![3200]⟩ .f32) (ha : ∀ e, InRange (idx (ix2 e 0))) (hb : ∀ e, InRange (idx (ix2 e 1)))
    (n s : Fin 200) :
    Host.scatterAdd d x idx upd (ix2 n s)
      = x (ix2 n s) + ∑ e ∈ Finset.univ.filter
          (fun e : Fin 3200 => nd (idx (ix2 e 0)) = n ∧ nd (idx (ix2 e 1)) = s), upd (ix1 e) := by
  show x (ix2 n s) + ∑ j ∈ Finset.univ.filter (fun j => d.resultIdx? j idx = some (ix2 n s)), upd j = _
  refine congrArg (x (ix2 n s) + ·) ?_
  refine Finset.sum_nbij' (fun j => (j 0 : Fin 3200)) (fun e => ix1 e) ?_ ?_ ?_ ?_ ?_
  · intro j hj
    have hj' : d.resultIdx? j idx = some (ix2 n s) := (Finset.mem_filter.mp hj).2
    have hjj : d.resultIdx? (ix1 (j 0)) idx = some (ix2 n s) :=
      (congrArg (fun q => d.resultIdx? q idx) (eq_ix1 j)).symm.trans hj'
    have hq := Option.some.inj ((scatter2_resultIdx d h1 h2 h3 h4 idx (j 0) (ha (j 0)) (hb (j 0))).symm.trans hjj)
    exact Finset.mem_filter.mpr ⟨Finset.mem_univ _, congrFun hq 0, congrFun hq 1⟩
  · intro e he
    have he' : nd (idx (ix2 e 0)) = n ∧ nd (idx (ix2 e 1)) = s := (Finset.mem_filter.mp he).2
    refine Finset.mem_filter.mpr ⟨Finset.mem_univ _, ?_⟩
    rw [scatter2_resultIdx d h1 h2 h3 h4 idx e (ha e) (hb e), he'.1, he'.2]
  · intro j _
    exact (eq_ix1 j).symm
  · intro e _
    rfl
  · intro j _
    exact congrArg upd (eq_ix1 j)

theorem scatterAddRows_apply (d : ScatterDims ⟨2, ![200, D]⟩ ⟨2, ![3200, 1]⟩ ⟨2, ![3200, D]⟩)
    (h1 : d.updateWindowDims = [1]) (h2 : d.insertedWindowDims = [0]) (h3 : d.scatterDimsToOperandDims = [0])
    (h4 : d.indexVectorDim = 1) (x : FVec Ideal ⟨2, ![200, D]⟩ .f32) (idx : IVec ⟨2, ![3200, 1]⟩ 32)
    (upd : FVec Ideal ⟨2, ![3200, D]⟩ .f32) (h : ∀ e, InRange (idx (ix2 e 0))) (n : Fin 200) (f : Fin D) :
    Host.scatterAdd d x idx upd (ix2 n f)
      = x (ix2 n f) + ∑ e ∈ Finset.univ.filter (fun e : Fin 3200 => nd (idx (ix2 e 0)) = n), upd (ix2 e f) := by
  show x (ix2 n f) + ∑ j ∈ Finset.univ.filter (fun j => d.resultIdx? j idx = some (ix2 n f)), upd j = _
  refine congrArg (x (ix2 n f) + ·) ?_
  have key : ∀ j : (⟨2, ![3200, D]⟩ : Shape).Idx, d.resultIdx? j idx = some (ix2 n f) →
      nd (idx (ix2 (j 0 : Fin 3200) 0)) = n ∧ (j 1 : Fin D) = f := by
    intro j hj
    have hjj : d.resultIdx? (ix2 (j 0) (j 1)) idx = some (ix2 n f) :=
      (congrArg (fun q => d.resultIdx? q idx) (eq_ix2 j)).symm.trans hj
    have hq := Option.some.inj ((scatterRows_resultIdx d h1 h2 h3 h4 idx (j 0) (j 1) (h (j 0))).symm.trans hjj)
    exact ⟨congrFun hq 0, congrFun hq 1⟩
  refine Finset.sum_nbij' (fun j => (j 0 : Fin 3200)) (fun e => ix2 e f) ?_ ?_ ?_ ?_ ?_
  · intro j hj
    exact Finset.mem_filter.mpr ⟨Finset.mem_univ _, (key j (Finset.mem_filter.mp hj).2).1⟩
  · intro e he
    have he' : nd (idx (ix2 e 0)) = n := (Finset.mem_filter.mp he).2
    refine Finset.mem_filter.mpr ⟨Finset.mem_univ _, ?_⟩
    rw [scatterRows_resultIdx d h1 h2 h3 h4 idx e f (h e), he']
  · intro j hj
    have hk : (j 1 : Fin D) = f := (key j (Finset.mem_filter.mp hj).2).2
    exact (congrArg (fun q : Fin D => ix2 (j 0 : Fin 3200) q) hk.symm).trans (eq_ix2 j).symm
  · intro e _
    rfl
  · intro j hj
    have hk : (j 1 : Fin D) = f := (key j (Finset.mem_filter.mp hj).2).2
    exact congrArg upd ((eq_ix2 j).trans (congrArg (fun q : Fin D => ix2 (j 0 : Fin 3200) q) hk))

theorem dot_apply (dd : DotDims ⟨2, ![200, 200]⟩ ⟨2, ![200, D]⟩ ⟨2, ![200, D]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (prec : Option ContractPrecision) (L : FVec Ideal ⟨2, ![200, 200]⟩ .f32) (t : FVec Ideal ⟨2, ![200, D]⟩ .f32)
    (n : Fin 200) (f : Fin D) :
    Host.dotGeneral dd prec L t (ix2 n f) = ∑ s : Fin 200, L (ix2 n s) * t (ix2 s f) := by
  obtain ⟨lc, rc, ln, rn, lb, rb, wf⟩ := dd
  dsimp only at h1 h2 h3 h4 h5 h6
  subst h1 h2 h3 h4 h5 h6
  show FloatOps.dotGeneral (dDims D wf) prec .single L t (ix2 n f) = _
  rw [Ideal.dotGeneral_apply]
  have hr : (dDims D wf).contr.rank = 1 := rfl
  have hs : (dDims D wf).contr.size ⟨0, by omega⟩ = 200 := rfl
  refine (Equiv.sum_comp (contrEquiv1 (dDims D wf) 200 hr hs).symm _).symm.trans ?_
  refine Finset.sum_congr rfl fun s _ => ?_
  have hl : (dDims D wf).lhsIdx (ix2 n f) ((contrEquiv1 (dDims D wf) 200 hr hs).symm s) = ix2 n s := by
    funext a
    refine Fin.ext ?_
    match a with
    | ⟨0, _⟩ => rfl
    | ⟨1, _⟩ =>
      exact (DotDims.lhsIdx_val_of_single (dDims D wf) (cl := 1) rfl _ _).trans
        (contrEquiv1_symm_val (dDims D wf) 200 hr hs s)
  have hrr : (dDims D wf).rhsIdx (ix2 n f) ((contrEquiv1 (dDims D wf) 200 hr hs).symm s) = ix2 s f := by
    funext a
    refine Fin.ext ?_
    match a with
    | ⟨0, _⟩ =>
      exact (DotDims.rhsIdx_val_of_single (dDims D wf) (cr := 0) rfl _ _).trans
        (contrEquiv1_symm_val (dDims D wf) 200 hr hs s)
    | ⟨1, _⟩ => rfl
  rw [hl, hrr]

end Records

theorem dense_eq_sparse {E N : Type} [Fintype E] [Fintype N] [DecidableEq N] (dst src : E → N) (a : E → EReal)
    (t : N → EReal) (ha : ∀ e, IsReal (a e)) (ht : ∀ s, IsReal (t s)) (n : N) :
    ∑ s : N, (0 + ∑ e ∈ Finset.univ.filter (fun e => dst e = n ∧ src e = s), a e) * t s
      = 0 + ∑ e ∈ Finset.univ.filter (fun e => dst e = n), a e * t (src e) := by
  choose a' ha' using ha
  choose t' ht' using ht
  have e1 : ∀ s, (0 + ∑ e ∈ Finset.univ.filter (fun e => dst e = n ∧ src e = s), a e) * t s
      = ((∑ e ∈ Finset.univ.filter (fun e => dst e = n ∧ src e = s), a' e * t' s : ℝ) : EReal) := by
    intro s
    rw [zero_add, ht' s, Finset.sum_congr rfl (fun e _ => ha' e), coe_sum, ← EReal.coe_mul, Finset.sum_mul]
  have e2 : ∀ e, a e * t (src e) = ((a' e * t' (src e) : ℝ) : EReal) := fun e => by
    rw [ha' e, ht' (src e), EReal.coe_mul]
  rw [Finset.sum_congr rfl (fun s _ => e1 s), coe_sum, zero_add, Finset.sum_congr rfl (fun e _ => e2 e), coe_sum]
  refine congrArg _ ?_
  calc ∑ s, ∑ e ∈ Finset.univ.filter (fun e => dst e = n ∧ src e = s), a' e * t' s
      = ∑ s, ∑ e ∈ Finset.univ.filter (fun e => dst e = n), if src e = s then a' e * t' s else 0 := by
        refine Finset.sum_congr rfl fun s _ => ?_
        rw [← Finset.sum_filter, Finset.filter_filter]
    _ = ∑ e ∈ Finset.univ.filter (fun e => dst e = n), ∑ s, if src e = s then a' e * t' s else 0 := Finset.sum_comm
    _ = ∑ e ∈ Finset.univ.filter (fun e => dst e = n), a' e * t' (src e) := by
        refine Finset.sum_congr rfl fun e _ => ?_
        rw [Finset.sum_ite_eq]
        simp

theorem propagate_eq {D : Nat}
    (dd : DotDims ⟨2, ![200, 200]⟩ ⟨2, ![200, D]⟩ ⟨2, ![200, D]⟩)
    (hd1 : dd.lhsContracting = [1]) (hd2 : dd.rhsContracting = [0]) (hd3 : dd.lhsNonContracting = [0])
    (hd4 : dd.rhsNonContracting = [1]) (hd5 : dd.lhsBatch = []) (hd6 : dd.rhsBatch = [])
    (sc2 : ScatterDims ⟨2, ![200, 200]⟩ ⟨2, ![3200, 2]⟩ ⟨1, ![3200]⟩)
    (hs1 : sc2.updateWindowDims = []) (hs2 : sc2.insertedWindowDims = [0, 1]) (hs3 : sc2.scatterDimsToOperandDims = [0, 1])
    (hs4 : sc2.indexVectorDim = 1)
    (scR : ScatterDims ⟨2, ![200, D]⟩ ⟨2, ![3200, 1]⟩ ⟨2, ![3200, D]⟩)
    (hr1 : scR.updateWindowDims = [1]) (hr2 : scR.insertedWindowDims = [0]) (hr3 : scR.scatterDimsToOperandDims = [0])
    (hr4 : scR.indexVectorDim = 1)
    (gR : GatherDims ⟨2, ![200, D]⟩ ⟨2, ![3200, 1]⟩ ⟨2, ![3200, D]⟩)
    (hg1 : gR.offsetDims = [1]) (hg2 : gR.collapsedSliceDims = [0]) (hg3 : gR.operandBatchingDims = [])
    (hg4 : gR.startIndicesBatchingDims = []) (hg5 : gR.startIndexMap = [0]) (hg6 : gR.indexVectorDim = 1)
    (hg7 : gR.sliceSizes = ![1, D])
    (prec : Option ContractPrecision)
    (idx2 : IVec ⟨2, ![3200, 2]⟩ 32) (idxT idxS : IVec ⟨2, ![3200, 1]⟩ 32)
    (h0 : ∀ e, idx2 (ix2 e 0) = idxT (ix2 e 0)) (h1 : ∀ e, idx2 (ix2 e 1) = idxS (ix2 e 0))
    (hT : ∀ e, InRange (idxT (ix2 e 0))) (hS : ∀ e, InRange (idxS (ix2 e 0)))
    (a : FVec Ideal ⟨1, ![3200]⟩ .f32) (aR : FVec Ideal ⟨2, ![3200, D]⟩ .f32) (haR : ∀ e f, aR (ix2 e f) = a (ix1 e))
    (t : FVec Ideal ⟨2, ![200, D]⟩ .f32) (ha : ∀ e, IsReal (a (ix1 e))) (ht : ∀ i, IsReal (t i))
    (Z2 : FVec Ideal ⟨2, ![200, 200]⟩ .f32) (hZ2 : ∀ i, Z2 i = 0)
    (ZR : FVec Ideal ⟨2, ![200, D]⟩ .f32) (hZR : ∀ i, ZR i = 0) :
    Host.dotGeneral dd prec (Host.scatterAdd sc2 Z2 idx2 a) t
      = Host.scatterAdd scR ZR idxT (mulf aR (Host.gather gR t idxS)) := by
  funext i
  obtain ⟨n, f, rfl⟩ : ∃ (n : Fin 200) (f : Fin D), i = ix2 n f := ⟨i 0, i 1, eq_ix2 i⟩
  have hL : ∀ s : Fin 200, Host.scatterAdd sc2 Z2 idx2 a (ix2 n s)
      = 0 + ∑ e ∈ Finset.univ.filter
          (fun e : Fin 3200 => nd (idxT (ix2 e 0)) = n ∧ nd (idxS (ix2 e 0)) = s), a (ix1 e) := by
    intro s
    rw [scatterAdd2_apply sc2 hs1 hs2 hs3 hs4 Z2 idx2 a (fun e => by rw [h0 e]; exact hT e)
      (fun e => by rw [h1 e]; exact hS e) n s, hZ2]
    simp only [h0, h1]
  have hU : ∀ e : Fin 3200, mulf aR (Host.gather gR t idxS) (ix2 e f)
      = a (ix1 e) * t (ix2 (nd (idxS (ix2 e 0))) f) := by
    intro e
    show aR (ix2 e f) * Host.gather gR t idxS (ix2 e f) = _
    rw [haR, gatherRows_apply gR hg1 hg2 hg3 hg4 hg5 hg6 hg7 t idxS e f (hS e)]
  rw [dot_apply dd hd1 hd2 hd3 hd4 hd5 hd6 prec _ t n f,
    scatterAddRows_apply scR hr1 hr2 hr3 hr4 ZR idxT _ hT n f, hZR,
    Finset.sum_congr rfl (fun s _ => by rw [hL s]), Finset.sum_congr rfl (fun e _ => hU e)]
  exact dense_eq_sparse (fun e : Fin 3200 => nd (idxT (ix2 e 0))) (fun e => nd (idxS (ix2 e 0)))
    (fun e => a (ix1 e)) (fun s => t (ix2 s f)) ha (fun s => ht _) n

end Cert.Math

end
-- ==== Proof.Bridge.RefIdx.lean ====
import proofs.«406476_j70849780514835_3_alg».proof.Proof.RefRead
import proofs.«406476_j70849780514835_3_alg».proof.Proof.Math.Prop

/-! The reference's edge data at an edge e: its source and target words, its negated normalised weight along a
    row, and the zero each row sum starts from. -/

noncomputable section

namespace Cert.Bridge

open Idealize.ShloMosaic Idealize.ShloMosaic.ValueIdx Cert.Math
open Cert.ReferenceIdeal Cert.ReferenceIdeal.ReadP

variable {F : FTy → Type} [FloatOps F]

theorem ref_src_apply (x2 : (⟨S2x3200, .i32⟩ : BufTy).Contents (Elt F)) (e : Fin 3200) :
    val_main_v1 (F := F) x2 (ix1 e) = x2 (ix2 (0 : Fin 2) e) := by
  rw [val_main_v1_apply, val_main_v0_apply]
  congr 1; funext a
  match a with
  | ⟨0, _⟩ => rfl
  | ⟨1, _⟩ => exact Fin.ext (Nat.mod_eq_of_lt e.isLt)

theorem ref_dst_apply (x2 : (⟨S2x3200, .i32⟩ : BufTy).Contents (Elt F)) (e : Fin 3200) :
    val_main_v3 (F := F) x2 (ix1 e) = x2 (ix2 (1 : Fin 2) e) := by
  rw [val_main_v3_apply, val_main_v2_apply]
  congr 1; funext a
  match a with
  | ⟨0, _⟩ => rfl
  | ⟨1, _⟩ => exact Fin.ext (Nat.mod_eq_of_lt e.isLt)

theorem ref_srcN_apply (x2 : (⟨S2x3200, .i32⟩ : BufTy).Contents (Elt F)) (h : ∀ i, InRange (x2 i)) (e : Fin 3200) :
    val_main_v37 (F := F) x2 (ix2 e (0 : Fin 1)) = x2 (ix2 (0 : Fin 2) e) := by
  rw [val_main_v37_apply, val_main_v36_apply, val_main_v33_apply, val_main_v35_apply, val_main_v32_apply, val_main_v34_apply]
  have hidx : idx_main_v37 (ix2 e (0 : Fin 1)) = ix1 e := funext fun a => match a with | ⟨0, _⟩ => rfl
  rw [hidx, ref_src_apply]
  exact norm_word (h _) (val_main_c_7_apply _)

theorem ref_dstT_apply (x2 : (⟨S2x3200, .i32⟩ : BufTy).Contents (Elt F)) (e : Fin 3200) :
    val_main_v42 (F := F) x2 (ix2 e (0 : Fin 1)) = x2 (ix2 (1 : Fin 2) e) := by
  rw [val_main_v42_apply]
  have hidx : idx_main_v42 (ix2 e (0 : Fin 1)) = ix1 e := funext fun a => match a with | ⟨0, _⟩ => rfl
  rw [hidx, ref_dst_apply]

theorem ref_negw1_apply (x2 : (⟨S2x3200, .i32⟩ : BufTy).Contents (Elt Ideal)) (x4 : (⟨S3200, .f32⟩ : BufTy).Contents (Elt Ideal))
    (e : Fin 3200) (f : Fin 8192) :
    val_main_v39 (F := Ideal) x2 x4 (ix2 e f) = -(val_main_v29 (F := Ideal) x2 x4 (ix1 e)) := by
  rw [val_main_v39_apply, val_main_v31_apply, val_main_v30_apply]
  have hidx : idx_main_v30 (idx_main_v39 (ix2 e f)) = ix1 e := funext fun a => match a with | ⟨0, _⟩ => rfl
  rw [hidx]; rfl

theorem ref_negw2_apply (x2 : (⟨S2x3200, .i32⟩ : BufTy).Contents (Elt Ideal)) (x4 : (⟨S3200, .f32⟩ : BufTy).Contents (Elt Ideal))
    (e : Fin 3200) (f : Fin 4096) :
    val_main_v111 (F := Ideal) x2 x4 (ix2 e f) = -(val_main_v29 (F := Ideal) x2 x4 (ix1 e)) := by
  rw [val_main_v111_apply, val_main_v103_apply, val_main_v102_apply]
  have hidx : idx_main_v102 (idx_main_v111 (ix2 e f)) = ix1 e := funext fun a => match a with | ⟨0, _⟩ => rfl
  rw [hidx]; rfl

theorem ref_zero1_apply (i : S200x8192.Idx) : val_main_v41 (F := Ideal) i = 0 := by
  rw [val_main_v41_apply, val_main_cst_9_apply]; exact Ideal.ofBits_zero_f32

theorem ref_zero2_apply (i : S200x4096.Idx) : val_main_v113 (F := Ideal) i = 0 := by
  rw [val_main_v113_apply, val_main_cst_25_apply]; exact Ideal.ofBits_zero_f32

def refProp1 (x2 : (⟨S2x3200, .i32⟩ : BufTy).Contents (Elt F)) (x4 : (⟨S3200, .f32⟩ : BufTy).Contents (Elt F))
    (t : (⟨S200x8192, .f32⟩ : BufTy).Contents (Elt F)) : (⟨S200x8192, .f32⟩ : BufTy).Contents (Elt F) :=
  Host.scatterAdd scatter_S200x8192_S3200x1_S3200x8192_1_0_0_1 (val_main_v41 (F := F)) (val_main_v42 (F := F) x2)
    (mulf (val_main_v39 (F := F) x2 x4) (Host.gather gather_S200x8192_S3200x1_S3200x8192_1_0_n_n_0_1_18192 t (val_main_v37 (F := F) x2)))

def refProp2 (x2 : (⟨S2x3200, .i32⟩ : BufTy).Contents (Elt F)) (x4 : (⟨S3200, .f32⟩ : BufTy).Contents (Elt F))
    (t : (⟨S200x4096, .f32⟩ : BufTy).Contents (Elt F)) : (⟨S200x4096, .f32⟩ : BufTy).Contents (Elt F) :=
  Host.scatterAdd scatter_S200x4096_S3200x1_S3200x4096_1_0_0_1 (val_main_v113 (F := F)) (val_main_v114 (F := F) x2)
    (mulf (val_main_v111 (F := F) x2 x4) (Host.gather gather_S200x4096_S3200x1_S3200x4096_1_0_n_n_0_1_14096 t (val_main_v109 (F := F) x2)))

section Stages

variable (x0 : (⟨S200x8192, .f32⟩ : BufTy).Contents (Elt F)) (x2 : (⟨S2x3200, .i32⟩ : BufTy).Contents (Elt F))
  (x4 : (⟨S3200, .f32⟩ : BufTy).Contents (Elt F)) (x6 : (⟨S3x8192x4096, .f32⟩ : BufTy).Contents (Elt F))
  (x7 : (⟨S4096, .f32⟩ : BufTy).Contents (Elt F))

theorem v43_eq : val_main_v43 (F := F) x0 x2 x4 = refProp1 x2 x4 x0 := rfl

theorem v57_eq : val_main_v57 (F := F) x0 x2 x4 = refProp1 x2 x4 (val_main_v43 (F := F) x0 x2 x4) := rfl

theorem v115_eq : val_main_v115 (F := F) x0 x2 x4 x6 x7 = refProp2 x2 x4 (val_main_v75 (F := F) x0 x2 x4 x6 x7) := rfl

theorem v129_eq : val_main_v129 (F := F) x0 x2 x4 x6 x7 = refProp2 x2 x4 (val_main_v115 (F := F) x0 x2 x4 x6 x7) := rfl

end Stages

end Cert.Bridge

end
-- ==== Proof.Math.Real.lean ====
import Idealize.ShloMosaic.PureOps.Ideal
import Idealize.ShloMosaic.PureOps.Ideal.Laws
import Idealize.ShloMosaic.Lib.ValueIdx
import proofs.«406476_j70849780514835_3_alg».proof.Proof.LibERealBatchNorm

/-! Each arithmetic step of either program takes real-valued data to real-valued data. -/

noncomputable section

namespace Cert.Math

open Idealize.ShloMosaic Idealize.ShloMosaic.ValueIdx Cert.ERealBN
open scoped BigOperators

theorem isReal_neg {x : EReal} (h : IsReal x) : IsReal (-x) := by
  obtain ⟨r, rfl⟩ := h
  exact ⟨-r, (EReal.coe_neg r).symm⟩

theorem ofBits_two : Ideal.ofBits .f32 0x40000000#32 = ((2 : ℝ) : EReal) := by
  simp [Ideal.ofBits, Ideal.ieee, -EReal.coe_mul]; norm_num

theorem isReal_ofBits_zero : IsReal (Ideal.ofBits .f32 0x00000000#32) := by
  rw [ofBits_zero]; exact IsReal.zero

theorem isReal_ofBits_two : IsReal (Ideal.ofBits .f32 0x40000000#32) := by
  rw [ofBits_two]; exact IsReal.coe _

theorem isReal_scatterAdd {s si su : Shape} {w : Nat} {φ : FTy} (d : ScatterDims s si su) (x : FVec Ideal s φ)
    (idx : IVec si w) (upd : FVec Ideal su φ) (hx : ∀ i, IsReal (x i)) (hu : ∀ j, IsReal (upd j)) (i : s.Idx) :
    IsReal (Host.scatterAdd d x idx upd i) := by
  show IsReal (x i + ∑ j ∈ Finset.univ.filter (fun j => d.resultIdx? j idx = some i), upd j)
  exact IsReal.add (hx i) (IsReal.sum _ _ (fun j _ => hu j))

theorem isReal_gather {s si t : Shape} {w : Nat} (d : GatherDims s si t) (x : s.Idx → EReal) (idx : IVec si w)
    (hx : ∀ i, IsReal (x i)) (j : t.Idx) : IsReal (Host.gather d x idx j) :=
  hx _

section Pointwise

variable {s : Shape} {φ : FTy}

theorem isReal_mulf (x y : FVec Ideal s φ) (hx : ∀ i, IsReal (x i)) (hy : ∀ i, IsReal (y i)) (i : s.Idx) :
    IsReal (mulf x y i) :=
  IsReal.mul (hx i) (hy i)

theorem isReal_cheb (two y x : FVec Ideal s φ) (h2 : ∀ i, IsReal (two i)) (hy : ∀ i, IsReal (y i))
    (hx : ∀ i, IsReal (x i)) (i : s.Idx) : IsReal (subf (mulf two y) x i) :=
  IsReal.sub (IsReal.mul (h2 i) (hy i)) (hx i)

end Pointwise

theorem dinv_word {x z z' one r0 : EReal} (hx : IsReal x) (hz : z = 0) (hz' : z' = 0) (hr : IsReal r0) :
    IsReal (Scalar.select (Ideal.cmp .ogt x z) (Ideal.rsqrt (Scalar.select (Ideal.cmp .ogt x z') x one)) r0) := by
  subst hz hz'
  by_cases hpos : (0 : EReal) < x
  · have hc : Ideal.cmp .ogt x 0 = 1#1 := by
      show BitVec.ofBool (decide ((0 : EReal) < x)) = 1#1
      rw [decide_eq_true hpos]; rfl
    rw [hc, select_one, select_one]
    exact IsReal.rsqrt_of_pos hx hpos
  · have hc : Ideal.cmp .ogt x 0 = 0#1 := by
      show BitVec.ofBool (decide ((0 : EReal) < x)) = 0#1
      rw [decide_eq_false hpos]; rfl
    rw [hc, select_zero]
    exact hr

theorem isReal_dinv {s : Shape} (deg z z' one r0 : FVec Ideal s .f32) (hdeg : ∀ i, IsReal (deg i))
    (hz : ∀ i, z i = 0) (hz' : ∀ i, z' i = 0) (hr : ∀ i, IsReal (r0 i)) (i : s.Idx) :
    IsReal (select (cmpf .ogt deg z) (Host.rsqrt (select (cmpf .ogt deg z') deg one)) r0 i) :=
  dinv_word (hdeg i) (hz i) (hz' i) (hr i)

end Cert.Math

end
-- ==== Proof.Bridge.Prop.lean ====
import proofs.«406476_j70849780514835_3_alg».proof.Proof.Bridge.RefIdx
import proofs.«406476_j70849780514835_3_alg».proof.Proof.KV.HostDefs
import proofs.«406476_j70849780514835_3_alg».proof.Proof.Math.Real

/-! On real data with node words in range, Σ_s (Σ_{e : dst e = n, src e = s} a e) · t s f = Σ_{e : dst e = n} a e
    · t (src e) f: the dense operator and the edge-wise one agree. -/

noncomputable section

namespace Cert.Bridge

open Idealize.ShloMosaic Idealize.ShloMosaic.ValueIdx Cert.Math Cert.ERealBN
open Cert.KernelIdeal.Val
open Cert.ReferenceIdeal.ReadP

section Same

variable {F : FTy → Type} [FloatOps F]

theorem kSrc_eq (ei : IVec Cert.KernelIdeal.S2x3200 32) : kSrc ei = val_main_v1 (F := F) ei := rfl

theorem kDst_eq (ei : IVec Cert.KernelIdeal.S2x3200 32) : kDst ei = val_main_v3 (F := F) ei := rfl

end Same

section Idx

private theorem col_apply (x : IVec Cert.KernelIdeal.S3200 32) (e : Fin 3200) :
    kCol x (ix2 e (0 : Fin 1)) = x (ix1 e) := by
  unfold kCol broadcastInDim
  refine congrArg x ?_
  funext a
  match a with
  | ⟨0, _⟩ => rfl

private theorem norm_id (x : IVec Cert.KernelIdeal.S3200 32) (h : ∀ i, InRange (x i)) : kNorm x = x :=
  norm_vec x _ _ h (fun _ => rfl)

private theorem pairs_col0 (src dst : IVec Cert.KernelIdeal.S3200 32) (e : Fin 3200) :
    kPairsOf src dst (ix2 e (0 : Fin 2)) = kNorm dst (ix1 e) := by
  unfold kPairsOf
  refine (concatenate_pair_apply_left (t := Cert.KernelIdeal.S3200x2) (s₁ := Cert.KernelIdeal.S3200x1)
    (s₂ := Cert.KernelIdeal.S3200x1) 1 _ _ _ (ix2 e (0 : Fin 2)) rfl (ix2 e (0 : Fin 1)) ?_).trans (col_apply _ e)
  intro b
  match b with
  | ⟨0, _⟩ => rfl
  | ⟨1, _⟩ => rfl

private theorem pairs_col1 (src dst : IVec Cert.KernelIdeal.S3200 32) (e : Fin 3200) :
    kPairsOf src dst (ix2 e (1 : Fin 2)) = kNorm src (ix1 e) := by
  unfold kPairsOf
  refine (concatenate_pair_apply_right (t := Cert.KernelIdeal.S3200x2) (s₁ := Cert.KernelIdeal.S3200x1)
    (s₂ := Cert.KernelIdeal.S3200x1) 1 _ _ _ (ix2 e (1 : Fin 2)) rfl rfl (ix2 e (0 : Fin 1)) ?_ ?_).trans (col_apply _ e)
  · intro b hb
    match b with
    | ⟨0, _⟩ => rfl
    | ⟨1, _⟩ => exact absurd rfl hb
  · rfl

variable (ei : IVec Cert.KernelIdeal.S2x3200 32) (hei : ∀ i, InRange (ei i))

include hei

private theorem src_inRange (i : Cert.KernelIdeal.S3200.Idx) : InRange (kSrc ei i) := by
  obtain ⟨e, rfl⟩ : ∃ e : Fin 3200, i = ix1 e := ⟨i 0, eq_ix1 i⟩
  rw [kSrc_eq (F := Ideal), ref_src_apply]
  exact hei _

private theorem dst_inRange (i : Cert.KernelIdeal.S3200.Idx) : InRange (kDst ei i) := by
  obtain ⟨e, rfl⟩ : ∃ e : Fin 3200, i = ix1 e := ⟨i 0, eq_ix1 i⟩
  rw [kDst_eq (F := Ideal), ref_dst_apply]
  exact hei _

private theorem pairs_eq_dstT (e : Fin 3200) :
    kPairsOf (kSrc ei) (kDst ei) (ix2 e (0 : Fin 2)) = val_main_v42 (F := Ideal) ei (ix2 e (0 : Fin 1)) := by
  rw [pairs_col0, norm_id _ (dst_inRange ei hei), kDst_eq (F := Ideal), ref_dst_apply, ref_dstT_apply]

private theorem pairs_eq_srcN (e : Fin 3200) :
    kPairsOf (kSrc ei) (kDst ei) (ix2 e (1 : Fin 2)) = val_main_v37 (F := Ideal) ei (ix2 e (0 : Fin 1)) := by
  rw [pairs_col1, norm_id _ (src_inRange ei hei), kSrc_eq (F := Ideal), ref_src_apply, ref_srcN_apply ei hei]

private theorem dstT_inRange (e : Fin 3200) : InRange (val_main_v42 (F := Ideal) ei (ix2 e (0 : Fin 1))) := by
  rw [ref_dstT_apply]; exact hei _

private theorem srcN_inRange (e : Fin 3200) : InRange (val_main_v37 (F := Ideal) ei (ix2 e (0 : Fin 1))) := by
  rw [ref_srcN_apply ei hei]; exact hei _

end Idx

section Reals

variable (ei : IVec Cert.KernelIdeal.S2x3200 32) (ew : FVec Ideal Cert.KernelIdeal.S3200 .f32)

theorem nw_real (hew : ∀ i, IsReal (ew i)) (i : Cert.KernelIdeal.S3200.Idx) : IsReal (val_main_v29 (F := Ideal) ei ew i) := by
  have hdeg : ∀ j, IsReal (val_main_v6 (F := Ideal) ei ew j) := fun j =>
    isReal_scatterAdd _ _ _ _ (fun _ => isReal_ofBits_zero) hew j
  have hdinv : ∀ j, IsReal (val_main_v13 (F := Ideal) ei ew j) := fun j =>
    isReal_dinv (val_main_v6 (F := Ideal) ei ew) (val_main_v10 (F := Ideal)) (val_main_v7 (F := Ideal))
      (val_main_call0_v1 (F := Ideal)) (val_main_call1_v1 (F := Ideal)) hdeg
      (fun _ => ofBits_zero) (fun _ => ofBits_zero) (fun _ => isReal_ofBits_zero) j
  exact isReal_mulf _ _ (fun k => isReal_mulf _ _ (fun l => isReal_gather _ _ _ hdinv l) hew k)
    (fun k => isReal_gather _ _ _ hdinv k) i

theorem refProp1_real (hew : ∀ i, IsReal (ew i)) (t : FVec Ideal Cert.KernelIdeal.S200x8192 .f32) (ht : ∀ i, IsReal (t i))
    (i : Cert.KernelIdeal.S200x8192.Idx) : IsReal (refProp1 (F := Ideal) ei ew t i) := by
  have hw : ∀ j, IsReal (val_main_v39 (F := Ideal) ei ew j) := by
    intro j
    obtain ⟨e, f, rfl⟩ : ∃ (e : Fin 3200) (f : Fin 8192), j = ix2 e f := ⟨j 0, j 1, eq_ix2 j⟩
    rw [ref_negw1_apply]
    exact isReal_neg (nw_real ei ew hew _)
  exact isReal_scatterAdd _ _ _ _ (fun k => by rw [ref_zero1_apply]; exact IsReal.zero)
    (fun j => isReal_mulf _ _ hw (fun l => isReal_gather _ _ _ ht l) j) i

theorem refProp2_real (hew : ∀ i, IsReal (ew i)) (t : FVec Ideal Cert.KernelIdeal.S200x4096 .f32) (ht : ∀ i, IsReal (t i))
    (i : Cert.KernelIdeal.S200x4096.Idx) : IsReal (refProp2 (F := Ideal) ei ew t i) := by
  have hw : ∀ j, IsReal (val_main_v111 (F := Ideal) ei ew j) := by
    intro j
    obtain ⟨e, f, rfl⟩ : ∃ (e : Fin 3200) (f : Fin 4096), j = ix2 e f := ⟨j 0, j 1, eq_ix2 j⟩
    rw [ref_negw2_apply]
    exact isReal_neg (nw_real ei ew hew _)
  exact isReal_scatterAdd _ _ _ _ (fun k => by rw [ref_zero2_apply]; exact IsReal.zero)
    (fun j => isReal_mulf _ _ hw (fun l => isReal_gather _ _ _ ht l) j) i

end Reals

section Propagate

variable (ei : IVec Cert.KernelIdeal.S2x3200 32) (ew : FVec Ideal Cert.KernelIdeal.S3200 .f32)
  (hei : ∀ i, InRange (ei i)) (hew : ∀ i, IsReal (ew i))

include hei hew

private theorem negNw_real (e : Fin 3200) :
    IsReal (Host.negf (kNwOf (kSrc ei) (kDst ei) (kDinv ei ew) ew) (ix1 e)) :=
  isReal_neg (nw_real ei ew hew (ix1 e))

theorem prop1_eq (t : FVec Ideal Cert.KernelIdeal.S200x8192 .f32) (ht : ∀ i, IsReal (t i)) :
    kT1 (kLhat ei ew) t = refProp1 (F := Ideal) ei ew t := by
  unfold kT1 kLhat kLhatOf refProp1
  exact propagate_eq (D := 8192) Cert.KernelIdeal.dot_S200x200_S200x8192_S200x8192_1_0_0_1_n_n rfl rfl rfl rfl rfl rfl
    Cert.KernelIdeal.scatter_S200x200_S3200x2_S3200_n_01_01_1 rfl rfl rfl rfl
    Cert.ReferenceIdeal.scatter_S200x8192_S3200x1_S3200x8192_1_0_0_1 rfl rfl rfl rfl
    Cert.ReferenceIdeal.gather_S200x8192_S3200x1_S3200x8192_1_0_n_n_0_1_18192 rfl rfl rfl rfl rfl rfl rfl
    (some .fp32) (kPairsOf (kSrc ei) (kDst ei)) (val_main_v42 (F := Ideal) ei) (val_main_v37 (F := Ideal) ei)
    (pairs_eq_dstT ei hei) (pairs_eq_srcN ei hei) (dstT_inRange ei hei) (srcN_inRange ei hei)
    (Host.negf (kNwOf (kSrc ei) (kDst ei) (kDinv ei ew) ew)) (val_main_v39 (F := Ideal) ei ew)
    (fun e f => ref_negw1_apply ei ew e f) t (negNw_real ei ew hei hew) ht
    _ (fun _ => ofBits_zero) _ ref_zero1_apply

theorem prop2_eq (t : FVec Ideal Cert.KernelIdeal.S200x4096 .f32) (ht : ∀ i, IsReal (t i)) :
    kU1 (kLhat ei ew) t = refProp2 (F := Ideal) ei ew t := by
  unfold kU1 kLhat kLhatOf refProp2
  exact propagate_eq (D := 4096) Cert.KernelIdeal.dot_S200x200_S200x4096_S200x4096_1_0_0_1_n_n rfl rfl rfl rfl rfl rfl
    Cert.KernelIdeal.scatter_S200x200_S3200x2_S3200_n_01_01_1 rfl rfl rfl rfl
    Cert.ReferenceIdeal.scatter_S200x4096_S3200x1_S3200x4096_1_0_0_1 rfl rfl rfl rfl
    Cert.ReferenceIdeal.gather_S200x4096_S3200x1_S3200x4096_1_0_n_n_0_1_14096 rfl rfl rfl rfl rfl rfl rfl
    (some .fp32) (kPairsOf (kSrc ei) (kDst ei)) (val_main_v114 (F := Ideal) ei) (val_main_v109 (F := Ideal) ei)
    (pairs_eq_dstT ei hei) (pairs_eq_srcN ei hei) (dstT_inRange ei hei) (srcN_inRange ei hei)
    (Host.negf (kNwOf (kSrc ei) (kDst ei) (kDinv ei ew) ew)) (val_main_v111 (F := Ideal) ei ew)
    (fun e f => ref_negw2_apply ei ew e f) t (negNw_real ei ew hei hew) ht
    _ (fun _ => ofBits_zero) _ ref_zero2_apply

end Propagate

section Stacks

variable (ei : IVec Cert.KernelIdeal.S2x3200 32) (ew : FVec Ideal Cert.KernelIdeal.S3200 .f32)
  (hei : ∀ i, InRange (ei i)) (hew : ∀ i, IsReal (ew i))

include hei hew

section First

variable (x : FVec Ideal Cert.KernelIdeal.S200x8192 .f32) (hx : ∀ i, IsReal (x i))

include hx

theorem T1_eq : kT1 (kLhat ei ew) x = val_main_v43 (F := Ideal) x ei ew := by
  rw [v43_eq]
  exact prop1_eq ei ew hei hew x hx

theorem T1_real (i : Cert.KernelIdeal.S200x8192.Idx) : IsReal (val_main_v43 (F := Ideal) x ei ew i) := by
  rw [v43_eq]
  exact refProp1_real ei ew hew x hx i

theorem T2_eq : kT2 (kLhat ei ew) x = val_main_v60 (F := Ideal) x ei ew := by
  unfold kT2
  rw [T1_eq ei ew hei hew x hx,
    prop1_eq ei ew hei hew (val_main_v43 (F := Ideal) x ei ew) (T1_real ei ew hei hew x hx)]
  rfl

theorem T2_real (i : Cert.KernelIdeal.S200x8192.Idx) : IsReal (val_main_v60 (F := Ideal) x ei ew i) := by
  have hy : ∀ j, IsReal (val_main_v57 (F := Ideal) x ei ew j) := fun j => by
    rw [v57_eq]
    exact refProp1_real ei ew hew _ (T1_real ei ew hei hew x hx) j
  exact isReal_cheb (val_main_v58 (F := Ideal)) (val_main_v57 (F := Ideal) x ei ew) x
    (fun _ => isReal_ofBits_two) hy hx i

end First

section Second

variable (x : FVec Ideal Cert.KernelIdeal.S200x8192 .f32) (w1 : FVec Ideal Cert.KernelIdeal.S3x8192x4096 .f32)
  (b1 : FVec Ideal Cert.KernelIdeal.S4096 .f32) (hh : ∀ i, IsReal (val_main_v75 (F := Ideal) x ei ew w1 b1 i))

include hh

theorem U1_eq : kU1 (kLhat ei ew) (val_main_v75 (F := Ideal) x ei ew w1 b1) = val_main_v115 (F := Ideal) x ei ew w1 b1 := by
  rw [v115_eq]
  exact prop2_eq ei ew hei hew _ hh

theorem U1_real (i : Cert.KernelIdeal.S200x4096.Idx) : IsReal (val_main_v115 (F := Ideal) x ei ew w1 b1 i) := by
  rw [v115_eq]
  exact refProp2_real ei ew hew _ hh i

theorem U2_eq : kU2 (kLhat ei ew) (val_main_v75 (F := Ideal) x ei ew w1 b1) = val_main_v132 (F := Ideal) x ei ew w1 b1 := by
  unfold kU2
  rw [U1_eq ei ew hei hew x w1 b1 hh,
    prop2_eq ei ew hei hew (val_main_v115 (F := Ideal) x ei ew w1 b1) (U1_real ei ew hei hew x w1 b1 hh)]
  rfl

end Second

end Stacks

end Cert.Bridge

end
-- ==== Proof.Math.Cat.lean ====
import Mathlib.Algebra.BigOperators.Fin
import Mathlib.Data.EReal.Basic

/-! A sum over 3·D indices, cut at D and 2·D, is the sum of the three sums over its thirds: a re-bracketing, valid
    in any commutative additive monoid. -/

namespace Cert.Math

open scoped BigOperators

theorem sum_three_blocks {M : Type*} [AddCommMonoid M] {D : ℕ} (g : Fin (3 * D) → M) :
    ∑ k : Fin (3 * D), g k
      = (∑ f : Fin D, g ⟨f.val, by have := f.isLt; omega⟩
          + ∑ f : Fin D, g ⟨D + f.val, by have := f.isLt; omega⟩)
        + ∑ f : Fin D, g ⟨2 * D + f.val, by have := f.isLt; omega⟩ := by
  have h3 : D + D + D = 3 * D := by omega
  rw [← Fin.sum_congr' g h3, Fin.sum_univ_add, Fin.sum_univ_add]
  refine congrArg₂ (· + ·) (congrArg₂ (· + ·) ?_ ?_) ?_
  · exact Finset.sum_congr rfl fun f _ => congrArg g (Fin.ext rfl)
  · exact Finset.sum_congr rfl fun f _ => congrArg g (Fin.ext rfl)
  · exact Finset.sum_congr rfl fun f _ => congrArg g (Fin.ext (by show D + D + f.val = 2 * D + f.val; omega))

theorem sum_cat_mul_of_blocks {D : ℕ} (c w : Fin (3 * D) → EReal) (a W : Fin 3 → Fin D → EReal)
    (hc : ∀ (j : Fin 3) (f : Fin D) (hk : j.val * D + f.val < 3 * D), c ⟨j.val * D + f.val, hk⟩ = a j f)
    (hw : ∀ (j : Fin 3) (f : Fin D) (hk : j.val * D + f.val < 3 * D), w ⟨j.val * D + f.val, hk⟩ = W j f) :
    ∑ k : Fin (3 * D), c k * w k
      = (∑ f : Fin D, a 0 f * W 0 f + ∑ f : Fin D, a 1 f * W 1 f) + ∑ f : Fin D, a 2 f * W 2 f := by
  rw [sum_three_blocks (fun k => c k * w k)]
  refine congrArg₂ (· + ·) (congrArg₂ (· + ·) ?_ ?_) ?_
  · refine Finset.sum_congr rfl fun f _ => ?_
    have e : (⟨f.val, by have := f.isLt; omega⟩ : Fin (3 * D)) = ⟨(0 : Fin 3).val * D + f.val, by have := f.isLt; simp; omega⟩ :=
      Fin.ext (by simp)
    show c _ * w _ = _
    rw [e, hc 0 f, hw 0 f]
  · refine Finset.sum_congr rfl fun f _ => ?_
    have e : (⟨D + f.val, by have := f.isLt; omega⟩ : Fin (3 * D)) = ⟨(1 : Fin 3).val * D + f.val, by have := f.isLt; simp; omega⟩ :=
      Fin.ext (by simp)
    show c _ * w _ = _
    rw [e, hc 1 f, hw 1 f]
  · refine Finset.sum_congr rfl fun f _ => ?_
    have e : (⟨2 * D + f.val, by have := f.isLt; omega⟩ : Fin (3 * D)) = ⟨(2 : Fin 3).val * D + f.val, by have := f.isLt; simp; omega⟩ :=
      Fin.ext (by simp)
    show c _ * w _ = _
    rw [e, hc 2 f, hw 2 f]

end Cert.Math
-- ==== Proof.Bridge.Layer.lean ====
import proofs.«406476_j70849780514835_3_alg».proof.Proof.Bridge.RefLayer
import proofs.«406476_j70849780514835_3_alg».proof.Proof.Bridge.Prop
import proofs.«406476_j70849780514835_3_alg».proof.Proof.Math.Cat
import proofs.«406476_j70849780514835_3_alg».proof.Proof.Math.Real
import proofs.«406476_j70849780514835_3_alg».proof.Proof.KV.HostDefs
import proofs.«406476_j70849780514835_3_alg».proof.Proof.KV.R0Value
import proofs.«406476_j70849780514835_3_alg».proof.Proof.KV.R1Value
import Idealize.ShloMosaic.Lib.Pipeline.Value
import Idealize.ShloMosaic.Lib.ValueIdx

/-! One layer entry by entry: contracting [x | T₁ | T₂] against [W₀ ; W₁ ; W₂] over 3·D positions is the sum of
    the three contractions over D positions. -/

set_option maxRecDepth 16384

noncomputable section

namespace Cert.Bridge

open Idealize.ShloMosaic Idealize.ShloMosaic.ValueIdx Cert.Math Cert.ERealBN
open Cert.KernelIdeal.Val
open Cert.ReferenceIdeal.ReadP
open scoped BigOperators

section Readings

theorem kTcat1_lo (L1 L2 : FVec Ideal Cert.KernelIdeal.S200x200 .f32) (x1 x2 : FVec Ideal Cert.KernelIdeal.S200x8192 .f32)
    (R : Fin 400) (r : Fin 200) (hR : R.val = r.val) (k : Fin 24576) :
    kTcat1 L1 L2 x1 x2 (ix2 R k) = kStack1 L1 x1 (ix2 r k) := by
  unfold kTcat1
  refine concatenate_pair_apply_left (s₁ := Cert.KernelIdeal.S200x24576) (s₂ := Cert.KernelIdeal.S200x24576) (0 : Fin Cert.KernelIdeal.S400x24576.rank) _ _ _ (ix2 R k) rfl (ix2 r k) (fun b => ?_)
  match b with
  | ⟨0, _⟩ => exact hR.symm
  | ⟨1, _⟩ => rfl

theorem kTcat1_hi (L1 L2 : FVec Ideal Cert.KernelIdeal.S200x200 .f32) (x1 x2 : FVec Ideal Cert.KernelIdeal.S200x8192 .f32)
    (R : Fin 400) (r : Fin 200) (hR : R.val = 200 + r.val) (k : Fin 24576) :
    kTcat1 L1 L2 x1 x2 (ix2 R k) = kStack1 L2 x2 (ix2 r k) := by
  unfold kTcat1
  refine concatenate_pair_apply_right (s₁ := Cert.KernelIdeal.S200x24576) (s₂ := Cert.KernelIdeal.S200x24576) (0 : Fin Cert.KernelIdeal.S400x24576.rank) _ _ _ (ix2 R k) rfl rfl (ix2 r k) (fun b hb => ?_) ?_
  · match b with
    | ⟨0, _⟩ => exact absurd rfl hb
    | ⟨1, _⟩ => rfl
  · show r.val + 200 = R.val
    omega

theorem kStack1_0 (L : FVec Ideal Cert.KernelIdeal.S200x200 .f32) (x : FVec Ideal Cert.KernelIdeal.S200x8192 .f32)
    (r : Fin 200) (k : Fin 24576) (f : Fin 8192) (hk : k.val = f.val) :
    kStack1 L x (ix2 r k) = x (ix2 r f) := by
  unfold kStack1
  refine (concatenate_apply_piece (1 : Fin Cert.KernelIdeal.S200x24576.rank) _ _ (ix2 r k) 0 (by simp) Cert.KernelIdeal.S200x8192 _ rfl rfl 0 rfl
    (ix2 r f) (fun b hb => ?_) ?_).trans rfl
  · match b with
    | ⟨0, _⟩ => rfl
    | ⟨1, _⟩ => exact absurd rfl hb
  · show 0 + f.val = k.val
    omega

theorem kStack1_1 (L : FVec Ideal Cert.KernelIdeal.S200x200 .f32) (x : FVec Ideal Cert.KernelIdeal.S200x8192 .f32)
    (r : Fin 200) (k : Fin 24576) (f : Fin 8192) (hk : k.val = 8192 + f.val) :
    kStack1 L x (ix2 r k) = kT1 L x (ix2 r f) := by
  unfold kStack1
  refine (concatenate_apply_piece (1 : Fin Cert.KernelIdeal.S200x24576.rank) _ _ (ix2 r k) 1 (by simp) Cert.KernelIdeal.S200x8192 _ rfl rfl 8192 rfl
    (ix2 r f) (fun b hb => ?_) ?_).trans rfl
  · match b with
    | ⟨0, _⟩ => rfl
    | ⟨1, _⟩ => exact absurd rfl hb
  · show 8192 + f.val = k.val
    omega

theorem kStack1_2 (L : FVec Ideal Cert.KernelIdeal.S200x200 .f32) (x : FVec Ideal Cert.KernelIdeal.S200x8192 .f32)
    (r : Fin 200) (k : Fin 24576) (f : Fin 8192) (hk : k.val = 16384 + f.val) :
    kStack1 L x (ix2 r k) = kT2 L x (ix2 r f) := by
  unfold kStack1
  refine (concatenate_apply_piece (1 : Fin Cert.KernelIdeal.S200x24576.rank) _ _ (ix2 r k) 2 (by simp) Cert.KernelIdeal.S200x8192 _ rfl rfl 16384 rfl
    (ix2 r f) (fun b hb => ?_) ?_).trans rfl
  · match b with
    | ⟨0, _⟩ => rfl
    | ⟨1, _⟩ => exact absurd rfl hb
  · show 16384 + f.val = k.val
    omega

theorem kW1_at (W : FVec Ideal Cert.KernelIdeal.S3x8192x4096 .f32) (k : Fin 24576) (j : Fin 3) (f : Fin 8192) (q : Fin 4096)
    (hk : k.val = j.val * 8192 + f.val) : kW1 W (ix2 k q) = W (ix3 j f q) := by
  unfold kW1
  refine shapeCast_apply W _ (ix2 k q) (ix3 j f q) ?_
  rewrite [Shape.rowMajor_val_three, Shape.rowMajor_val_two]
  show (j.val * 8192 + f.val) * 4096 + q.val = k.val * 4096 + q.val
  rw [hk]

theorem kBias_at (b : FVec Ideal Cert.KernelIdeal.S4096 .f32) (q : Fin 4096) : kBias b (ix2 (0 : Fin 1) q) = b (ix1 q) := by
  unfold kBias
  refine shapeCast_apply b _ (ix2 (0 : Fin 1) q) (ix1 q) ?_
  rewrite [Shape.rowMajor_val_one, Shape.rowMajor_val_two]
  show q.val = 0 * 4096 + q.val
  omega

end Readings

section Readings2

theorem kRows0_at (H : FVec Ideal Cert.KernelIdeal.S400x4096 .f32) (R : Fin 400) (r : Fin 200) (hR : R.val = r.val) (q : Fin 4096) :
    kRows0 H (ix2 r q) = H (ix2 R q) := by
  unfold kRows0
  refine extractStridedSlice_apply ![0, 0] H _ (ix2 r q) (ix2 R q) (fun a => ?_)
  match a with
  | ⟨0, _⟩ => show R.val = 0 + r.val; omega
  | ⟨1, _⟩ => show q.val = 0 + q.val; omega

theorem kRows1_at (H : FVec Ideal Cert.KernelIdeal.S400x4096 .f32) (R : Fin 400) (r : Fin 200) (hR : R.val = 200 + r.val) (q : Fin 4096) :
    kRows1 H (ix2 r q) = H (ix2 R q) := by
  unfold kRows1
  refine extractStridedSlice_apply ![200, 0] H _ (ix2 r q) (ix2 R q) (fun a => ?_)
  match a with
  | ⟨0, _⟩ => show R.val = 200 + r.val; omega
  | ⟨1, _⟩ => show q.val = 0 + q.val; omega

theorem kTcat2_lo (L1 L2 : FVec Ideal Cert.KernelIdeal.S200x200 .f32) (H : FVec Ideal Cert.KernelIdeal.S400x4096 .f32)
    (R : Fin 400) (r : Fin 200) (hR : R.val = r.val) (k : Fin 12288) :
    kTcat2 L1 L2 H (ix2 R k) = kStack2 L1 (kRows0 H) (ix2 r k) := by
  unfold kTcat2
  refine concatenate_pair_apply_left (s₁ := Cert.KernelIdeal.S200x12288) (s₂ := Cert.KernelIdeal.S200x12288) (0 : Fin Cert.KernelIdeal.S400x12288.rank) _ _ _ (ix2 R k) rfl (ix2 r k) (fun b => ?_)
  match b with
  | ⟨0, _⟩ => exact hR.symm
  | ⟨1, _⟩ => rfl

theorem kTcat2_hi (L1 L2 : FVec Ideal Cert.KernelIdeal.S200x200 .f32) (H : FVec Ideal Cert.KernelIdeal.S400x4096 .f32)
    (R : Fin 400) (r : Fin 200) (hR : R.val = 200 + r.val) (k : Fin 12288) :
    kTcat2 L1 L2 H (ix2 R k) = kStack2 L2 (kRows1 H) (ix2 r k) := by
  unfold kTcat2
  refine concatenate_pair_apply_right (s₁ := Cert.KernelIdeal.S200x12288) (s₂ := Cert.KernelIdeal.S200x12288) (0 : Fin Cert.KernelIdeal.S400x12288.rank) _ _ _ (ix2 R k) rfl rfl (ix2 r k) (fun b hb => ?_) ?_
  · match b with
    | ⟨0, _⟩ => exact absurd rfl hb
    | ⟨1, _⟩ => rfl
  · show r.val + 200 = R.val
    omega

theorem kStack2_0 (L : FVec Ideal Cert.KernelIdeal.S200x200 .f32) (x : FVec Ideal Cert.KernelIdeal.S200x4096 .f32)
    (r : Fin 200) (k : Fin 12288) (f : Fin 4096) (hk : k.val = f.val) :
    kStack2 L x (ix2 r k) = x (ix2 r f) := by
  unfold kStack2
  refine (concatenate_apply_piece (1 : Fin Cert.KernelIdeal.S200x12288.rank) _ _ (ix2 r k) 0 (by simp) Cert.KernelIdeal.S200x4096 _ rfl rfl 0 rfl
    (ix2 r f) (fun b hb => ?_) ?_).trans rfl
  · match b with
    | ⟨0, _⟩ => rfl
    | ⟨1, _⟩ => exact absurd rfl hb
  · show 0 + f.val = k.val
    omega

theorem kStack2_1 (L : FVec Ideal Cert.KernelIdeal.S200x200 .f32) (x : FVec Ideal Cert.KernelIdeal.S200x4096 .f32)
    (r : Fin 200) (k : Fin 12288) (f : Fin 4096) (hk : k.val = 4096 + f.val) :
    kStack2 L x (ix2 r k) = kU1 L x (ix2 r f) := by
  unfold kStack2
  refine (concatenate_apply_piece (1 : Fin Cert.KernelIdeal.S200x12288.rank) _ _ (ix2 r k) 1 (by simp) Cert.KernelIdeal.S200x4096 _ rfl rfl 4096 rfl
    (ix2 r f) (fun b hb => ?_) ?_).trans rfl
  · match b with
    | ⟨0, _⟩ => rfl
    | ⟨1, _⟩ => exact absurd rfl hb
  · show 4096 + f.val = k.val
    omega

theorem kStack2_2 (L : FVec Ideal Cert.KernelIdeal.S200x200 .f32) (x : FVec Ideal Cert.KernelIdeal.S200x4096 .f32)
    (r : Fin 200) (k : Fin 12288) (f : Fin 4096) (hk : k.val = 8192 + f.val) :
    kStack2 L x (ix2 r k) = kU2 L x (ix2 r f) := by
  unfold kStack2
  refine (concatenate_apply_piece (1 : Fin Cert.KernelIdeal.S200x12288.rank) _ _ (ix2 r k) 2 (by simp) Cert.KernelIdeal.S200x4096 _ rfl rfl 8192 rfl
    (ix2 r f) (fun b hb => ?_) ?_).trans rfl
  · match b with
    | ⟨0, _⟩ => rfl
    | ⟨1, _⟩ => exact absurd rfl hb
  · show 8192 + f.val = k.val
    omega

theorem kW2_at (W : FVec Ideal Cert.KernelIdeal.S3x4096x4096 .f32) (k : Fin 12288) (j : Fin 3) (f : Fin 4096) (q : Fin 4096)
    (hk : k.val = j.val * 4096 + f.val) : kW2 W (ix2 k q) = W (ix3 j f q) := by
  unfold kW2
  refine shapeCast_apply W _ (ix2 k q) (ix3 j f q) ?_
  rewrite [Shape.rowMajor_val_three, Shape.rowMajor_val_two]
  show (j.val * 4096 + f.val) * 4096 + q.val = k.val * 4096 + q.val
  rw [hk]

end Readings2

section Sample1

variable (ei : IVec Cert.KernelIdeal.S2x3200 32) (ew : FVec Ideal Cert.KernelIdeal.S3200 .f32)
  (hei : ∀ i, InRange (ei i)) (hew : ∀ i, IsReal (ew i))
  (x : FVec Ideal Cert.KernelIdeal.S200x8192 .f32) (hx : ∀ i, IsReal (x i))
  (W : FVec Ideal Cert.KernelIdeal.S3x8192x4096 .f32) (b : FVec Ideal Cert.KernelIdeal.S4096 .f32)

include hei hew hx

theorem stack1_row (r : Fin 200) (q : Fin 4096) :
    max ((∑ k : Fin 24576, kStack1 (kLhat ei ew) x (ix2 r k) * kW1 W (ix2 k q)) + kBias b (ix2 (0 : Fin 1) q)) 0
      = val_main_v75 (F := Ideal) x ei ew W b (ix2 r q) := by
  rw [ref_h_apply, kBias_at]
  refine congrArg (fun s => max (s + b (ix1 q)) 0) ?_
  have hT1 := T1_eq ei ew hei hew x hx
  have hT2 := T2_eq ei ew hei hew x hx
  refine (sum_three_blocks (D := 8192)
    (fun k : Fin 24576 => kStack1 (kLhat ei ew) x (ix2 r k) * kW1 W (ix2 k q))).trans ?_
  refine congrArg₂ (· + ·) (congrArg₂ (· + ·) ?_ ?_) ?_
  · refine Finset.sum_congr rfl fun f _ => ?_
    exact congrArg₂ (· * ·) (kStack1_0 _ x r _ f rfl)
      (kW1_at W _ (0 : Fin 3) f q (by show f.val = 0 * 8192 + f.val; omega))
  · refine Finset.sum_congr rfl fun f _ => ?_
    exact congrArg₂ (· * ·) ((kStack1_1 _ x r _ f rfl).trans (congrFun hT1 _))
      (kW1_at W _ (1 : Fin 3) f q (by show 8192 + f.val = 1 * 8192 + f.val; omega))
  · refine Finset.sum_congr rfl fun f _ => ?_
    exact congrArg₂ (· * ·) ((kStack1_2 _ x r _ f (by show 2 * 8192 + f.val = 16384 + f.val; omega)).trans (congrFun hT2 _))
      (kW1_at W _ (2 : Fin 3) f q rfl)

end Sample1

section HReal

variable (ei : IVec Cert.KernelIdeal.S2x3200 32) (ew : FVec Ideal Cert.KernelIdeal.S3200 .f32)
  (hei : ∀ i, InRange (ei i)) (hew : ∀ i, IsReal (ew i))
  (x : FVec Ideal Cert.KernelIdeal.S200x8192 .f32) (hx : ∀ i, IsReal (x i))
  (W : FVec Ideal Cert.KernelIdeal.S3x8192x4096 .f32) (hW : ∀ i, IsReal (W i))
  (b : FVec Ideal Cert.KernelIdeal.S4096 .f32) (hb : ∀ i, IsReal (b i))

include hei hew hx hW hb

theorem h_real (i : Cert.KernelIdeal.S200x4096.Idx) : IsReal (val_main_v75 (F := Ideal) x ei ew W b i) := by
  obtain ⟨r, q, rfl⟩ : ∃ (r : Fin 200) (q : Fin 4096), i = ix2 r q := ⟨i 0, i 1, eq_ix2 i⟩
  rw [ref_h_apply]
  refine IsReal.max (IsReal.add (IsReal.add (IsReal.add ?_ ?_) ?_) (hb _)) IsReal.zero
  · exact IsReal.sum _ _ (fun k _ => IsReal.mul (hx _) (hW _))
  · exact IsReal.sum _ _ (fun k _ => IsReal.mul (T1_real ei ew hei hew x hx _) (hW _))
  · exact IsReal.sum _ _ (fun k _ => IsReal.mul (T2_real ei ew hei hew x hx _) (hW _))

end HReal

section Layer1

variable (x1 x2 : FVec Ideal Cert.KernelIdeal.S200x8192 .f32) (ei1 ei2 : IVec Cert.KernelIdeal.S2x3200 32) (ew1 ew2 : FVec Ideal Cert.KernelIdeal.S3200 .f32)
  (W : FVec Ideal Cert.KernelIdeal.S3x8192x4096 .f32) (b : FVec Ideal Cert.KernelIdeal.S4096 .f32)

theorem layer1_lo (hei1 : ∀ i, InRange (ei1 i)) (hew1 : ∀ i, IsReal (ew1 i)) (hx1 : ∀ i, IsReal (x1 i))
    (r : Fin 200) (q : Fin 4096) :
    layerOut0 (kTcat1 (kLhat ei1 ew1) (kLhat ei2 ew2) x1 x2) (kW1 W) (kBias b) (ix2 (rowLo r) q)
      = val_main_v75 (F := Ideal) x1 ei1 ew1 W b (ix2 r q) := by
  rw [layerOut0_apply, ← stack1_row ei1 ew1 hei1 hew1 x1 hx1 W b r q]
  refine congrArg (fun s => max (s + kBias b (ix2 (0 : Fin 1) q)) 0) (Finset.sum_congr rfl fun k _ => ?_)
  rw [kTcat1_lo _ _ x1 x2 (rowLo r) r rfl k]

theorem layer1_hi (hei2 : ∀ i, InRange (ei2 i)) (hew2 : ∀ i, IsReal (ew2 i)) (hx2 : ∀ i, IsReal (x2 i))
    (r : Fin 200) (q : Fin 4096) :
    layerOut0 (kTcat1 (kLhat ei1 ew1) (kLhat ei2 ew2) x1 x2) (kW1 W) (kBias b) (ix2 (rowHi r) q)
      = val_main_v75 (F := Ideal) x2 ei2 ew2 W b (ix2 r q) := by
  rw [layerOut0_apply, ← stack1_row ei2 ew2 hei2 hew2 x2 hx2 W b r q]
  refine congrArg (fun s => max (s + kBias b (ix2 (0 : Fin 1) q)) 0) (Finset.sum_congr rfl fun k _ => ?_)
  rw [kTcat1_hi _ _ x1 x2 (rowHi r) r rfl k]

end Layer1

section Sample2

variable (ei : IVec Cert.KernelIdeal.S2x3200 32) (ew : FVec Ideal Cert.KernelIdeal.S3200 .f32)
  (hei : ∀ i, InRange (ei i)) (hew : ∀ i, IsReal (ew i))
  (x : FVec Ideal Cert.KernelIdeal.S200x8192 .f32) (W1 : FVec Ideal Cert.KernelIdeal.S3x8192x4096 .f32) (b1 : FVec Ideal Cert.KernelIdeal.S4096 .f32)
  (hh : ∀ i, IsReal (val_main_v75 (F := Ideal) x ei ew W1 b1 i))
  (W4 : FVec Ideal Cert.KernelIdeal.S3x4096x4096 .f32) (b4 : FVec Ideal Cert.KernelIdeal.S4096 .f32)

include hei hew hh

theorem stack2_row (r : Fin 200) (q : Fin 4096) :
    max ((∑ k : Fin 12288, kStack2 (kLhat ei ew) (val_main_v75 (F := Ideal) x ei ew W1 b1) (ix2 r k) * kW2 W4 (ix2 k q))
        + kBias b4 (ix2 (0 : Fin 1) q)) 0
      = val_main_v147 (F := Ideal) x ei ew W1 b1 W4 b4 (ix2 r q) := by
  rw [ref_o_apply, kBias_at]
  refine congrArg (fun s => max (s + b4 (ix1 q)) 0) ?_
  have hU1 := U1_eq ei ew hei hew x W1 b1 hh
  have hU2 := U2_eq ei ew hei hew x W1 b1 hh
  refine (sum_three_blocks (D := 4096)
    (fun k : Fin 12288 => kStack2 (kLhat ei ew) (val_main_v75 (F := Ideal) x ei ew W1 b1) (ix2 r k) * kW2 W4 (ix2 k q))).trans ?_
  refine congrArg₂ (· + ·) (congrArg₂ (· + ·) ?_ ?_) ?_
  · refine Finset.sum_congr rfl fun f _ => ?_
    exact congrArg₂ (· * ·) (kStack2_0 _ _ r _ f rfl)
      (kW2_at W4 _ (0 : Fin 3) f q (by show f.val = 0 * 4096 + f.val; omega))
  · refine Finset.sum_congr rfl fun f _ => ?_
    exact congrArg₂ (· * ·) ((kStack2_1 _ _ r _ f rfl).trans (congrFun hU1 _))
      (kW2_at W4 _ (1 : Fin 3) f q (by show 4096 + f.val = 1 * 4096 + f.val; omega))
  · refine Finset.sum_congr rfl fun f _ => ?_
    exact congrArg₂ (· * ·) ((kStack2_2 _ _ r _ f (by show 2 * 4096 + f.val = 8192 + f.val; omega)).trans (congrFun hU2 _))
      (kW2_at W4 _ (2 : Fin 3) f q rfl)

end Sample2

section Layer2

variable (x1 x2 : FVec Ideal Cert.KernelIdeal.S200x8192 .f32) (ei1 ei2 : IVec Cert.KernelIdeal.S2x3200 32) (ew1 ew2 : FVec Ideal Cert.KernelIdeal.S3200 .f32)
  (W1 : FVec Ideal Cert.KernelIdeal.S3x8192x4096 .f32) (b1 : FVec Ideal Cert.KernelIdeal.S4096 .f32)
  (W4 : FVec Ideal Cert.KernelIdeal.S3x4096x4096 .f32) (b4 : FVec Ideal Cert.KernelIdeal.S4096 .f32)

theorem layer2 (H : FVec Ideal Cert.KernelIdeal.S400x4096 .f32)
    (hlo : ∀ r q, H (ix2 (rowLo r) q) = val_main_v75 (F := Ideal) x1 ei1 ew1 W1 b1 (ix2 r q))
    (hhi : ∀ r q, H (ix2 (rowHi r) q) = val_main_v75 (F := Ideal) x2 ei2 ew2 W1 b1 (ix2 r q))
    (hei1 : ∀ i, InRange (ei1 i)) (hew1 : ∀ i, IsReal (ew1 i))
    (hei2 : ∀ i, InRange (ei2 i)) (hew2 : ∀ i, IsReal (ew2 i))
    (hh1 : ∀ i, IsReal (val_main_v75 (F := Ideal) x1 ei1 ew1 W1 b1 i))
    (hh2 : ∀ i, IsReal (val_main_v75 (F := Ideal) x2 ei2 ew2 W1 b1 i))
    (r : Fin 200) (q : Fin 4096) :
    layerOut1 (kTcat2 (kLhat ei1 ew1) (kLhat ei2 ew2) H) (kW2 W4) (kBias b4) (ix2 r q)
      = val_main_v147 (F := Ideal) x1 ei1 ew1 W1 b1 W4 b4 (ix2 r q)
        * val_main_v147 (F := Ideal) x2 ei2 ew2 W1 b1 W4 b4 (ix2 r q) := by
  have e0 : kRows0 H = val_main_v75 (F := Ideal) x1 ei1 ew1 W1 b1 := funext fun i => by
    obtain ⟨a, c, rfl⟩ : ∃ (a : Fin 200) (c : Fin 4096), i = ix2 a c := ⟨i 0, i 1, eq_ix2 i⟩
    rw [kRows0_at H (rowLo a) a rfl c]; exact hlo a c
  have e1 : kRows1 H = val_main_v75 (F := Ideal) x2 ei2 ew2 W1 b1 := funext fun i => by
    obtain ⟨a, c, rfl⟩ : ∃ (a : Fin 200) (c : Fin 4096), i = ix2 a c := ⟨i 0, i 1, eq_ix2 i⟩
    rw [kRows1_at H (rowHi a) a rfl c]; exact hhi a c
  rw [layerOut1_apply, ← stack2_row ei1 ew1 hei1 hew1 x1 W1 b1 hh1 W4 b4 r q,
    ← stack2_row ei2 ew2 hei2 hew2 x2 W1 b1 hh2 W4 b4 r q]
  refine congrArg₂ (· * ·)
    (congrArg (fun s => max (s + kBias b4 (ix2 (0 : Fin 1) q)) 0) (Finset.sum_congr rfl fun k _ => ?_))
    (congrArg (fun s => max (s + kBias b4 (ix2 (0 : Fin 1) q)) 0) (Finset.sum_congr rfl fun k _ => ?_))
  · rw [kTcat2_lo _ _ H (rowLo r) r rfl k, e0]
  · rw [kTcat2_hi _ _ H (rowHi r) r rfl k, e1]

end Layer2

end Cert.Bridge

end
-- ==== Proof.Pre.lean ====
import proofs.«406476_j70849780514835_3_alg».proof.Defs
import proofs.«406476_j70849780514835_3_alg».proof.Proof.Gen.Pre_finite_inputs
import proofs.«406476_j70849780514835_3_alg».proof.Proof.LibERealBatchNorm
import Idealize.ShloMosaic.Lib.ReduceAll
import Idealize.ShloMosaic.Lib.ValueIdx

/-! The precondition read entry by entry: every float entry is a real number, and every edge word lies in [0,
    200). -/

set_option maxRecDepth 16384

noncomputable section

namespace Cert.KernelIdeal.PreFacts

open Idealize.ShloMosaic Idealize.ShloMosaic.TcCoe Idealize.SL.Sem
open Cert.ERealBN

theorem isReal_of_abs_lt_top (x : EReal)
    (h : FloatOps.cmpf (F := Ideal) (φ := .f32) .olt (FloatOps.hostAbsf x) (FloatOps.ofBits (F := Ideal) .f32 0x7F800000#32) = 1#1) :
    IsReal x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  have hlt : max x (-x) < ⊤ := by
    by_contra hn
    simp [hn] at h'
  induction x using EReal.rec with
  | bot => simp at hlt
  | coe r => exact ⟨r, rfl⟩
  | top => simp at hlt

theorem toNat_lt_of_toInt (w : BitVec 32) (n : Nat) (h0 : 0 ≤ w.toInt) (h1 : w.toInt < (n : Int)) : w.toNat < n := by
  have hw : 2 * w.toNat < 2 ^ 32 := BitVec.toInt_pos_iff.mp h0
  rw [BitVec.toInt_eq_toNat_of_lt hw] at h1
  exact_mod_cast h1

section All

variable {s t u : Shape} {axes : List (Fin s.rank)} [Subsingleton t.Idx]

theorem real_of_all (x y : FVec Ideal s .f32) (hy : ∀ i, y i = FloatOps.ofBits (F := Ideal) .f32 0x7F800000#32)
    (init : IVec u 1) (hr : s.ReducesTo axes t) (hu : 0 < u.numel) (j : t.Idx)
    (e : Host.reduce IntOp.andi (cmpf .olt (Host.absf x) y) init hr hu j = 1#1) (i : s.Idx) : IsReal (x i) := by
  have h := Host.reduce_andi_all (cmpf .olt (Host.absf x) y) init hr hu j e i
  refine isReal_of_abs_lt_top (x i) ?_
  rw [← hy i]
  exact h

theorem nonneg_of_all (x y : IVec s 32) (hy : ∀ i, y i = 0#32)
    (init : IVec u 1) (hr : s.ReducesTo axes t) (hu : 0 < u.numel) (j : t.Idx)
    (e : Host.reduce IntOp.andi (cmpi .sge x y) init hr hu j = 1#1) (i : s.Idx) : 0 ≤ (x i).toInt := by
  have h : IntOp.cmpi .sge (x i) (y i) = 1#1 := Host.reduce_andi_all (cmpi .sge x y) init hr hu j e i
  rw [hy i, IntOp.cmpi_sge] at h
  exact h

theorem lt_of_all (x y : IVec s 32) (hy : ∀ i, y i = 200#32)
    (init : IVec u 1) (hr : s.ReducesTo axes t) (hu : 0 < u.numel) (j : t.Idx)
    (e : Host.reduce IntOp.andi (cmpi .slt x y) init hr hu j = 1#1) (i : s.Idx) : (x i).toInt < 200 := by
  have h : IntOp.cmpi .slt (x i) (y i) = 1#1 := Host.reduce_andi_all (cmpi .slt x y) init hr hu j e i
  rw [hy i, IntOp.cmpi_slt] at h
  exact h

end All

local instance subsingleton_scalarIdx : Subsingleton Cert.Pre_finite_inputs.S_.Idx := ⟨fun a b => funext fun d => d.elim0⟩

section Decode

open Cert.Pre_finite_inputs

variable [Cert.Pre_finite_inputs.Facts]

theorem fn_decode (a0 a1 : FVec Ideal S200x8192 .f32) (a2 a3 : IVec S2x3200 32) (a4 a5 : FVec Ideal S3200 .f32)
    (a6 : FVec Ideal S3x8192x4096 .f32) (a7 : FVec Ideal S4096 .f32) (a8 : FVec Ideal S3x4096x4096 .f32)
    (a9 : FVec Ideal S4096 .f32) (a10 : FVec Ideal S200x100 .f32) (a11 : FVec Ideal S100 .f32)
    (a12 : FVec Ideal S100x1 .f32) (a13 : FVec Ideal S1 .f32)
    (h : fn (F := Ideal) a0 a1 a2 a3 a4 a5 a6 a7 a8 a9 a10 a11 a12 a13 = fun _ => 1#1) :
    (∀ i, IsReal (a0 i)) ∧ (∀ i, IsReal (a1 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) ∧ (∀ i, IsReal (a12 i)) ∧ (∀ i, IsReal (a13 i))
      ∧ (∀ i, 0 ≤ (a2 i).toInt ∧ (a2 i).toInt < 200) ∧ (∀ i, 0 ≤ (a3 i).toInt ∧ (a3 i).toInt < 200) := by
  have e := congrFun h ValueIdx.ix0
  dsimp only [fn, fn_part1, fn_part2, fn_part3, fn_part4] at e
  simp only [andi, IntOp.andi_eq_one] at e
  obtain ⟨⟨⟨⟨⟨⟨⟨⟨⟨⟨⟨⟨⟨⟨⟨h0, h1⟩, h4⟩, h5⟩, h6⟩, h7⟩, h8⟩, h9⟩, h10⟩, h11⟩, h12⟩, h13⟩, h2a⟩, h2b⟩, h3a⟩, h3b⟩ := e
  refine ⟨?_, ?_, ?_, ?_, ?_, ?_, ?_, ?_, ?_, ?_, ?_, ?_, ?_, ?_⟩
  · exact real_of_all a0 _ (fun _ => rfl) _ _ _ _ h0
  · exact real_of_all a1 _ (fun _ => rfl) _ _ _ _ h1
  · exact real_of_all a4 _ (fun _ => rfl) _ _ _ _ h4
  · exact real_of_all a5 _ (fun _ => rfl) _ _ _ _ h5
  · exact real_of_all a6 _ (fun _ => rfl) _ _ _ _ h6
  · exact real_of_all a7 _ (fun _ => rfl) _ _ _ _ h7
  · exact real_of_all a8 _ (fun _ => rfl) _ _ _ _ h8
  · exact real_of_all a9 _ (fun _ => rfl) _ _ _ _ h9
  · exact real_of_all a10 _ (fun _ => rfl) _ _ _ _ h10
  · exact real_of_all a11 _ (fun _ => rfl) _ _ _ _ h11
  · exact real_of_all a12 _ (fun _ => rfl) _ _ _ _ h12
  · exact real_of_all a13 _ (fun _ => rfl) _ _ _ _ h13
  · exact fun i => ⟨nonneg_of_all a2 _ (fun _ => rfl) _ _ _ _ h2a i, lt_of_all a2 _ (fun _ => rfl) _ _ _ _ h2b i⟩
  · exact fun i => ⟨nonneg_of_all a3 _ (fun _ => rfl) _ _ _ _ h3a i, lt_of_all a3 _ (fun _ => rfl) _ _ _ _ h3b i⟩

end Decode

section AtMemory

open Cert.KernelIdeal

variable [Cert.Pre_finite_inputs.Facts]

variable {m : (ℓ : Loc nD τ sig) → Buf (Elt Ideal) ℓ}

theorem decode (h : Cert.Pre_KernelIdeal m) (c : Dev nD) :
    (∀ i, IsReal (m ((c.tc : Thread nD τ).loc main_arg0) i)) ∧ (∀ i, IsReal (m ((c.tc : Thread nD τ).loc main_arg1) i))
      ∧ (∀ i, IsReal (m ((c.tc : Thread nD τ).loc main_arg4) i)) ∧ (∀ i, IsReal (m ((c.tc : Thread nD τ).loc main_arg5) i))
      ∧ (∀ i, IsReal (m ((c.tc : Thread nD τ).loc main_arg6) i)) ∧ (∀ i, IsReal (m ((c.tc : Thread nD τ).loc main_arg7) i))
      ∧ (∀ i, IsReal (m ((c.tc : Thread nD τ).loc main_arg8) i)) ∧ (∀ i, IsReal (m ((c.tc : Thread nD τ).loc main_arg9) i))
      ∧ (∀ i, IsReal (m ((c.tc : Thread nD τ).loc main_arg10) i)) ∧ (∀ i, IsReal (m ((c.tc : Thread nD τ).loc main_arg11) i))
      ∧ (∀ i, IsReal (m ((c.tc : Thread nD τ).loc main_arg12) i)) ∧ (∀ i, IsReal (m ((c.tc : Thread nD τ).loc main_arg13) i))
      ∧ (∀ i, 0 ≤ (m ((c.tc : Thread nD τ).loc main_arg2) i).toInt ∧ (m ((c.tc : Thread nD τ).loc main_arg2) i).toInt < 200)
      ∧ (∀ i, 0 ≤ (m ((c.tc : Thread nD τ).loc main_arg3) i).toInt ∧ (m ((c.tc : Thread nD τ).loc main_arg3) i).toInt < 200) :=
  fn_decode _ _ _ _ _ _ _ _ _ _ _ _ _ _ (h c)

theorem real_arg0 (h : Cert.Pre_KernelIdeal m) (c : Dev nD) : ∀ i, IsReal (m ((c.tc : Thread nD τ).loc main_arg0) i) :=
  (decode h c).1

theorem real_arg1 (h : Cert.Pre_KernelIdeal m) (c : Dev nD) : ∀ i, IsReal (m ((c.tc : Thread nD τ).loc main_arg1) i) :=
  (decode h c).2.1

theorem real_arg4 (h : Cert.Pre_KernelIdeal m) (c : Dev nD) : ∀ i, IsReal (m ((c.tc : Thread nD τ).loc main_arg4) i) :=
  (decode h c).2.2.1

theorem real_arg5 (h : Cert.Pre_KernelIdeal m) (c : Dev nD) : ∀ i, IsReal (m ((c.tc : Thread nD τ).loc main_arg5) i) :=
  (decode h c).2.2.2.1

theorem real_arg6 (h : Cert.Pre_KernelIdeal m) (c : Dev nD) : ∀ i, IsReal (m ((c.tc : Thread nD τ).loc main_arg6) i) :=
  (decode h c).2.2.2.2.1

theorem real_arg7 (h : Cert.Pre_KernelIdeal m) (c : Dev nD) : ∀ i, IsReal (m ((c.tc : Thread nD τ).loc main_arg7) i) :=
  (decode h c).2.2.2.2.2.1

theorem idx_arg2 (h : Cert.Pre_KernelIdeal m) (c : Dev nD) :
    ∀ i, 0 ≤ (m ((c.tc : Thread nD τ).loc main_arg2) i).toInt ∧ (m ((c.tc : Thread nD τ).loc main_arg2) i).toInt < 200 :=
  (decode h c).2.2.2.2.2.2.2.2.2.2.2.2.1

theorem idx_arg3 (h : Cert.Pre_KernelIdeal m) (c : Dev nD) :
    ∀ i, 0 ≤ (m ((c.tc : Thread nD τ).loc main_arg3) i).toInt ∧ (m ((c.tc : Thread nD τ).loc main_arg3) i).toInt < 200 :=
  (decode h c).2.2.2.2.2.2.2.2.2.2.2.2.2

end AtMemory

end Cert.KernelIdeal.PreFacts

end
-- ==== Proof.Bridge.Main.lean ====
import proofs.«406476_j70849780514835_3_alg».proof.Proof.KI.Run
import proofs.«406476_j70849780514835_3_alg».proof.Proof.KV.Host
import proofs.«406476_j70849780514835_3_alg».proof.Proof.KV.R0Value
import proofs.«406476_j70849780514835_3_alg».proof.Proof.KV.R1Value
import proofs.«406476_j70849780514835_3_alg».proof.Proof.Bridge.Layer
import proofs.«406476_j70849780514835_3_alg».proof.Proof.Pre
import proofs.«406476_j70849780514835_3_alg».proof.Proof.RefRun

/-! Layer by layer, and then through the dense head, the two programs' results are one function of the arguments. -/

noncomputable section

namespace Cert.Bridge

open Idealize.ShloMosaic Idealize.ShloMosaic.TcCoe Idealize.ShloMosaic.ValueIdx Idealize.SL.Sem Cert.Math Cert.ERealBN
open Cert.KernelIdeal Cert.KernelIdeal.Gen Cert.KernelIdeal.Hand Cert.KernelIdeal.Val

section Same

variable {F : FTy → Type} [FloatOps F]

open Cert.ReferenceIdeal.ReadP in

theorem second_sample (x1 : FVec F S200x8192 .f32) (x3 : IVec S2x3200 32) (x5 : FVec F S3200 .f32)
    (x6 : FVec F S3x8192x4096 .f32) (x7 : FVec F S4096 .f32) (x8 : FVec F S3x4096x4096 .f32) (x9 : FVec F S4096 .f32) :
    val_main_v295 (F := F) x1 x3 x5 x6 x7 x8 x9 = val_main_v147 (F := F) x1 x3 x5 x6 x7 x8 x9 := rfl

end Same

section Result

variable (m : (ℓ : Loc nD τ sig) → Buf (Elt Ideal) ℓ) (c : Dev nD)

abbrev L1 : FVec Ideal S200x200 .f32 :=
  kLhat (m ((c.tc : Thread nD τ).loc main_arg2)) (m ((c.tc : Thread nD τ).loc main_arg4))

abbrev L2 : FVec Ideal S200x200 .f32 :=
  kLhat (m ((c.tc : Thread nD τ).loc main_arg3)) (m ((c.tc : Thread nD τ).loc main_arg5))

abbrev hid : FVec Ideal S400x4096 .f32 :=
  layerOut0 (kTcat1 (L1 m c) (L2 m c) (m ((c.tc : Thread nD τ).loc main_arg0)) (m ((c.tc : Thread nD τ).loc main_arg1)))
    (kW1 (m ((c.tc : Thread nD τ).loc main_arg6))) (kBias (m ((c.tc : Thread nD τ).loc main_arg7)))

abbrev prod : FVec Ideal S200x4096 .f32 :=
  layerOut1 (kTcat2 (L1 m c) (L2 m c) (hid m c)) (kW2 (m ((c.tc : Thread nD τ).loc main_arg8)))
    (kBias (m ((c.tc : Thread nD τ).loc main_arg9)))

theorem kres_eq : Gen.V15 m (outsK m) c main_v147
    = kTail (prod m c) (m ((c.tc : Thread nD τ).loc main_arg10)) (m ((c.tc : Thread nD τ).loc main_arg11))
        (m ((c.tc : Thread nD τ).loc main_arg12)) (m ((c.tc : Thread nD τ).loc main_arg13)) := by
  rw [V15_v147, outsK_12, out1_eq, V11_v134, V11_v135, V11_v136, outsK_10, out0_eq, V9_v110, V9_v111, V9_v112]

theorem tail_same (p : FVec Ideal S200x4096 .f32) (w1 : FVec Ideal S200x100 .f32) (b1 : FVec Ideal S100 .f32)
    (w2 : FVec Ideal S100x1 .f32) (b2 : FVec Ideal S1 .f32) : kTail p w1 b1 w2 b2 = tailR p w1 b1 w2 b2 := rfl

variable (hpre : Cert.Pre_KernelIdeal m)

include hpre

open Cert.KernelIdeal.PreFacts in

theorem result_eq : Gen.V15 m (outsK m) c main_v147
    = Cert.ReferenceIdeal.ReadP.val_main_v306 (F := Ideal)
        (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) (m ((c.tc : Thread nD τ).loc main_arg11))
        (m ((c.tc : Thread nD τ).loc main_arg12)) (m ((c.tc : Thread nD τ).loc main_arg13)) := by
  rw [kres_eq, ref_tail, tail_same]
  refine congrArg (fun p => tailR p _ _ _ _) (funext fun i => ?_)
  obtain ⟨r, q, rfl⟩ : ∃ (r : Fin 200) (q : Fin 4096), i = ix2 r q := ⟨i 0, i 1, eq_ix2 i⟩
  rw [ref_prod_apply, second_sample]
  exact layer2 _ _ _ _ _ _ _ _ _ _ (hid m c)
    (fun r q => layer1_lo _ _ _ _ _ _ _ _ (idx_arg2 hpre c) (real_arg4 hpre c) (real_arg0 hpre c) r q)
    (fun r q => layer1_hi _ _ _ _ _ _ _ _ (idx_arg3 hpre c) (real_arg5 hpre c) (real_arg1 hpre c) r q)
    (idx_arg2 hpre c) (real_arg4 hpre c) (idx_arg3 hpre c) (real_arg5 hpre c)
    (h_real _ _ (idx_arg2 hpre c) (real_arg4 hpre c) _ (real_arg0 hpre c) _ (real_arg6 hpre c) _ (real_arg7 hpre c))
    (h_real _ _ (idx_arg3 hpre c) (real_arg5 hpre c) _ (real_arg1 hpre c) _ (real_arg6 hpre c) _ (real_arg7 hpre c))
    r q

end Result

theorem algebraic : Cert.algebraic_KernelIdeal_ReferenceIdeal := by
  intro m ρ m' ρ' hpre hagree
  refine ⟨fun c => Gen.V15 m (outsK m) c main_v147, Cert.KernelIdeal.Hand.run_result (F := Ideal) m ρ, ?_⟩
  refine (θ_run Cert.ReferenceIdeal.defs _ _).mono (fun _ h c => ⟨(h c).1.trans ?_, (h c).2⟩)
    (Cert.RefRun.run (F := Ideal) m' ρ')
  obtain ⟨e0, e1, e2, e3, e4, e5, e6, e7, e8, e9, e10, e11, e12, e13⟩ := hagree c
  rw [e0, e1, e2, e3, e4, e5, e6, e7, e8, e9, e10, e11, e12, e13]
  exact (result_eq m c hpre).symm

end Cert.Bridge

end
-- ==== Proof.lean ====
/- Two Chebyshev graph-convolution layers of order three on each of two graphs, the entrywise product of the two
   outputs, and a dense head. With L the negated, degree-normalised weighted adjacency, a layer is
   max((T0·W0 + T1·W1) + T2·W2 + b, 0) where T0 = x, T1 = L x, T2 = 2 L T1 − x. One program applies L as a dense matrix
   and contracts [T0 | T1 | T2] against [W0 ; W1 ; W2] block by block; the other applies L edge by edge and adds the three
   products. On finite inputs whose node words lie in [0, 200) every intermediate value is a real number, a product then
   distributes over the edge sum, and a sum over a concatenated or blocked axis is the sum of the parts' sums. -/
import proofs.«406476_j70849780514835_3_alg».proof.Defs
import proofs.«406476_j70849780514835_3_alg».proof.Proof.Gen.Kernel
import proofs.«406476_j70849780514835_3_alg».proof.Proof.Gen.KernelIdeal
import proofs.«406476_j70849780514835_3_alg».proof.Proof.Gen.ReferenceIdeal
import proofs.«406476_j70849780514835_3_alg».proof.Proof.Gen.Pre_finite_inputs
import proofs.«406476_j70849780514835_3_alg».proof.Proof.K.Run
import proofs.«406476_j70849780514835_3_alg».proof.Proof.KI.Run
import proofs.«406476_j70849780514835_3_alg».proof.Proof.RefRun
import proofs.«406476_j70849780514835_3_alg».proof.Proof.Bridge.Main

noncomputable section

namespace Cert.Proof

open Idealize.ShloMosaic Idealize.SL.Sem

theorem frame_kernel : Cert.frame_Kernel := fun m ρ _ => Cert.Kernel.Hand.frame (F := Bits) m ρ

theorem frame_kernelIdeal : Cert.frame_KernelIdeal := fun m ρ _ => Cert.KernelIdeal.Hand.frame (F := Ideal) m ρ

theorem frame_referenceIdeal : Cert.frame_ReferenceIdeal := fun m ρ _ =>
  (θ_run Cert.ReferenceIdeal.defs _ _).mono (fun _ h c => (h c).2) (Cert.RefRun.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Bridge.algebraic⟩

end Cert.Proof

end
